-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S128 .f32) (main_arg16 : FVec F S128x1 .f32) (main_arg17 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg16
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg14
  let main_cst_18 : FVec F S_ .f32 := constant S_ .f32 0x7F800000#32
  let main_v50 : FVec F S256x128 .f32 := broadcastInDim S256x128 ![] bcast_S_S256x128 main_cst_18
  fn_part3 (F := F) main_arg15 main_arg16 main_arg17 main_v48 main_v49 main_v50

def fn_part1 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S50000x128 .f32) (main_arg1 : IVec S2x800000 32) (main_arg2 : IVec S50000 32) (main_arg3 : FVec F S50000x128 .f32) (main_arg4 : IVec S2x800000 32) (main_arg5 : IVec S50000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S50048x128 : Shape := ⟨2, ![50048, 128]⟩
abbrev S50048 : Shape := ⟨1, ![50048]⟩
abbrev S1x50048 : Shape := ⟨2, ![1, 50048]⟩
abbrev S64x128 : Shape := ⟨2, ![64, 128]⟩
abbrev S1x2944 : Shape := ⟨2, ![1, 2944]⟩
abbrev S2944x128 : Shape := ⟨2, ![2944, 128]⟩
abbrev S64x1 : Shape := ⟨2, ![64, 1]⟩
abbrev S64x2944 : Shape := ⟨2, ![64, 2944]⟩
abbrev S64 : Shape := ⟨1, ![64]⟩
abbrev S64x256 : Shape := ⟨2, ![64, 256]⟩
abbrev S1x1 : Shape := ⟨2, ![1, 1]⟩

abbrev nBuf : Space → Nat
  | .hbm => 176
  | .vmem => 72
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000x128, .f32⟩
  | 4 => ⟨S2x800000, .i32⟩
  | 5 => ⟨S50000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S256x128, .f32⟩
  | 15 => ⟨S128, .f32⟩
  | 16 => ⟨S128x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S_, .f32⟩
  | 33 => ⟨S800000, .f32⟩
  | 34 => ⟨S50000, .f32⟩
  | 35 => ⟨S_, .f32⟩
  | 36 => ⟨S50000, .f32⟩
  | 37 => ⟨S50000, .f32⟩
  | 38 => ⟨S50000, .f32⟩
  | 39 => ⟨S50000x1, .f32⟩
  | 40 => ⟨S50000x128, .bf16⟩
  | 41 => ⟨S_, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .bf16⟩
  | 52 => ⟨S800000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S50000x128, .f32⟩
  | 62 => ⟨S1x128, .f32⟩
  | 63 => ⟨S50000x128, .bf16⟩
  | 64 => ⟨S_, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .bf16⟩
  | 75 => ⟨S800000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S50000x128, .f32⟩
  | 85 => ⟨S1x128, .f32⟩
  | 86 => ⟨S50000x128, .f32⟩
  | 87 => ⟨S_, .i32⟩
  | 88 => ⟨S_, .f32⟩
  | 89 => ⟨S50048x128, .f32⟩
  | 90 => ⟨S_, .i32⟩
  | 91 => ⟨S_, .i32⟩
  | 92 => ⟨S50048, .i32⟩
  | 93 => ⟨S1x50048, .i32⟩
  | 94 => ⟨S64x128, .f32⟩
  | 95 => ⟨S1x800000, .i32⟩
  | 96 => ⟨S800000, .i32⟩
  | 97 => ⟨S1x800000, .i32⟩
  | 98 => ⟨S800000, .i32⟩
  | 99 => ⟨S_, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S_, .f32⟩
  | 110 => ⟨S800000, .f32⟩
  | 111 => ⟨S50000, .f32⟩
  | 112 => ⟨S_, .f32⟩
  | 113 => ⟨S50000, .f32⟩
  | 114 => ⟨S50000, .f32⟩
  | 115 => ⟨S50000, .f32⟩
  | 116 => ⟨S50000x1, .f32⟩
  | 117 => ⟨S50000x128, .bf16⟩
  | 118 => ⟨S_, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .bf16⟩
  | 1 => ⟨S800000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S50000x128, .f32⟩
  | 11 => ⟨S1x128, .f32⟩
  | 12 => ⟨S50000x128, .bf16⟩
  | 13 => ⟨S_, .f32⟩
  | 14 => ⟨S50000x128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .bf16⟩
  | 24 => ⟨S800000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S50000x128, .f32⟩
  | 34 => ⟨S1x128, .f32⟩
  | 35 => ⟨S50000x128, .f32⟩
  | 36 => ⟨S_, .i32⟩
  | 37 => ⟨S_, .f32⟩
  | 38 => ⟨S50048x128, .f32⟩
  | 39 => ⟨S_, .i32⟩
  | 40 => ⟨S_, .i32⟩
  | 41 => ⟨S50048, .i32⟩
  | 42 => ⟨S1x50048, .i32⟩
  | 43 => ⟨S64x128, .f32⟩
  | 44 => ⟨S64x256, .f32⟩
  | 45 => ⟨S1x128, .f32⟩
  | 46 => ⟨S1x1, .f32⟩
  | 47 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S128x128, .f32⟩
  | .local _ .vmem, ⟨15, _⟩ => ⟨S2000x128, .bf16⟩
  | .local _ .vmem, ⟨16, _⟩ => ⟨S2000x128, .bf16⟩
  | .local _ .vmem, ⟨17, _⟩ => ⟨S2000x128, .f32⟩
  | .local _ .vmem, ⟨18, _⟩ => ⟨S2000x128, .f32⟩
  | .local _ .vmem, ⟨19, _⟩ => ⟨S2000x128, .bf16⟩
  | .local _ .vmem, ⟨20, _⟩ => ⟨S2000x128, .bf16⟩
  | .local _ .vmem, ⟨21, _⟩ => ⟨S2000x1, .f32⟩
  | .local _ .vmem, ⟨22, _⟩ => ⟨S2000x1, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S1x2944, .i32⟩
  | .local _ .vmem, ⟨27, _⟩ => ⟨S1x2944, .i32⟩
  | .local _ .vmem, ⟨28, _⟩ => ⟨S2944x128, .f32⟩
  | .local _ .vmem, ⟨29, _⟩ => ⟨S2944x128, .f32⟩
  | .local _ .vmem, ⟨30, _⟩ => ⟨S64x128, .f32⟩
  | .local _ .vmem, ⟨31, _⟩ => ⟨S64x128, .f32⟩
  | .local _ .vmem, ⟨32, _⟩ => ⟨S64x1, .f32⟩
  | .local _ .vmem, ⟨33, _⟩ => ⟨S2000x128, .f32⟩
  | .local _ .vmem, ⟨34, _⟩ => ⟨S2000x128, .f32⟩
  | .local _ .vmem, ⟨35, _⟩ => ⟨S128x128, .f32⟩
  | .local _ .vmem, ⟨36, _⟩ => ⟨S2000x1, .f32⟩
  | .local _ .vmem, ⟨37, _⟩ => ⟨S2000x1, .f32⟩
  | .local _ .vmem, ⟨38, _⟩ => ⟨S2000x128, .bf16⟩
  | .local _ .vmem, ⟨39, _⟩ => ⟨S2000x128, .bf16⟩
  | .local _ .vmem, ⟨40, _⟩ => ⟨S2000x128, .f32⟩
  | .local _ .vmem, ⟨41, _⟩ => ⟨S2000x128, .f32⟩
  | .local _ .vmem, ⟨42, _⟩ => ⟨S2000x128, .bf16⟩
  | .local _ .vmem, ⟨43, _⟩ => ⟨S2000x128, .bf16⟩
  | .local _ .vmem, ⟨44, _⟩ => ⟨S2000x1, .f32⟩
  | .local _ .vmem, ⟨45, _⟩ => ⟨S2000x1, .f32⟩
  | .local _ .vmem, ⟨46, _⟩ => ⟨S1x128, .f32⟩
  | .local _ .vmem, ⟨47, _⟩ => ⟨S128x128, .f32⟩
  | .local _ .vmem, ⟨48, _⟩ => ⟨S2000x128, .bf16⟩
  | .local _ .vmem, ⟨49, _⟩ => ⟨S2000x128, .bf16⟩
  | .local _ .vmem, ⟨50, _⟩ => ⟨S2000x128, .f32⟩
  | .local _ .vmem, ⟨51, _⟩ => ⟨S2000x128, .f32⟩
  | .local _ .vmem, ⟨52, _⟩ => ⟨S2000x128, .bf16⟩
  | .local _ .vmem, ⟨53, _⟩ => ⟨S2000x128, .bf16⟩
  | .local _ .vmem, ⟨54, _⟩ => ⟨S2000x1, .f32⟩
  | .local _ .vmem, ⟨55, _⟩ => ⟨S2000x1, .f32⟩
  | .local _ .vmem, ⟨56, _⟩ => ⟨S1x128, .f32⟩
  | .local _ .vmem, ⟨57, _⟩ => ⟨S2000x128, .f32⟩
  | .local _ .vmem, ⟨58, _⟩ => ⟨S2000x128, .f32⟩
  | .local _ .vmem, ⟨59, _⟩ => ⟨S1x2944, .i32⟩
  | .local _ .vmem, ⟨60, _⟩ => ⟨S1x2944, .i32⟩
  | .local _ .vmem, ⟨61, _⟩ => ⟨S2944x128, .f32⟩
  | .local _ .vmem, ⟨62, _⟩ => ⟨S2944x128, .f32⟩
  | .local _ .vmem, ⟨63, _⟩ => ⟨S64x128, .f32⟩
  | .local _ .vmem, ⟨64, _⟩ => ⟨S64x128, .f32⟩
  | .local _ .vmem, ⟨65, _⟩ => ⟨S64x1, .f32⟩
  | .local _ .vmem, ⟨66, _⟩ => ⟨S64x256, .f32⟩
  | .local _ .vmem, ⟨67, _⟩ => ⟨S256x128, .f32⟩
  | .local _ .vmem, ⟨68, _⟩ => ⟨S1x128, .f32⟩
  | .local _ .vmem, ⟨69, _⟩ => ⟨S128x1, .f32⟩
  | .local _ .vmem, ⟨70, _⟩ => ⟨S1x1, .f32⟩
  | .local _ .vmem, ⟨71, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_v38 : Ref sig .tc := ⟨.hbm, 68, rfl⟩
abbrev main_c_10 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_13 : Ref sig .tc := ⟨.hbm, 87, rfl⟩
abbrev main_call0_v0 : Ref sig .tc := ⟨.hbm, 88, rfl⟩
abbrev main_v54 : Ref sig .tc := ⟨.hbm, 89, rfl⟩
abbrev main_c_14 : Ref sig .tc := ⟨.hbm, 90, rfl⟩
abbrev main_call1_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_15 : Ref sig .tc := ⟨.hbm, 99, rfl⟩
abbrev main_v62 : Ref sig .tc := ⟨.hbm, 100, rfl⟩
abbrev main_c_16 : Ref sig .tc := ⟨.hbm, 101, rfl⟩
abbrev main_v63 : Ref sig .tc := ⟨.hbm, 102, rfl⟩
abbrev main_v64 : Ref sig .tc := ⟨.hbm, 103, rfl⟩
abbrev main_c_17 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_18 : Ref sig .tc := ⟨.hbm, 109, rfl⟩
abbrev main_v69 : Ref sig .tc := ⟨.hbm, 110, rfl⟩
abbrev main_v70 : Ref sig .tc := ⟨.hbm, 111, rfl⟩
abbrev main_cst_19 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_20 : Ref sig .tc := ⟨.hbm, 118, rfl⟩
abbrev main_v76 : Ref sig .tc := ⟨.hbm, 119, rfl⟩
abbrev main_c_21 : Ref sig .tc := ⟨.hbm, 120, rfl⟩
abbrev main_v77 : Ref sig .tc := ⟨.hbm, 121, rfl⟩
abbrev main_v78 : Ref sig .tc := ⟨.hbm, 122, rfl⟩
abbrev main_c_22 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_23 : Ref sig .tc := ⟨.hbm, 130, rfl⟩
abbrev main_v85 : Ref sig .tc := ⟨.hbm, 131, rfl⟩
abbrev main_v86 : Ref sig .tc := ⟨.hbm, 132, rfl⟩
abbrev main_c_24 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_25 : Ref sig .tc := ⟨.hbm, 141, rfl⟩
abbrev main_v94 : Ref sig .tc := ⟨.hbm, 142, rfl⟩
abbrev main_c_26 : Ref sig .tc := ⟨.hbm, 143, rfl⟩
abbrev main_v95 : Ref sig .tc := ⟨.hbm, 144, rfl⟩
abbrev main_v96 : Ref sig .tc := ⟨.hbm, 145, rfl⟩
abbrev main_c_27 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_28 : Ref sig .tc := ⟨.hbm, 153, rfl⟩
abbrev main_v103 : Ref sig .tc := ⟨.hbm, 154, rfl⟩
abbrev main_v104 : Ref sig .tc := ⟨.hbm, 155, rfl⟩
abbrev main_c_29 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_c_30 : Ref sig .tc := ⟨.hbm, 164, rfl⟩
abbrev main_call2_v0 : Ref sig .tc := ⟨.hbm, 165, rfl⟩
abbrev main_v112 : Ref sig .tc := ⟨.hbm, 166, rfl⟩
abbrev main_c_31 : Ref sig .tc := ⟨.hbm, 167, rfl⟩
abbrev main_call3_v0 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_scratch0 : Ref sig .tc := ⟨.vmem, 31, rfl⟩
abbrev cc3_scratch1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg4_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_scratch0 : Ref sig .tc := ⟨.vmem, 64, rfl⟩
abbrev cc7_scratch1 : Ref sig .tc := ⟨.vmem, 65, rfl⟩
abbrev cc8_stg0_0 : Ref sig .tc := ⟨.vmem, 66, rfl⟩
abbrev cc8_stg1_0 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem4_0 : DmaSem sig := 55
abbrev cc6_sem4_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc8_sem0_0 : DmaSem sig := 62
abbrev cc8_sem1_0 : DmaSem sig := 63
abbrev cc8_sem2_0 : DmaSem sig := 64
abbrev cc8_sem3_0 : DmaSem sig := 65
abbrev cc8_sem4_0 : DmaSem sig := 66
abbrev cc8_sem5_0 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![17], ![false]⟩

def k3_cond2 (i : grid3.Coords) : BitVec 1 :=
  let arg0 : BitVec 32 := BitVec.ofNat 32 (i 0).val
  let c16_i32 : BitVec 32 := 16#32
  let v26 : BitVec 1 := Scalar.cmpi .eq arg0 c16_i32
  let v27 : BitVec 32 := Scalar.extui v26
  let c0_i32_13 : BitVec 32 := 0#32
  let v28 : BitVec 1 := Scalar.cmpi .ne v27 c0_i32_13
  v28

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x2944 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2944x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![17], ![false]⟩

def k7_cond2 (i : grid7.Coords) : BitVec 1 :=
  let arg0 : BitVec 32 := BitVec.ofNat 32 (i 0).val
  let c16_i32 : BitVec 32 := 16#32
  let v26 : BitVec 1 := Scalar.cmpi .eq arg0 c16_i32
  let v27 : BitVec 32 := Scalar.extui v26
  let c0_i32_13 : BitVec 32 := 0#32
  let v28 : BitVec 1 := Scalar.cmpi .ne v27 c0_i32_13
  v28

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1x2944 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2944x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  pads_S50000x128_S50048x128_0480_000 : S50000x128.Pads (![0, 0] : Fin 2 → Nat) ![48, 0] ![0, 0] S50048x128
  h_S_ : 0 < S_.numel
  pads_S50000_S50048_0480 : S50000.Pads (![0] : Fin 1 → Nat) ![48] ![0] S50048
  shapeCasts_S50048_S1x50048 : S50048.ShapeCasts S1x50048
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x2944_d0_w32 : S64x2944.Iotas .tc 32 [0]
  inb_S1x2944_S1x2944_0_0 : ∀ a, (![0, 0] : Fin 2 → Nat) a + S1x2944.size a ≤ S1x2944.size a
  h_S1x2944 : 0 < S1x2944.numel
  shapeCasts_S1x2944_S1x2944 : S1x2944.ShapeCasts S1x2944
  broadcasts_S1x2944_S64x2944 : S1x2944.Broadcasts S64x2944
  natLt_1_32 : 1 < 32
  inb_S2944x128_S2944x128_0_0 : ∀ a, (![0, 0] : Fin 2 → Nat) a + S2944x128.size a ≤ S2944x128.size a
  h_S2944x128 : 0 < S2944x128.numel
  shapeCasts_S2944x128_S2944x128 : S2944x128.ShapeCasts S2944x128
  reduces_S64x2944_S64 : S64x2944.Reduces [1] S64
  shapeCasts_S64_S64x1 : S64.ShapeCasts S64x1
  broadcasts_S64x1_S64x128 : S64x1.Broadcasts S64x128
  concatenates_S64x128_S64x128_S64x256_d1 : Shape.Concatenates [S64x128, S64x128] S64x256 1
  shapeCasts_S1_S1x1 : S1.ShapeCasts S1x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  broadcasts_S1x128_S64x128 : S1x128.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S64x2944_S2944x128_S64x128_1_0_0_1_n_n_wf : DotDims.WF S64x2944 S2944x128 S64x128 [1] [0] [0] [1] [] []
  dot_S64x256_S256x128_S64x128_1_0_0_1_n_n_wf : DotDims.WF S64x256 S256x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2944.size a ≤ S1x50048.size a
  hwx3_0 : ∀ i : grid3.Coords, EltTy.bits .i32 = 32 ∨ (Rect.block (s := S1x50048) S1x2944.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2944x128.size a ≤ S50048x128.size a
  hwx3_1 : ∀ i : grid3.Coords, EltTy.bits .f32 = 32 ∨ (Rect.block (s := S50048x128) S2944x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .bf16 = 32 ∨ (Rect.block (s := S50000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .bf16 = 32 ∨ (Rect.block (s := S50000x128) S2000x128.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .bf16 = 32 ∨ (Rect.block (s := S50000x128) S2000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S50000x128.size a
  hwx6_4 : ∀ i : grid6.Coords, EltTy.bits .f32 = 32 ∨ (Rect.block (s := S50000x128) S2000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x2944.size a ≤ S1x50048.size a
  hwx7_0 : ∀ i : grid7.Coords, EltTy.bits .i32 = 32 ∨ (Rect.block (s := S1x50048) S1x2944.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2944x128.size a ≤ S50048x128.size a
  hwx7_1 : ∀ i : grid7.Coords, EltTy.bits .f32 = 32 ∨ (Rect.block (s := S50048x128) S2944x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x128.size a ≤ S64x128.size a
  hwx7_2 : ∀ i : grid7.Coords, EltTy.bits .f32 = 32 ∨ (Rect.block (s := S64x128) S64x128.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x256.size a ≤ S64x256.size a
  hwx8_0 : ∀ i : grid8.Coords, EltTy.bits .f32 = 32 ∨ (Rect.block (s := S64x256) S64x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x1.size a ≤ S128x1.size a
  hwx8_3 : ∀ i : grid8.Coords, EltTy.bits .f32 = 32 ∨ (Rect.block (s := S128x1) S128x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x1.size a ≤ S64x1.size a
  hwx8_5 : ∀ i : grid8.Coords, EltTy.bits .f32 = 32 ∨ (Rect.block (s := S64x1) S64x1.size (cc8_transform_5 i) (hinb8_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S64x2944_S2944x128_S64x128_1_0_0_1_n_n : DotDims S64x2944 S2944x128 S64x128 where
  lhsContracting := [1]
  rhsContracting := [0]
  lhsNonContracting := [0]
  rhsNonContracting := [1]
  lhsBatch := []
  rhsBatch := []
  wf := dot_S64x2944_S2944x128_S64x128_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v56) S1x2944.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2944x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg3) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v91) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v109) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v110) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v114) S1x2944.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v112) S2944x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v115) S64x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v116) S64x256.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg14) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v117) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg16) S128x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v119) S64x1.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S1x1 : Shape := ⟨2, ![1, 1]⟩

abbrev nBuf : Space → Nat
  | .hbm => 382
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000x128, .f32⟩
  | 4 => ⟨S2x800000, .i32⟩
  | 5 => ⟨S50000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S256x128, .f32⟩
  | 15 => ⟨S128, .f32⟩
  | 16 => ⟨S128x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S50000x128, .f32⟩
  | 23 => ⟨S_, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S_, .f32⟩
  | 34 => ⟨S800000, .f32⟩
  | 35 => ⟨S50000, .f32⟩
  | 36 => ⟨S_, .f32⟩
  | 37 => ⟨S50000, .f32⟩
  | 38 => ⟨S50000, .f32⟩
  | 39 => ⟨S50000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S_, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S50000x128, .f32⟩
  | 82 => ⟨S_, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S_, .f32⟩
  | 94 => ⟨S50000x128, .f32⟩
  | 95 => ⟨S50000x128, .i1⟩
  | 96 => ⟨S_, .f32⟩
  | 97 => ⟨S50000x128, .f32⟩
  | 98 => ⟨S50000x128, .f32⟩
  | 99 => ⟨S50000x128, .f32⟩
  | 100 => ⟨S50000x128, .f32⟩
  | 101 => ⟨S_, .f32⟩
  | 102 => ⟨S50000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S_, .f32⟩
  | 112 => ⟨S800000, .f32⟩
  | 113 => ⟨S50000, .f32⟩
  | 114 => ⟨S_, .f32⟩
  | 115 => ⟨S50000, .f32⟩
  | 116 => ⟨S50000, .f32⟩
  | 117 => ⟨S50000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S_, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S50000x128, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S_, .f32⟩
  | 44 => ⟨S50000x128, .f32⟩
  | 45 => ⟨S50000x128, .i1⟩
  | 46 => ⟨S_, .f32⟩
  | 47 => ⟨S50000x128, .f32⟩
  | 48 => ⟨S50000x128, .f32⟩
  | 49 => ⟨S50000x128, .f32⟩
  | 50 => ⟨S_, .f32⟩
  | 51 => ⟨S64x128, .f32⟩
  | 52 => ⟨S50000x1, .i32⟩
  | 53 => ⟨S64x128, .f32⟩
  | 54 => ⟨S_, .f32⟩
  | 55 => ⟨S50000, .f32⟩
  | 56 => ⟨S_, .f32⟩
  | 57 => ⟨S64, .f32⟩
  | 58 => ⟨S50000x1, .i32⟩
  | 59 => ⟨S64, .f32⟩
  | 60 => ⟨S_, .f32⟩
  | 61 => ⟨S64, .f32⟩
  | 62 => ⟨S64, .f32⟩
  | 63 => ⟨S64x1, .f32⟩
  | 64 => ⟨S64x128, .f32⟩
  | 65 => ⟨S64x128, .f32⟩
  | 66 => ⟨S1x800000, .i32⟩
  | 67 => ⟨S800000, .i32⟩
  | 68 => ⟨S1x800000, .i32⟩
  | 69 => ⟨S800000, .i32⟩
  | 70 => ⟨S50000x128, .f32⟩
  | 71 => ⟨S_, .f32⟩
  | 72 => ⟨S50000, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S_, .f32⟩
  | 82 => ⟨S800000, .f32⟩
  | 83 => ⟨S50000, .f32⟩
  | 84 => ⟨S_, .f32⟩
  | 85 => ⟨S50000, .f32⟩
  | 86 => ⟨S50000, .f32⟩
  | 87 => ⟨S50000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S_, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S800000x1, .f32⟩
  | 119 => ⟨S800000x128, .f32⟩
  | 120 => ⟨S800000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_2 (i : Nat) : BufTy := match i % 128 with
  | 0 => ⟨S800000x1, .i32⟩
  | 1 => ⟨S50000x128, .f32⟩
  | 2 => ⟨S_, .f32⟩
  | 3 => ⟨S50000, .f32⟩
  | 4 => ⟨S50000, .f32⟩
  | 5 => ⟨S50000x1, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S_, .f32⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x128, .f32⟩
  | 20 => ⟨S50000x128, .f32⟩
  | 21 => ⟨S_, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S_, .f32⟩
  | 32 => ⟨S800000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S50000x128, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S_, .f32⟩
  | 92 => ⟨S50000x128, .f32⟩
  | 93 => ⟨S50000x128, .i1⟩
  | 94 => ⟨S_, .f32⟩
  | 95 => ⟨S50000x128, .f32⟩
  | 96 => ⟨S50000x128, .f32⟩
  | 97 => ⟨S50000x128, .f32⟩
  | 98 => ⟨S_, .f32⟩
  | 99 => ⟨S64x128, .f32⟩
  | 100 => ⟨S50000x1, .i32⟩
  | 101 => ⟨S64x128, .f32⟩
  | 102 => ⟨S_, .f32⟩
  | 103 => ⟨S50000, .f32⟩
  | 104 => ⟨S_, .f32⟩
  | 105 => ⟨S64, .f32⟩
  | 106 => ⟨S50000x1, .i32⟩
  | 107 => ⟨S64, .f32⟩
  | 108 => ⟨S_, .f32⟩
  | 109 => ⟨S64, .f32⟩
  | 110 => ⟨S64, .f32⟩
  | 111 => ⟨S64x1, .f32⟩
  | 112 => ⟨S64x128, .f32⟩
  | 113 => ⟨S64x128, .f32⟩
  | 114 => ⟨S64x256, .f32⟩
  | 115 => ⟨S64x128, .f32⟩
  | 116 => ⟨S1x128, .f32⟩
  | 117 => ⟨S64x128, .f32⟩
  | 118 => ⟨S64x128, .f32⟩
  | 119 => ⟨S_, .f32⟩
  | 120 => ⟨S64x128, .f32⟩
  | 121 => ⟨S64x128, .f32⟩
  | 122 => ⟨S64x1, .f32⟩
  | 123 => ⟨S1x1, .f32⟩
  | 124 => ⟨S64x1, .f32⟩
  | 125 => ⟨S64x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_c_8 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_v59 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_c_15 : Ref sig .tc := ⟨.hbm, 103, rfl⟩
abbrev main_v62 : Ref sig .tc := ⟨.hbm, 104, rfl⟩
abbrev main_v63 : Ref sig .tc := ⟨.hbm, 105, rfl⟩
abbrev main_c_16 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_17 : Ref sig .tc := ⟨.hbm, 111, rfl⟩
abbrev main_v68 : Ref sig .tc := ⟨.hbm, 112, rfl⟩
abbrev main_v69 : Ref sig .tc := ⟨.hbm, 113, rfl⟩
abbrev main_cst_18 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_19 : Ref sig .tc := ⟨.hbm, 118, rfl⟩
abbrev main_v73 : Ref sig .tc := ⟨.hbm, 119, rfl⟩
abbrev main_v74 : Ref sig .tc := ⟨.hbm, 120, rfl⟩
abbrev main_c_20 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_21 : Ref sig .tc := ⟨.hbm, 127, rfl⟩
abbrev main_v80 : Ref sig .tc := ⟨.hbm, 128, rfl⟩
abbrev main_v81 : Ref sig .tc := ⟨.hbm, 129, rfl⟩
abbrev main_c_22 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_23 : Ref sig .tc := ⟨.hbm, 137, rfl⟩
abbrev main_v88 : Ref sig .tc := ⟨.hbm, 138, rfl⟩
abbrev main_c_24 : Ref sig .tc := ⟨.hbm, 139, rfl⟩
abbrev main_v89 : Ref sig .tc := ⟨.hbm, 140, rfl⟩
abbrev main_v90 : Ref sig .tc := ⟨.hbm, 141, rfl⟩
abbrev main_c_25 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_c_26 : Ref sig .tc := ⟨.hbm, 151, rfl⟩
abbrev main_v99 : Ref sig .tc := ⟨.hbm, 152, rfl⟩
abbrev main_v100 : Ref sig .tc := ⟨.hbm, 153, rfl⟩
abbrev main_c_27 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_28 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_29 : Ref sig .tc := ⟨.hbm, 170, rfl⟩
abbrev main_call1_cst : Ref sig .tc := ⟨.hbm, 171, rfl⟩
abbrev main_call1_v0 : Ref sig .tc := ⟨.hbm, 172, rfl⟩
abbrev main_call1_v1 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_v115 : Ref sig .tc := ⟨.hbm, 177, rfl⟩
abbrev main_cst_30 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_31 : Ref sig .tc := ⟨.hbm, 182, rfl⟩
abbrev main_v119 : Ref sig .tc := ⟨.hbm, 183, rfl⟩
abbrev main_cst_32 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_33 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_cst_34 : Ref sig .tc := ⟨.hbm, 199, rfl⟩
abbrev main_v133 : Ref sig .tc := ⟨.hbm, 200, rfl⟩
abbrev main_c_35 : Ref sig .tc := ⟨.hbm, 201, rfl⟩
abbrev main_v134 : Ref sig .tc := ⟨.hbm, 202, rfl⟩
abbrev main_v135 : Ref sig .tc := ⟨.hbm, 203, rfl⟩
abbrev main_c_36 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_cst_37 : Ref sig .tc := ⟨.hbm, 209, rfl⟩
abbrev main_v140 : Ref sig .tc := ⟨.hbm, 210, rfl⟩
abbrev main_v141 : Ref sig .tc := ⟨.hbm, 211, rfl⟩
abbrev main_cst_38 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_c_39 : Ref sig .tc := ⟨.hbm, 216, rfl⟩
abbrev main_v145 : Ref sig .tc := ⟨.hbm, 217, rfl⟩
abbrev main_v146 : Ref sig .tc := ⟨.hbm, 218, rfl⟩
abbrev main_c_40 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_c_41 : Ref sig .tc := ⟨.hbm, 225, rfl⟩
abbrev main_v152 : Ref sig .tc := ⟨.hbm, 226, rfl⟩
abbrev main_v153 : Ref sig .tc := ⟨.hbm, 227, rfl⟩
abbrev main_c_42 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_cst_43 : Ref sig .tc := ⟨.hbm, 235, rfl⟩
abbrev main_v160 : Ref sig .tc := ⟨.hbm, 236, rfl⟩
abbrev main_c_44 : Ref sig .tc := ⟨.hbm, 237, rfl⟩
abbrev main_v161 : Ref sig .tc := ⟨.hbm, 238, rfl⟩
abbrev main_v162 : Ref sig .tc := ⟨.hbm, 239, rfl⟩
abbrev main_c_45 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_c_46 : Ref sig .tc := ⟨.hbm, 249, rfl⟩
abbrev main_v171 : Ref sig .tc := ⟨.hbm, 250, rfl⟩
abbrev main_v172 : Ref sig .tc := ⟨.hbm, 251, rfl⟩
abbrev main_c_47 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_cst_48 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_cst_49 : Ref sig .tc := ⟨.hbm, 268, rfl⟩
abbrev main_call2_cst : Ref sig .tc := ⟨.hbm, 269, rfl⟩
abbrev main_call2_v0 : Ref sig .tc := ⟨.hbm, 270, rfl⟩
abbrev main_call2_v1 : Ref sig .tc := ⟨.hbm, 271, rfl⟩
abbrev main_call2_v2 : Ref sig .tc := ⟨.hbm, 272, rfl⟩
abbrev main_call2_v3 : Ref sig .tc := ⟨.hbm, 273, rfl⟩
abbrev main_call2_v4 : Ref sig .tc := ⟨.hbm, 274, rfl⟩
abbrev main_v187 : Ref sig .tc := ⟨.hbm, 275, rfl⟩
abbrev main_v188 : Ref sig .tc := ⟨.hbm, 276, rfl⟩
abbrev main_cst_50 : Ref sig .tc := ⟨.hbm, 277, rfl⟩
abbrev main_v189 : Ref sig .tc := ⟨.hbm, 278, rfl⟩
abbrev main_c_51 : Ref sig .tc := ⟨.hbm, 279, rfl⟩
abbrev main_v190 : Ref sig .tc := ⟨.hbm, 280, rfl⟩
abbrev main_v191 : Ref sig .tc := ⟨.hbm, 281, rfl⟩
abbrev main_c_52 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_cst_53 : Ref sig .tc := ⟨.hbm, 287, rfl⟩
abbrev main_v196 : Ref sig .tc := ⟨.hbm, 288, rfl⟩
abbrev main_v197 : Ref sig .tc := ⟨.hbm, 289, rfl⟩
abbrev main_cst_54 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_c_55 : Ref sig .tc := ⟨.hbm, 294, rfl⟩
abbrev main_v201 : Ref sig .tc := ⟨.hbm, 295, rfl⟩
abbrev main_v202 : Ref sig .tc := ⟨.hbm, 296, rfl⟩
abbrev main_c_56 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_c_57 : Ref sig .tc := ⟨.hbm, 303, rfl⟩
abbrev main_v208 : Ref sig .tc := ⟨.hbm, 304, rfl⟩
abbrev main_v209 : Ref sig .tc := ⟨.hbm, 305, rfl⟩
abbrev main_c_58 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_cst_59 : Ref sig .tc := ⟨.hbm, 313, rfl⟩
abbrev main_v216 : Ref sig .tc := ⟨.hbm, 314, rfl⟩
abbrev main_c_60 : Ref sig .tc := ⟨.hbm, 315, rfl⟩
abbrev main_v217 : Ref sig .tc := ⟨.hbm, 316, rfl⟩
abbrev main_v218 : Ref sig .tc := ⟨.hbm, 317, rfl⟩
abbrev main_c_61 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_c_62 : Ref sig .tc := ⟨.hbm, 327, rfl⟩
abbrev main_v227 : Ref sig .tc := ⟨.hbm, 328, rfl⟩
abbrev main_v228 : Ref sig .tc := ⟨.hbm, 329, rfl⟩
abbrev main_c_63 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_cst_64 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_cst_65 : Ref sig .tc := ⟨.hbm, 346, rfl⟩
abbrev main_call3_cst : Ref sig .tc := ⟨.hbm, 347, rfl⟩
abbrev main_call3_v0 : Ref sig .tc := ⟨.hbm, 348, rfl⟩
abbrev main_call3_v1 : Ref sig .tc := ⟨.hbm, 349, rfl⟩
abbrev main_call3_v2 : Ref sig .tc := ⟨.hbm, 350, rfl⟩
abbrev main_call3_v3 : Ref sig .tc := ⟨.hbm, 351, rfl⟩
abbrev main_call3_v4 : Ref sig .tc := ⟨.hbm, 352, rfl⟩
abbrev main_v243 : Ref sig .tc := ⟨.hbm, 353, rfl⟩
abbrev main_cst_66 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_cst_67 : Ref sig .tc := ⟨.hbm, 358, rfl⟩
abbrev main_v247 : Ref sig .tc := ⟨.hbm, 359, rfl⟩
abbrev main_cst_68 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_cst_69 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_call4_cst : Ref sig .tc := ⟨.hbm, 375, rfl⟩
abbrev main_call4_v0 : Ref sig .tc := ⟨.hbm, 376, rfl⟩
abbrev main_v261 : Ref sig .tc := ⟨.hbm, 377, rfl⟩
abbrev main_v262 : Ref sig .tc := ⟨.hbm, 378, rfl⟩
abbrev main_v263 : Ref sig .tc := ⟨.hbm, 379, rfl⟩
abbrev main_v264 : Ref sig .tc := ⟨.hbm, 380, rfl⟩
abbrev main_v265 : Ref sig .tc := ⟨.hbm, 381, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x128_S64x256_d1 : Shape.Concatenates [S64x128, S64x128] S64x256 1
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x256_S256x128_S64x128_1_0_0_1_n_n_wf : DotDims.WF S64x256 S256x128 S64x128 [1] [0] [0] [1] [] []
  dot_S64x128_S128x1_S64x1_1_0_0_1_n_n_wf : DotDims.WF S64x128 S128x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.RunCond.lean ====
import proofs.«403813_j11570641895563_3_alg».proof.Proof.Gen.Kernel.Regions

set_option maxRecDepth 1504

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

set_option backward.isDefEq.respectTransparency.types false in
/-- The program run over nine region records whose states chain with the host stretches': memory ends at `V26` on the unscoped references. -/
theorem run_cond (ρ : Dev nD → PrngReg) (outs : Outs (F := F))
    (pdats : (p : Fin 9) → (c : Dev nD) → Dat τ (Elt F) Unit ℕ (UR sig nD τ) ℕ (cfgs p) c)
    (R0 : RegionSeg (pcfgs (F := F)) adm pdats () defs₀ 𝒱₀ L lv 0)
    (R1 : RegionSeg (pcfgs (F := F)) adm pdats () defs₀ 𝒱₀ L lv 1)
    (R2 : RegionSeg (pcfgs (F := F)) adm pdats () defs₀ 𝒱₀ L lv 2)
    (R3 : RegionSeg (pcfgs (F := F)) adm pdats () defs₀ 𝒱₀ L lv 3)
    (R4 : RegionSeg (pcfgs (F := F)) adm pdats () defs₀ 𝒱₀ L lv 4)
    (R5 : RegionSeg (pcfgs (F := F)) adm pdats () defs₀ 𝒱₀ L lv 5)
    (R6 : RegionSeg (pcfgs (F := F)) adm pdats () defs₀ 𝒱₀ L lv 6)
    (R7 : RegionSeg (pcfgs (F := F)) adm pdats () defs₀ 𝒱₀ L lv 7)
    (R8 : RegionSeg (pcfgs (F := F)) adm pdats () defs₀ 𝒱₀ L lv 8)
    (hch : ∀ c, Seg.ChainsAt c (fun c => iprop(StableHlo.held (c : Thread nD τ) (Pipeline.ucRefs τ sig) (V0 m c) ∗ Rr c))
      (segs m outs 𝒱₀ L lv (fun _ c => Rr c) () pdats R0 R1 R2 R3 R4 R5 R6 R7 R8 c)
      fun c => iprop(StableHlo.held (c : Thread nD τ) (Pipeline.ucRefs τ sig) (V26 m outs c) ∗ ∃ W, owes (c : Thread nD τ) (0 : CellTallies nD τ sig Unit) W)) :
    θ_run defs (onTc (τ := τ) (main (F := F))) ⟨m, fun _ => 0, ρ⟩ (fun r => ∀ c : Dev nD,
      ∀ b ∈ Pipeline.ucRefs τ sig, r.2.mem (((c : Thread nD τ)).1, b) = V26 m outs c b) := by
  refine Pipeline.θ_run_regions_kit_dev (pcfgs (F := F)) adm pdats () cellOf_inj emb₁ defs₀ 𝒱₀ L lv m ρ main
    (segs m outs 𝒱₀ L lv (fun _ c => Rr c) () pdats R0 R1 R2 R3 R4 R5 R6 R7 R8)
    (fun c Q => by
      rewrite [main_chain c, Seg.run_eq_chain,
        show (segs m outs 𝒱₀ L lv (fun _ c => Rr c) () pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          StableHlo.seq hostOps7_3,
          StableHlo.seq hostOps7_4,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rr c))
    (Tₙ := fun c => StableHlo.held (c : Thread nD τ) (Pipeline.ucRefs τ sig) (V26 m outs c))
    (hch := hch) (hinit := Pipeline.initEach L lv fun c => ?_)
    (QY := fun c s => ∀ b ∈ Pipeline.ucRefs τ sig, s.mem (((c : Thread nD τ)).1, b) = V26 m outs c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro; exact h
    · iexact HSI

end Cert.Kernel.Gen

end
-- ==== Proof.K.R0.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

def out0_3 (x0 : Vec F S2000x128 .f32) (x1 : Vec F S128x128 .f32) (x2 : Vec F S2000x1 .f32) : Vec F S2000x128 .bf16 :=
  View.canon [⟨r0_0, k0_pay1 (View.ld x0 r0_0) (View.ld x1 r0_1) (View.ld x2 r0_2)⟩]

set_option maxHeartbeats 1000000 in
-- One store covers the whole output, so the result does not depend on what the output held before.
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  iexists _; isplitr
  swap; · iexact H3
  ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) : (dat0 V c).after 3 t = out0_3 (iblk0 V c 0 t) (iblk0 V c 1 t) (iblk0 V c 2 t) := by dsimp only [dat0]

-- For an input window the contents on entry to the body at a point are those it leaves there: the body only reads them.
theorem before0 (c : Dev nD) (w : Fin cfg0.W) (hw : (cfg0.win w).isOut = false) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  dsimp only
  iintro ⟨HΦ, Ho, ⟨%d0, H0⟩, ⟨%d1, H1⟩, ⟨%d2, H2⟩, ⟨%d3, H3⟩⟩
  rw [before0 V c 0 rfl, before0 V c 1 rfl, before0 V c 2 rfl]
  iapply (sound_kernel0 c Set.univ (grid0.coords t) _ _ _ _ _ _ _ _ _ _ _ _)
  iframe H0 H1 H2
  isplitl [H3]; · iexists _; iexact H3
  iintro ⟨H0, H1, H2, H3⟩
  dsimp only [dat0]
  iframe
  iexact Ho

end Cert.Kernel.Gen

end
-- ==== Proof.K.R1.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x1 := Rect.unit (s := S2000x1) ![0, 0] S2000x1.size inb_S2000x1_S2000x1_0_0
abbrev r1_1 : Rect S2000x128 := Rect.unit (s := S2000x128) ![0, 0] S2000x128.size inb_S2000x128_S2000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

def out1_5 (x0 : Vec F S2000x128 .f32) (x1 : Vec F S2000x128 .bf16) (x2 : Vec F S2000x1 .f32) (x3 : Vec F S1x128 .f32) (x4 : Vec F S128x128 .f32) :
    Vec F S2000x128 .bf16 :=
  View.canon [⟨r1_1, k1_pay1 (View.ld x2 r1_0) (View.ld x0 r1_1) (View.ld x1 r1_1) (View.ld x3 r1_2) (View.ld x4 r1_3)⟩]

set_option maxHeartbeats 1000000 in
-- One store covers the whole output, so the result does not depend on what the output held before.
theorem sound_kernel1 (c : Dev nD) (E : Set ℕ) (i : grid1.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .bf16) (harg6 : arg6.IsWhole)
    (x0 : Vec F S2000x128 .f32) (x1 : Vec F S2000x128 .bf16) (x2 : Vec F S2000x1 .f32) (x3 : Vec F S1x128 .f32) (x4 : Vec F S128x128 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out1_5 x0 x1 x2 x3 x4)) -∗ K ⟨⟩))
      ⊢ wp frame (wpE (defs₀ (F := F)) Variants.none c none) E (cc1__fused_combine_linear_kernel i arg1 harg1 arg2 harg2 arg3 harg3 arg4 harg4 arg5 harg5 arg6 harg6) K := by
  simp only [cc1__fused_combine_linear_kernel_eq_skeleton]; unfold cc1__fused_combine_linear_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr
  swap; · iexact H5
  ipureintro
  exact View.read_writes_eq_canon _ _ _ (View.cover_of_tiled _ S2000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

-- For an input window the contents on entry to the body at a point are those it leaves there: the body only reads them.
theorem before1 (c : Dev nD) (w : Fin cfg1.W) (hw : (cfg1.win w).isOut = false) (t : Fin cfg1.N) (d) :
    (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  dsimp only
  iintro ⟨HΦ, Ho, ⟨%d0, H0⟩, ⟨%d1, H1⟩, ⟨%d2, H2⟩, ⟨%d3, H3⟩, ⟨%d4, H4⟩, ⟨%d5, H5⟩⟩
  rw [before1 V c 0 rfl, before1 V c 1 rfl, before1 V c 2 rfl, before1 V c 3 rfl, before1 V c 4 rfl]
  iapply (sound_kernel1 c Set.univ (grid1.coords t) _ _ _ _ _ _ _ _ _ _ _ _ _ _ _ _ _ _)
  iframe H0 H1 H2 H3 H4
  isplitl [H5]; · iexists _; iexact H5
  iintro ⟨H0, H1, H2, H3, H4, H5⟩
  dsimp only [dat1]
  iframe
  iexact Ho

end Cert.Kernel.Gen

end
-- ==== Proof.K.R2.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S1x128 := Rect.unit (s := S1x128) ![0, 0] S1x128.size inb_S1x128_S1x128_0_0

def out2_4 (x0 : Vec F S2000x128 .f32) (x1 : Vec F S2000x128 .bf16) (x2 : Vec F S2000x1 .f32) (x3 : Vec F S1x128 .f32) : Vec F S2000x128 .f32 :=
  View.canon [⟨r2_0, k2_pay1 (View.ld x2 r2_1) (View.ld x0 r2_0) (View.ld x1 r2_0) (View.ld x3 r2_2)⟩]

set_option maxHeartbeats 1000000 in
-- One store covers the whole output, so the result does not depend on what the output held before.
theorem sound_kernel2 (c : Dev nD) (E : Set ℕ) (i : grid2.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .bf16) (x2 : Vec F S2000x1 .f32) (x3 : Vec F S1x128 .f32) (K : PUnit → sProp 𝕄) :
    iprop(owns c arg1 fullShare x0 ∗ owns c arg2 fullShare x1 ∗ owns c arg3 fullShare x2 ∗ owns c arg4 fullShare x3 ∗ (∃ d, owns c arg5 fullShare d)
        ∗ (iprop(owns c arg1 fullShare x0 ∗ owns c arg2 fullShare x1 ∗ owns c arg3 fullShare x2 ∗ owns c arg4 fullShare x3 ∗ owns c arg5 fullShare (out2_4 x0 x1 x2 x3)) -∗ K ⟨⟩))
      ⊢ wp frame (wpE (defs₀ (F := F)) Variants.none c none) E (cc2__combine_final_kernel i arg1 harg1 arg2 harg2 arg3 harg3 arg4 harg4 arg5 harg5) K := by
  simp only [cc2__combine_final_kernel_eq_skeleton]; unfold cc2__combine_final_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  iexists _; isplitr
  swap; · iexact H4
  ipureintro
  exact View.read_writes_eq_canon _ _ _ (View.cover_of_tiled _ S2000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem after2_4 (c : Dev nD) (t : Fin cfg2.N) : (dat2 V c).after 4 t = out2_4 (iblk2 V c 0 t) (iblk2 V c 1 t) (iblk2 V c 2 t) (iblk2 V c 3 t) := by dsimp only [dat2]

-- For an input window the contents on entry to the body at a point are those it leaves there: the body only reads them.
theorem before2 (c : Dev nD) (w : Fin cfg2.W) (hw : (cfg2.win w).isOut = false) (t : Fin cfg2.N) (d) :
    (dat2 V c).before w t d = (dat2 V c).after w t := by
  fin_cases w <;> first
    | exact absurd hw (by decide)
    | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  dsimp only
  iintro ⟨HΦ, Ho, ⟨%d0, H0⟩, ⟨%d1, H1⟩, ⟨%d2, H2⟩, ⟨%d3, H3⟩, ⟨%d4, H4⟩⟩
  rw [before2 V c 0 rfl, before2 V c 1 rfl, before2 V c 2 rfl, before2 V c 3 rfl]
  iapply (sound_kernel2 c Set.univ (grid2.coords t) _ _ _ _ _ _ _ _ _ _ _ _ _ _ _)
  iframe H0 H1 H2 H3
  isplitl [H4]; · iexists _; iexact H4
  iintro ⟨H0, H1, H2, H3, H4⟩
  dsimp only [dat2]
  iframe
  iexact Ho

end Cert.Kernel.Gen

end
-- ==== Proof.K.R3Runs.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

-- Every point is the first, a middle or the last one.
theorem hcond3 : ∀ t : Fin cfg3.N,
    cond3_0 (grid3.coords t) ∧ ¬cond3_1 (grid3.coords t) ∧ t.val = 0 ∧ cfg3.idle 2 (grid3.coords t) = true ∧ (cfg3.win 2).flush t = false
    ∨ ¬cond3_0 (grid3.coords t) ∧ ¬cond3_1 (grid3.coords t) ∧ t.val ≠ 0 ∧ cfg3.idle 2 (grid3.coords t) = true ∧ (cfg3.win 2).flush t = false
    ∨ ¬cond3_0 (grid3.coords t) ∧ cond3_1 (grid3.coords t) ∧ t.val ≠ 0 ∧ cfg3.idle 2 (grid3.coords t) = false := by decide +kernel

abbrev r3_i : Rect S1x2944 := Rect.unit (s := S1x2944) ![0, 0] S1x2944.size inb_S1x2944_S1x2944_0_0
abbrev r3_h : Rect S2944x128 := Rect.unit (s := S2944x128) ![0, 0] S2944x128.size inb_S2944x128_S2944x128_0_0
abbrev r3_a : Rect S64x128 := Rect.unit (s := S64x128) ![0, 0] S64x128.size inb_S64x128_S64x128_0_0
abbrev r3_c : Rect S64x1 := Rect.unit (s := S64x1) ![0, 0] S64x1.size inb_S64x1_S64x1_0_0

-- A single piece spanning the whole shape covers every index.
theorem cover3_a (p0 : Vec F S64x128 .f32) (y : S64x128.Idx) :
    ∃ pc ∈ ([⟨r3_a, p0⟩] : List (View.Piece (Elt F) S64x128 .f32)), y ∈ pc.1.set :=
  View.cover_of_tiled [⟨r3_a, p0⟩] S64x128.size (by rfl) y
theorem cover3_c (p0 : Vec F S64x1 .f32) (y : S64x1.Idx) :
    ∃ pc ∈ ([⟨r3_c, p0⟩] : List (View.Piece (Elt F) S64x1 .f32)), y ∈ pc.1.set :=
  View.cover_of_tiled [⟨r3_c, p0⟩] S64x1.size (by rfl) y

def acc3_init : Vec F S64x128 .f32 := View.canon [⟨r3_a, k3_pay1 (F := F)⟩]
def cnt3_init : Vec F S64x1 .f32 := View.canon [⟨r3_c, k3_pay2 (F := F)⟩]
def acc3 (x0 : Vec F S1x2944 .i32) (x1 : Vec F S2944x128 .f32) (a : Vec F S64x128 .f32) : Vec F S64x128 .f32 :=
  View.canon [⟨r3_a, k3_pay4 (View.ld x0 r3_i) (View.ld a r3_a) (View.ld x1 r3_h)⟩]
def cnt3 (x0 : Vec F S1x2944 .i32) (n : Vec F S64x1 .f32) : Vec F S64x1 .f32 :=
  View.canon [⟨r3_c, k3_pay5 (View.ld x0 r3_i) (View.ld n r3_c)⟩]
def pool3 (a : Vec F S64x128 .f32) (n : Vec F S64x1 .f32) : Vec F S64x128 .f32 :=
  View.canon [⟨r3_a, k3_pay6 (View.ld a r3_a) (View.ld n r3_c)⟩]

-- The body's triple in its three control cases: first point (accumulators zeroed, then advanced), middle point (advanced), last point (advanced, quotient stored).
theorem sound_kernel3 {c : Dev nD} {E : Set ℕ} {i : grid3.Coords} {arg1 : Memref sig .tc .vmem S1x2944 .i32} {harg1 : arg1.IsWhole} {arg2 : Memref sig .tc .vmem S2944x128 .f32} {harg2 : arg2.IsWhole} {arg3 : Memref sig .tc .vmem S64x128 .f32} {harg3 : arg3.IsWhole} {arg4 : Memref sig .tc .vmem S64x128 .f32} {harg4 : arg4.IsWhole} {arg5 : Memref sig .tc .vmem S64x1 .f32} {harg5 : arg5.IsWhole}
    {x0 : Vec F S1x2944 .i32} {x1 : Vec F S2944x128 .f32} {xi2 xs0 X2 X3 : Vec F S64x128 .f32} {xs1 X4 : Vec F S64x1 .f32}
    (h : cond3_0 i ∧ ¬cond3_1 i ∧ X2 = xi2 ∧ X3 = acc3 x0 x1 acc3_init ∧ X4 = cnt3 x0 cnt3_init
      ∨ ¬cond3_0 i ∧ ¬cond3_1 i ∧ X2 = xi2 ∧ X3 = acc3 x0 x1 xs0 ∧ X4 = cnt3 x0 xs1
      ∨ ¬cond3_0 i ∧ cond3_1 i ∧ X2 = pool3 X3 X4 ∧ X3 = acc3 x0 x1 xs0 ∧ X4 = cnt3 x0 xs1)
    {K : PUnit → sProp 𝕄} :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare X2
            ∗ owns (c : Thread nD τ) arg4 fullShare X3 ∗ owns (c : Thread nD τ) arg5 fullShare X4) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  obtain ⟨hc0, hc1, rfl, rfl, rfl⟩ | ⟨hc0, hc1, rfl, rfl, rfl⟩ | ⟨hc0, hc1, rfl, rfl, rfl⟩ := h
  all_goals
    sl_exec (disch := first | exact hc0 | exact hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    iexists _; isplitr; swap; iexact H4
    all_goals
      ipureintro; try sl_unfold_run_names
      try simp only [View.readCov_eq_canon_ld _ _ _ (cover3_a _), View.readCov_eq_canon_ld _ _ _ (cover3_c _)]
      try first | exact View.read_writes_eq_canon _ _ _ (cover3_a _) | exact View.read_writes_eq_canon _ _ _ (cover3_c _)

end Cert.Kernel.Gen

end
-- ==== Proof.K.R3.lean ====
import proofs.«403813_j11570641895563_3_alg».proof.Proof.K.R3Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The output block and the two accumulators after each point, by recursion on the point.
def outsAt3 (c : Dev nD) : (n : ℕ) → n < cfg3.N → Vec F S64x128 .f32 × Vec F S64x128 .f32 × Vec F S64x1 .f32
  | 0, hn =>
    (pool3 (acc3 (iblk3 V c 0 ⟨0, hn⟩) (iblk3 V c 1 ⟨0, hn⟩) acc3_init) (cnt3 (iblk3 V c 0 ⟨0, hn⟩) cnt3_init),
      acc3 (iblk3 V c 0 ⟨0, hn⟩) (iblk3 V c 1 ⟨0, hn⟩) acc3_init, cnt3 (iblk3 V c 0 ⟨0, hn⟩) cnt3_init)
  | n + 1, hn =>
    (pool3 (acc3 (iblk3 V c 0 ⟨n + 1, hn⟩) (iblk3 V c 1 ⟨n + 1, hn⟩) (outsAt3 c n (Nat.lt_of_succ_lt hn)).2.1)
        (cnt3 (iblk3 V c 0 ⟨n + 1, hn⟩) (outsAt3 c n (Nat.lt_of_succ_lt hn)).2.2),
      acc3 (iblk3 V c 0 ⟨n + 1, hn⟩) (iblk3 V c 1 ⟨n + 1, hn⟩) (outsAt3 c n (Nat.lt_of_succ_lt hn)).2.1,
      cnt3 (iblk3 V c 0 ⟨n + 1, hn⟩) (outsAt3 c n (Nat.lt_of_succ_lt hn)).2.2)

theorem outsAt3_A (c : Dev nD) (t : Fin cfg3.N) (h0 : t.val = 0) :
    outsAt3 V c t.val t.isLt =
      (pool3 (acc3 (iblk3 V c 0 t) (iblk3 V c 1 t) acc3_init) (cnt3 (iblk3 V c 0 t) cnt3_init),
        acc3 (iblk3 V c 0 t) (iblk3 V c 1 t) acc3_init, cnt3 (iblk3 V c 0 t) cnt3_init) := by
  obtain ⟨_ | n, hn⟩ := t
  exacts [rfl, absurd h0 n.succ_ne_zero]

theorem outsAt3_B (c : Dev nD) (t : Fin cfg3.N) (h0 : ¬t.val = 0) :
    outsAt3 V c t.val t.isLt =
      (pool3 (acc3 (iblk3 V c 0 t) (iblk3 V c 1 t) (outsAt3 V c (t.val - 1) (Nat.lt_of_le_of_lt (Nat.sub_le _ _) t.isLt)).2.1)
          (cnt3 (iblk3 V c 0 t) (outsAt3 V c (t.val - 1) (Nat.lt_of_le_of_lt (Nat.sub_le _ _) t.isLt)).2.2),
        acc3 (iblk3 V c 0 t) (iblk3 V c 1 t) (outsAt3 V c (t.val - 1) (Nat.lt_of_le_of_lt (Nat.sub_le _ _) t.isLt)).2.1,
        cnt3 (iblk3 V c 0 t) (outsAt3 V c (t.val - 1) (Nat.lt_of_le_of_lt (Nat.sub_le _ _) t.isLt)).2.2) := by
  obtain ⟨_ | n, hn⟩ := t
  exacts [absurd rfl h0, rfl]

theorem outsAt3_fst (c : Dev nD) (n : ℕ) (hn : n < cfg3.N) :
    (outsAt3 V c n hn).1 = pool3 (outsAt3 V c n hn).2.1 (outsAt3 V c n hn).2.2 := by
  cases n <;> rfl

abbrev scM3_0 : Memref sig .tc .vmem S64x128 .f32 := Memref.whole cc3_scratch0
abbrev scM3_1 : Memref sig .tc .vmem S64x1 .f32 := Memref.whole cc3_scratch1

-- Both accumulators at named contents, beside the untouched remainder of the region's resources.
def PhiS3_at (c : Dev nD) (a : Vec F S64x128 .f32) (n : Vec F S64x1 .f32) : sProp 𝕄 :=
  iprop(iprop(iprop(owns (c : Thread nD τ) scM3_0 fullShare a ∗ owns (c : Thread nD τ) scM3_1 fullShare n)
    ∗ Pipeline.scopedRestBut spec3 c [cc3_scratch0, cc3_scratch1]) ∗ (∃ r, prngReg c r))

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut spec3 c [cc3_scratch0, cc3_scratch1]) ∗ (∃ r, prngReg c r)) := by
  unfold Pipeline.ΦA; rw [scopedRest3_split]; simp only [scM3_0, scM3_1, owns_whole]; try rfl

-- The invariant before position n: what the launch hands over, then the accumulators as the point before left them.
def PhiS3 (c : Dev nD) : (n : ℕ) → n ≤ cfg3.N → sProp 𝕄
  | 0, _ => Pipeline.ΦA spec3 c
  | n + 1, hn => PhiS3_at c (outsAt3 V c n hn).2.1 (outsAt3 V c n hn).2.2

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = PhiS3_at c (outsAt3 V c (n - 1) (by omega)).2.1 (outsAt3 V c (n - 1) (by omega)).2.2 := by
  obtain _ | n := n
  exacts [absurd rfl hz, rfl]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem after3_2 (c : Dev nD) (t : Fin cfg3.N) : (dat3 V c).after 2 t = (outsAt3 V c t.val t.isLt).1 := by dsimp only [dat3]

theorem before3 (c : Dev nD) (t : Fin cfg3.N) :
    (∀ d, (dat3 V c).before 0 t d = iblk3 V c 0 t) ∧ (∀ d, (dat3 V c).before 1 t d = iblk3 V c 1 t) := by
  refine ⟨?_, ?_⟩ <;> intro d <;>
    exact ((dat3 V c).before_in_eq_fetched _ rfl (fun _ => rfl) (fun _ _ _ => rfl) (fun _ => rfl) t d).trans rfl

-- The body at any point, by the three control cases of the kernel's triple; the framing is the same in all three.
theorem sound_body3 (c : Dev nD) (t : Fin cfg3.N) :
    iprop(PhiS3 V c t.val (Nat.le_of_lt t.isLt) ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop(PhiS3_at c (outsAt3 V c t.val t.isLt).2.1 (outsAt3 V c t.val t.isLt).2.2 ∗ (dat3 V c).owesAt () t.castSucc
        ∗ owns (c : Thread nD τ) (st3_0 t) fullShare (iblk3 V c 0 t) ∗ owns (c : Thread nD τ) (st3_1 t) fullShare (iblk3 V c 1 t)
        ∗ (dat3 V c).leavesExact 2 t)) := by
  unfold bodyAt3
  obtain ⟨b0, b1⟩ := before3 V c t
  simp only [b0, b1]
  obtain ⟨hc0, hc1, h0, hi, hf⟩ | ⟨hc0, hc1, h0, hi, hf⟩ | ⟨hc0, hc1, h0, hi⟩ := hcond3 t
  all_goals
    first
    | rw [Dat.leavesExact_idle (dat3 V c) 2 t hi hf]
    | rw [show (dat3 V c).leavesExact 2 t = owns (c : Thread nD τ) (st3_2 t) fullShare ((dat3 V c).after 2 t) from by
        unfold Dat.leavesExact; rw [hi], after3_2]
    first
    | rw [outsAt3_A V c t h0, PhiS3_zero V c _ _ h0, PhiA3_eq]
    | rw [outsAt3_B V c t h0, PhiS3_pos V c _ _ h0]
    unfold PhiS3_at
    first
    | iintro ⟨⟨⟨⟨⟨%a, HS0⟩, ⟨%k, HS1⟩⟩, Hr⟩, Hg⟩, Ho, ⟨%d0, H0⟩, ⟨%d1, H1⟩, ⟨%d2, H2⟩⟩
    | iintro ⟨⟨⟨⟨HS0, HS1⟩, Hr⟩, Hg⟩, Ho, ⟨%d0, H0⟩, ⟨%d1, H1⟩, ⟨%d2, H2⟩⟩
    first
    | iapply (sound_kernel3 (.inl ⟨hc0, hc1, rfl, rfl, rfl⟩))
    | iapply (sound_kernel3 (.inr (.inl ⟨hc0, hc1, rfl, rfl, rfl⟩)))
    | iapply (sound_kernel3 (.inr (.inr ⟨hc0, hc1, rfl, rfl, rfl⟩)))
    iframe H0 H1 H2 HS0 HS1
    iintro ⟨H0, H1, H2, HS0, HS1⟩
    iframe HS0 HS1 Hr Hg Ho H0 H1
    first | iexact H2 | (iexists _; iexact H2)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

-- After the last point the accumulators' named contents are forgotten.
theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiS3_pos V c _ _ (by decide), PhiA3_eq]
  unfold PhiS3_at
  iintro ⟨⟨⟨HS0, HS1⟩, Hr⟩, Hg⟩
  iframe Hr Hg
  isplitl [HS0] <;> iexists _ <;> iassumption

end Cert.Kernel.Gen

end
-- ==== Proof.K.R4.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S2000x1 := Rect.unit (s := S2000x1) ![0, 0] S2000x1.size inb_S2000x1_S2000x1_0_0

def out4_3 (x0 : Vec F S2000x128 .f32) (x1 : Vec F S128x128 .f32) (x2 : Vec F S2000x1 .f32) : Vec F S2000x128 .bf16 :=
  View.canon [⟨r4_0, k4_pay1 (View.ld x0 r4_0) (View.ld x1 r4_1) (View.ld x2 r4_2)⟩]

set_option maxHeartbeats 1000000 in
-- One store covers the whole output, so the result does not depend on what the output held before.
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out4_3 x0 x1 x2)) -∗ K ⟨⟩))
      ⊢ wp frame (wpE (defs₀ (F := F)) Variants.none c none) E (cc4__linear_scaled_kernel i arg1 harg1 arg2 harg2 arg3 harg3 arg4 harg4) K := by
  simp only [cc4__linear_scaled_kernel_eq_skeleton]; unfold cc4__linear_scaled_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  iexists _; isplitr
  swap; · iexact H3
  ipureintro
  exact View.read_writes_eq_canon _ _ _ (View.cover_of_tiled _ S2000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) : (dat4 V c).after 3 t = out4_3 (iblk4 V c 0 t) (iblk4 V c 1 t) (iblk4 V c 2 t) := by dsimp only [dat4]

-- For an input window the contents on entry to the body at a point are those it leaves there: the body only reads them.
theorem before4 (c : Dev nD) (w : Fin cfg4.W) (hw : (cfg4.win w).isOut = false) (t : Fin cfg4.N) (d) :
    (dat4 V c).before w t d = (dat4 V c).after w t := by
  fin_cases w <;> first
    | exact absurd hw (by decide)
    | exact ((dat4 V c).before_in_eq_fetched _ rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  show _ ⊢ wp _ _ _ (bodyAt4 t) _
  dsimp only
  iintro ⟨HΦ, Ho, ⟨%d0, H0⟩, ⟨%d1, H1⟩, ⟨%d2, H2⟩, ⟨%d3, H3⟩⟩
  rw [before4 V c 0 rfl, before4 V c 1 rfl, before4 V c 2 rfl]
  iapply (sound_kernel4 c Set.univ (grid4.coords t) _ _ _ _ _ _ _ _ _ _ _ _)
  iframe H0 H1 H2
  isplitl [H3]; · iexists _; iexact H3
  iintro ⟨H0, H1, H2, H3⟩
  dsimp only [dat4]
  iframe
  iexact Ho

end Cert.Kernel.Gen

end
-- ==== Proof.K.R5.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x1 := Rect.unit (s := S2000x1) ![0, 0] S2000x1.size inb_S2000x1_S2000x1_0_0
abbrev r5_1 : Rect S2000x128 := Rect.unit (s := S2000x128) ![0, 0] S2000x128.size inb_S2000x128_S2000x128_0_0
abbrev r5_2 : Rect S1x128 := Rect.unit (s := S1x128) ![0, 0] S1x128.size inb_S1x128_S1x128_0_0
abbrev r5_3 : Rect S128x128 := Rect.unit (s := S128x128) ![0, 0] S128x128.size inb_S128x128_S128x128_0_0

def out5_5 (x0 : Vec F S2000x128 .f32) (x1 : Vec F S2000x128 .bf16) (x2 : Vec F S2000x1 .f32) (x3 : Vec F S1x128 .f32) (x4 : Vec F S128x128 .f32) :
    Vec F S2000x128 .bf16 :=
  View.canon [⟨r5_1, k5_pay1 (View.ld x2 r5_0) (View.ld x0 r5_1) (View.ld x1 r5_1) (View.ld x3 r5_2) (View.ld x4 r5_3)⟩]

set_option maxHeartbeats 1000000 in
-- One store covers the whole output, so the result does not depend on what the output held before.
theorem sound_kernel5 (c : Dev nD) (E : Set ℕ) (i : grid5.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .bf16) (harg6 : arg6.IsWhole)
    (x0 : Vec F S2000x128 .f32) (x1 : Vec F S2000x128 .bf16) (x2 : Vec F S2000x1 .f32) (x3 : Vec F S1x128 .f32) (x4 : Vec F S128x128 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out5_5 x0 x1 x2 x3 x4)) -∗ K ⟨⟩))
      ⊢ wp frame (wpE (defs₀ (F := F)) Variants.none c none) E (cc5__fused_combine_linear_kernel i arg1 harg1 arg2 harg2 arg3 harg3 arg4 harg4 arg5 harg5 arg6 harg6) K := by
  simp only [cc5__fused_combine_linear_kernel_eq_skeleton]; unfold cc5__fused_combine_linear_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr
  swap; · iexact H5
  ipureintro
  exact View.read_writes_eq_canon _ _ _ (View.cover_of_tiled _ S2000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

-- For an input window the contents on entry to the body at a point are those it leaves there: the body only reads them.
theorem before5 (c : Dev nD) (w : Fin cfg5.W) (hw : (cfg5.win w).isOut = false) (t : Fin cfg5.N) (d) :
    (dat5 V c).before w t d = (dat5 V c).after w t := by
  fin_cases w <;> first
    | exact absurd hw (by decide)
    | exact ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp _ _ _ (bodyAt5 t) _
  dsimp only
  iintro ⟨HΦ, Ho, ⟨%d0, H0⟩, ⟨%d1, H1⟩, ⟨%d2, H2⟩, ⟨%d3, H3⟩, ⟨%d4, H4⟩, ⟨%d5, H5⟩⟩
  rw [before5 V c 0 rfl, before5 V c 1 rfl, before5 V c 2 rfl, before5 V c 3 rfl, before5 V c 4 rfl]
  iapply (sound_kernel5 c Set.univ (grid5.coords t) _ _ _ _ _ _ _ _ _ _ _ _ _ _ _ _ _ _)
  iframe H0 H1 H2 H3 H4
  isplitl [H5]; · iexists _; iexact H5
  iintro ⟨H0, H1, H2, H3, H4, H5⟩
  dsimp only [dat5]
  iframe
  iexact Ho

end Cert.Kernel.Gen

end
-- ==== Proof.K.R6.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S2000x1 := Rect.unit (s := S2000x1) ![0, 0] S2000x1.size inb_S2000x1_S2000x1_0_0
abbrev r6_2 : Rect S1x128 := Rect.unit (s := S1x128) ![0, 0] S1x128.size inb_S1x128_S1x128_0_0

def out6_4 (x0 : Vec F S2000x128 .f32) (x1 : Vec F S2000x128 .bf16) (x2 : Vec F S2000x1 .f32) (x3 : Vec F S1x128 .f32) : Vec F S2000x128 .f32 :=
  View.canon [⟨r6_0, k6_pay1 (View.ld x2 r6_1) (View.ld x0 r6_0) (View.ld x1 r6_0) (View.ld x3 r6_2)⟩]

set_option maxHeartbeats 1000000 in
-- One store covers the whole output, so the result does not depend on what the output held before.
theorem sound_kernel6 (c : Dev nD) (E : Set ℕ) (i : grid6.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .bf16) (x2 : Vec F S2000x1 .f32) (x3 : Vec F S1x128 .f32) (K : PUnit → sProp 𝕄) :
    iprop(owns c arg1 fullShare x0 ∗ owns c arg2 fullShare x1 ∗ owns c arg3 fullShare x2 ∗ owns c arg4 fullShare x3 ∗ (∃ d, owns c arg5 fullShare d)
        ∗ (iprop(owns c arg1 fullShare x0 ∗ owns c arg2 fullShare x1 ∗ owns c arg3 fullShare x2 ∗ owns c arg4 fullShare x3 ∗ owns c arg5 fullShare (out6_4 x0 x1 x2 x3)) -∗ K ⟨⟩))
      ⊢ wp frame (wpE (defs₀ (F := F)) Variants.none c none) E (cc6__combine_final_kernel i arg1 harg1 arg2 harg2 arg3 harg3 arg4 harg4 arg5 harg5) K := by
  simp only [cc6__combine_final_kernel_eq_skeleton]; unfold cc6__combine_final_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  iexists _; isplitr
  swap; · iexact H4
  ipureintro
  exact View.read_writes_eq_canon _ _ _ (View.cover_of_tiled _ S2000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem after6_4 (c : Dev nD) (t : Fin cfg6.N) : (dat6 V c).after 4 t = out6_4 (iblk6 V c 0 t) (iblk6 V c 1 t) (iblk6 V c 2 t) (iblk6 V c 3 t) := by dsimp only [dat6]

-- For an input window the contents on entry to the body at a point are those it leaves there: the body only reads them.
theorem before6 (c : Dev nD) (w : Fin cfg6.W) (hw : (cfg6.win w).isOut = false) (t : Fin cfg6.N) (d) :
    (dat6 V c).before w t d = (dat6 V c).after w t := by
  fin_cases w <;> first
    | exact absurd hw (by decide)
    | exact ((dat6 V c).before_in_eq_fetched _ rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  show _ ⊢ wp _ _ _ (bodyAt6 t) _
  dsimp only
  iintro ⟨HΦ, Ho, ⟨%d0, H0⟩, ⟨%d1, H1⟩, ⟨%d2, H2⟩, ⟨%d3, H3⟩, ⟨%d4, H4⟩⟩
  rw [before6 V c 0 rfl, before6 V c 1 rfl, before6 V c 2 rfl, before6 V c 3 rfl]
  iapply (sound_kernel6 c Set.univ (grid6.coords t) _ _ _ _ _ _ _ _ _ _ _ _ _ _ _)
  iframe H0 H1 H2 H3
  isplitl [H4]; · iexists _; iexact H4
  iintro ⟨H0, H1, H2, H3, H4⟩
  dsimp only [dat6]
  iframe
  iexact Ho

end Cert.Kernel.Gen

end
-- ==== Proof.K.R7Runs.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond7_0 (i : grid7.Coords) : Prop := (Scalar.cmpi .ne (Scalar.extui (Scalar.cmpi .eq (BitVec.ofNat 32 (i 0).val) 0#32)) 0#32) = 1#1
abbrev cond7_1 (i : grid7.Coords) : Prop := k7_cond2 i = 1#1

-- Every point is the first, a middle or the last one.
theorem hcond7 : ∀ t : Fin cfg7.N,
    cond7_0 (grid7.coords t) ∧ ¬cond7_1 (grid7.coords t) ∧ t.val = 0 ∧ cfg7.idle 2 (grid7.coords t) = true ∧ (cfg7.win 2).flush t = false
    ∨ ¬cond7_0 (grid7.coords t) ∧ ¬cond7_1 (grid7.coords t) ∧ t.val ≠ 0 ∧ cfg7.idle 2 (grid7.coords t) = true ∧ (cfg7.win 2).flush t = false
    ∨ ¬cond7_0 (grid7.coords t) ∧ cond7_1 (grid7.coords t) ∧ t.val ≠ 0 ∧ cfg7.idle 2 (grid7.coords t) = false := by decide +kernel

abbrev r7_i : Rect S1x2944 := Rect.unit (s := S1x2944) ![0, 0] S1x2944.size inb_S1x2944_S1x2944_0_0
abbrev r7_h : Rect S2944x128 := Rect.unit (s := S2944x128) ![0, 0] S2944x128.size inb_S2944x128_S2944x128_0_0
abbrev r7_a : Rect S64x128 := Rect.unit (s := S64x128) ![0, 0] S64x128.size inb_S64x128_S64x128_0_0
abbrev r7_c : Rect S64x1 := Rect.unit (s := S64x1) ![0, 0] S64x1.size inb_S64x1_S64x1_0_0

-- A single piece spanning the whole shape covers every index.
theorem cover7_a (p0 : Vec F S64x128 .f32) (y : S64x128.Idx) :
    ∃ pc ∈ ([⟨r7_a, p0⟩] : List (View.Piece (Elt F) S64x128 .f32)), y ∈ pc.1.set :=
  View.cover_of_tiled [⟨r7_a, p0⟩] S64x128.size (by rfl) y
theorem cover7_c (p0 : Vec F S64x1 .f32) (y : S64x1.Idx) :
    ∃ pc ∈ ([⟨r7_c, p0⟩] : List (View.Piece (Elt F) S64x1 .f32)), y ∈ pc.1.set :=
  View.cover_of_tiled [⟨r7_c, p0⟩] S64x1.size (by rfl) y

def acc7_init : Vec F S64x128 .f32 := View.canon [⟨r7_a, k7_pay1 (F := F)⟩]
def cnt7_init : Vec F S64x1 .f32 := View.canon [⟨r7_c, k7_pay2 (F := F)⟩]
def acc7 (x0 : Vec F S1x2944 .i32) (x1 : Vec F S2944x128 .f32) (a : Vec F S64x128 .f32) : Vec F S64x128 .f32 :=
  View.canon [⟨r7_a, k7_pay4 (View.ld x0 r7_i) (View.ld a r7_a) (View.ld x1 r7_h)⟩]
def cnt7 (x0 : Vec F S1x2944 .i32) (n : Vec F S64x1 .f32) : Vec F S64x1 .f32 :=
  View.canon [⟨r7_c, k7_pay5 (View.ld x0 r7_i) (View.ld n r7_c)⟩]
def pool7 (a : Vec F S64x128 .f32) (n : Vec F S64x1 .f32) : Vec F S64x128 .f32 :=
  View.canon [⟨r7_a, k7_pay6 (View.ld a r7_a) (View.ld n r7_c)⟩]

-- The body's triple in its three control cases: first point (accumulators zeroed, then advanced), middle point (advanced), last point (advanced, quotient stored).
theorem sound_kernel7 {c : Dev nD} {E : Set ℕ} {i : grid7.Coords} {arg1 : Memref sig .tc .vmem S1x2944 .i32} {harg1 : arg1.IsWhole} {arg2 : Memref sig .tc .vmem S2944x128 .f32} {harg2 : arg2.IsWhole} {arg3 : Memref sig .tc .vmem S64x128 .f32} {harg3 : arg3.IsWhole} {arg4 : Memref sig .tc .vmem S64x128 .f32} {harg4 : arg4.IsWhole} {arg5 : Memref sig .tc .vmem S64x1 .f32} {harg5 : arg5.IsWhole}
    {x0 : Vec F S1x2944 .i32} {x1 : Vec F S2944x128 .f32} {xi2 xs0 X2 X3 : Vec F S64x128 .f32} {xs1 X4 : Vec F S64x1 .f32}
    (h : cond7_0 i ∧ ¬cond7_1 i ∧ X2 = xi2 ∧ X3 = acc7 x0 x1 acc7_init ∧ X4 = cnt7 x0 cnt7_init
      ∨ ¬cond7_0 i ∧ ¬cond7_1 i ∧ X2 = xi2 ∧ X3 = acc7 x0 x1 xs0 ∧ X4 = cnt7 x0 xs1
      ∨ ¬cond7_0 i ∧ cond7_1 i ∧ X2 = pool7 X3 X4 ∧ X3 = acc7 x0 x1 xs0 ∧ X4 = cnt7 x0 xs1)
    {K : PUnit → sProp 𝕄} :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare X2
            ∗ owns (c : Thread nD τ) arg4 fullShare X3 ∗ owns (c : Thread nD τ) arg5 fullShare X4) -∗ K ⟨⟩))
      ⊢ wp frame (wpE (defs₀ (F := F)) Variants.none c none) E (cc7__pool_kernel i arg1 harg1 arg2 harg2 arg3 harg3 arg4 harg4 arg5 harg5) K := by
  simp only [cc7__pool_kernel_eq_skeleton]; unfold cc7__pool_kernel_skel owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  obtain ⟨hc0, hc1, rfl, rfl, rfl⟩ | ⟨hc0, hc1, rfl, rfl, rfl⟩ | ⟨hc0, hc1, rfl, rfl, rfl⟩ := h
  all_goals
    sl_exec (disch := first | exact hc0 | exact hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    iexists _; isplitr; swap; iexact H4
    all_goals
      ipureintro; try sl_unfold_run_names
      try simp only [View.readCov_eq_canon_ld _ _ _ (cover7_a _), View.readCov_eq_canon_ld _ _ _ (cover7_c _)]
      try first | exact View.read_writes_eq_canon _ _ _ (cover7_a _) | exact View.read_writes_eq_canon _ _ _ (cover7_c _)

end Cert.Kernel.Gen

end
-- ==== Proof.K.R7.lean ====
import proofs.«403813_j11570641895563_3_alg».proof.Proof.K.R7Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- The output block and the two accumulators after each point, by recursion on the point.
def outsAt7 (c : Dev nD) : (n : ℕ) → n < cfg7.N → Vec F S64x128 .f32 × Vec F S64x128 .f32 × Vec F S64x1 .f32
  | 0, hn =>
    (pool7 (acc7 (iblk7 V c 0 ⟨0, hn⟩) (iblk7 V c 1 ⟨0, hn⟩) acc7_init) (cnt7 (iblk7 V c 0 ⟨0, hn⟩) cnt7_init),
      acc7 (iblk7 V c 0 ⟨0, hn⟩) (iblk7 V c 1 ⟨0, hn⟩) acc7_init, cnt7 (iblk7 V c 0 ⟨0, hn⟩) cnt7_init)
  | n + 1, hn =>
    (pool7 (acc7 (iblk7 V c 0 ⟨n + 1, hn⟩) (iblk7 V c 1 ⟨n + 1, hn⟩) (outsAt7 c n (Nat.lt_of_succ_lt hn)).2.1)
        (cnt7 (iblk7 V c 0 ⟨n + 1, hn⟩) (outsAt7 c n (Nat.lt_of_succ_lt hn)).2.2),
      acc7 (iblk7 V c 0 ⟨n + 1, hn⟩) (iblk7 V c 1 ⟨n + 1, hn⟩) (outsAt7 c n (Nat.lt_of_succ_lt hn)).2.1,
      cnt7 (iblk7 V c 0 ⟨n + 1, hn⟩) (outsAt7 c n (Nat.lt_of_succ_lt hn)).2.2)

theorem outsAt7_A (c : Dev nD) (t : Fin cfg7.N) (h0 : t.val = 0) :
    outsAt7 V c t.val t.isLt =
      (pool7 (acc7 (iblk7 V c 0 t) (iblk7 V c 1 t) acc7_init) (cnt7 (iblk7 V c 0 t) cnt7_init),
        acc7 (iblk7 V c 0 t) (iblk7 V c 1 t) acc7_init, cnt7 (iblk7 V c 0 t) cnt7_init) := by
  obtain ⟨_ | n, hn⟩ := t
  exacts [rfl, absurd h0 n.succ_ne_zero]

theorem outsAt7_B (c : Dev nD) (t : Fin cfg7.N) (h0 : ¬t.val = 0) :
    outsAt7 V c t.val t.isLt =
      (pool7 (acc7 (iblk7 V c 0 t) (iblk7 V c 1 t) (outsAt7 V c (t.val - 1) (Nat.lt_of_le_of_lt (Nat.sub_le _ _) t.isLt)).2.1)
          (cnt7 (iblk7 V c 0 t) (outsAt7 V c (t.val - 1) (Nat.lt_of_le_of_lt (Nat.sub_le _ _) t.isLt)).2.2),
        acc7 (iblk7 V c 0 t) (iblk7 V c 1 t) (outsAt7 V c (t.val - 1) (Nat.lt_of_le_of_lt (Nat.sub_le _ _) t.isLt)).2.1,
        cnt7 (iblk7 V c 0 t) (outsAt7 V c (t.val - 1) (Nat.lt_of_le_of_lt (Nat.sub_le _ _) t.isLt)).2.2) := by
  obtain ⟨_ | n, hn⟩ := t
  exacts [absurd rfl h0, rfl]

theorem outsAt7_fst (c : Dev nD) (n : ℕ) (hn : n < cfg7.N) :
    (outsAt7 V c n hn).1 = pool7 (outsAt7 V c n hn).2.1 (outsAt7 V c n hn).2.2 := by
  cases n <;> rfl

abbrev scM7_0 : Memref sig .tc .vmem S64x128 .f32 := Memref.whole cc7_scratch0
abbrev scM7_1 : Memref sig .tc .vmem S64x1 .f32 := Memref.whole cc7_scratch1

-- Both accumulators at named contents, beside the untouched remainder of the region's resources.
def PhiS7_at (c : Dev nD) (a : Vec F S64x128 .f32) (n : Vec F S64x1 .f32) : sProp 𝕄 :=
  iprop(iprop(iprop(owns (c : Thread nD τ) scM7_0 fullShare a ∗ owns (c : Thread nD τ) scM7_1 fullShare n)
    ∗ Pipeline.scopedRestBut spec7 c [cc7_scratch0, cc7_scratch1]) ∗ (∃ r, prngReg c r))

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut spec7 c [cc7_scratch0, cc7_scratch1]) ∗ (∃ r, prngReg c r)) := by
  unfold Pipeline.ΦA; rw [scopedRest7_split]; simp only [scM7_0, scM7_1, owns_whole]; try rfl

-- The invariant before position n: what the launch hands over, then the accumulators as the point before left them.
def PhiS7 (c : Dev nD) : (n : ℕ) → n ≤ cfg7.N → sProp 𝕄
  | 0, _ => Pipeline.ΦA spec7 c
  | n + 1, hn => PhiS7_at c (outsAt7 V c n hn).2.1 (outsAt7 V c n hn).2.2

theorem PhiS7_zero (c : Dev nD) (n : ℕ) (h : n ≤ cfg7.N) (hz : n = 0) : PhiS7 V c n h = Pipeline.ΦA spec7 c := by
  subst hz; rfl

theorem PhiS7_pos (c : Dev nD) (n : ℕ) (h : n ≤ cfg7.N) (hz : n ≠ 0) :
    PhiS7 V c n h = PhiS7_at c (outsAt7 V c (n - 1) (by omega)).2.1 (outsAt7 V c (n - 1) (by omega)).2.2 := by
  obtain _ | n := n
  exacts [absurd rfl hz, rfl]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem after7_2 (c : Dev nD) (t : Fin cfg7.N) : (dat7 V c).after 2 t = (outsAt7 V c t.val t.isLt).1 := by dsimp only [dat7]

theorem before7 (c : Dev nD) (t : Fin cfg7.N) :
    (∀ d, (dat7 V c).before 0 t d = iblk7 V c 0 t) ∧ (∀ d, (dat7 V c).before 1 t d = iblk7 V c 1 t) := by
  refine ⟨?_, ?_⟩ <;> intro d <;>
    exact ((dat7 V c).before_in_eq_fetched _ rfl (fun _ => rfl) (fun _ _ _ => rfl) (fun _ => rfl) t d).trans rfl

-- The body at any point, by the three control cases of the kernel's triple; the framing is the same in all three.
theorem sound_body7 (c : Dev nD) (t : Fin cfg7.N) :
    iprop(PhiS7 V c t.val (Nat.le_of_lt t.isLt) ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d)))
    ⊢ wp frame (wpE (defs₀ (F := F)) Variants.none c none) Set.univ (bodyAt7 t) (fun _ =>
      iprop(PhiS7_at c (outsAt7 V c t.val t.isLt).2.1 (outsAt7 V c t.val t.isLt).2.2 ∗ (dat7 V c).owesAt () t.castSucc
        ∗ owns (c : Thread nD τ) (st7_0 t) fullShare (iblk7 V c 0 t) ∗ owns (c : Thread nD τ) (st7_1 t) fullShare (iblk7 V c 1 t)
        ∗ (dat7 V c).leavesExact 2 t)) := by
  unfold bodyAt7
  obtain ⟨b0, b1⟩ := before7 V c t
  simp only [b0, b1]
  obtain ⟨hc0, hc1, h0, hi, hf⟩ | ⟨hc0, hc1, h0, hi, hf⟩ | ⟨hc0, hc1, h0, hi⟩ := hcond7 t
  all_goals
    first
    | rw [Dat.leavesExact_idle (dat7 V c) 2 t hi hf]
    | rw [show (dat7 V c).leavesExact 2 t = owns (c : Thread nD τ) (st7_2 t) fullShare ((dat7 V c).after 2 t) from by
        unfold Dat.leavesExact; rw [hi], after7_2]
    first
    | rw [outsAt7_A V c t h0, PhiS7_zero V c _ _ h0, PhiA7_eq]
    | rw [outsAt7_B V c t h0, PhiS7_pos V c _ _ h0]
    unfold PhiS7_at
    first
    | iintro ⟨⟨⟨⟨⟨%a, HS0⟩, ⟨%k, HS1⟩⟩, Hr⟩, Hg⟩, Ho, ⟨%d0, H0⟩, ⟨%d1, H1⟩, ⟨%d2, H2⟩⟩
    | iintro ⟨⟨⟨⟨HS0, HS1⟩, Hr⟩, Hg⟩, Ho, ⟨%d0, H0⟩, ⟨%d1, H1⟩, ⟨%d2, H2⟩⟩
    first
    | iapply (sound_kernel7 (.inl ⟨hc0, hc1, rfl, rfl, rfl⟩))
    | iapply (sound_kernel7 (.inr (.inl ⟨hc0, hc1, rfl, rfl, rfl⟩)))
    | iapply (sound_kernel7 (.inr (.inr ⟨hc0, hc1, rfl, rfl, rfl⟩)))
    iframe H0 H1 H2 HS0 HS1
    iintro ⟨H0, H1, H2, HS0, HS1⟩
    iframe HS0 HS1 Hr Hg Ho H0 H1
    first | iexact H2 | (iexists _; iexact H2)

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := Idealize.SL.BI.Entails.refl _

-- After the last point the accumulators' named contents are forgotten.
theorem hout7 (c : Dev nD) : (dat7 V c).Φ (Fin.last cfg7.N) ⊢ Pipeline.ΦA spec7 c := by
  rw [show (dat7 V c).Φ (Fin.last cfg7.N) = PhiS7 V c cfg7.N (Nat.le_refl _) from rfl, PhiS7_pos V c _ _ (by decide), PhiA7_eq]
  unfold PhiS7_at
  iintro ⟨⟨⟨HS0, HS1⟩, Hr⟩, Hg⟩
  iframe Hr Hg
  isplitl [HS0] <;> iexists _ <;> iassumption

end Cert.Kernel.Gen

end
-- ==== Proof.K.R8.lean ====
import proofs.«403813_j11570641895563_3_alg».proof.Proof.Gen.Kernel.Launch
import proofs.«403813_j11570641895563_3_alg».proof.Proof.Gen.Kernel.Skeleton
import proofs.«403813_j11570641895563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S64x256 := Rect.unit (s := S64x256) ![0, 0] S64x256.size inb_S64x256_S64x256_0_0
abbrev r8_1 : Rect S256x128 := Rect.unit (s := S256x128) ![0, 0] S256x128.size inb_S256x128_S256x128_0_0
abbrev r8_2 : Rect S1x128 := Rect.unit (s := S1x128) ![0, 0] S1x128.size inb_S1x128_S1x128_0_0
abbrev r8_3 : Rect S128x1 := Rect.unit (s := S128x1) ![0, 0] S128x1.size inb_S128x1_S128x1_0_0
abbrev r8_4 : Rect S1x1 := Rect.unit (s := S1x1) ![0, 0] S1x1.size inb_S1x1_S1x1_0_0
abbrev r8_5 : Rect S64x1 := Rect.unit (s := S64x1) ![0, 0] S64x1.size inb_S64x1_S64x1_0_0

def out8_5 (feat : Vec F S64x256 .f32) (wHid : Vec F S256x128 .f32) (bHid : Vec F S1x128 .f32) (wOut : Vec F S128x1 .f32)
    (bOut : Vec F S1x1 .f32) : Vec F S64x1 .f32 :=
  View.canon [⟨r8_5, k8_pay1 (View.ld feat r8_0) (View.ld wHid r8_1) (View.ld bHid r8_2) (View.ld wOut r8_3) (View.ld bOut r8_4)⟩]

set_option maxHeartbeats 1000000 in
-- One store covers the whole output, so the result does not depend on what the output held before.
theorem sound_kernel8 (c : Dev nD) (E : Set ℕ) (i : grid8.Coords) (arg1 : Memref sig .tc .vmem S64x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole)
    (x0 : Vec F S64x256 .f32) (x1 : Vec F S256x128 .f32) (x2 : Vec F S1x128 .f32) (x3 : Vec F S128x1 .f32) (x4 : Vec F S1x1 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out8_5 x0 x1 x2 x3 x4)) -∗ K ⟨⟩))
      ⊢ wp frame (wpE (defs₀ (F := F)) Variants.none c none) E (cc8__mlp_kernel i arg1 harg1 arg2 harg2 arg3 harg3 arg4 harg4 arg5 harg5 arg6 harg6) K := by
  simp only [cc8__mlp_kernel_eq_skeleton]; unfold cc8__mlp_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr
  swap; · iexact H5
  ipureintro
  exact View.read_writes_eq_canon _ _ _ (View.cover_of_tiled _ S64x1.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

-- For an input window the contents on entry to the body at a point are those it leaves there: the body only reads them.
theorem before8 (c : Dev nD) (w : Fin cfg8.W) (hw : (cfg8.win w).isOut = false) (t : Fin cfg8.N) (d) :
    (dat8 V c).before w t d = (dat8 V c).after w t := by
  fin_cases w <;> first
    | exact absurd hw (by decide)
    | exact ((dat8 V c).before_in_eq_fetched _ rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  show _ ⊢ wp _ _ _ (bodyAt8 t) _
  dsimp only
  iintro ⟨HΦ, Ho, ⟨%d0, H0⟩, ⟨%d1, H1⟩, ⟨%d2, H2⟩, ⟨%d3, H3⟩, ⟨%d4, H4⟩, ⟨%d5, H5⟩⟩
  rw [before8 V c 0 rfl, before8 V c 1 rfl, before8 V c 2 rfl, before8 V c 3 rfl, before8 V c 4 rfl]
  iapply (sound_kernel8 c Set.univ (grid8.coords t) _ _ _ _ _ _ _ _ _ _ _ _ _ _ _ _ _ _)
  iframe H0 H1 H2 H3 H4
  isplitl [H5]; · iexists _; iexact H5
  iintro ⟨H0, H1, H2, H3, H4, H5⟩
  dsimp only [dat8]
  iframe
  iexact Ho

end Cert.Kernel.Gen

end
-- ==== Proof.K.Run.lean ====
import proofs.«403813_j11570641895563_3_alg».proof.Proof.K.RunCond
import proofs.«403813_j11570641895563_3_alg».proof.Proof.K.R0
import proofs.«403813_j11570641895563_3_alg».proof.Proof.K.R1
import proofs.«403813_j11570641895563_3_alg».proof.Proof.K.R2
import proofs.«403813_j11570641895563_3_alg».proof.Proof.K.R3
import proofs.«403813_j11570641895563_3_alg».proof.Proof.K.R4
import proofs.«403813_j11570641895563_3_alg».proof.Proof.K.R5
import proofs.«403813_j11570641895563_3_alg».proof.Proof.K.R6
import proofs.«403813_j11570641895563_3_alg».proof.Proof.K.R7
import proofs.«403813_j11570641895563_3_alg».proof.Proof.K.R8

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev B0 (c : Dev nD) : Valuation τ sig (Elt F) := V0 m c
abbrev B1 (c : Dev nD) : Valuation τ sig (Elt F) := StableHlo.after hostOps0 (B0 m c)
abbrev P1 : (c : Dev nD) → (b : Ref sig .tc) → Buf (Elt F) ((c : Thread nD τ).loc b) := fun c b => B1 m c b
def X2 (c : Dev nD) : Buf (Elt F) ((c : Thread nD τ).loc main_v17) := (dat0 (P1 m) c).arrAt (3 : Fin cfg0.W) cfg0.N
abbrev B2 (c : Dev nD) : Valuation τ sig (Elt F) := Function.update (B1 m c) main_v17 (X2 m c)
abbrev B3 (c : Dev nD) : Valuation τ sig (Elt F) := StableHlo.after hostOps1 (B2 m c)
abbrev P3 : (c : Dev nD) → (b : Ref sig .tc) → Buf (Elt F) ((c : Thread nD τ).loc b) := fun c b => B3 m c b
def X4 (c : Dev nD) : Buf (Elt F) ((c : Thread nD τ).loc main_v35) := (dat1 (P3 m) c).arrAt (5 : Fin cfg1.W) cfg1.N
abbrev B4 (c : Dev nD) : Valuation τ sig (Elt F) := Function.update (B3 m c) main_v35 (X4 m c)
abbrev B5 (c : Dev nD) : Valuation τ sig (Elt F) := StableHlo.after hostOps2 (B4 m c)
abbrev P5 : (c : Dev nD) → (b : Ref sig .tc) → Buf (Elt F) ((c : Thread nD τ).loc b) := fun c b => B5 m c b
def X6 (c : Dev nD) : Buf (Elt F) ((c : Thread nD τ).loc main_v53) := (dat2 (P5 m) c).arrAt (4 : Fin cfg2.W) cfg2.N
abbrev B6 (c : Dev nD) : Valuation τ sig (Elt F) := Function.update (B5 m c) main_v53 (X6 m c)
abbrev B7 (c : Dev nD) : Valuation τ sig (Elt F) := StableHlo.after hostOps3 (B6 m c)
abbrev B8 (c : Dev nD) : Valuation τ sig (Elt F) := StableHlo.after hostOps3_1 (B7 m c)
abbrev B9 (c : Dev nD) : Valuation τ sig (Elt F) := StableHlo.after hostOps3_2 (B8 m c)
abbrev B10 (c : Dev nD) : Valuation τ sig (Elt F) := StableHlo.after hostOps3_3 (B9 m c)
abbrev B11 (c : Dev nD) : Valuation τ sig (Elt F) := StableHlo.after hostOps3_4 (B10 m c)
abbrev P11 : (c : Dev nD) → (b : Ref sig .tc) → Buf (Elt F) ((c : Thread nD τ).loc b) := fun c b => B11 m c b
def X12 (c : Dev nD) : Buf (Elt F) ((c : Thread nD τ).loc main_v57) := (dat3 (P11 m) c).arrAt (2 : Fin cfg3.W) cfg3.N
abbrev B12 (c : Dev nD) : Valuation τ sig (Elt F) := Function.update (B11 m c) main_v57 (X12 m c)
abbrev B13 (c : Dev nD) : Valuation τ sig (Elt F) := StableHlo.after hostOps4 (B12 m c)
abbrev P13 : (c : Dev nD) → (b : Ref sig .tc) → Buf (Elt F) ((c : Thread nD τ).loc b) := fun c b => B13 m c b
def X14 (c : Dev nD) : Buf (Elt F) ((c : Thread nD τ).loc main_v75) := (dat4 (P13 m) c).arrAt (3 : Fin cfg4.W) cfg4.N
abbrev B14 (c : Dev nD) : Valuation τ sig (Elt F) := Function.update (B13 m c) main_v75 (X14 m c)
abbrev B15 (c : Dev nD) : Valuation τ sig (Elt F) := StableHlo.after hostOps5 (B14 m c)
abbrev P15 : (c : Dev nD) → (b : Ref sig .tc) → Buf (Elt F) ((c : Thread nD τ).loc b) := fun c b => B15 m c b
def X16 (c : Dev nD) : Buf (Elt F) ((c : Thread nD τ).loc main_v93) := (dat5 (P15 m) c).arrAt (5 : Fin cfg5.W) cfg5.N
abbrev B16 (c : Dev nD) : Valuation τ sig (Elt F) := Function.update (B15 m c) main_v93 (X16 m c)
abbrev B17 (c : Dev nD) : Valuation τ sig (Elt F) := StableHlo.after hostOps6 (B16 m c)
abbrev P17 : (c : Dev nD) → (b : Ref sig .tc) → Buf (Elt F) ((c : Thread nD τ).loc b) := fun c b => B17 m c b
def X18 (c : Dev nD) : Buf (Elt F) ((c : Thread nD τ).loc main_v111) := (dat6 (P17 m) c).arrAt (4 : Fin cfg6.W) cfg6.N
abbrev B18 (c : Dev nD) : Valuation τ sig (Elt F) := Function.update (B17 m c) main_v111 (X18 m c)
abbrev B19 (c : Dev nD) : Valuation τ sig (Elt F) := StableHlo.after hostOps7 (B18 m c)
abbrev B20 (c : Dev nD) : Valuation τ sig (Elt F) := StableHlo.after hostOps7_1 (B19 m c)
abbrev B21 (c : Dev nD) : Valuation τ sig (Elt F) := StableHlo.after hostOps7_2 (B20 m c)
abbrev B22 (c : Dev nD) : Valuation τ sig (Elt F) := StableHlo.after hostOps7_3 (B21 m c)
abbrev B23 (c : Dev nD) : Valuation τ sig (Elt F) := StableHlo.after hostOps7_4 (B22 m c)
abbrev P23 : (c : Dev nD) → (b : Ref sig .tc) → Buf (Elt F) ((c : Thread nD τ).loc b) := fun c b => B23 m c b
def X24 (c : Dev nD) : Buf (Elt F) ((c : Thread nD τ).loc main_v115) := (dat7 (P23 m) c).arrAt (2 : Fin cfg7.W) cfg7.N
abbrev B24 (c : Dev nD) : Valuation τ sig (Elt F) := Function.update (B23 m c) main_v115 (X24 m c)
abbrev B25 (c : Dev nD) : Valuation τ sig (Elt F) := StableHlo.after hostOps8 (B24 m c)
abbrev P25 : (c : Dev nD) → (b : Ref sig .tc) → Buf (Elt F) ((c : Thread nD τ).loc b) := fun c b => B25 m c b
def X26 (c : Dev nD) : Buf (Elt F) ((c : Thread nD τ).loc main_v119) := (dat8 (P25 m) c).arrAt (5 : Fin cfg8.W) cfg8.N
abbrev B26 (c : Dev nD) : Valuation τ sig (Elt F) := Function.update (B25 m c) main_v119 (X26 m c)

def outsB : Outs (F := F) := fun J r c => match J with
  | 2 => B2 m c r
  | 4 => B4 m c r
  | 6 => B6 m c r
  | 12 => B12 m c r
  | 14 => B14 m c r
  | 16 => B16 m c r
  | 18 => B18 m c r
  | 24 => B24 m c r
  | 26 => B26 m c r
  | _ => B0 m c r

/-- Updating at `r` by what an update of an equal valuation reads at `r` is that update. -/
theorem upd_eq {V B : Valuation τ sig (Elt F)} (h : V = B) {r : DevRef τ sig} {x : r.ty.Contents (Elt F)} :
    Function.update V r (Function.update B r x r) = Function.update B r x := by
  rw [h, Function.update_self]

theorem V2_eq (c : Dev nD) : V2 m (outsB m) c = B2 m c := upd_eq rfl
theorem V3_eq (c : Dev nD) : V3 m (outsB m) c = B3 m c := congrArg (StableHlo.after hostOps1) (V2_eq m c)
theorem V4_eq (c : Dev nD) : V4 m (outsB m) c = B4 m c := upd_eq (V3_eq m c)
theorem V5_eq (c : Dev nD) : V5 m (outsB m) c = B5 m c := congrArg (StableHlo.after hostOps2) (V4_eq m c)
theorem V6_eq (c : Dev nD) : V6 m (outsB m) c = B6 m c := upd_eq (V5_eq m c)
theorem V11_eq (c : Dev nD) : V11 m (outsB m) c = B11 m c := congrArg (fun v => StableHlo.after hostOps3_4 (StableHlo.after hostOps3_3 (StableHlo.after hostOps3_2 (StableHlo.after hostOps3_1 (StableHlo.after hostOps3 v))))) (V6_eq m c)
theorem V12_eq (c : Dev nD) : V12 m (outsB m) c = B12 m c := upd_eq (V11_eq m c)
theorem V13_eq (c : Dev nD) : V13 m (outsB m) c = B13 m c := congrArg (StableHlo.after hostOps4) (V12_eq m c)
theorem V14_eq (c : Dev nD) : V14 m (outsB m) c = B14 m c := upd_eq (V13_eq m c)
theorem V15_eq (c : Dev nD) : V15 m (outsB m) c = B15 m c := congrArg (StableHlo.after hostOps5) (V14_eq m c)
theorem V16_eq (c : Dev nD) : V16 m (outsB m) c = B16 m c := upd_eq (V15_eq m c)
theorem V17_eq (c : Dev nD) : V17 m (outsB m) c = B17 m c := congrArg (StableHlo.after hostOps6) (V16_eq m c)
theorem V18_eq (c : Dev nD) : V18 m (outsB m) c = B18 m c := upd_eq (V17_eq m c)
theorem V23_eq (c : Dev nD) : V23 m (outsB m) c = B23 m c := congrArg (fun v => StableHlo.after hostOps7_4 (StableHlo.after hostOps7_3 (StableHlo.after hostOps7_2 (StableHlo.after hostOps7_1 (StableHlo.after hostOps7 v))))) (V18_eq m c)
theorem V24_eq (c : Dev nD) : V24 m (outsB m) c = B24 m c := upd_eq (V23_eq m c)
theorem V25_eq (c : Dev nD) : V25 m (outsB m) c = B25 m c := congrArg (StableHlo.after hostOps8) (V24_eq m c)
theorem V26_eq (c : Dev nD) : V26 m (outsB m) c = B26 m c := upd_eq (V25_eq m c)

def pdats : (p : Fin 9) → (c : Dev nD) → Dat τ (Elt F) Unit ℕ (UR sig nD τ) ℕ (Pipeline.pin (pcfgs (F := F)) adm p) c
  | ⟨0, _⟩ => fun c => dat0 (P1 m) c
  | ⟨1, _⟩ => fun c => dat1 (P3 m) c
  | ⟨2, _⟩ => fun c => dat2 (P5 m) c
  | ⟨3, _⟩ => fun c => dat3 (P11 m) c
  | ⟨4, _⟩ => fun c => dat4 (P13 m) c
  | ⟨5, _⟩ => fun c => dat5 (P15 m) c
  | ⟨6, _⟩ => fun c => dat6 (P17 m) c
  | ⟨7, _⟩ => fun c => dat7 (P23 m) c
  | ⟨8, _⟩ => fun c => dat8 (P25 m) c

/-- The valuation `Bi` updated at the array of window `o` to the proof data's last contents of it. -/
abbrev Bo {p : Fin 9} (o : Fin (cfgs p).W) (Bi : Dev nD → Valuation τ sig (Elt F)) (c : Dev nD) : Valuation τ sig (Elt F) :=
  Function.update (Bi c) (Proc.devRef .tc (Pipeline.arrRef (cfgs p).spec o)) ((pdats m p c).arrAt o (cfgs p).N)

set_option backward.isDefEq.respectTransparency.types false in
/-- The segment record of a region entered at valuation `Bi` and left at `Bo`, when every window but `o` is an input. -/
def reg {p : Fin 9} (la : Pipeline.LaunchFacts (nD := nD) (τ := τ) cfgs p) (o : Fin (cfgs p).W)
    (hb : ∀ c, BodyObligation (pdats m p c) (defs₀ (F := F)) 𝒱₀ () Set.univ) (Bi : Dev nD → Valuation τ sig (Elt F))
    (ho : ∀ w, w ≠ o → ((cfgs p).win w).isOut = false := by decide)
    (hΦi : ∀ c, Pipeline.ΦA (cfgs p).spec c ⊢ (pdats m p c).Φ 0 := by exact fun _ => .rfl)
    (hΦo : ∀ c, (pdats m p c).Φ (Fin.last (cfgs p).N) ⊢ Pipeline.ΦA (cfgs p).spec c := by exact fun _ => .rfl)
    (hd : ∀ c, (∀ w, (pdats m p c).A w = Bi c (Proc.devRef .tc (Pipeline.arrRef (cfgs p).spec w))) ∧ (∀ w, (pdats m p c).q w = fullShare)
      ∧ ∀ t, (pdats m p c).owed t = 0 ∧ (pdats m p c).recorded t = Set.univ := by
        exact fun _ => ⟨fun _ => rfl, fun _ => rfl, fun _ => ⟨rfl, rfl⟩⟩) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c t => ((hd c).2.2 t).1
  pre c := iprop(StableHlo.held (c : Thread nD τ) (Pipeline.ucRefs τ sig) (Bi c) ∗ Rr c)
  post c := iprop(StableHlo.held (c : Thread nD τ) (Pipeline.ucRefs τ sig) (Bo m o Bi c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Bi c b
  hentry c := by
    have hsplit := Pipeline.arrays_of_unscopedBufs (p := p) (pcfgs (F := F)) adm (pdats m) la.win la.arr_whole c
      ((pdats m p c).share_full (hd c).2.1) (fun b => Bi c b) (hd c).1
    unfold Pipeline.Dat.owesAt Pipeline.owesWithin Pipeline.Dat.bound
    rw [Pipeline.unscopedBufs_held] at hsplit
    rw [Pipeline.ownSems0_none, ((hd c).2.2 _).1, ((hd c).2.2 _).2]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    have hi := hΦi c
    iintro ⟨Hp, -, Hr⟩
    iapply hi
    unfold Pipeline.ΦA
    isplitl [Hr]; · iexact Hr
    iexact Hp
  hout c := by
    have ho' := hΦo c
    rw [Pipeline.ownSems0_none]
    iintro H
    ihave H' := ho' $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hd c).2.1)
      (fun b => Bi c b) (fun b => Bo m o Bi c b) ((pdats m p c).arrAt · (cfgs p).N)
      (fun w => by
        by_cases h : w = o
        · subst h; exact (Function.update_self _ _ (Bi c)).symm
        · exact ((pdats m p c).arrAt_in w (ho w h) _).trans (((hd c).1 w).trans
            (Function.update_of_ne (StableHlo.devRef_ne_of_ne fun e => h (la.win.arr_inj e)) _ _).symm))
      fun b hb => Function.update_of_ne (StableHlo.devRef_ne_of_ne fun e => hb (Finset.mem_image.mpr ⟨o, Finset.mem_univ _, e.symm⟩)) _ _
    unfold Pipeline.Dat.owesAt Pipeline.owesWithin
    rw [Pipeline.unscopedBufs_held] at hjoin
    rw [((hd c).2.2 _).1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := reg m launch0 (3 : Fin cfg0.W) (fun c => body_obligation0 (P1 m) c) (B1 m)
def reg1 := reg m launch1 (5 : Fin cfg1.W) (fun c => body_obligation1 (P3 m) c) (B3 m)
def reg2 := reg m launch2 (4 : Fin cfg2.W) (fun c => body_obligation2 (P5 m) c) (B5 m)
def reg3 := reg m launch3 (2 : Fin cfg3.W) (fun c => body_obligation3 (P11 m) c) (B11 m) (hΦi := hin3 (P11 m)) (hΦo := hout3 (P11 m))
def reg4 := reg m launch4 (3 : Fin cfg4.W) (fun c => body_obligation4 (P13 m) c) (B13 m)
def reg5 := reg m launch5 (5 : Fin cfg5.W) (fun c => body_obligation5 (P15 m) c) (B15 m)
def reg6 := reg m launch6 (4 : Fin cfg6.W) (fun c => body_obligation6 (P17 m) c) (B17 m)
def reg7 := reg m launch7 (2 : Fin cfg7.W) (fun c => body_obligation7 (P23 m) c) (B23 m) (hΦi := hin7 (P23 m)) (hΦo := hout7 (P23 m))
def reg8 := reg m launch8 (5 : Fin cfg8.W) (fun c => body_obligation8 (P25 m) c) (B25 m)

/-- Equal valuations give the same thread state. -/
theorem hheld {V B : Valuation τ sig (Elt F)} (h : V = B) (c : Dev nD) :
    iprop(StableHlo.held (c : Thread nD τ) (Pipeline.ucRefs τ sig) V ∗ Rr c) ⊢ iprop(StableHlo.held (c : Thread nD τ) (Pipeline.ucRefs τ sig) B ∗ Rr c) :=
  by subst h; exact .rfl

set_option backward.isDefEq.respectTransparency.types false in
/-- The run ends, and then memory agrees with the last valuation at every unscoped reference. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V26 m (outsB m) c b) :=
  run_cond m ρ (outsB m) (pdats m) (reg0 m) (reg1 m) (reg2 m) (reg3 m) (reg4 m) (reg5 m) (reg6 m) (reg7 m) (reg8 m) fun c =>
    ⟨.rfl, .rfl, hheld (V2_eq m c).symm c, hheld (V3_eq m c) c, hheld (V4_eq m c).symm c, hheld (V5_eq m c) c, hheld (V6_eq m c).symm c, .rfl, .rfl, .rfl, .rfl,
      hheld (V11_eq m c) c, hheld (V12_eq m c).symm c, hheld (V13_eq m c) c, hheld (V14_eq m c).symm c, hheld (V15_eq m c) c, hheld (V16_eq m c).symm c, hheld (V17_eq m c) c, hheld (V18_eq m c).symm c, .rfl, .rfl, .rfl, .rfl,
      hheld (V23_eq m c) c, hheld (V24_eq m c).symm c, hheld (V25_eq m c) c, (hheld (V26_eq m c).symm c).trans (sep_mono .rfl (by iintro ⟨-, HO⟩; iexact HO))⟩

/-- An unscoped reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every execution terminates with the result buffer at its last contents and every argument as launched. -/
theorem value_all (ρ : Dev nD → PrngReg) :
    θ_run defs (onTc (τ := τ) (main (F := F))) ⟨m, fun _ => 0, ρ⟩ (fun r => ∀ c : Dev nD,
      r.2.mem ((c.tc : Thread nD τ).loc main_v119) = B26 m c main_v119
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (run_all m ρ).mono fun r h c =>
    have a := fun (b : Ref sig .tc) hb => h c _ (mem_uc b hb)
    ⟨(a main_v119 (by decide)).trans (congrFun (V26_eq m c) _),
      (a _ (by decide)).trans (V26_main_arg0 m _ c),
      (a _ (by decide)).trans (V26_main_arg1 m _ c),
      (a _ (by decide)).trans (V26_main_arg2 m _ c),
      (a _ (by decide)).trans (V26_main_arg3 m _ c),
      (a _ (by decide)).trans (V26_main_arg4 m _ c),
      (a _ (by decide)).trans (V26_main_arg5 m _ c),
      (a _ (by decide)).trans (V26_main_arg6 m _ c),
      (a _ (by decide)).trans (V26_main_arg7 m _ c),
      (a _ (by decide)).trans (V26_main_arg8 m _ c),
      (a _ (by decide)).trans (V26_main_arg9 m _ c),
      (a _ (by decide)).trans (V26_main_arg10 m _ c),
      (a _ (by decide)).trans (V26_main_arg11 m _ c),
      (a _ (by decide)).trans (V26_main_arg12 m _ c),
      (a _ (by decide)).trans (V26_main_arg13 m _ c),
      (a _ (by decide)).trans (V26_main_arg14 m _ c),
      (a _ (by decide)).trans (V26_main_arg15 m _ c),
      (a _ (by decide)).trans (V26_main_arg16 m _ c),
      (a _ (by decide)).trans (V26_main_arg17 m _ c)⟩

/-- The arguments' part of `value_all`. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (value_all m ρ).mono fun _ h c => (h c).2

end Cert.Kernel.Gen

end
-- ==== Proof.KI.RunCond.lean ====
import proofs.«403813_j11570641895563_3_alg».proof.Proof.Gen.KernelIdeal.Regions

set_option maxRecDepth 1504

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

set_option backward.isDefEq.respectTransparency.types false in
/-- The program run over nine region records whose states chain with the host stretches': memory ends at `V26` on the unscoped references. -/
theorem run_cond (ρ : Dev nD → PrngReg) (outs : Outs (F := F))
    (pdats : (p : Fin 9) → (c : Dev nD) → Dat τ (Elt F) Unit ℕ (UR sig nD τ) ℕ (cfgs p) c)
    (R0 : RegionSeg (pcfgs (F := F)) adm pdats () defs₀ 𝒱₀ L lv 0)
    (R1 : RegionSeg (pcfgs (F := F)) adm pdats () defs₀ 𝒱₀ L lv 1)
    (R2 : RegionSeg (pcfgs (F := F)) adm pdats () defs₀ 𝒱₀ L lv 2)
    (R3 : RegionSeg (pcfgs (F := F)) adm pdats () defs₀ 𝒱₀ L lv 3)
    (R4 : RegionSeg (pcfgs (F := F)) adm pdats () defs₀ 𝒱₀ L lv 4)
    (R5 : RegionSeg (pcfgs (F := F)) adm pdats () defs₀ 𝒱₀ L lv 5)
    (R6 : RegionSeg (pcfgs (F := F)) adm pdats () defs₀ 𝒱₀ L lv 6)
    (R7 : RegionSeg (pcfgs (F := F)) adm pdats () defs₀ 𝒱₀ L lv 7)
    (R8 : RegionSeg (pcfgs (F := F)) adm pdats () defs₀ 𝒱₀ L lv 8)
    (hch : ∀ c, Seg.ChainsAt c (fun c => iprop(StableHlo.held (c : Thread nD τ) (Pipeline.ucRefs τ sig) (V0 m c) ∗ Rr c))
      (segs m outs 𝒱₀ L lv (fun _ c => Rr c) () pdats R0 R1 R2 R3 R4 R5 R6 R7 R8 c)
      fun c => iprop(StableHlo.held (c : Thread nD τ) (Pipeline.ucRefs τ sig) (V26 m outs c) ∗ ∃ W, owes (c : Thread nD τ) (0 : CellTallies nD τ sig Unit) W)) :
    θ_run defs (onTc (τ := τ) (main (F := F))) ⟨m, fun _ => 0, ρ⟩ (fun r => ∀ c : Dev nD,
      ∀ b ∈ Pipeline.ucRefs τ sig, r.2.mem (((c : Thread nD τ)).1, b) = V26 m outs c b) := by
  refine Pipeline.θ_run_regions_kit_dev (pcfgs (F := F)) adm pdats () cellOf_inj emb₁ defs₀ 𝒱₀ L lv m ρ main
    (segs m outs 𝒱₀ L lv (fun _ c => Rr c) () pdats R0 R1 R2 R3 R4 R5 R6 R7 R8)
    (fun c Q => by
      rewrite [main_chain c, Seg.run_eq_chain,
        show (segs m outs 𝒱₀ L lv (fun _ c => Rr c) () pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          StableHlo.seq hostOps7_3,
          StableHlo.seq hostOps7_4,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rr c))
    (Tₙ := fun c => StableHlo.held (c : Thread nD τ) (Pipeline.ucRefs τ sig) (V26 m outs c))
    (hch := hch) (hinit := Pipeline.initEach L lv fun c => ?_)
    (QY := fun c s => ∀ b ∈ Pipeline.ucRefs τ sig, s.mem (((c : Thread nD τ)).1, b) = V26 m outs c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro; exact h
    · iexact HSI

end Cert.KernelIdeal.Gen

end
-- ==== Proof.KI.R0.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

def out0_3 (x0 : Vec F S2000x128 .f32) (x1 : Vec F S128x128 .f32) (x2 : Vec F S2000x1 .f32) : Vec F S2000x128 .bf16 :=
  View.canon [⟨r0_0, k0_pay1 (View.ld x0 r0_0) (View.ld x1 r0_1) (View.ld x2 r0_2)⟩]

set_option maxHeartbeats 1000000 in
-- One store covers the whole output, so the result does not depend on what the output held before.
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  iexists _; isplitr
  swap; · iexact H3
  ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) : (dat0 V c).after 3 t = out0_3 (iblk0 V c 0 t) (iblk0 V c 1 t) (iblk0 V c 2 t) := by dsimp only [dat0]

-- For an input window the contents on entry to the body at a point are those it leaves there: the body only reads them.
theorem before0 (c : Dev nD) (w : Fin cfg0.W) (hw : (cfg0.win w).isOut = false) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  dsimp only
  iintro ⟨HΦ, Ho, ⟨%d0, H0⟩, ⟨%d1, H1⟩, ⟨%d2, H2⟩, ⟨%d3, H3⟩⟩
  rw [before0 V c 0 rfl, before0 V c 1 rfl, before0 V c 2 rfl]
  iapply (sound_kernel0 c Set.univ (grid0.coords t) _ _ _ _ _ _ _ _ _ _ _ _)
  iframe H0 H1 H2
  isplitl [H3]; · iexists _; iexact H3
  iintro ⟨H0, H1, H2, H3⟩
  dsimp only [dat0]
  iframe
  iexact Ho

end Cert.KernelIdeal.Gen

end
-- ==== Proof.KI.R1.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x1 := Rect.unit (s := S2000x1) ![0, 0] S2000x1.size inb_S2000x1_S2000x1_0_0
abbrev r1_1 : Rect S2000x128 := Rect.unit (s := S2000x128) ![0, 0] S2000x128.size inb_S2000x128_S2000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

def out1_5 (x0 : Vec F S2000x128 .f32) (x1 : Vec F S2000x128 .bf16) (x2 : Vec F S2000x1 .f32) (x3 : Vec F S1x128 .f32) (x4 : Vec F S128x128 .f32) :
    Vec F S2000x128 .bf16 :=
  View.canon [⟨r1_1, k1_pay1 (View.ld x2 r1_0) (View.ld x0 r1_1) (View.ld x1 r1_1) (View.ld x3 r1_2) (View.ld x4 r1_3)⟩]

set_option maxHeartbeats 1000000 in
-- One store covers the whole output, so the result does not depend on what the output held before.
theorem sound_kernel1 (c : Dev nD) (E : Set ℕ) (i : grid1.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .bf16) (harg6 : arg6.IsWhole)
    (x0 : Vec F S2000x128 .f32) (x1 : Vec F S2000x128 .bf16) (x2 : Vec F S2000x1 .f32) (x3 : Vec F S1x128 .f32) (x4 : Vec F S128x128 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out1_5 x0 x1 x2 x3 x4)) -∗ K ⟨⟩))
      ⊢ wp frame (wpE (defs₀ (F := F)) Variants.none c none) E (cc1__fused_combine_linear_kernel i arg1 harg1 arg2 harg2 arg3 harg3 arg4 harg4 arg5 harg5 arg6 harg6) K := by
  simp only [cc1__fused_combine_linear_kernel_eq_skeleton]; unfold cc1__fused_combine_linear_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr
  swap; · iexact H5
  ipureintro
  exact View.read_writes_eq_canon _ _ _ (View.cover_of_tiled _ S2000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

-- For an input window the contents on entry to the body at a point are those it leaves there: the body only reads them.
theorem before1 (c : Dev nD) (w : Fin cfg1.W) (hw : (cfg1.win w).isOut = false) (t : Fin cfg1.N) (d) :
    (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  dsimp only
  iintro ⟨HΦ, Ho, ⟨%d0, H0⟩, ⟨%d1, H1⟩, ⟨%d2, H2⟩, ⟨%d3, H3⟩, ⟨%d4, H4⟩, ⟨%d5, H5⟩⟩
  rw [before1 V c 0 rfl, before1 V c 1 rfl, before1 V c 2 rfl, before1 V c 3 rfl, before1 V c 4 rfl]
  iapply (sound_kernel1 c Set.univ (grid1.coords t) _ _ _ _ _ _ _ _ _ _ _ _ _ _ _ _ _ _)
  iframe H0 H1 H2 H3 H4
  isplitl [H5]; · iexists _; iexact H5
  iintro ⟨H0, H1, H2, H3, H4, H5⟩
  dsimp only [dat1]
  iframe
  iexact Ho

end Cert.KernelIdeal.Gen

end
-- ==== Proof.KI.R2.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S1x128 := Rect.unit (s := S1x128) ![0, 0] S1x128.size inb_S1x128_S1x128_0_0

def out2_4 (x0 : Vec F S2000x128 .f32) (x1 : Vec F S2000x128 .bf16) (x2 : Vec F S2000x1 .f32) (x3 : Vec F S1x128 .f32) : Vec F S2000x128 .f32 :=
  View.canon [⟨r2_0, k2_pay1 (View.ld x2 r2_1) (View.ld x0 r2_0) (View.ld x1 r2_0) (View.ld x3 r2_2)⟩]

set_option maxHeartbeats 1000000 in
-- One store covers the whole output, so the result does not depend on what the output held before.
theorem sound_kernel2 (c : Dev nD) (E : Set ℕ) (i : grid2.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .bf16) (x2 : Vec F S2000x1 .f32) (x3 : Vec F S1x128 .f32) (K : PUnit → sProp 𝕄) :
    iprop(owns c arg1 fullShare x0 ∗ owns c arg2 fullShare x1 ∗ owns c arg3 fullShare x2 ∗ owns c arg4 fullShare x3 ∗ (∃ d, owns c arg5 fullShare d)
        ∗ (iprop(owns c arg1 fullShare x0 ∗ owns c arg2 fullShare x1 ∗ owns c arg3 fullShare x2 ∗ owns c arg4 fullShare x3 ∗ owns c arg5 fullShare (out2_4 x0 x1 x2 x3)) -∗ K ⟨⟩))
      ⊢ wp frame (wpE (defs₀ (F := F)) Variants.none c none) E (cc2__combine_final_kernel i arg1 harg1 arg2 harg2 arg3 harg3 arg4 harg4 arg5 harg5) K := by
  simp only [cc2__combine_final_kernel_eq_skeleton]; unfold cc2__combine_final_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  iexists _; isplitr
  swap; · iexact H4
  ipureintro
  exact View.read_writes_eq_canon _ _ _ (View.cover_of_tiled _ S2000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem after2_4 (c : Dev nD) (t : Fin cfg2.N) : (dat2 V c).after 4 t = out2_4 (iblk2 V c 0 t) (iblk2 V c 1 t) (iblk2 V c 2 t) (iblk2 V c 3 t) := by dsimp only [dat2]

-- For an input window the contents on entry to the body at a point are those it leaves there: the body only reads them.
theorem before2 (c : Dev nD) (w : Fin cfg2.W) (hw : (cfg2.win w).isOut = false) (t : Fin cfg2.N) (d) :
    (dat2 V c).before w t d = (dat2 V c).after w t := by
  fin_cases w <;> first
    | exact absurd hw (by decide)
    | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  dsimp only
  iintro ⟨HΦ, Ho, ⟨%d0, H0⟩, ⟨%d1, H1⟩, ⟨%d2, H2⟩, ⟨%d3, H3⟩, ⟨%d4, H4⟩⟩
  rw [before2 V c 0 rfl, before2 V c 1 rfl, before2 V c 2 rfl, before2 V c 3 rfl]
  iapply (sound_kernel2 c Set.univ (grid2.coords t) _ _ _ _ _ _ _ _ _ _ _ _ _ _ _)
  iframe H0 H1 H2 H3
  isplitl [H4]; · iexists _; iexact H4
  iintro ⟨H0, H1, H2, H3, H4⟩
  dsimp only [dat2]
  iframe
  iexact Ho

end Cert.KernelIdeal.Gen

end
-- ==== Proof.KI.R3Runs.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

-- Every point is the first, a middle or the last one.
theorem hcond3 : ∀ t : Fin cfg3.N,
    cond3_0 (grid3.coords t) ∧ ¬cond3_1 (grid3.coords t) ∧ t.val = 0 ∧ cfg3.idle 2 (grid3.coords t) = true ∧ (cfg3.win 2).flush t = false
    ∨ ¬cond3_0 (grid3.coords t) ∧ ¬cond3_1 (grid3.coords t) ∧ t.val ≠ 0 ∧ cfg3.idle 2 (grid3.coords t) = true ∧ (cfg3.win 2).flush t = false
    ∨ ¬cond3_0 (grid3.coords t) ∧ cond3_1 (grid3.coords t) ∧ t.val ≠ 0 ∧ cfg3.idle 2 (grid3.coords t) = false := by decide +kernel

abbrev r3_i : Rect S1x2944 := Rect.unit (s := S1x2944) ![0, 0] S1x2944.size inb_S1x2944_S1x2944_0_0
abbrev r3_h : Rect S2944x128 := Rect.unit (s := S2944x128) ![0, 0] S2944x128.size inb_S2944x128_S2944x128_0_0
abbrev r3_a : Rect S64x128 := Rect.unit (s := S64x128) ![0, 0] S64x128.size inb_S64x128_S64x128_0_0
abbrev r3_c : Rect S64x1 := Rect.unit (s := S64x1) ![0, 0] S64x1.size inb_S64x1_S64x1_0_0

-- A single piece spanning the whole shape covers every index.
theorem cover3_a (p0 : Vec F S64x128 .f32) (y : S64x128.Idx) :
    ∃ pc ∈ ([⟨r3_a, p0⟩] : List (View.Piece (Elt F) S64x128 .f32)), y ∈ pc.1.set :=
  View.cover_of_tiled [⟨r3_a, p0⟩] S64x128.size (by rfl) y
theorem cover3_c (p0 : Vec F S64x1 .f32) (y : S64x1.Idx) :
    ∃ pc ∈ ([⟨r3_c, p0⟩] : List (View.Piece (Elt F) S64x1 .f32)), y ∈ pc.1.set :=
  View.cover_of_tiled [⟨r3_c, p0⟩] S64x1.size (by rfl) y

def acc3_init : Vec F S64x128 .f32 := View.canon [⟨r3_a, k3_pay1 (F := F)⟩]
def cnt3_init : Vec F S64x1 .f32 := View.canon [⟨r3_c, k3_pay2 (F := F)⟩]
def acc3 (x0 : Vec F S1x2944 .i32) (x1 : Vec F S2944x128 .f32) (a : Vec F S64x128 .f32) : Vec F S64x128 .f32 :=
  View.canon [⟨r3_a, k3_pay4 (View.ld x0 r3_i) (View.ld a r3_a) (View.ld x1 r3_h)⟩]
def cnt3 (x0 : Vec F S1x2944 .i32) (n : Vec F S64x1 .f32) : Vec F S64x1 .f32 :=
  View.canon [⟨r3_c, k3_pay5 (View.ld x0 r3_i) (View.ld n r3_c)⟩]
def pool3 (a : Vec F S64x128 .f32) (n : Vec F S64x1 .f32) : Vec F S64x128 .f32 :=
  View.canon [⟨r3_a, k3_pay6 (View.ld a r3_a) (View.ld n r3_c)⟩]

-- The body's triple in its three control cases: first point (accumulators zeroed, then advanced), middle point (advanced), last point (advanced, quotient stored).
theorem sound_kernel3 {c : Dev nD} {E : Set ℕ} {i : grid3.Coords} {arg1 : Memref sig .tc .vmem S1x2944 .i32} {harg1 : arg1.IsWhole} {arg2 : Memref sig .tc .vmem S2944x128 .f32} {harg2 : arg2.IsWhole} {arg3 : Memref sig .tc .vmem S64x128 .f32} {harg3 : arg3.IsWhole} {arg4 : Memref sig .tc .vmem S64x128 .f32} {harg4 : arg4.IsWhole} {arg5 : Memref sig .tc .vmem S64x1 .f32} {harg5 : arg5.IsWhole}
    {x0 : Vec F S1x2944 .i32} {x1 : Vec F S2944x128 .f32} {xi2 xs0 X2 X3 : Vec F S64x128 .f32} {xs1 X4 : Vec F S64x1 .f32}
    (h : cond3_0 i ∧ ¬cond3_1 i ∧ X2 = xi2 ∧ X3 = acc3 x0 x1 acc3_init ∧ X4 = cnt3 x0 cnt3_init
      ∨ ¬cond3_0 i ∧ ¬cond3_1 i ∧ X2 = xi2 ∧ X3 = acc3 x0 x1 xs0 ∧ X4 = cnt3 x0 xs1
      ∨ ¬cond3_0 i ∧ cond3_1 i ∧ X2 = pool3 X3 X4 ∧ X3 = acc3 x0 x1 xs0 ∧ X4 = cnt3 x0 xs1)
    {K : PUnit → sProp 𝕄} :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare X2
            ∗ owns (c : Thread nD τ) arg4 fullShare X3 ∗ owns (c : Thread nD τ) arg5 fullShare X4) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  obtain ⟨hc0, hc1, rfl, rfl, rfl⟩ | ⟨hc0, hc1, rfl, rfl, rfl⟩ | ⟨hc0, hc1, rfl, rfl, rfl⟩ := h
  all_goals
    sl_exec (disch := first | exact hc0 | exact hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    iexists _; isplitr; swap; iexact H4
    all_goals
      ipureintro; try sl_unfold_run_names
      try simp only [View.readCov_eq_canon_ld _ _ _ (cover3_a _), View.readCov_eq_canon_ld _ _ _ (cover3_c _)]
      try first | exact View.read_writes_eq_canon _ _ _ (cover3_a _) | exact View.read_writes_eq_canon _ _ _ (cover3_c _)

end Cert.KernelIdeal.Gen

end
-- ==== Proof.KI.R3.lean ====
import proofs.«403813_j11570641895563_3_alg».proof.Proof.KI.R3Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The output block and the two accumulators after each point, by recursion on the point.
def outsAt3 (c : Dev nD) : (n : ℕ) → n < cfg3.N → Vec F S64x128 .f32 × Vec F S64x128 .f32 × Vec F S64x1 .f32
  | 0, hn =>
    (pool3 (acc3 (iblk3 V c 0 ⟨0, hn⟩) (iblk3 V c 1 ⟨0, hn⟩) acc3_init) (cnt3 (iblk3 V c 0 ⟨0, hn⟩) cnt3_init),
      acc3 (iblk3 V c 0 ⟨0, hn⟩) (iblk3 V c 1 ⟨0, hn⟩) acc3_init, cnt3 (iblk3 V c 0 ⟨0, hn⟩) cnt3_init)
  | n + 1, hn =>
    (pool3 (acc3 (iblk3 V c 0 ⟨n + 1, hn⟩) (iblk3 V c 1 ⟨n + 1, hn⟩) (outsAt3 c n (Nat.lt_of_succ_lt hn)).2.1)
        (cnt3 (iblk3 V c 0 ⟨n + 1, hn⟩) (outsAt3 c n (Nat.lt_of_succ_lt hn)).2.2),
      acc3 (iblk3 V c 0 ⟨n + 1, hn⟩) (iblk3 V c 1 ⟨n + 1, hn⟩) (outsAt3 c n (Nat.lt_of_succ_lt hn)).2.1,
      cnt3 (iblk3 V c 0 ⟨n + 1, hn⟩) (outsAt3 c n (Nat.lt_of_succ_lt hn)).2.2)

theorem outsAt3_A (c : Dev nD) (t : Fin cfg3.N) (h0 : t.val = 0) :
    outsAt3 V c t.val t.isLt =
      (pool3 (acc3 (iblk3 V c 0 t) (iblk3 V c 1 t) acc3_init) (cnt3 (iblk3 V c 0 t) cnt3_init),
        acc3 (iblk3 V c 0 t) (iblk3 V c 1 t) acc3_init, cnt3 (iblk3 V c 0 t) cnt3_init) := by
  obtain ⟨_ | n, hn⟩ := t
  exacts [rfl, absurd h0 n.succ_ne_zero]

theorem outsAt3_B (c : Dev nD) (t : Fin cfg3.N) (h0 : ¬t.val = 0) :
    outsAt3 V c t.val t.isLt =
      (pool3 (acc3 (iblk3 V c 0 t) (iblk3 V c 1 t) (outsAt3 V c (t.val - 1) (Nat.lt_of_le_of_lt (Nat.sub_le _ _) t.isLt)).2.1)
          (cnt3 (iblk3 V c 0 t) (outsAt3 V c (t.val - 1) (Nat.lt_of_le_of_lt (Nat.sub_le _ _) t.isLt)).2.2),
        acc3 (iblk3 V c 0 t) (iblk3 V c 1 t) (outsAt3 V c (t.val - 1) (Nat.lt_of_le_of_lt (Nat.sub_le _ _) t.isLt)).2.1,
        cnt3 (iblk3 V c 0 t) (outsAt3 V c (t.val - 1) (Nat.lt_of_le_of_lt (Nat.sub_le _ _) t.isLt)).2.2) := by
  obtain ⟨_ | n, hn⟩ := t
  exacts [absurd rfl h0, rfl]

theorem outsAt3_fst (c : Dev nD) (n : ℕ) (hn : n < cfg3.N) :
    (outsAt3 V c n hn).1 = pool3 (outsAt3 V c n hn).2.1 (outsAt3 V c n hn).2.2 := by
  cases n <;> rfl

abbrev scM3_0 : Memref sig .tc .vmem S64x128 .f32 := Memref.whole cc3_scratch0
abbrev scM3_1 : Memref sig .tc .vmem S64x1 .f32 := Memref.whole cc3_scratch1

-- Both accumulators at named contents, beside the untouched remainder of the region's resources.
def PhiS3_at (c : Dev nD) (a : Vec F S64x128 .f32) (n : Vec F S64x1 .f32) : sProp 𝕄 :=
  iprop(iprop(iprop(owns (c : Thread nD τ) scM3_0 fullShare a ∗ owns (c : Thread nD τ) scM3_1 fullShare n)
    ∗ Pipeline.scopedRestBut spec3 c [cc3_scratch0, cc3_scratch1]) ∗ (∃ r, prngReg c r))

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut spec3 c [cc3_scratch0, cc3_scratch1]) ∗ (∃ r, prngReg c r)) := by
  unfold Pipeline.ΦA; rw [scopedRest3_split]; simp only [scM3_0, scM3_1, owns_whole]; try rfl

-- The invariant before position n: what the launch hands over, then the accumulators as the point before left them.
def PhiS3 (c : Dev nD) : (n : ℕ) → n ≤ cfg3.N → sProp 𝕄
  | 0, _ => Pipeline.ΦA spec3 c
  | n + 1, hn => PhiS3_at c (outsAt3 V c n hn).2.1 (outsAt3 V c n hn).2.2

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = PhiS3_at c (outsAt3 V c (n - 1) (by omega)).2.1 (outsAt3 V c (n - 1) (by omega)).2.2 := by
  obtain _ | n := n
  exacts [absurd rfl hz, rfl]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem after3_2 (c : Dev nD) (t : Fin cfg3.N) : (dat3 V c).after 2 t = (outsAt3 V c t.val t.isLt).1 := by dsimp only [dat3]

theorem before3 (c : Dev nD) (t : Fin cfg3.N) :
    (∀ d, (dat3 V c).before 0 t d = iblk3 V c 0 t) ∧ (∀ d, (dat3 V c).before 1 t d = iblk3 V c 1 t) := by
  refine ⟨?_, ?_⟩ <;> intro d <;>
    exact ((dat3 V c).before_in_eq_fetched _ rfl (fun _ => rfl) (fun _ _ _ => rfl) (fun _ => rfl) t d).trans rfl

-- The body at any point, by the three control cases of the kernel's triple; the framing is the same in all three.
theorem sound_body3 (c : Dev nD) (t : Fin cfg3.N) :
    iprop(PhiS3 V c t.val (Nat.le_of_lt t.isLt) ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop(PhiS3_at c (outsAt3 V c t.val t.isLt).2.1 (outsAt3 V c t.val t.isLt).2.2 ∗ (dat3 V c).owesAt () t.castSucc
        ∗ owns (c : Thread nD τ) (st3_0 t) fullShare (iblk3 V c 0 t) ∗ owns (c : Thread nD τ) (st3_1 t) fullShare (iblk3 V c 1 t)
        ∗ (dat3 V c).leavesExact 2 t)) := by
  unfold bodyAt3
  obtain ⟨b0, b1⟩ := before3 V c t
  simp only [b0, b1]
  obtain ⟨hc0, hc1, h0, hi, hf⟩ | ⟨hc0, hc1, h0, hi, hf⟩ | ⟨hc0, hc1, h0, hi⟩ := hcond3 t
  all_goals
    first
    | rw [Dat.leavesExact_idle (dat3 V c) 2 t hi hf]
    | rw [show (dat3 V c).leavesExact 2 t = owns (c : Thread nD τ) (st3_2 t) fullShare ((dat3 V c).after 2 t) from by
        unfold Dat.leavesExact; rw [hi], after3_2]
    first
    | rw [outsAt3_A V c t h0, PhiS3_zero V c _ _ h0, PhiA3_eq]
    | rw [outsAt3_B V c t h0, PhiS3_pos V c _ _ h0]
    unfold PhiS3_at
    first
    | iintro ⟨⟨⟨⟨⟨%a, HS0⟩, ⟨%k, HS1⟩⟩, Hr⟩, Hg⟩, Ho, ⟨%d0, H0⟩, ⟨%d1, H1⟩, ⟨%d2, H2⟩⟩
    | iintro ⟨⟨⟨⟨HS0, HS1⟩, Hr⟩, Hg⟩, Ho, ⟨%d0, H0⟩, ⟨%d1, H1⟩, ⟨%d2, H2⟩⟩
    first
    | iapply (sound_kernel3 (.inl ⟨hc0, hc1, rfl, rfl, rfl⟩))
    | iapply (sound_kernel3 (.inr (.inl ⟨hc0, hc1, rfl, rfl, rfl⟩)))
    | iapply (sound_kernel3 (.inr (.inr ⟨hc0, hc1, rfl, rfl, rfl⟩)))
    iframe H0 H1 H2 HS0 HS1
    iintro ⟨H0, H1, H2, HS0, HS1⟩
    iframe HS0 HS1 Hr Hg Ho H0 H1
    first | iexact H2 | (iexists _; iexact H2)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

-- After the last point the accumulators' named contents are forgotten.
theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiS3_pos V c _ _ (by decide), PhiA3_eq]
  unfold PhiS3_at
  iintro ⟨⟨⟨HS0, HS1⟩, Hr⟩, Hg⟩
  iframe Hr Hg
  isplitl [HS0] <;> iexists _ <;> iassumption

end Cert.KernelIdeal.Gen

end
-- ==== Proof.KI.R4.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S2000x1 := Rect.unit (s := S2000x1) ![0, 0] S2000x1.size inb_S2000x1_S2000x1_0_0

def out4_3 (x0 : Vec F S2000x128 .f32) (x1 : Vec F S128x128 .f32) (x2 : Vec F S2000x1 .f32) : Vec F S2000x128 .bf16 :=
  View.canon [⟨r4_0, k4_pay1 (View.ld x0 r4_0) (View.ld x1 r4_1) (View.ld x2 r4_2)⟩]

set_option maxHeartbeats 1000000 in
-- One store covers the whole output, so the result does not depend on what the output held before.
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out4_3 x0 x1 x2)) -∗ K ⟨⟩))
      ⊢ wp frame (wpE (defs₀ (F := F)) Variants.none c none) E (cc4__linear_scaled_kernel i arg1 harg1 arg2 harg2 arg3 harg3 arg4 harg4) K := by
  simp only [cc4__linear_scaled_kernel_eq_skeleton]; unfold cc4__linear_scaled_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  iexists _; isplitr
  swap; · iexact H3
  ipureintro
  exact View.read_writes_eq_canon _ _ _ (View.cover_of_tiled _ S2000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) : (dat4 V c).after 3 t = out4_3 (iblk4 V c 0 t) (iblk4 V c 1 t) (iblk4 V c 2 t) := by dsimp only [dat4]

-- For an input window the contents on entry to the body at a point are those it leaves there: the body only reads them.
theorem before4 (c : Dev nD) (w : Fin cfg4.W) (hw : (cfg4.win w).isOut = false) (t : Fin cfg4.N) (d) :
    (dat4 V c).before w t d = (dat4 V c).after w t := by
  fin_cases w <;> first
    | exact absurd hw (by decide)
    | exact ((dat4 V c).before_in_eq_fetched _ rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  show _ ⊢ wp _ _ _ (bodyAt4 t) _
  dsimp only
  iintro ⟨HΦ, Ho, ⟨%d0, H0⟩, ⟨%d1, H1⟩, ⟨%d2, H2⟩, ⟨%d3, H3⟩⟩
  rw [before4 V c 0 rfl, before4 V c 1 rfl, before4 V c 2 rfl]
  iapply (sound_kernel4 c Set.univ (grid4.coords t) _ _ _ _ _ _ _ _ _ _ _ _)
  iframe H0 H1 H2
  isplitl [H3]; · iexists _; iexact H3
  iintro ⟨H0, H1, H2, H3⟩
  dsimp only [dat4]
  iframe
  iexact Ho

end Cert.KernelIdeal.Gen

end
-- ==== Proof.KI.R5.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x1 := Rect.unit (s := S2000x1) ![0, 0] S2000x1.size inb_S2000x1_S2000x1_0_0
abbrev r5_1 : Rect S2000x128 := Rect.unit (s := S2000x128) ![0, 0] S2000x128.size inb_S2000x128_S2000x128_0_0
abbrev r5_2 : Rect S1x128 := Rect.unit (s := S1x128) ![0, 0] S1x128.size inb_S1x128_S1x128_0_0
abbrev r5_3 : Rect S128x128 := Rect.unit (s := S128x128) ![0, 0] S128x128.size inb_S128x128_S128x128_0_0

def out5_5 (x0 : Vec F S2000x128 .f32) (x1 : Vec F S2000x128 .bf16) (x2 : Vec F S2000x1 .f32) (x3 : Vec F S1x128 .f32) (x4 : Vec F S128x128 .f32) :
    Vec F S2000x128 .bf16 :=
  View.canon [⟨r5_1, k5_pay1 (View.ld x2 r5_0) (View.ld x0 r5_1) (View.ld x1 r5_1) (View.ld x3 r5_2) (View.ld x4 r5_3)⟩]

set_option maxHeartbeats 1000000 in
-- One store covers the whole output, so the result does not depend on what the output held before.
theorem sound_kernel5 (c : Dev nD) (E : Set ℕ) (i : grid5.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .bf16) (harg6 : arg6.IsWhole)
    (x0 : Vec F S2000x128 .f32) (x1 : Vec F S2000x128 .bf16) (x2 : Vec F S2000x1 .f32) (x3 : Vec F S1x128 .f32) (x4 : Vec F S128x128 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out5_5 x0 x1 x2 x3 x4)) -∗ K ⟨⟩))
      ⊢ wp frame (wpE (defs₀ (F := F)) Variants.none c none) E (cc5__fused_combine_linear_kernel i arg1 harg1 arg2 harg2 arg3 harg3 arg4 harg4 arg5 harg5 arg6 harg6) K := by
  simp only [cc5__fused_combine_linear_kernel_eq_skeleton]; unfold cc5__fused_combine_linear_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr
  swap; · iexact H5
  ipureintro
  exact View.read_writes_eq_canon _ _ _ (View.cover_of_tiled _ S2000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

-- For an input window the contents on entry to the body at a point are those it leaves there: the body only reads them.
theorem before5 (c : Dev nD) (w : Fin cfg5.W) (hw : (cfg5.win w).isOut = false) (t : Fin cfg5.N) (d) :
    (dat5 V c).before w t d = (dat5 V c).after w t := by
  fin_cases w <;> first
    | exact absurd hw (by decide)
    | exact ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp _ _ _ (bodyAt5 t) _
  dsimp only
  iintro ⟨HΦ, Ho, ⟨%d0, H0⟩, ⟨%d1, H1⟩, ⟨%d2, H2⟩, ⟨%d3, H3⟩, ⟨%d4, H4⟩, ⟨%d5, H5⟩⟩
  rw [before5 V c 0 rfl, before5 V c 1 rfl, before5 V c 2 rfl, before5 V c 3 rfl, before5 V c 4 rfl]
  iapply (sound_kernel5 c Set.univ (grid5.coords t) _ _ _ _ _ _ _ _ _ _ _ _ _ _ _ _ _ _)
  iframe H0 H1 H2 H3 H4
  isplitl [H5]; · iexists _; iexact H5
  iintro ⟨H0, H1, H2, H3, H4, H5⟩
  dsimp only [dat5]
  iframe
  iexact Ho

end Cert.KernelIdeal.Gen

end
-- ==== Proof.KI.R6.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S2000x1 := Rect.unit (s := S2000x1) ![0, 0] S2000x1.size inb_S2000x1_S2000x1_0_0
abbrev r6_2 : Rect S1x128 := Rect.unit (s := S1x128) ![0, 0] S1x128.size inb_S1x128_S1x128_0_0

def out6_4 (x0 : Vec F S2000x128 .f32) (x1 : Vec F S2000x128 .bf16) (x2 : Vec F S2000x1 .f32) (x3 : Vec F S1x128 .f32) : Vec F S2000x128 .f32 :=
  View.canon [⟨r6_0, k6_pay1 (View.ld x2 r6_1) (View.ld x0 r6_0) (View.ld x1 r6_0) (View.ld x3 r6_2)⟩]

set_option maxHeartbeats 1000000 in
-- One store covers the whole output, so the result does not depend on what the output held before.
theorem sound_kernel6 (c : Dev nD) (E : Set ℕ) (i : grid6.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .bf16) (x2 : Vec F S2000x1 .f32) (x3 : Vec F S1x128 .f32) (K : PUnit → sProp 𝕄) :
    iprop(owns c arg1 fullShare x0 ∗ owns c arg2 fullShare x1 ∗ owns c arg3 fullShare x2 ∗ owns c arg4 fullShare x3 ∗ (∃ d, owns c arg5 fullShare d)
        ∗ (iprop(owns c arg1 fullShare x0 ∗ owns c arg2 fullShare x1 ∗ owns c arg3 fullShare x2 ∗ owns c arg4 fullShare x3 ∗ owns c arg5 fullShare (out6_4 x0 x1 x2 x3)) -∗ K ⟨⟩))
      ⊢ wp frame (wpE (defs₀ (F := F)) Variants.none c none) E (cc6__combine_final_kernel i arg1 harg1 arg2 harg2 arg3 harg3 arg4 harg4 arg5 harg5) K := by
  simp only [cc6__combine_final_kernel_eq_skeleton]; unfold cc6__combine_final_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  iexists _; isplitr
  swap; · iexact H4
  ipureintro
  exact View.read_writes_eq_canon _ _ _ (View.cover_of_tiled _ S2000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem after6_4 (c : Dev nD) (t : Fin cfg6.N) : (dat6 V c).after 4 t = out6_4 (iblk6 V c 0 t) (iblk6 V c 1 t) (iblk6 V c 2 t) (iblk6 V c 3 t) := by dsimp only [dat6]

-- For an input window the contents on entry to the body at a point are those it leaves there: the body only reads them.
theorem before6 (c : Dev nD) (w : Fin cfg6.W) (hw : (cfg6.win w).isOut = false) (t : Fin cfg6.N) (d) :
    (dat6 V c).before w t d = (dat6 V c).after w t := by
  fin_cases w <;> first
    | exact absurd hw (by decide)
    | exact ((dat6 V c).before_in_eq_fetched _ rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  show _ ⊢ wp _ _ _ (bodyAt6 t) _
  dsimp only
  iintro ⟨HΦ, Ho, ⟨%d0, H0⟩, ⟨%d1, H1⟩, ⟨%d2, H2⟩, ⟨%d3, H3⟩, ⟨%d4, H4⟩⟩
  rw [before6 V c 0 rfl, before6 V c 1 rfl, before6 V c 2 rfl, before6 V c 3 rfl]
  iapply (sound_kernel6 c Set.univ (grid6.coords t) _ _ _ _ _ _ _ _ _ _ _ _ _ _ _)
  iframe H0 H1 H2 H3
  isplitl [H4]; · iexists _; iexact H4
  iintro ⟨H0, H1, H2, H3, H4⟩
  dsimp only [dat6]
  iframe
  iexact Ho

end Cert.KernelIdeal.Gen

end
-- ==== Proof.KI.R7Runs.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond7_0 (i : grid7.Coords) : Prop := (Scalar.cmpi .ne (Scalar.extui (Scalar.cmpi .eq (BitVec.ofNat 32 (i 0).val) 0#32)) 0#32) = 1#1
abbrev cond7_1 (i : grid7.Coords) : Prop := k7_cond2 i = 1#1

-- Every point is the first, a middle or the last one.
theorem hcond7 : ∀ t : Fin cfg7.N,
    cond7_0 (grid7.coords t) ∧ ¬cond7_1 (grid7.coords t) ∧ t.val = 0 ∧ cfg7.idle 2 (grid7.coords t) = true ∧ (cfg7.win 2).flush t = false
    ∨ ¬cond7_0 (grid7.coords t) ∧ ¬cond7_1 (grid7.coords t) ∧ t.val ≠ 0 ∧ cfg7.idle 2 (grid7.coords t) = true ∧ (cfg7.win 2).flush t = false
    ∨ ¬cond7_0 (grid7.coords t) ∧ cond7_1 (grid7.coords t) ∧ t.val ≠ 0 ∧ cfg7.idle 2 (grid7.coords t) = false := by decide +kernel

abbrev r7_i : Rect S1x2944 := Rect.unit (s := S1x2944) ![0, 0] S1x2944.size inb_S1x2944_S1x2944_0_0
abbrev r7_h : Rect S2944x128 := Rect.unit (s := S2944x128) ![0, 0] S2944x128.size inb_S2944x128_S2944x128_0_0
abbrev r7_a : Rect S64x128 := Rect.unit (s := S64x128) ![0, 0] S64x128.size inb_S64x128_S64x128_0_0
abbrev r7_c : Rect S64x1 := Rect.unit (s := S64x1) ![0, 0] S64x1.size inb_S64x1_S64x1_0_0

-- A single piece spanning the whole shape covers every index.
theorem cover7_a (p0 : Vec F S64x128 .f32) (y : S64x128.Idx) :
    ∃ pc ∈ ([⟨r7_a, p0⟩] : List (View.Piece (Elt F) S64x128 .f32)), y ∈ pc.1.set :=
  View.cover_of_tiled [⟨r7_a, p0⟩] S64x128.size (by rfl) y
theorem cover7_c (p0 : Vec F S64x1 .f32) (y : S64x1.Idx) :
    ∃ pc ∈ ([⟨r7_c, p0⟩] : List (View.Piece (Elt F) S64x1 .f32)), y ∈ pc.1.set :=
  View.cover_of_tiled [⟨r7_c, p0⟩] S64x1.size (by rfl) y

def acc7_init : Vec F S64x128 .f32 := View.canon [⟨r7_a, k7_pay1 (F := F)⟩]
def cnt7_init : Vec F S64x1 .f32 := View.canon [⟨r7_c, k7_pay2 (F := F)⟩]
def acc7 (x0 : Vec F S1x2944 .i32) (x1 : Vec F S2944x128 .f32) (a : Vec F S64x128 .f32) : Vec F S64x128 .f32 :=
  View.canon [⟨r7_a, k7_pay4 (View.ld x0 r7_i) (View.ld a r7_a) (View.ld x1 r7_h)⟩]
def cnt7 (x0 : Vec F S1x2944 .i32) (n : Vec F S64x1 .f32) : Vec F S64x1 .f32 :=
  View.canon [⟨r7_c, k7_pay5 (View.ld x0 r7_i) (View.ld n r7_c)⟩]
def pool7 (a : Vec F S64x128 .f32) (n : Vec F S64x1 .f32) : Vec F S64x128 .f32 :=
  View.canon [⟨r7_a, k7_pay6 (View.ld a r7_a) (View.ld n r7_c)⟩]

-- The body's triple in its three control cases: first point (accumulators zeroed, then advanced), middle point (advanced), last point (advanced, quotient stored).
theorem sound_kernel7 {c : Dev nD} {E : Set ℕ} {i : grid7.Coords} {arg1 : Memref sig .tc .vmem S1x2944 .i32} {harg1 : arg1.IsWhole} {arg2 : Memref sig .tc .vmem S2944x128 .f32} {harg2 : arg2.IsWhole} {arg3 : Memref sig .tc .vmem S64x128 .f32} {harg3 : arg3.IsWhole} {arg4 : Memref sig .tc .vmem S64x128 .f32} {harg4 : arg4.IsWhole} {arg5 : Memref sig .tc .vmem S64x1 .f32} {harg5 : arg5.IsWhole}
    {x0 : Vec F S1x2944 .i32} {x1 : Vec F S2944x128 .f32} {xi2 xs0 X2 X3 : Vec F S64x128 .f32} {xs1 X4 : Vec F S64x1 .f32}
    (h : cond7_0 i ∧ ¬cond7_1 i ∧ X2 = xi2 ∧ X3 = acc7 x0 x1 acc7_init ∧ X4 = cnt7 x0 cnt7_init
      ∨ ¬cond7_0 i ∧ ¬cond7_1 i ∧ X2 = xi2 ∧ X3 = acc7 x0 x1 xs0 ∧ X4 = cnt7 x0 xs1
      ∨ ¬cond7_0 i ∧ cond7_1 i ∧ X2 = pool7 X3 X4 ∧ X3 = acc7 x0 x1 xs0 ∧ X4 = cnt7 x0 xs1)
    {K : PUnit → sProp 𝕄} :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare X2
            ∗ owns (c : Thread nD τ) arg4 fullShare X3 ∗ owns (c : Thread nD τ) arg5 fullShare X4) -∗ K ⟨⟩))
      ⊢ wp frame (wpE (defs₀ (F := F)) Variants.none c none) E (cc7__pool_kernel i arg1 harg1 arg2 harg2 arg3 harg3 arg4 harg4 arg5 harg5) K := by
  simp only [cc7__pool_kernel_eq_skeleton]; unfold cc7__pool_kernel_skel owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  obtain ⟨hc0, hc1, rfl, rfl, rfl⟩ | ⟨hc0, hc1, rfl, rfl, rfl⟩ | ⟨hc0, hc1, rfl, rfl, rfl⟩ := h
  all_goals
    sl_exec (disch := first | exact hc0 | exact hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    iexists _; isplitr; swap; iexact H4
    all_goals
      ipureintro; try sl_unfold_run_names
      try simp only [View.readCov_eq_canon_ld _ _ _ (cover7_a _), View.readCov_eq_canon_ld _ _ _ (cover7_c _)]
      try first | exact View.read_writes_eq_canon _ _ _ (cover7_a _) | exact View.read_writes_eq_canon _ _ _ (cover7_c _)

end Cert.KernelIdeal.Gen

end
-- ==== Proof.KI.R7.lean ====
import proofs.«403813_j11570641895563_3_alg».proof.Proof.KI.R7Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- The output block and the two accumulators after each point, by recursion on the point.
def outsAt7 (c : Dev nD) : (n : ℕ) → n < cfg7.N → Vec F S64x128 .f32 × Vec F S64x128 .f32 × Vec F S64x1 .f32
  | 0, hn =>
    (pool7 (acc7 (iblk7 V c 0 ⟨0, hn⟩) (iblk7 V c 1 ⟨0, hn⟩) acc7_init) (cnt7 (iblk7 V c 0 ⟨0, hn⟩) cnt7_init),
      acc7 (iblk7 V c 0 ⟨0, hn⟩) (iblk7 V c 1 ⟨0, hn⟩) acc7_init, cnt7 (iblk7 V c 0 ⟨0, hn⟩) cnt7_init)
  | n + 1, hn =>
    (pool7 (acc7 (iblk7 V c 0 ⟨n + 1, hn⟩) (iblk7 V c 1 ⟨n + 1, hn⟩) (outsAt7 c n (Nat.lt_of_succ_lt hn)).2.1)
        (cnt7 (iblk7 V c 0 ⟨n + 1, hn⟩) (outsAt7 c n (Nat.lt_of_succ_lt hn)).2.2),
      acc7 (iblk7 V c 0 ⟨n + 1, hn⟩) (iblk7 V c 1 ⟨n + 1, hn⟩) (outsAt7 c n (Nat.lt_of_succ_lt hn)).2.1,
      cnt7 (iblk7 V c 0 ⟨n + 1, hn⟩) (outsAt7 c n (Nat.lt_of_succ_lt hn)).2.2)

theorem outsAt7_A (c : Dev nD) (t : Fin cfg7.N) (h0 : t.val = 0) :
    outsAt7 V c t.val t.isLt =
      (pool7 (acc7 (iblk7 V c 0 t) (iblk7 V c 1 t) acc7_init) (cnt7 (iblk7 V c 0 t) cnt7_init),
        acc7 (iblk7 V c 0 t) (iblk7 V c 1 t) acc7_init, cnt7 (iblk7 V c 0 t) cnt7_init) := by
  obtain ⟨_ | n, hn⟩ := t
  exacts [rfl, absurd h0 n.succ_ne_zero]

theorem outsAt7_B (c : Dev nD) (t : Fin cfg7.N) (h0 : ¬t.val = 0) :
    outsAt7 V c t.val t.isLt =
      (pool7 (acc7 (iblk7 V c 0 t) (iblk7 V c 1 t) (outsAt7 V c (t.val - 1) (Nat.lt_of_le_of_lt (Nat.sub_le _ _) t.isLt)).2.1)
          (cnt7 (iblk7 V c 0 t) (outsAt7 V c (t.val - 1) (Nat.lt_of_le_of_lt (Nat.sub_le _ _) t.isLt)).2.2),
        acc7 (iblk7 V c 0 t) (iblk7 V c 1 t) (outsAt7 V c (t.val - 1) (Nat.lt_of_le_of_lt (Nat.sub_le _ _) t.isLt)).2.1,
        cnt7 (iblk7 V c 0 t) (outsAt7 V c (t.val - 1) (Nat.lt_of_le_of_lt (Nat.sub_le _ _) t.isLt)).2.2) := by
  obtain ⟨_ | n, hn⟩ := t
  exacts [absurd rfl h0, rfl]

theorem outsAt7_fst (c : Dev nD) (n : ℕ) (hn : n < cfg7.N) :
    (outsAt7 V c n hn).1 = pool7 (outsAt7 V c n hn).2.1 (outsAt7 V c n hn).2.2 := by
  cases n <;> rfl

abbrev scM7_0 : Memref sig .tc .vmem S64x128 .f32 := Memref.whole cc7_scratch0
abbrev scM7_1 : Memref sig .tc .vmem S64x1 .f32 := Memref.whole cc7_scratch1

-- Both accumulators at named contents, beside the untouched remainder of the region's resources.
def PhiS7_at (c : Dev nD) (a : Vec F S64x128 .f32) (n : Vec F S64x1 .f32) : sProp 𝕄 :=
  iprop(iprop(iprop(owns (c : Thread nD τ) scM7_0 fullShare a ∗ owns (c : Thread nD τ) scM7_1 fullShare n)
    ∗ Pipeline.scopedRestBut spec7 c [cc7_scratch0, cc7_scratch1]) ∗ (∃ r, prngReg c r))

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut spec7 c [cc7_scratch0, cc7_scratch1]) ∗ (∃ r, prngReg c r)) := by
  unfold Pipeline.ΦA; rw [scopedRest7_split]; simp only [scM7_0, scM7_1, owns_whole]; try rfl

-- The invariant before position n: what the launch hands over, then the accumulators as the point before left them.
def PhiS7 (c : Dev nD) : (n : ℕ) → n ≤ cfg7.N → sProp 𝕄
  | 0, _ => Pipeline.ΦA spec7 c
  | n + 1, hn => PhiS7_at c (outsAt7 V c n hn).2.1 (outsAt7 V c n hn).2.2

theorem PhiS7_zero (c : Dev nD) (n : ℕ) (h : n ≤ cfg7.N) (hz : n = 0) : PhiS7 V c n h = Pipeline.ΦA spec7 c := by
  subst hz; rfl

theorem PhiS7_pos (c : Dev nD) (n : ℕ) (h : n ≤ cfg7.N) (hz : n ≠ 0) :
    PhiS7 V c n h = PhiS7_at c (outsAt7 V c (n - 1) (by omega)).2.1 (outsAt7 V c (n - 1) (by omega)).2.2 := by
  obtain _ | n := n
  exacts [absurd rfl hz, rfl]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem after7_2 (c : Dev nD) (t : Fin cfg7.N) : (dat7 V c).after 2 t = (outsAt7 V c t.val t.isLt).1 := by dsimp only [dat7]

theorem before7 (c : Dev nD) (t : Fin cfg7.N) :
    (∀ d, (dat7 V c).before 0 t d = iblk7 V c 0 t) ∧ (∀ d, (dat7 V c).before 1 t d = iblk7 V c 1 t) := by
  refine ⟨?_, ?_⟩ <;> intro d <;>
    exact ((dat7 V c).before_in_eq_fetched _ rfl (fun _ => rfl) (fun _ _ _ => rfl) (fun _ => rfl) t d).trans rfl

-- The body at any point, by the three control cases of the kernel's triple; the framing is the same in all three.
theorem sound_body7 (c : Dev nD) (t : Fin cfg7.N) :
    iprop(PhiS7 V c t.val (Nat.le_of_lt t.isLt) ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d)))
    ⊢ wp frame (wpE (defs₀ (F := F)) Variants.none c none) Set.univ (bodyAt7 t) (fun _ =>
      iprop(PhiS7_at c (outsAt7 V c t.val t.isLt).2.1 (outsAt7 V c t.val t.isLt).2.2 ∗ (dat7 V c).owesAt () t.castSucc
        ∗ owns (c : Thread nD τ) (st7_0 t) fullShare (iblk7 V c 0 t) ∗ owns (c : Thread nD τ) (st7_1 t) fullShare (iblk7 V c 1 t)
        ∗ (dat7 V c).leavesExact 2 t)) := by
  unfold bodyAt7
  obtain ⟨b0, b1⟩ := before7 V c t
  simp only [b0, b1]
  obtain ⟨hc0, hc1, h0, hi, hf⟩ | ⟨hc0, hc1, h0, hi, hf⟩ | ⟨hc0, hc1, h0, hi⟩ := hcond7 t
  all_goals
    first
    | rw [Dat.leavesExact_idle (dat7 V c) 2 t hi hf]
    | rw [show (dat7 V c).leavesExact 2 t = owns (c : Thread nD τ) (st7_2 t) fullShare ((dat7 V c).after 2 t) from by
        unfold Dat.leavesExact; rw [hi], after7_2]
    first
    | rw [outsAt7_A V c t h0, PhiS7_zero V c _ _ h0, PhiA7_eq]
    | rw [outsAt7_B V c t h0, PhiS7_pos V c _ _ h0]
    unfold PhiS7_at
    first
    | iintro ⟨⟨⟨⟨⟨%a, HS0⟩, ⟨%k, HS1⟩⟩, Hr⟩, Hg⟩, Ho, ⟨%d0, H0⟩, ⟨%d1, H1⟩, ⟨%d2, H2⟩⟩
    | iintro ⟨⟨⟨⟨HS0, HS1⟩, Hr⟩, Hg⟩, Ho, ⟨%d0, H0⟩, ⟨%d1, H1⟩, ⟨%d2, H2⟩⟩
    first
    | iapply (sound_kernel7 (.inl ⟨hc0, hc1, rfl, rfl, rfl⟩))
    | iapply (sound_kernel7 (.inr (.inl ⟨hc0, hc1, rfl, rfl, rfl⟩)))
    | iapply (sound_kernel7 (.inr (.inr ⟨hc0, hc1, rfl, rfl, rfl⟩)))
    iframe H0 H1 H2 HS0 HS1
    iintro ⟨H0, H1, H2, HS0, HS1⟩
    iframe HS0 HS1 Hr Hg Ho H0 H1
    first | iexact H2 | (iexists _; iexact H2)

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := Idealize.SL.BI.Entails.refl _

-- After the last point the accumulators' named contents are forgotten.
theorem hout7 (c : Dev nD) : (dat7 V c).Φ (Fin.last cfg7.N) ⊢ Pipeline.ΦA spec7 c := by
  rw [show (dat7 V c).Φ (Fin.last cfg7.N) = PhiS7 V c cfg7.N (Nat.le_refl _) from rfl, PhiS7_pos V c _ _ (by decide), PhiA7_eq]
  unfold PhiS7_at
  iintro ⟨⟨⟨HS0, HS1⟩, Hr⟩, Hg⟩
  iframe Hr Hg
  isplitl [HS0] <;> iexists _ <;> iassumption

end Cert.KernelIdeal.Gen

end
-- ==== Proof.KI.R8.lean ====
import proofs.«403813_j11570641895563_3_alg».proof.Proof.Gen.KernelIdeal.Launch
import proofs.«403813_j11570641895563_3_alg».proof.Proof.Gen.KernelIdeal.Skeleton
import proofs.«403813_j11570641895563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S64x256 := Rect.unit (s := S64x256) ![0, 0] S64x256.size inb_S64x256_S64x256_0_0
abbrev r8_1 : Rect S256x128 := Rect.unit (s := S256x128) ![0, 0] S256x128.size inb_S256x128_S256x128_0_0
abbrev r8_2 : Rect S1x128 := Rect.unit (s := S1x128) ![0, 0] S1x128.size inb_S1x128_S1x128_0_0
abbrev r8_3 : Rect S128x1 := Rect.unit (s := S128x1) ![0, 0] S128x1.size inb_S128x1_S128x1_0_0
abbrev r8_4 : Rect S1x1 := Rect.unit (s := S1x1) ![0, 0] S1x1.size inb_S1x1_S1x1_0_0
abbrev r8_5 : Rect S64x1 := Rect.unit (s := S64x1) ![0, 0] S64x1.size inb_S64x1_S64x1_0_0

def out8_5 (feat : Vec F S64x256 .f32) (wHid : Vec F S256x128 .f32) (bHid : Vec F S1x128 .f32) (wOut : Vec F S128x1 .f32)
    (bOut : Vec F S1x1 .f32) : Vec F S64x1 .f32 :=
  View.canon [⟨r8_5, k8_pay1 (View.ld feat r8_0) (View.ld wHid r8_1) (View.ld bHid r8_2) (View.ld wOut r8_3) (View.ld bOut r8_4)⟩]

set_option maxHeartbeats 1000000 in
-- One store covers the whole output, so the result does not depend on what the output held before.
theorem sound_kernel8 (c : Dev nD) (E : Set ℕ) (i : grid8.Coords) (arg1 : Memref sig .tc .vmem S64x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole)
    (x0 : Vec F S64x256 .f32) (x1 : Vec F S256x128 .f32) (x2 : Vec F S1x128 .f32) (x3 : Vec F S128x1 .f32) (x4 : Vec F S1x1 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out8_5 x0 x1 x2 x3 x4)) -∗ K ⟨⟩))
      ⊢ wp frame (wpE (defs₀ (F := F)) Variants.none c none) E (cc8__mlp_kernel i arg1 harg1 arg2 harg2 arg3 harg3 arg4 harg4 arg5 harg5 arg6 harg6) K := by
  simp only [cc8__mlp_kernel_eq_skeleton]; unfold cc8__mlp_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr
  swap; · iexact H5
  ipureintro
  exact View.read_writes_eq_canon _ _ _ (View.cover_of_tiled _ S64x1.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

-- For an input window the contents on entry to the body at a point are those it leaves there: the body only reads them.
theorem before8 (c : Dev nD) (w : Fin cfg8.W) (hw : (cfg8.win w).isOut = false) (t : Fin cfg8.N) (d) :
    (dat8 V c).before w t d = (dat8 V c).after w t := by
  fin_cases w <;> first
    | exact absurd hw (by decide)
    | exact ((dat8 V c).before_in_eq_fetched _ rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  show _ ⊢ wp _ _ _ (bodyAt8 t) _
  dsimp only
  iintro ⟨HΦ, Ho, ⟨%d0, H0⟩, ⟨%d1, H1⟩, ⟨%d2, H2⟩, ⟨%d3, H3⟩, ⟨%d4, H4⟩, ⟨%d5, H5⟩⟩
  rw [before8 V c 0 rfl, before8 V c 1 rfl, before8 V c 2 rfl, before8 V c 3 rfl, before8 V c 4 rfl]
  iapply (sound_kernel8 c Set.univ (grid8.coords t) _ _ _ _ _ _ _ _ _ _ _ _ _ _ _ _ _ _)
  iframe H0 H1 H2 H3 H4
  isplitl [H5]; · iexists _; iexact H5
  iintro ⟨H0, H1, H2, H3, H4, H5⟩
  dsimp only [dat8]
  iframe
  iexact Ho

end Cert.KernelIdeal.Gen

end
-- ==== Proof.KI.Run.lean ====
import proofs.«403813_j11570641895563_3_alg».proof.Proof.KI.RunCond
import proofs.«403813_j11570641895563_3_alg».proof.Proof.KI.R0
import proofs.«403813_j11570641895563_3_alg».proof.Proof.KI.R1
import proofs.«403813_j11570641895563_3_alg».proof.Proof.KI.R2
import proofs.«403813_j11570641895563_3_alg».proof.Proof.KI.R3
import proofs.«403813_j11570641895563_3_alg».proof.Proof.KI.R4
import proofs.«403813_j11570641895563_3_alg».proof.Proof.KI.R5
import proofs.«403813_j11570641895563_3_alg».proof.Proof.KI.R6
import proofs.«403813_j11570641895563_3_alg».proof.Proof.KI.R7
import proofs.«403813_j11570641895563_3_alg».proof.Proof.KI.R8

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev B0 (c : Dev nD) : Valuation τ sig (Elt F) := V0 m c
abbrev B1 (c : Dev nD) : Valuation τ sig (Elt F) := StableHlo.after hostOps0 (B0 m c)
abbrev P1 : (c : Dev nD) → (b : Ref sig .tc) → Buf (Elt F) ((c : Thread nD τ).loc b) := fun c b => B1 m c b
def X2 (c : Dev nD) : Buf (Elt F) ((c : Thread nD τ).loc main_v17) := (dat0 (P1 m) c).arrAt (3 : Fin cfg0.W) cfg0.N
abbrev B2 (c : Dev nD) : Valuation τ sig (Elt F) := Function.update (B1 m c) main_v17 (X2 m c)
abbrev B3 (c : Dev nD) : Valuation τ sig (Elt F) := StableHlo.after hostOps1 (B2 m c)
abbrev P3 : (c : Dev nD) → (b : Ref sig .tc) → Buf (Elt F) ((c : Thread nD τ).loc b) := fun c b => B3 m c b
def X4 (c : Dev nD) : Buf (Elt F) ((c : Thread nD τ).loc main_v35) := (dat1 (P3 m) c).arrAt (5 : Fin cfg1.W) cfg1.N
abbrev B4 (c : Dev nD) : Valuation τ sig (Elt F) := Function.update (B3 m c) main_v35 (X4 m c)
abbrev B5 (c : Dev nD) : Valuation τ sig (Elt F) := StableHlo.after hostOps2 (B4 m c)
abbrev P5 : (c : Dev nD) → (b : Ref sig .tc) → Buf (Elt F) ((c : Thread nD τ).loc b) := fun c b => B5 m c b
def X6 (c : Dev nD) : Buf (Elt F) ((c : Thread nD τ).loc main_v53) := (dat2 (P5 m) c).arrAt (4 : Fin cfg2.W) cfg2.N
abbrev B6 (c : Dev nD) : Valuation τ sig (Elt F) := Function.update (B5 m c) main_v53 (X6 m c)
abbrev B7 (c : Dev nD) : Valuation τ sig (Elt F) := StableHlo.after hostOps3 (B6 m c)
abbrev B8 (c : Dev nD) : Valuation τ sig (Elt F) := StableHlo.after hostOps3_1 (B7 m c)
abbrev B9 (c : Dev nD) : Valuation τ sig (Elt F) := StableHlo.after hostOps3_2 (B8 m c)
abbrev B10 (c : Dev nD) : Valuation τ sig (Elt F) := StableHlo.after hostOps3_3 (B9 m c)
abbrev B11 (c : Dev nD) : Valuation τ sig (Elt F) := StableHlo.after hostOps3_4 (B10 m c)
abbrev P11 : (c : Dev nD) → (b : Ref sig .tc) → Buf (Elt F) ((c : Thread nD τ).loc b) := fun c b => B11 m c b
def X12 (c : Dev nD) : Buf (Elt F) ((c : Thread nD τ).loc main_v57) := (dat3 (P11 m) c).arrAt (2 : Fin cfg3.W) cfg3.N
abbrev B12 (c : Dev nD) : Valuation τ sig (Elt F) := Function.update (B11 m c) main_v57 (X12 m c)
abbrev B13 (c : Dev nD) : Valuation τ sig (Elt F) := StableHlo.after hostOps4 (B12 m c)
abbrev P13 : (c : Dev nD) → (b : Ref sig .tc) → Buf (Elt F) ((c : Thread nD τ).loc b) := fun c b => B13 m c b
def X14 (c : Dev nD) : Buf (Elt F) ((c : Thread nD τ).loc main_v75) := (dat4 (P13 m) c).arrAt (3 : Fin cfg4.W) cfg4.N
abbrev B14 (c : Dev nD) : Valuation τ sig (Elt F) := Function.update (B13 m c) main_v75 (X14 m c)
abbrev B15 (c : Dev nD) : Valuation τ sig (Elt F) := StableHlo.after hostOps5 (B14 m c)
abbrev P15 : (c : Dev nD) → (b : Ref sig .tc) → Buf (Elt F) ((c : Thread nD τ).loc b) := fun c b => B15 m c b
def X16 (c : Dev nD) : Buf (Elt F) ((c : Thread nD τ).loc main_v93) := (dat5 (P15 m) c).arrAt (5 : Fin cfg5.W) cfg5.N
abbrev B16 (c : Dev nD) : Valuation τ sig (Elt F) := Function.update (B15 m c) main_v93 (X16 m c)
abbrev B17 (c : Dev nD) : Valuation τ sig (Elt F) := StableHlo.after hostOps6 (B16 m c)
abbrev P17 : (c : Dev nD) → (b : Ref sig .tc) → Buf (Elt F) ((c : Thread nD τ).loc b) := fun c b => B17 m c b
def X18 (c : Dev nD) : Buf (Elt F) ((c : Thread nD τ).loc main_v111) := (dat6 (P17 m) c).arrAt (4 : Fin cfg6.W) cfg6.N
abbrev B18 (c : Dev nD) : Valuation τ sig (Elt F) := Function.update (B17 m c) main_v111 (X18 m c)
abbrev B19 (c : Dev nD) : Valuation τ sig (Elt F) := StableHlo.after hostOps7 (B18 m c)
abbrev B20 (c : Dev nD) : Valuation τ sig (Elt F) := StableHlo.after hostOps7_1 (B19 m c)
abbrev B21 (c : Dev nD) : Valuation τ sig (Elt F) := StableHlo.after hostOps7_2 (B20 m c)
abbrev B22 (c : Dev nD) : Valuation τ sig (Elt F) := StableHlo.after hostOps7_3 (B21 m c)
abbrev B23 (c : Dev nD) : Valuation τ sig (Elt F) := StableHlo.after hostOps7_4 (B22 m c)
abbrev P23 : (c : Dev nD) → (b : Ref sig .tc) → Buf (Elt F) ((c : Thread nD τ).loc b) := fun c b => B23 m c b
def X24 (c : Dev nD) : Buf (Elt F) ((c : Thread nD τ).loc main_v115) := (dat7 (P23 m) c).arrAt (2 : Fin cfg7.W) cfg7.N
abbrev B24 (c : Dev nD) : Valuation τ sig (Elt F) := Function.update (B23 m c) main_v115 (X24 m c)
abbrev B25 (c : Dev nD) : Valuation τ sig (Elt F) := StableHlo.after hostOps8 (B24 m c)
abbrev P25 : (c : Dev nD) → (b : Ref sig .tc) → Buf (Elt F) ((c : Thread nD τ).loc b) := fun c b => B25 m c b
def X26 (c : Dev nD) : Buf (Elt F) ((c : Thread nD τ).loc main_v119) := (dat8 (P25 m) c).arrAt (5 : Fin cfg8.W) cfg8.N
abbrev B26 (c : Dev nD) : Valuation τ sig (Elt F) := Function.update (B25 m c) main_v119 (X26 m c)

def outsB : Outs (F := F) := fun J r c => match J with
  | 2 => B2 m c r
  | 4 => B4 m c r
  | 6 => B6 m c r
  | 12 => B12 m c r
  | 14 => B14 m c r
  | 16 => B16 m c r
  | 18 => B18 m c r
  | 24 => B24 m c r
  | 26 => B26 m c r
  | _ => B0 m c r

/-- Updating at `r` by what an update of an equal valuation reads at `r` is that update. -/
theorem upd_eq {V B : Valuation τ sig (Elt F)} (h : V = B) {r : DevRef τ sig} {x : r.ty.Contents (Elt F)} :
    Function.update V r (Function.update B r x r) = Function.update B r x := by
  rw [h, Function.update_self]

theorem V2_eq (c : Dev nD) : V2 m (outsB m) c = B2 m c := upd_eq rfl
theorem V3_eq (c : Dev nD) : V3 m (outsB m) c = B3 m c := congrArg (StableHlo.after hostOps1) (V2_eq m c)
theorem V4_eq (c : Dev nD) : V4 m (outsB m) c = B4 m c := upd_eq (V3_eq m c)
theorem V5_eq (c : Dev nD) : V5 m (outsB m) c = B5 m c := congrArg (StableHlo.after hostOps2) (V4_eq m c)
theorem V6_eq (c : Dev nD) : V6 m (outsB m) c = B6 m c := upd_eq (V5_eq m c)
theorem V11_eq (c : Dev nD) : V11 m (outsB m) c = B11 m c := congrArg (fun v => StableHlo.after hostOps3_4 (StableHlo.after hostOps3_3 (StableHlo.after hostOps3_2 (StableHlo.after hostOps3_1 (StableHlo.after hostOps3 v))))) (V6_eq m c)
theorem V12_eq (c : Dev nD) : V12 m (outsB m) c = B12 m c := upd_eq (V11_eq m c)
theorem V13_eq (c : Dev nD) : V13 m (outsB m) c = B13 m c := congrArg (StableHlo.after hostOps4) (V12_eq m c)
theorem V14_eq (c : Dev nD) : V14 m (outsB m) c = B14 m c := upd_eq (V13_eq m c)
theorem V15_eq (c : Dev nD) : V15 m (outsB m) c = B15 m c := congrArg (StableHlo.after hostOps5) (V14_eq m c)
theorem V16_eq (c : Dev nD) : V16 m (outsB m) c = B16 m c := upd_eq (V15_eq m c)
theorem V17_eq (c : Dev nD) : V17 m (outsB m) c = B17 m c := congrArg (StableHlo.after hostOps6) (V16_eq m c)
theorem V18_eq (c : Dev nD) : V18 m (outsB m) c = B18 m c := upd_eq (V17_eq m c)
theorem V23_eq (c : Dev nD) : V23 m (outsB m) c = B23 m c := congrArg (fun v => StableHlo.after hostOps7_4 (StableHlo.after hostOps7_3 (StableHlo.after hostOps7_2 (StableHlo.after hostOps7_1 (StableHlo.after hostOps7 v))))) (V18_eq m c)
theorem V24_eq (c : Dev nD) : V24 m (outsB m) c = B24 m c := upd_eq (V23_eq m c)
theorem V25_eq (c : Dev nD) : V25 m (outsB m) c = B25 m c := congrArg (StableHlo.after hostOps8) (V24_eq m c)
theorem V26_eq (c : Dev nD) : V26 m (outsB m) c = B26 m c := upd_eq (V25_eq m c)

def pdats : (p : Fin 9) → (c : Dev nD) → Dat τ (Elt F) Unit ℕ (UR sig nD τ) ℕ (Pipeline.pin (pcfgs (F := F)) adm p) c
  | ⟨0, _⟩ => fun c => dat0 (P1 m) c
  | ⟨1, _⟩ => fun c => dat1 (P3 m) c
  | ⟨2, _⟩ => fun c => dat2 (P5 m) c
  | ⟨3, _⟩ => fun c => dat3 (P11 m) c
  | ⟨4, _⟩ => fun c => dat4 (P13 m) c
  | ⟨5, _⟩ => fun c => dat5 (P15 m) c
  | ⟨6, _⟩ => fun c => dat6 (P17 m) c
  | ⟨7, _⟩ => fun c => dat7 (P23 m) c
  | ⟨8, _⟩ => fun c => dat8 (P25 m) c

/-- The valuation `Bi` updated at the array of window `o` to the proof data's last contents of it. -/
abbrev Bo {p : Fin 9} (o : Fin (cfgs p).W) (Bi : Dev nD → Valuation τ sig (Elt F)) (c : Dev nD) : Valuation τ sig (Elt F) :=
  Function.update (Bi c) (Proc.devRef .tc (Pipeline.arrRef (cfgs p).spec o)) ((pdats m p c).arrAt o (cfgs p).N)

set_option backward.isDefEq.respectTransparency.types false in
/-- The segment record of a region entered at valuation `Bi` and left at `Bo`, when every window but `o` is an input. -/
def reg {p : Fin 9} (la : Pipeline.LaunchFacts (nD := nD) (τ := τ) cfgs p) (o : Fin (cfgs p).W)
    (hb : ∀ c, BodyObligation (pdats m p c) (defs₀ (F := F)) 𝒱₀ () Set.univ) (Bi : Dev nD → Valuation τ sig (Elt F))
    (ho : ∀ w, w ≠ o → ((cfgs p).win w).isOut = false := by decide)
    (hΦi : ∀ c, Pipeline.ΦA (cfgs p).spec c ⊢ (pdats m p c).Φ 0 := by exact fun _ => .rfl)
    (hΦo : ∀ c, (pdats m p c).Φ (Fin.last (cfgs p).N) ⊢ Pipeline.ΦA (cfgs p).spec c := by exact fun _ => .rfl)
    (hd : ∀ c, (∀ w, (pdats m p c).A w = Bi c (Proc.devRef .tc (Pipeline.arrRef (cfgs p).spec w))) ∧ (∀ w, (pdats m p c).q w = fullShare)
      ∧ ∀ t, (pdats m p c).owed t = 0 ∧ (pdats m p c).recorded t = Set.univ := by
        exact fun _ => ⟨fun _ => rfl, fun _ => rfl, fun _ => ⟨rfl, rfl⟩⟩) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c t => ((hd c).2.2 t).1
  pre c := iprop(StableHlo.held (c : Thread nD τ) (Pipeline.ucRefs τ sig) (Bi c) ∗ Rr c)
  post c := iprop(StableHlo.held (c : Thread nD τ) (Pipeline.ucRefs τ sig) (Bo m o Bi c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Bi c b
  hentry c := by
    have hsplit := Pipeline.arrays_of_unscopedBufs (p := p) (pcfgs (F := F)) adm (pdats m) la.win la.arr_whole c
      ((pdats m p c).share_full (hd c).2.1) (fun b => Bi c b) (hd c).1
    unfold Pipeline.Dat.owesAt Pipeline.owesWithin Pipeline.Dat.bound
    rw [Pipeline.unscopedBufs_held] at hsplit
    rw [Pipeline.ownSems0_none, ((hd c).2.2 _).1, ((hd c).2.2 _).2]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    have hi := hΦi c
    iintro ⟨Hp, -, Hr⟩
    iapply hi
    unfold Pipeline.ΦA
    isplitl [Hr]; · iexact Hr
    iexact Hp
  hout c := by
    have ho' := hΦo c
    rw [Pipeline.ownSems0_none]
    iintro H
    ihave H' := ho' $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hd c).2.1)
      (fun b => Bi c b) (fun b => Bo m o Bi c b) ((pdats m p c).arrAt · (cfgs p).N)
      (fun w => by
        by_cases h : w = o
        · subst h; exact (Function.update_self _ _ (Bi c)).symm
        · exact ((pdats m p c).arrAt_in w (ho w h) _).trans (((hd c).1 w).trans
            (Function.update_of_ne (StableHlo.devRef_ne_of_ne fun e => h (la.win.arr_inj e)) _ _).symm))
      fun b hb => Function.update_of_ne (StableHlo.devRef_ne_of_ne fun e => hb (Finset.mem_image.mpr ⟨o, Finset.mem_univ _, e.symm⟩)) _ _
    unfold Pipeline.Dat.owesAt Pipeline.owesWithin
    rw [Pipeline.unscopedBufs_held] at hjoin
    rw [((hd c).2.2 _).1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := reg m launch0 (3 : Fin cfg0.W) (fun c => body_obligation0 (P1 m) c) (B1 m)
def reg1 := reg m launch1 (5 : Fin cfg1.W) (fun c => body_obligation1 (P3 m) c) (B3 m)
def reg2 := reg m launch2 (4 : Fin cfg2.W) (fun c => body_obligation2 (P5 m) c) (B5 m)
def reg3 := reg m launch3 (2 : Fin cfg3.W) (fun c => body_obligation3 (P11 m) c) (B11 m) (hΦi := hin3 (P11 m)) (hΦo := hout3 (P11 m))
def reg4 := reg m launch4 (3 : Fin cfg4.W) (fun c => body_obligation4 (P13 m) c) (B13 m)
def reg5 := reg m launch5 (5 : Fin cfg5.W) (fun c => body_obligation5 (P15 m) c) (B15 m)
def reg6 := reg m launch6 (4 : Fin cfg6.W) (fun c => body_obligation6 (P17 m) c) (B17 m)
def reg7 := reg m launch7 (2 : Fin cfg7.W) (fun c => body_obligation7 (P23 m) c) (B23 m) (hΦi := hin7 (P23 m)) (hΦo := hout7 (P23 m))
def reg8 := reg m launch8 (5 : Fin cfg8.W) (fun c => body_obligation8 (P25 m) c) (B25 m)

/-- Equal valuations give the same thread state. -/
theorem hheld {V B : Valuation τ sig (Elt F)} (h : V = B) (c : Dev nD) :
    iprop(StableHlo.held (c : Thread nD τ) (Pipeline.ucRefs τ sig) V ∗ Rr c) ⊢ iprop(StableHlo.held (c : Thread nD τ) (Pipeline.ucRefs τ sig) B ∗ Rr c) :=
  by subst h; exact .rfl

set_option backward.isDefEq.respectTransparency.types false in
/-- The run ends, and then memory agrees with the last valuation at every unscoped reference. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V26 m (outsB m) c b) :=
  run_cond m ρ (outsB m) (pdats m) (reg0 m) (reg1 m) (reg2 m) (reg3 m) (reg4 m) (reg5 m) (reg6 m) (reg7 m) (reg8 m) fun c =>
    ⟨.rfl, .rfl, hheld (V2_eq m c).symm c, hheld (V3_eq m c) c, hheld (V4_eq m c).symm c, hheld (V5_eq m c) c, hheld (V6_eq m c).symm c, .rfl, .rfl, .rfl, .rfl,
      hheld (V11_eq m c) c, hheld (V12_eq m c).symm c, hheld (V13_eq m c) c, hheld (V14_eq m c).symm c, hheld (V15_eq m c) c, hheld (V16_eq m c).symm c, hheld (V17_eq m c) c, hheld (V18_eq m c).symm c, .rfl, .rfl, .rfl, .rfl,
      hheld (V23_eq m c) c, hheld (V24_eq m c).symm c, hheld (V25_eq m c) c, (hheld (V26_eq m c).symm c).trans (sep_mono .rfl (by iintro ⟨-, HO⟩; iexact HO))⟩

/-- An unscoped reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every execution terminates with the result buffer at its last contents and every argument as launched. -/
theorem value_all (ρ : Dev nD → PrngReg) :
    θ_run defs (onTc (τ := τ) (main (F := F))) ⟨m, fun _ => 0, ρ⟩ (fun r => ∀ c : Dev nD,
      r.2.mem ((c.tc : Thread nD τ).loc main_v119) = B26 m c main_v119
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (run_all m ρ).mono fun r h c =>
    have a := fun (b : Ref sig .tc) hb => h c _ (mem_uc b hb)
    ⟨(a main_v119 (by decide)).trans (congrFun (V26_eq m c) _),
      (a _ (by decide)).trans (V26_main_arg0 m _ c),
      (a _ (by decide)).trans (V26_main_arg1 m _ c),
      (a _ (by decide)).trans (V26_main_arg2 m _ c),
      (a _ (by decide)).trans (V26_main_arg3 m _ c),
      (a _ (by decide)).trans (V26_main_arg4 m _ c),
      (a _ (by decide)).trans (V26_main_arg5 m _ c),
      (a _ (by decide)).trans (V26_main_arg6 m _ c),
      (a _ (by decide)).trans (V26_main_arg7 m _ c),
      (a _ (by decide)).trans (V26_main_arg8 m _ c),
      (a _ (by decide)).trans (V26_main_arg9 m _ c),
      (a _ (by decide)).trans (V26_main_arg10 m _ c),
      (a _ (by decide)).trans (V26_main_arg11 m _ c),
      (a _ (by decide)).trans (V26_main_arg12 m _ c),
      (a _ (by decide)).trans (V26_main_arg13 m _ c),
      (a _ (by decide)).trans (V26_main_arg14 m _ c),
      (a _ (by decide)).trans (V26_main_arg15 m _ c),
      (a _ (by decide)).trans (V26_main_arg16 m _ c),
      (a _ (by decide)).trans (V26_main_arg17 m _ c)⟩

/-- The arguments' part of `value_all`. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (value_all m ρ).mono fun _ h c => (h c).2

end Cert.KernelIdeal.Gen

end
-- ==== Proof.Val.ComposeKeep.lean ====
/- What each of the program's 26 items leaves unchanged: a host stretch changes only the buffers its operations
   write, a kernel region only its one output array. So a reference an item does not write holds after it what it
   held before (keepJ), and the 18 argument arrays, which no item writes, hold their launch contents after every
   item (argsJ). Stated at any float interpretation. -/
import proofs.«403813_j11570641895563_3_alg».proof.Proof.KI.Run

set_option maxRecDepth 16384

noncomputable section

namespace Cert.KernelIdeal.Gen

open Idealize.ShloMosaic Idealize.ShloMosaic.TcCoe
open Idealize.SL Idealize.SL.Sem

variable {F : FTy → Type} [FloatOps F]

variable (m : (ℓ : Loc nD τ sig) → Buf (Elt F) ℓ)

/-! ## What an item leaves unchanged -/

theorem keep1 (c : Dev nD) (r : Ref sig .tc) (h : r ∉ hostOps0_W) : B1 m c r = B0 m c r :=
  StableHlo.after_of_writes_sub hostOps0 _ hostOps0_writes h
theorem keep2 (c : Dev nD) (r : Ref sig .tc) (h : r ≠ main_v17) : B2 m c r = B1 m c r :=
  Function.update_of_ne (StableHlo.devRef_ne_of_ne h) _ _
theorem keep3 (c : Dev nD) (r : Ref sig .tc) (h : r ∉ hostOps1_W) : B3 m c r = B2 m c r :=
  StableHlo.after_of_writes_sub hostOps1 _ hostOps1_writes h
theorem keep4 (c : Dev nD) (r : Ref sig .tc) (h : r ≠ main_v35) : B4 m c r = B3 m c r :=
  Function.update_of_ne (StableHlo.devRef_ne_of_ne h) _ _
theorem keep5 (c : Dev nD) (r : Ref sig .tc) (h : r ∉ hostOps2_W) : B5 m c r = B4 m c r :=
  StableHlo.after_of_writes_sub hostOps2 _ hostOps2_writes h
theorem keep6 (c : Dev nD) (r : Ref sig .tc) (h : r ≠ main_v53) : B6 m c r = B5 m c r :=
  Function.update_of_ne (StableHlo.devRef_ne_of_ne h) _ _
theorem keep7 (c : Dev nD) (r : Ref sig .tc) (h : r ∉ hostOps3_W) : B7 m c r = B6 m c r :=
  StableHlo.after_of_writes_sub hostOps3 _ hostOps3_writes h
theorem keep8 (c : Dev nD) (r : Ref sig .tc) (h : r ∉ hostOps3_1_W) : B8 m c r = B7 m c r :=
  StableHlo.after_of_writes_sub hostOps3_1 _ hostOps3_1_writes h
theorem keep9 (c : Dev nD) (r : Ref sig .tc) (h : r ∉ hostOps3_2_W) : B9 m c r = B8 m c r :=
  StableHlo.after_of_writes_sub hostOps3_2 _ hostOps3_2_writes h
theorem keep10 (c : Dev nD) (r : Ref sig .tc) (h : r ∉ hostOps3_3_W) : B10 m c r = B9 m c r :=
  StableHlo.after_of_writes_sub hostOps3_3 _ hostOps3_3_writes h
theorem keep11 (c : Dev nD) (r : Ref sig .tc) (h : r ∉ hostOps3_4_W) : B11 m c r = B10 m c r :=
  StableHlo.after_of_writes_sub hostOps3_4 _ hostOps3_4_writes h
theorem keep12 (c : Dev nD) (r : Ref sig .tc) (h : r ≠ main_v57) : B12 m c r = B11 m c r :=
  Function.update_of_ne (StableHlo.devRef_ne_of_ne h) _ _
theorem keep13 (c : Dev nD) (r : Ref sig .tc) (h : r ∉ hostOps4_W) : B13 m c r = B12 m c r :=
  StableHlo.after_of_writes_sub hostOps4 _ hostOps4_writes h
theorem keep14 (c : Dev nD) (r : Ref sig .tc) (h : r ≠ main_v75) : B14 m c r = B13 m c r :=
  Function.update_of_ne (StableHlo.devRef_ne_of_ne h) _ _
theorem keep15 (c : Dev nD) (r : Ref sig .tc) (h : r ∉ hostOps5_W) : B15 m c r = B14 m c r :=
  StableHlo.after_of_writes_sub hostOps5 _ hostOps5_writes h
theorem keep16 (c : Dev nD) (r : Ref sig .tc) (h : r ≠ main_v93) : B16 m c r = B15 m c r :=
  Function.update_of_ne (StableHlo.devRef_ne_of_ne h) _ _
theorem keep17 (c : Dev nD) (r : Ref sig .tc) (h : r ∉ hostOps6_W) : B17 m c r = B16 m c r :=
  StableHlo.after_of_writes_sub hostOps6 _ hostOps6_writes h
theorem keep18 (c : Dev nD) (r : Ref sig .tc) (h : r ≠ main_v111) : B18 m c r = B17 m c r :=
  Function.update_of_ne (StableHlo.devRef_ne_of_ne h) _ _
theorem keep19 (c : Dev nD) (r : Ref sig .tc) (h : r ∉ hostOps7_W) : B19 m c r = B18 m c r :=
  StableHlo.after_of_writes_sub hostOps7 _ hostOps7_writes h
theorem keep20 (c : Dev nD) (r : Ref sig .tc) (h : r ∉ hostOps7_1_W) : B20 m c r = B19 m c r :=
  StableHlo.after_of_writes_sub hostOps7_1 _ hostOps7_1_writes h
theorem keep21 (c : Dev nD) (r : Ref sig .tc) (h : r ∉ hostOps7_2_W) : B21 m c r = B20 m c r :=
  StableHlo.after_of_writes_sub hostOps7_2 _ hostOps7_2_writes h
theorem keep22 (c : Dev nD) (r : Ref sig .tc) (h : r ∉ hostOps7_3_W) : B22 m c r = B21 m c r :=
  StableHlo.after_of_writes_sub hostOps7_3 _ hostOps7_3_writes h
theorem keep23 (c : Dev nD) (r : Ref sig .tc) (h : r ∉ hostOps7_4_W) : B23 m c r = B22 m c r :=
  StableHlo.after_of_writes_sub hostOps7_4 _ hostOps7_4_writes h
theorem keep24 (c : Dev nD) (r : Ref sig .tc) (h : r ≠ main_v115) : B24 m c r = B23 m c r :=
  Function.update_of_ne (StableHlo.devRef_ne_of_ne h) _ _
theorem keep25 (c : Dev nD) (r : Ref sig .tc) (h : r ∉ hostOps8_W) : B25 m c r = B24 m c r :=
  StableHlo.after_of_writes_sub hostOps8 _ hostOps8_writes h
theorem keep26 (c : Dev nD) (r : Ref sig .tc) (h : r ≠ main_v119) : B26 m c r = B25 m c r :=
  Function.update_of_ne (StableHlo.devRef_ne_of_ne h) _ _

/-! ## The argument arrays through every item -/

/-- The program's 18 argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

theorem args0 (c : Dev nD) : ∀ r ∈ argRefs, B0 m c r = m ((c : Thread nD τ).loc r) := fun _ _ => rfl
theorem args1 (c : Dev nD) : ∀ r ∈ argRefs, B1 m c r = m ((c : Thread nD τ).loc r) := fun r h =>
  (keep1 m c r ((by decide : ∀ r ∈ argRefs, r ∉ hostOps0_W) r h)).trans (args0 m c r h)
theorem args2 (c : Dev nD) : ∀ r ∈ argRefs, B2 m c r = m ((c : Thread nD τ).loc r) := fun r h =>
  (keep2 m c r ((by decide : ∀ r ∈ argRefs, r ≠ main_v17) r h)).trans (args1 m c r h)
theorem args3 (c : Dev nD) : ∀ r ∈ argRefs, B3 m c r = m ((c : Thread nD τ).loc r) := fun r h =>
  (keep3 m c r ((by decide : ∀ r ∈ argRefs, r ∉ hostOps1_W) r h)).trans (args2 m c r h)
theorem args4 (c : Dev nD) : ∀ r ∈ argRefs, B4 m c r = m ((c : Thread nD τ).loc r) := fun r h =>
  (keep4 m c r ((by decide : ∀ r ∈ argRefs, r ≠ main_v35) r h)).trans (args3 m c r h)
theorem args5 (c : Dev nD) : ∀ r ∈ argRefs, B5 m c r = m ((c : Thread nD τ).loc r) := fun r h =>
  (keep5 m c r ((by decide : ∀ r ∈ argRefs, r ∉ hostOps2_W) r h)).trans (args4 m c r h)
theorem args6 (c : Dev nD) : ∀ r ∈ argRefs, B6 m c r = m ((c : Thread nD τ).loc r) := fun r h =>
  (keep6 m c r ((by decide : ∀ r ∈ argRefs, r ≠ main_v53) r h)).trans (args5 m c r h)
theorem args7 (c : Dev nD) : ∀ r ∈ argRefs, B7 m c r = m ((c : Thread nD τ).loc r) := fun r h =>
  (keep7 m c r ((by decide : ∀ r ∈ argRefs, r ∉ hostOps3_W) r h)).trans (args6 m c r h)
theorem args8 (c : Dev nD) : ∀ r ∈ argRefs, B8 m c r = m ((c : Thread nD τ).loc r) := fun r h =>
  (keep8 m c r ((by decide : ∀ r ∈ argRefs, r ∉ hostOps3_1_W) r h)).trans (args7 m c r h)
theorem args9 (c : Dev nD) : ∀ r ∈ argRefs, B9 m c r = m ((c : Thread nD τ).loc r) := fun r h =>
  (keep9 m c r ((by decide : ∀ r ∈ argRefs, r ∉ hostOps3_2_W) r h)).trans (args8 m c r h)
theorem args10 (c : Dev nD) : ∀ r ∈ argRefs, B10 m c r = m ((c : Thread nD τ).loc r) := fun r h =>
  (keep10 m c r ((by decide : ∀ r ∈ argRefs, r ∉ hostOps3_3_W) r h)).trans (args9 m c r h)
theorem args11 (c : Dev nD) : ∀ r ∈ argRefs, B11 m c r = m ((c : Thread nD τ).loc r) := fun r h =>
  (keep11 m c r ((by decide : ∀ r ∈ argRefs, r ∉ hostOps3_4_W) r h)).trans (args10 m c r h)
theorem args12 (c : Dev nD) : ∀ r ∈ argRefs, B12 m c r = m ((c : Thread nD τ).loc r) := fun r h =>
  (keep12 m c r ((by decide : ∀ r ∈ argRefs, r ≠ main_v57) r h)).trans (args11 m c r h)
theorem args13 (c : Dev nD) : ∀ r ∈ argRefs, B13 m c r = m ((c : Thread nD τ).loc r) := fun r h =>
  (keep13 m c r ((by decide : ∀ r ∈ argRefs, r ∉ hostOps4_W) r h)).trans (args12 m c r h)
theorem args14 (c : Dev nD) : ∀ r ∈ argRefs, B14 m c r = m ((c : Thread nD τ).loc r) := fun r h =>
  (keep14 m c r ((by decide : ∀ r ∈ argRefs, r ≠ main_v75) r h)).trans (args13 m c r h)
theorem args15 (c : Dev nD) : ∀ r ∈ argRefs, B15 m c r = m ((c : Thread nD τ).loc r) := fun r h =>
  (keep15 m c r ((by decide : ∀ r ∈ argRefs, r ∉ hostOps5_W) r h)).trans (args14 m c r h)
theorem args16 (c : Dev nD) : ∀ r ∈ argRefs, B16 m c r = m ((c : Thread nD τ).loc r) := fun r h =>
  (keep16 m c r ((by decide : ∀ r ∈ argRefs, r ≠ main_v93) r h)).trans (args15 m c r h)
theorem args17 (c : Dev nD) : ∀ r ∈ argRefs, B17 m c r = m ((c : Thread nD τ).loc r) := fun r h =>
  (keep17 m c r ((by decide : ∀ r ∈ argRefs, r ∉ hostOps6_W) r h)).trans (args16 m c r h)
theorem args18 (c : Dev nD) : ∀ r ∈ argRefs, B18 m c r = m ((c : Thread nD τ).loc r) := fun r h =>
  (keep18 m c r ((by decide : ∀ r ∈ argRefs, r ≠ main_v111) r h)).trans (args17 m c r h)
theorem args19 (c : Dev nD) : ∀ r ∈ argRefs, B19 m c r = m ((c : Thread nD τ).loc r) := fun r h =>
  (keep19 m c r ((by decide : ∀ r ∈ argRefs, r ∉ hostOps7_W) r h)).trans (args18 m c r h)
theorem args20 (c : Dev nD) : ∀ r ∈ argRefs, B20 m c r = m ((c : Thread nD τ).loc r) := fun r h =>
  (keep20 m c r ((by decide : ∀ r ∈ argRefs, r ∉ hostOps7_1_W) r h)).trans (args19 m c r h)
theorem args21 (c : Dev nD) : ∀ r ∈ argRefs, B21 m c r = m ((c : Thread nD τ).loc r) := fun r h =>
  (keep21 m c r ((by decide : ∀ r ∈ argRefs, r ∉ hostOps7_2_W) r h)).trans (args20 m c r h)
theorem args22 (c : Dev nD) : ∀ r ∈ argRefs, B22 m c r = m ((c : Thread nD τ).loc r) := fun r h =>
  (keep22 m c r ((by decide : ∀ r ∈ argRefs, r ∉ hostOps7_3_W) r h)).trans (args21 m c r h)
theorem args23 (c : Dev nD) : ∀ r ∈ argRefs, B23 m c r = m ((c : Thread nD τ).loc r) := fun r h =>
  (keep23 m c r ((by decide : ∀ r ∈ argRefs, r ∉ hostOps7_4_W) r h)).trans (args22 m c r h)
theorem args24 (c : Dev nD) : ∀ r ∈ argRefs, B24 m c r = m ((c : Thread nD τ).loc r) := fun r h =>
  (keep24 m c r ((by decide : ∀ r ∈ argRefs, r ≠ main_v115) r h)).trans (args23 m c r h)
theorem args25 (c : Dev nD) : ∀ r ∈ argRefs, B25 m c r = m ((c : Thread nD τ).loc r) := fun r h =>
  (keep25 m c r ((by decide : ∀ r ∈ argRefs, r ∉ hostOps8_W) r h)).trans (args24 m c r h)

end Cert.KernelIdeal.Gen

end
-- ==== Proof.Spec.lean ====
/- The network both programs compute, stage by stage, as whole-array functions over the extended reals. -/
import Idealize.ShloMosaic.PureOps.Ideal
import Idealize.ShloMosaic.Lib.ValueIdx

noncomputable section

namespace Cert.Spec

open Idealize.ShloMosaic Idealize.ShloMosaic.ValueIdx

abbrev A (n0 n1 : Nat) : Type := (⟨2, ![n0, n1]⟩ : Shape).Idx → EReal

def lrelu (v : EReal) : EReal :=
  Scalar.select (FloatOps.cmpf (F := Ideal) .oge v (Ideal.ofBits .f32 0x00000000#32)) v
    (Ideal.ofBits .f32 0x3C23D70A#32 * v)

def lin (x : A 50000 128) (w : A 128 128) (dinv : A 50000 1) : A 50000 128 :=
  fun i => (∑ k : Fin 128, x (ix2 (i 0) k) * w (ix2 k (i 1))) * dinv (ix2 (i 0) 0)

def pre (agg hs : A 50000 128) (dinv : A 50000 1) (b : A 1 128) : A 50000 128 :=
  fun i => (agg i + hs i) * dinv (ix2 (i 0) 0) + b (ix2 0 (i 1))

def fin (agg hs : A 50000 128) (dinv : A 50000 1) (b : A 1 128) : A 50000 128 :=
  fun i => lrelu (pre agg hs dinv b i)

def fused (agg hs : A 50000 128) (dinv : A 50000 1) (b : A 1 128) (w : A 128 128) : A 50000 128 :=
  fun i => (∑ k : Fin 128, lrelu (pre agg hs dinv b (ix2 (i 0) k)) * w (ix2 k (i 1))) * dinv (ix2 (i 0) 0)

def onehot (bp : (⟨2, ![1, 50048]⟩ : Shape).Idx → BitVec 32) (g : Fin 64) (n : Fin 50048) : EReal :=
  if BitVec.ofNat 32 g.val = bp (ix2 0 n) then 1 else 0

def pool (bp : (⟨2, ![1, 50048]⟩ : Shape).Idx → BitVec 32) (hp : A 50048 128) : A 64 128 :=
  fun i => Ideal.div (∑ n : Fin 50048, onehot bp (i 0) n * hp (ix2 n (i 1)))
    (max (∑ n : Fin 50048, onehot bp (i 0) n) (Ideal.ofBits .f32 0x3F800000#32))

def mlp (h : A 64 256) (w1 : A 256 128) (b1 : A 1 128) (w2 : A 128 1) (b2 : A 1 1) : A 64 1 :=
  fun i => (∑ d : Fin 128, max ((∑ k : Fin 256, h (ix2 (i 0) k) * w1 (ix2 k d)) + b1 (ix2 0 d))
      (Ideal.ofBits .f32 0x00000000#32) * w2 (ix2 d 0)) + b2 (ix2 0 0)

end Cert.Spec

end
-- ==== Proof.Val.KStages.lean ====
/- The kernel program's result as a pure function of its argument arrays: host stages in their printed terms, each region as the whole-array function it computes. -/
import proofs.«403813_j11570641895563_3_alg».proof.Proof.Gen.KernelIdeal
import proofs.«403813_j11570641895563_3_alg».proof.Proof.Spec

noncomputable section

namespace Cert.KernelIdeal.KVal

open Cert.KernelIdeal Cert.KernelIdeal.Gen Idealize.ShloMosaic Idealize.SL.Sem

abbrev Arr (s : Shape) (e : EltTy) : Type := (⟨s, e⟩ : BufTy).Contents (Elt Ideal)

def edgeSrc (ei : Arr S2x800000 .i32) : Arr S800000 .i32 :=
  shapeCast S800000 (extractStridedSlice S1x800000 ![0, 0] ei slices_S2x800000_S1x800000_0_0) shapeCasts_S1x800000_S800000

def edgeDst (ei : Arr S2x800000 .i32) : Arr S800000 .i32 :=
  shapeCast S800000 (extractStridedSlice S1x800000 ![1, 0] ei slices_S2x800000_S1x800000_1_0) shapeCasts_S1x800000_S800000

def wrapIdx (i : Arr S800000 .i32) : Arr S800000 .i32 :=
  select (cmpi .slt i (broadcastInDim S800000 ![] bcast_S_S800000 (constantI S_ 32 0#32)))
    (addi i (broadcastInDim S800000 ![] bcast_S_S800000 (constantI S_ 32 50000#32))) i

def idxCol (i : Arr S800000 .i32) : Arr S800000x1 .i32 :=
  broadcastInDim S800000x1 ![0] bcast_S800000_S800000x1_0 (wrapIdx i)

def deg (dst : Arr S800000 .i32) : Arr S50000 .f32 :=
  addf (F := Ideal) (Host.scatterAdd (F := Ideal) scatter_S50000_S800000x1_S800000_n_0_0_1
      (broadcastInDim S50000 ![] bcast_S_S50000 (constant (F := Ideal) S_ .f32 0x00000000#32))
      (idxCol dst)
      (broadcastInDim S800000 ![] bcast_S_S800000 (constant (F := Ideal) S_ .f32 0x3F800000#32)))
    (broadcastInDim S50000 ![] bcast_S_S50000 (constant (F := Ideal) S_ .f32 0x3F800000#32))

def dinvCol (dst : Arr S800000 .i32) : Arr S50000x1 .f32 :=
  shapeCast S50000x1 (Host.rsqrt (F := Ideal) (φ := .f32) (deg dst)) shapeCasts_S50000_S50000x1

def neighbours (hs : Arr S50000x128 .bf16) (src dst : Arr S800000 .i32) : Arr S50000x128 .f32 :=
  Host.scatterAdd (F := Ideal) scatter_S50000x128_S800000x1_S800000x128_1_0_0_1
    (broadcastInDim S50000x128 ![] bcast_S_S50000x128 (constant (F := Ideal) S_ .f32 0x00000000#32))
    (idxCol dst)
    (extf (F := Ideal) .f32 (Host.gather gather_S50000x128_S800000x1_S800000x128_1_0_n_n_0_1_1128 hs (idxCol src)) bitsLt_bf16_f32)

def biasRow (b : Arr S128 .f32) : Arr S1x128 .f32 := shapeCast S1x128 b shapeCasts_S128_S1x128

def branch (x : Arr S50000x128 .f32) (ei : Arr S2x800000 .i32) (W0 : Arr S128x128 .f32) (b0 : Arr S128 .f32)
    (W1 : Arr S128x128 .f32) (b1 : Arr S128 .f32) : Arr S50000x128 .f32 :=
  let d : Arr S50000x1 .f32 := dinvCol (edgeDst ei)
  let hs0 : Arr S50000x128 .bf16 := Cert.Spec.lin x W0 d
  let hs1 : Arr S50000x128 .bf16 := Cert.Spec.fused (neighbours hs0 (edgeSrc ei) (edgeDst ei)) hs0 d (biasRow b0) W1
  Cert.Spec.fin (neighbours hs1 (edgeSrc ei) (edgeDst ei)) hs1 d (biasRow b1)

def padRows (x : Arr S50000x128 .f32) : Arr S50048x128 .f32 :=
  pad S50048x128 ![0, 0] ![48, 0] ![0, 0] x (sitofp (F := Ideal) .f32 (constantI S_ 32 0#32)) pads_S50000x128_S50048x128_0480_000 h_S_

def padIds (b : Arr S50000 .i32) : Arr S1x50048 .i32 :=
  shapeCast S1x50048 (pad S50048 ![0] ![48] ![0] b (id (constantI S_ 32 64#32)) pads_S50000_S50048_0480 h_S_) shapeCasts_S50048_S1x50048

def pooled (x : Arr S50000x128 .f32) (b : Arr S50000 .i32) : Arr S64x128 .f32 := Cert.Spec.pool (padIds b) (padRows x)

def out (a0 : Arr S50000x128 .f32) (a1 : Arr S2x800000 .i32) (a2 : Arr S50000 .i32)
    (a3 : Arr S50000x128 .f32) (a4 : Arr S2x800000 .i32) (a5 : Arr S50000 .i32)
    (a6 : Arr S128x128 .f32) (a7 : Arr S128 .f32) (a8 : Arr S128x128 .f32) (a9 : Arr S128 .f32)
    (a10 : Arr S128x128 .f32) (a11 : Arr S128 .f32) (a12 : Arr S128x128 .f32) (a13 : Arr S128 .f32)
    (a14 : Arr S256x128 .f32) (a15 : Arr S128 .f32) (a16 : Arr S128x1 .f32) (a17 : Arr S1 .f32) :
    Arr S64x1 .f32 :=
  Cert.Spec.mlp
    (concatenate S64x256 1 [⟨S64x128, pooled (branch a0 a1 a6 a7 a8 a9) a2⟩, ⟨S64x128, pooled (branch a3 a4 a10 a11 a12 a13) a5⟩]
      concatenates_S64x128_S64x128_S64x256_d1)
    a14 (biasRow a15) a16 (shapeCast S1x1 a17 shapeCasts_S1_S1x1)

end Cert.KernelIdeal.KVal

end
-- ==== Proof.Val.ComposeA.lean ====
/- The first branch: after each item, every buffer read later is a stage function of the argument arrays. -/
import proofs.«403813_j11570641895563_3_alg».proof.Proof.Val.ComposeKeep
import proofs.«403813_j11570641895563_3_alg».proof.Proof.Val.KStages

set_option maxRecDepth 16384

noncomputable section

namespace Cert.KernelIdeal.KVal

open Cert.KernelIdeal Cert.KernelIdeal.Gen Idealize.ShloMosaic Idealize.ShloMosaic.TcCoe Idealize.ShloMosaic.StableHlo
open Idealize.SL Idealize.SL.Sem

def rows0_a (x : Arr S50000x128 .f32) (ei : Arr S2x800000 .i32) (W0 : Arr S128x128 .f32) : Arr S50000x128 .bf16 :=
  Cert.Spec.lin x W0 (dinvCol (edgeDst ei))

def sum0_a (x : Arr S50000x128 .f32) (ei : Arr S2x800000 .i32) (W0 : Arr S128x128 .f32) : Arr S50000x128 .f32 :=
  neighbours (rows0_a x ei W0) (edgeSrc ei) (edgeDst ei)

def rows1_a (x : Arr S50000x128 .f32) (ei : Arr S2x800000 .i32) (W0 : Arr S128x128 .f32) (b0 : Arr S128 .f32)
    (W1 : Arr S128x128 .f32) : Arr S50000x128 .bf16 :=
  Cert.Spec.fused (sum0_a x ei W0) (rows0_a x ei W0) (dinvCol (edgeDst ei)) (biasRow b0) W1

def sum1_a (x : Arr S50000x128 .f32) (ei : Arr S2x800000 .i32) (W0 : Arr S128x128 .f32) (b0 : Arr S128 .f32)
    (W1 : Arr S128x128 .f32) : Arr S50000x128 .f32 :=
  neighbours (rows1_a x ei W0 b0 W1) (edgeSrc ei) (edgeDst ei)

theorem branch_eq_a (x : Arr S50000x128 .f32) (ei : Arr S2x800000 .i32) (W0 : Arr S128x128 .f32) (b0 : Arr S128 .f32)
    (W1 : Arr S128x128 .f32) (b1 : Arr S128 .f32) :
    branch x ei W0 b0 W1 b1
      = Cert.Spec.fin (sum1_a x ei W0 b0 W1) (rows1_a x ei W0 b0 W1) (dinvCol (edgeDst ei)) (biasRow b1) := rfl

section Host

variable (W : Valuation τ sig (Elt Ideal))

theorem host0_src_a : StableHlo.after hostOps0 W main_v1 = edgeSrc (W main_arg1) := by
  after_results_simp; rfl

theorem host0_dst_a : StableHlo.after hostOps0 W main_v3 = edgeDst (W main_arg1) := by
  after_results_simp; rfl

theorem host0_dinv_a : StableHlo.after hostOps0 W main_v16 = dinvCol (edgeDst (W main_arg1)) := by
  after_results_simp; rfl

theorem host1_sum_a : StableHlo.after hostOps1 W main_v33 = neighbours (W main_v17) (W main_v1) (W main_v3) := by
  after_results_simp; rfl

theorem host1_bias_a : StableHlo.after hostOps1 W main_v34 = biasRow (W main_arg7) := by
  after_results_simp; rfl

theorem host2_sum_a : StableHlo.after hostOps2 W main_v51 = neighbours (W main_v35) (W main_v1) (W main_v3) := by
  after_results_simp; rfl

theorem host2_bias_a : StableHlo.after hostOps2 W main_v52 = biasRow (W main_arg9) := by
  after_results_simp; rfl

theorem host3_zero_a : StableHlo.after hostOps3 W main_c_13 = constantI S_ 32 0#32 := by
  after_results_simp

theorem host3_1_pad_a : StableHlo.after hostOps3_1 W main_v54
    = pad S50048x128 ![0, 0] ![48, 0] ![0, 0] (W main_v53) (sitofp (F := Ideal) .f32 (W main_c_13)) pads_S50000x128_S50048x128_0480_000 h_S_ := by
  after_results_simp; rfl

theorem host3_2_id_a : StableHlo.after hostOps3_2 W main_c_14 = constantI S_ 32 64#32 := by
  after_results_simp

theorem host3_3_pad_a : StableHlo.after hostOps3_3 W main_v55
    = pad S50048 ![0] ![48] ![0] (W main_arg2) (id (W main_c_14)) pads_S50000_S50048_0480 h_S_ := by
  after_results_simp; rfl

theorem host3_4_row_a : StableHlo.after hostOps3_4 W main_v56 = shapeCast S1x50048 (W main_v55) shapeCasts_S50048_S1x50048 := by
  after_results_simp; rfl

end Host

variable (m : (ℓ : Loc nD τ sig) → Buf (Elt Ideal) ℓ) (c : Dev nD)

set_option quotPrecheck false in
local notation "arg⟨" r "⟩" => m ((c : Thread nD τ).loc r)

theorem src_a : B1 m c main_v1 = edgeSrc arg⟨main_arg1⟩ :=
  (host0_src_a (B0 m c)).trans (congrArg edgeSrc (args0 m c main_arg1 (by decide)))

theorem dst_a : B1 m c main_v3 = edgeDst arg⟨main_arg1⟩ :=
  (host0_dst_a (B0 m c)).trans (congrArg edgeDst (args0 m c main_arg1 (by decide)))

theorem dinv_a : B1 m c main_v16 = dinvCol (edgeDst arg⟨main_arg1⟩) :=
  (host0_dinv_a (B0 m c)).trans (congrArg (fun e => dinvCol (edgeDst e)) (args0 m c main_arg1 (by decide)))

section Regions

variable (hX2 : X2 m c = Cert.Spec.lin (B1 m c main_arg0) (B1 m c main_arg6) (B1 m c main_v16))
variable (hX4 : X4 m c = Cert.Spec.fused (B3 m c main_v33) (B3 m c main_v17) (B3 m c main_v16) (B3 m c main_v34) (B3 m c main_arg8))
variable (hX6 : X6 m c = Cert.Spec.fin (B5 m c main_v51) (B5 m c main_v35) (B5 m c main_v16) (B5 m c main_v52))
variable (hX12 : X12 m c = Cert.Spec.pool (B11 m c main_v56) (B11 m c main_v54))

include hX2 in

theorem rows0_at_a : B2 m c main_v17 = rows0_a arg⟨main_arg0⟩ arg⟨main_arg1⟩ arg⟨main_arg6⟩ := by
  have h : B2 m c main_v17 = X2 m c := Function.update_self _ _ _
  rw [h, hX2, args1 m c main_arg0 (by decide), args1 m c main_arg6 (by decide), dinv_a m c]; rfl

include hX2 in

theorem sum0_at_a : B3 m c main_v33 = sum0_a arg⟨main_arg0⟩ arg⟨main_arg1⟩ arg⟨main_arg6⟩ := by
  rw [show B3 m c main_v33 = neighbours (B2 m c main_v17) (B2 m c main_v1) (B2 m c main_v3) from host1_sum_a (B2 m c),
    rows0_at_a m c hX2, keep2, src_a m c, keep2, dst_a m c] <;> first | rfl | decide

theorem bias0_at_a : B3 m c main_v34 = biasRow arg⟨main_arg7⟩ :=
  (host1_bias_a (B2 m c)).trans (congrArg biasRow (args2 m c main_arg7 (by decide)))

include hX2 hX4 in

theorem rows1_at_a : B4 m c main_v35 = rows1_a arg⟨main_arg0⟩ arg⟨main_arg1⟩ arg⟨main_arg6⟩ arg⟨main_arg7⟩ arg⟨main_arg8⟩ := by
  have h : B4 m c main_v35 = X4 m c := Function.update_self _ _ _
  rw [h, hX4, sum0_at_a m c hX2, keep3, rows0_at_a m c hX2, keep3, keep2, dinv_a m c, bias0_at_a m c, args3 m c main_arg8 (by decide)]
    <;> first | rfl | decide

include hX2 hX4 in

theorem sum1_at_a : B5 m c main_v51 = sum1_a arg⟨main_arg0⟩ arg⟨main_arg1⟩ arg⟨main_arg6⟩ arg⟨main_arg7⟩ arg⟨main_arg8⟩ := by
  rw [show B5 m c main_v51 = neighbours (B4 m c main_v35) (B4 m c main_v1) (B4 m c main_v3) from host2_sum_a (B4 m c),
    rows1_at_a m c hX2 hX4, keep4, keep3, keep2, src_a m c, keep4, keep3, keep2, dst_a m c] <;> first | rfl | decide

theorem bias1_at_a : B5 m c main_v52 = biasRow arg⟨main_arg9⟩ :=
  (host2_bias_a (B4 m c)).trans (congrArg biasRow (args4 m c main_arg9 (by decide)))

include hX2 hX4 hX6 in

theorem out_at_a : B6 m c main_v53
    = branch arg⟨main_arg0⟩ arg⟨main_arg1⟩ arg⟨main_arg6⟩ arg⟨main_arg7⟩ arg⟨main_arg8⟩ arg⟨main_arg9⟩ := by
  have h : B6 m c main_v53 = X6 m c := Function.update_self _ _ _
  rw [h, hX6, sum1_at_a m c hX2 hX4, keep5, rows1_at_a m c hX2 hX4, keep5, keep4, keep3, keep2, dinv_a m c, bias1_at_a m c, branch_eq_a]
    <;> decide

include hX2 hX4 hX6 in

theorem padded_at_a : B8 m c main_v54
    = padRows (branch arg⟨main_arg0⟩ arg⟨main_arg1⟩ arg⟨main_arg6⟩ arg⟨main_arg7⟩ arg⟨main_arg8⟩ arg⟨main_arg9⟩) := by
  rw [show B8 m c main_v54 = pad S50048x128 ![0, 0] ![48, 0] ![0, 0] (B7 m c main_v53) (sitofp (F := Ideal) .f32 (B7 m c main_c_13))
        pads_S50000x128_S50048x128_0480_000 h_S_ from host3_1_pad_a (B7 m c),
    show B7 m c main_c_13 = constantI S_ 32 0#32 from host3_zero_a (B6 m c),
    keep7 m c main_v53 (by decide), out_at_a m c hX2 hX4 hX6]; rfl

theorem ids_at_a : B11 m c main_v56 = padIds arg⟨main_arg2⟩ := by
  rw [show B11 m c main_v56 = shapeCast S1x50048 (B10 m c main_v55) shapeCasts_S50048_S1x50048 from host3_4_row_a (B10 m c),
    show B10 m c main_v55 = pad S50048 ![0] ![48] ![0] (B9 m c main_arg2) (id (B9 m c main_c_14)) pads_S50000_S50048_0480 h_S_
      from host3_3_pad_a (B9 m c),
    show B9 m c main_c_14 = constantI S_ 32 64#32 from host3_2_id_a (B8 m c),
    args9 m c main_arg2 (by decide)]; rfl

include hX2 hX4 hX6 hX12 in

theorem pooled_at_a : B12 m c main_v57
    = pooled (branch arg⟨main_arg0⟩ arg⟨main_arg1⟩ arg⟨main_arg6⟩ arg⟨main_arg7⟩ arg⟨main_arg8⟩ arg⟨main_arg9⟩) arg⟨main_arg2⟩ := by
  have h : B12 m c main_v57 = X12 m c := Function.update_self _ _ _
  rw [h, hX12, ids_at_a m c, keep11, keep10, keep9, padded_at_a m c hX2 hX4 hX6] <;> first | rfl | decide

end Regions

end Cert.KernelIdeal.KVal

end
-- ==== Proof.Val.ComposeB.lean ====
/- The first branch: after each item, every buffer read later is a stage function of the argument arrays. -/
import proofs.«403813_j11570641895563_3_alg».proof.Proof.Val.ComposeKeep
import proofs.«403813_j11570641895563_3_alg».proof.Proof.Val.KStages

set_option maxRecDepth 16384

noncomputable section

namespace Cert.KernelIdeal.KVal

open Cert.KernelIdeal Cert.KernelIdeal.Gen Idealize.ShloMosaic Idealize.ShloMosaic.TcCoe Idealize.ShloMosaic.StableHlo
open Idealize.SL Idealize.SL.Sem

def rows0_b (x : Arr S50000x128 .f32) (ei : Arr S2x800000 .i32) (W0 : Arr S128x128 .f32) : Arr S50000x128 .bf16 :=
  Cert.Spec.lin x W0 (dinvCol (edgeDst ei))

def sum0_b (x : Arr S50000x128 .f32) (ei : Arr S2x800000 .i32) (W0 : Arr S128x128 .f32) : Arr S50000x128 .f32 :=
  neighbours (rows0_b x ei W0) (edgeSrc ei) (edgeDst ei)

def rows1_b (x : Arr S50000x128 .f32) (ei : Arr S2x800000 .i32) (W0 : Arr S128x128 .f32) (b0 : Arr S128 .f32)
    (W1 : Arr S128x128 .f32) : Arr S50000x128 .bf16 :=
  Cert.Spec.fused (sum0_b x ei W0) (rows0_b x ei W0) (dinvCol (edgeDst ei)) (biasRow b0) W1

def sum1_b (x : Arr S50000x128 .f32) (ei : Arr S2x800000 .i32) (W0 : Arr S128x128 .f32) (b0 : Arr S128 .f32)
    (W1 : Arr S128x128 .f32) : Arr S50000x128 .f32 :=
  neighbours (rows1_b x ei W0 b0 W1) (edgeSrc ei) (edgeDst ei)

theorem branch_eq_b (x : Arr S50000x128 .f32) (ei : Arr S2x800000 .i32) (W0 : Arr S128x128 .f32) (b0 : Arr S128 .f32)
    (W1 : Arr S128x128 .f32) (b1 : Arr S128 .f32) :
    branch x ei W0 b0 W1 b1
      = Cert.Spec.fin (sum1_b x ei W0 b0 W1) (rows1_b x ei W0 b0 W1) (dinvCol (edgeDst ei)) (biasRow b1) := rfl

section Host

variable (W : Valuation τ sig (Elt Ideal))

theorem host4_src_b : StableHlo.after hostOps4 W main_v59 = edgeSrc (W main_arg4) := by
  after_results_simp; rfl

theorem host4_dst_b : StableHlo.after hostOps4 W main_v61 = edgeDst (W main_arg4) := by
  after_results_simp; rfl

theorem host4_dinv_b : StableHlo.after hostOps4 W main_v74 = dinvCol (edgeDst (W main_arg4)) := by
  after_results_simp; rfl

theorem host5_sum_b : StableHlo.after hostOps5 W main_v91 = neighbours (W main_v75) (W main_v59) (W main_v61) := by
  after_results_simp; rfl

theorem host5_bias_b : StableHlo.after hostOps5 W main_v92 = biasRow (W main_arg11) := by
  after_results_simp; rfl

theorem host6_sum_b : StableHlo.after hostOps6 W main_v109 = neighbours (W main_v93) (W main_v59) (W main_v61) := by
  after_results_simp; rfl

theorem host6_bias_b : StableHlo.after hostOps6 W main_v110 = biasRow (W main_arg13) := by
  after_results_simp; rfl

theorem host7_zero_b : StableHlo.after hostOps7 W main_c_30 = constantI S_ 32 0#32 := by
  after_results_simp

theorem host7_1_pad_b : StableHlo.after hostOps7_1 W main_v112
    = pad S50048x128 ![0, 0] ![48, 0] ![0, 0] (W main_v111) (sitofp (F := Ideal) .f32 (W main_c_30)) pads_S50000x128_S50048x128_0480_000 h_S_ := by
  after_results_simp; rfl

theorem host7_2_id_b : StableHlo.after hostOps7_2 W main_c_31 = constantI S_ 32 64#32 := by
  after_results_simp

theorem host7_3_pad_b : StableHlo.after hostOps7_3 W main_v113
    = pad S50048 ![0] ![48] ![0] (W main_arg5) (id (W main_c_31)) pads_S50000_S50048_0480 h_S_ := by
  after_results_simp; rfl

theorem host7_4_row_b : StableHlo.after hostOps7_4 W main_v114 = shapeCast S1x50048 (W main_v113) shapeCasts_S50048_S1x50048 := by
  after_results_simp; rfl

end Host

variable (m : (ℓ : Loc nD τ sig) → Buf (Elt Ideal) ℓ) (c : Dev nD)

set_option quotPrecheck false in
local notation "arg⟨" r "⟩" => m ((c : Thread nD τ).loc r)

theorem src_b : B13 m c main_v59 = edgeSrc arg⟨main_arg4⟩ :=
  (host4_src_b (B12 m c)).trans (congrArg edgeSrc (args12 m c main_arg4 (by decide)))

theorem dst_b : B13 m c main_v61 = edgeDst arg⟨main_arg4⟩ :=
  (host4_dst_b (B12 m c)).trans (congrArg edgeDst (args12 m c main_arg4 (by decide)))

theorem dinv_b : B13 m c main_v74 = dinvCol (edgeDst arg⟨main_arg4⟩) :=
  (host4_dinv_b (B12 m c)).trans (congrArg (fun e => dinvCol (edgeDst e)) (args12 m c main_arg4 (by decide)))

section Regions

variable (hX14 : X14 m c = Cert.Spec.lin (B13 m c main_arg3) (B13 m c main_arg10) (B13 m c main_v74))
variable (hX16 : X16 m c = Cert.Spec.fused (B15 m c main_v91) (B15 m c main_v75) (B15 m c main_v74) (B15 m c main_v92) (B15 m c main_arg12))
variable (hX18 : X18 m c = Cert.Spec.fin (B17 m c main_v109) (B17 m c main_v93) (B17 m c main_v74) (B17 m c main_v110))
variable (hX24 : X24 m c = Cert.Spec.pool (B23 m c main_v114) (B23 m c main_v112))

include hX14 in

theorem rows0_at_b : B14 m c main_v75 = rows0_b arg⟨main_arg3⟩ arg⟨main_arg4⟩ arg⟨main_arg10⟩ := by
  have h : B14 m c main_v75 = X14 m c := Function.update_self _ _ _
  rw [h, hX14, args13 m c main_arg3 (by decide), args13 m c main_arg10 (by decide), dinv_b m c]; rfl

include hX14 in

theorem sum0_at_b : B15 m c main_v91 = sum0_b arg⟨main_arg3⟩ arg⟨main_arg4⟩ arg⟨main_arg10⟩ := by
  rw [show B15 m c main_v91 = neighbours (B14 m c main_v75) (B14 m c main_v59) (B14 m c main_v61) from host5_sum_b (B14 m c),
    rows0_at_b m c hX14, keep14, src_b m c, keep14, dst_b m c] <;> first | rfl | decide

theorem bias0_at_b : B15 m c main_v92 = biasRow arg⟨main_arg11⟩ :=
  (host5_bias_b (B14 m c)).trans (congrArg biasRow (args14 m c main_arg11 (by decide)))

include hX14 hX16 in

theorem rows1_at_b : B16 m c main_v93 = rows1_b arg⟨main_arg3⟩ arg⟨main_arg4⟩ arg⟨main_arg10⟩ arg⟨main_arg11⟩ arg⟨main_arg12⟩ := by
  have h : B16 m c main_v93 = X16 m c := Function.update_self _ _ _
  rw [h, hX16, sum0_at_b m c hX14, keep15, rows0_at_b m c hX14, keep15, keep14, dinv_b m c, bias0_at_b m c, args15 m c main_arg12 (by decide)]
    <;> first | rfl | decide

include hX14 hX16 in

theorem sum1_at_b : B17 m c main_v109 = sum1_b arg⟨main_arg3⟩ arg⟨main_arg4⟩ arg⟨main_arg10⟩ arg⟨main_arg11⟩ arg⟨main_arg12⟩ := by
  rw [show B17 m c main_v109 = neighbours (B16 m c main_v93) (B16 m c main_v59) (B16 m c main_v61) from host6_sum_b (B16 m c),
    rows1_at_b m c hX14 hX16, keep16, keep15, keep14, src_b m c, keep16, keep15, keep14, dst_b m c] <;> first | rfl | decide

theorem bias1_at_b : B17 m c main_v110 = biasRow arg⟨main_arg13⟩ :=
  (host6_bias_b (B16 m c)).trans (congrArg biasRow (args16 m c main_arg13 (by decide)))

include hX14 hX16 hX18 in

theorem out_at_b : B18 m c main_v111
    = branch arg⟨main_arg3⟩ arg⟨main_arg4⟩ arg⟨main_arg10⟩ arg⟨main_arg11⟩ arg⟨main_arg12⟩ arg⟨main_arg13⟩ := by
  have h : B18 m c main_v111 = X18 m c := Function.update_self _ _ _
  rw [h, hX18, sum1_at_b m c hX14 hX16, keep17, rows1_at_b m c hX14 hX16, keep17, keep16, keep15, keep14, dinv_b m c, bias1_at_b m c, branch_eq_b]
    <;> decide

include hX14 hX16 hX18 in

theorem padded_at_b : B20 m c main_v112
    = padRows (branch arg⟨main_arg3⟩ arg⟨main_arg4⟩ arg⟨main_arg10⟩ arg⟨main_arg11⟩ arg⟨main_arg12⟩ arg⟨main_arg13⟩) := by
  rw [show B20 m c main_v112 = pad S50048x128 ![0, 0] ![48, 0] ![0, 0] (B19 m c main_v111) (sitofp (F := Ideal) .f32 (B19 m c main_c_30))
        pads_S50000x128_S50048x128_0480_000 h_S_ from host7_1_pad_b (B19 m c),
    show B19 m c main_c_30 = constantI S_ 32 0#32 from host7_zero_b (B18 m c),
    keep19 m c main_v111 (by decide), out_at_b m c hX14 hX16 hX18]; rfl

theorem ids_at_b : B23 m c main_v114 = padIds arg⟨main_arg5⟩ := by
  rw [show B23 m c main_v114 = shapeCast S1x50048 (B22 m c main_v113) shapeCasts_S50048_S1x50048 from host7_4_row_b (B22 m c),
    show B22 m c main_v113 = pad S50048 ![0] ![48] ![0] (B21 m c main_arg5) (id (B21 m c main_c_31)) pads_S50000_S50048_0480 h_S_
      from host7_3_pad_b (B21 m c),
    show B21 m c main_c_31 = constantI S_ 32 64#32 from host7_2_id_b (B20 m c),
    args21 m c main_arg5 (by decide)]; rfl

include hX14 hX16 hX18 hX24 in

theorem pooled_at_b : B24 m c main_v115
    = pooled (branch arg⟨main_arg3⟩ arg⟨main_arg4⟩ arg⟨main_arg10⟩ arg⟨main_arg11⟩ arg⟨main_arg12⟩ arg⟨main_arg13⟩) arg⟨main_arg5⟩ := by
  have h : B24 m c main_v115 = X24 m c := Function.update_self _ _ _
  rw [h, hX24, ids_at_b m c, keep23, keep22, keep21, padded_at_b m c hX14 hX16 hX18] <;> first | rfl | decide

end Regions

end Cert.KernelIdeal.KVal

end
-- ==== Proof.Val.Compose.lean ====
/- The last output array of the kernel program, as the value function of the argument arrays at launch. -/
import proofs.«403813_j11570641895563_3_alg».proof.Proof.Val.ComposeA
import proofs.«403813_j11570641895563_3_alg».proof.Proof.Val.ComposeB

set_option maxRecDepth 16384

noncomputable section

namespace Cert.KernelIdeal.KVal

open Cert.KernelIdeal Cert.KernelIdeal.Gen Idealize.ShloMosaic Idealize.ShloMosaic.TcCoe Idealize.ShloMosaic.StableHlo
open Idealize.SL Idealize.SL.Sem

section Host

variable (W : Valuation τ sig (Elt Ideal))

theorem host8_feat : StableHlo.after hostOps8 W main_v116
    = concatenate S64x256 1 [⟨S64x128, W main_v57⟩, ⟨S64x128, W main_v115⟩] concatenates_S64x128_S64x128_S64x256_d1 := by
  after_results_simp

theorem host8_hid : StableHlo.after hostOps8 W main_v117 = biasRow (W main_arg15) := by
  after_results_simp; rfl

theorem host8_out : StableHlo.after hostOps8 W main_v118 = shapeCast S1x1 (W main_arg17) shapeCasts_S1_S1x1 := by
  after_results_simp; rfl

end Host

variable (m : (ℓ : Loc nD τ sig) → Buf (Elt Ideal) ℓ) (c : Dev nD)

set_option quotPrecheck false in
local notation "arg⟨" r "⟩" => m ((c : Thread nD τ).loc r)

variable (hX2 : X2 m c = Cert.Spec.lin (B1 m c main_arg0) (B1 m c main_arg6) (B1 m c main_v16))
variable (hX4 : X4 m c = Cert.Spec.fused (B3 m c main_v33) (B3 m c main_v17) (B3 m c main_v16) (B3 m c main_v34) (B3 m c main_arg8))
variable (hX6 : X6 m c = Cert.Spec.fin (B5 m c main_v51) (B5 m c main_v35) (B5 m c main_v16) (B5 m c main_v52))
variable (hX12 : X12 m c = Cert.Spec.pool (B11 m c main_v56) (B11 m c main_v54))
variable (hX14 : X14 m c = Cert.Spec.lin (B13 m c main_arg3) (B13 m c main_arg10) (B13 m c main_v74))
variable (hX16 : X16 m c = Cert.Spec.fused (B15 m c main_v91) (B15 m c main_v75) (B15 m c main_v74) (B15 m c main_v92) (B15 m c main_arg12))
variable (hX18 : X18 m c = Cert.Spec.fin (B17 m c main_v109) (B17 m c main_v93) (B17 m c main_v74) (B17 m c main_v110))
variable (hX24 : X24 m c = Cert.Spec.pool (B23 m c main_v114) (B23 m c main_v112))
variable (hX26 : X26 m c = Cert.Spec.mlp (B25 m c main_v116) (B25 m c main_arg14) (B25 m c main_v117) (B25 m c main_arg16) (B25 m c main_v118))

include hX2 hX4 hX6 hX12 hX14 hX16 hX18 hX24 in

theorem feat_at : B25 m c main_v116
    = concatenate S64x256 1
        [⟨S64x128, pooled (branch arg⟨main_arg0⟩ arg⟨main_arg1⟩ arg⟨main_arg6⟩ arg⟨main_arg7⟩ arg⟨main_arg8⟩ arg⟨main_arg9⟩) arg⟨main_arg2⟩⟩,
          ⟨S64x128, pooled (branch arg⟨main_arg3⟩ arg⟨main_arg4⟩ arg⟨main_arg10⟩ arg⟨main_arg11⟩ arg⟨main_arg12⟩ arg⟨main_arg13⟩) arg⟨main_arg5⟩⟩]
        concatenates_S64x128_S64x128_S64x256_d1 := by
  refine (host8_feat (B24 m c)).trans ?_
  rw [keep24, keep23, keep22, keep21, keep20, keep19, keep18, keep17, keep16, keep15, keep14, keep13,
    pooled_at_a m c hX2 hX4 hX6 hX12, pooled_at_b m c hX14 hX16 hX18 hX24] <;> decide

theorem hid_at : B25 m c main_v117 = biasRow arg⟨main_arg15⟩ :=
  (host8_hid (B24 m c)).trans (congrArg biasRow (args24 m c main_arg15 (by decide)))

theorem out_at : B25 m c main_v118 = shapeCast S1x1 arg⟨main_arg17⟩ shapeCasts_S1_S1x1 :=
  (host8_out (B24 m c)).trans (congrArg (fun a => shapeCast S1x1 a shapeCasts_S1_S1x1) (args24 m c main_arg17 (by decide)))

include hX2 hX4 hX6 hX12 hX14 hX16 hX18 hX24 hX26 in

theorem result_eq_of : B26 m c main_v119
    = out arg⟨main_arg0⟩ arg⟨main_arg1⟩ arg⟨main_arg2⟩ arg⟨main_arg3⟩ arg⟨main_arg4⟩ arg⟨main_arg5⟩ arg⟨main_arg6⟩ arg⟨main_arg7⟩
        arg⟨main_arg8⟩ arg⟨main_arg9⟩ arg⟨main_arg10⟩ arg⟨main_arg11⟩ arg⟨main_arg12⟩ arg⟨main_arg13⟩ arg⟨main_arg14⟩ arg⟨main_arg15⟩
        arg⟨main_arg16⟩ arg⟨main_arg17⟩ := by
  have h : B26 m c main_v119 = X26 m c := Function.update_self _ _ _
  rw [h, hX26, feat_at m c hX2 hX4 hX6 hX12 hX14 hX16 hX18 hX24, args25 m c main_arg14 (by decide), hid_at m c,
    args25 m c main_arg16 (by decide), out_at m c]; rfl

end Cert.KernelIdeal.KVal

end
-- ==== Proof.Val.Blocks.lean ====
import Idealize.ShloMosaic.Lib.StackMember
import Idealize.ShloMosaic.Lib.ValueLayout

noncomputable section

namespace Cert.Blocks

open Idealize.ShloMosaic Idealize.ShloMosaic.TcCoe Idealize.ShloMosaic.ValueIdx

theorem zero_offsets : (![0, 0] : Fin 2 → Nat) = fun _ => 0 := funext fun a => by fin_cases a <;> rfl

/-- Two rank-two indices with the same coordinate values are equal. -/
theorem pair_ext {n0 n1 : Nat} {i j : (⟨2, ![n0, n1]⟩ : Shape).Idx} (h0 : (i 0).val = (j 0).val)
    (h1 : (i 1).val = (j 1).val) : i = j :=
  funext fun a => Fin.ext (match a with | ⟨0, _⟩ => h0 | ⟨1, _⟩ => h1)

/-- A plain m×k by k×n product accumulated into zero is, at (a, b), the sum over the contracted coordinate. -/
theorem matmul_zero_apply {m k n : Nat} {φ₁ φ₂ : FTy} (d : DotDims ⟨2, ![m, k]⟩ ⟨2, ![k, n]⟩ ⟨2, ![m, n]⟩)
    (hd : d = DotDims.plain m k n) (prec : Option ContractPrecision) (A : FVec Ideal ⟨2, ![m, k]⟩ φ₁)
    (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact StackMember.dotGeneral_plain_apply prec A B a b

/-- A column broadcast to a matrix reads its row's entry. -/
theorem col_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-- A one-bit word widened and converted signed is 1 where the bit is set and 0 where it is not. -/
theorem bit_to_float (b : BitVec 1) :
    (FloatOps.sitofp (F := Ideal) .f32 (b.setWidth 32) : EReal) = if b = 1#1 then 1 else 0 := by
  rcases BitVec.eq_zero_or_eq_one b with h | h
  · subst h
    rw [if_neg (by decide)]
    show ((((0#1 : BitVec 1).setWidth 32).toInt : ℝ) : EReal) = 0
    rw [show ((0#1 : BitVec 1).setWidth 32).toInt = 0 from by decide]; simp
  · subst h
    rw [if_pos rfl]
    show ((((1#1 : BitVec 1).setWidth 32).toInt : ℝ) : EReal) = 1
    rw [show ((1#1 : BitVec 1).setWidth 32).toInt = 1 from by decide]; simp

/-- The sum of an a×b block along its second axis, at row g. -/
theorem laneSum_apply {a b : Nat} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (g : Fin a) :
    multiReduction (F := Ideal) .add [1] ⟨1, ![a]⟩ src 0x00000000#32 h hφ hacc (ix1 g) = ∑ l : Fin b, src (ix2 g l) := by
  refine (Ideal.multiReduction_add_single src 0x00000000#32 h hφ hacc (ix1 g)).trans ?_
  exact Finset.sum_congr rfl fun l _ => congrArg src (funext fun ax => Fin.ext (by match ax with | ⟨0, _⟩ => rfl | ⟨1, _⟩ => rfl))

/-- A vector stood up as a column reads its row's entry. -/
theorem column_of_vector_apply {α : Type} {a : Nat} (x : (⟨1, ![a]⟩ : Shape).Idx → α)
    (h : (⟨1, ![a]⟩ : Shape).ShapeCasts ⟨2, ![a, 1]⟩) (g : Fin a) :
    shapeCast ⟨2, ![a, 1]⟩ x h (ix2 g 0) = x (ix1 g) :=
  shapeCast_apply x h (ix2 g 0) (ix1 g) (by
    rw [Shape.rowMajor_val_one, Shape.rowMajor_val_two]; show g.val = g.val * 1 + 0; omega)

end Cert.Blocks

end
-- ==== Proof.Val.V0.lean ====
import proofs.«403813_j11570641895563_3_alg».proof.Proof.KI.R0
import proofs.«403813_j11570641895563_3_alg».proof.Proof.Spec
import proofs.«403813_j11570641895563_3_alg».proof.Proof.Val.Blocks

noncomputable section

namespace Cert.KernelIdeal.Val0

open Cert.KernelIdeal Cert.KernelIdeal.Gen Idealize.ShloMosaic Idealize.ShloMosaic.TcCoe Idealize.SL.Sem
open Idealize.ShloMosaic.ValueIdx Cert.Blocks
open Idealize.ShloMosaic.Pipeline (Dat)

/-- The narrowing casts are the identity on extended reals, and the scaling column is constant along each row. -/
theorem payload_apply (x : Vec Ideal S2000x128 .f32) (w : Vec Ideal S128x128 .f32) (s : Vec Ideal S2000x1 .f32)
    (p : Fin 2000) (q : Fin 128) :
    k0_pay1 x w s (ix2 p q) = (∑ k : Fin 128, x (ix2 p k) * w (ix2 k q)) * s (ix2 p 0) := by
  unfold k0_pay1
  rw [truncf_apply, mulf_apply, matmul_zero_apply, shapeCast_self, col_apply] <;> rfl

theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Blocks that restrict three arrays X, W, D row for row and column for column carry the scaled product of the arrays. -/
theorem payload_eq_lin (X : Cert.Spec.A 50000 128) (W : Cert.Spec.A 128 128) (D : Cert.Spec.A 50000 1)
    (x0 : Vec Ideal S2000x128 .f32) (x1 : Vec Ideal S128x128 .f32) (x2 : Vec Ideal S2000x1 .f32)
    (j : S2000x128.Idx) (i : S50000x128.Idx)
    (h0 : ∀ k : Fin 128, x0 (ix2 (j 0 : Fin 2000) k) = X (ix2 (i 0 : Fin 50000) k))
    (h1 : ∀ k : Fin 128, x1 (ix2 k (j 1 : Fin 128)) = W (ix2 k (i 1 : Fin 128)))
    (h2 : x2 (ix2 (j 0 : Fin 2000) (0 : Fin 1)) = D (ix2 (i 0 : Fin 50000) (0 : Fin 1))) :
    k0_pay1 x0 x1 x2 j = Cert.Spec.lin X W D i := by
  obtain ⟨p, q, rfl⟩ : ∃ (p : Fin 2000) (q : Fin 128), j = ix2 p q := ⟨j 0, j 1, eq_ix2 j⟩
  have h0' : ∀ k : Fin 128, x0 (ix2 p k) = X (ix2 (i 0 : Fin 50000) k) := h0
  have h1' : ∀ k : Fin 128, x1 (ix2 k q) = W (ix2 k (i 1 : Fin 128)) := h1
  have h2' : x2 (ix2 p (0 : Fin 1)) = D (ix2 (i 0 : Fin 50000) (0 : Fin 1)) := h2
  rw [payload_apply, h2']
  unfold Cert.Spec.lin
  exact congrArg (· * D (ix2 (i 0 : Fin 50000) (0 : Fin 1))) (Finset.sum_congr rfl fun k _ => by rw [h0' k, h1' k])

variable (V : (c : Dev nD) → (b : Ref sig .tc) → Buf (Elt Ideal) ((c : Thread nD τ).loc b))

/-- The blocks of x, of the scaling column and of the output sit at the same rows, and w has one block. -/
theorem flushed0_3_eq (c : Dev nD) (t : Fin cfg0.N) :
    (dat0 (F := Ideal) V c).flushed 3 t = ((cfg0.win 3).blk t).view.read (Elt Ideal)
      (Cert.Spec.lin (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x128) zero_offsets, View.ld_unit_zero (S := S2000x1) zero_offsets]
  obtain ⟨e0, e1, e2, e3, e4, e5, e6, e7⟩ := block_indices t
  funext j
  refine payload_eq_lin (V c (Pipeline.arrRef spec0 0)) (V c (Pipeline.arrRef spec0 1)) (V c (Pipeline.arrRef spec0 2))
    (iblk0 V c 0 t) (iblk0 V c 1 t) (iblk0 V c 2 t) j (((cfg0.win 3).blk t).view.emb j)
    (fun k => congrArg (V c (Pipeline.arrRef spec0 0)) (pair_ext (i := ((cfg0.win 0).blk t).view.emb (ix2 (j 0 : Fin 2000) k))
      (show win0_0.index t (0 : Fin 2) * 2000 + 1 * (j 0).val = win0_3.index t (0 : Fin 2) * 2000 + 1 * (j 0).val by omega)
      (show win0_0.index t (1 : Fin 2) * 128 + 1 * k.val = k.val by omega)))
    (fun k => congrArg (V c (Pipeline.arrRef spec0 1)) (pair_ext (i := ((cfg0.win 1).blk t).view.emb (ix2 k (j 1 : Fin 128)))
      (show win0_1.index t (0 : Fin 2) * 128 + 1 * k.val = k.val by omega)
      (show win0_1.index t (1 : Fin 2) * 128 + 1 * (j 1).val = win0_3.index t (1 : Fin 2) * 128 + 1 * (j 1).val by omega)))
    (congrArg (V c (Pipeline.arrRef spec0 2)) (pair_ext (i := ((cfg0.win 2).blk t).view.emb (ix2 (j 0 : Fin 2000) (0 : Fin 1)))
      (show win0_2.index t (0 : Fin 2) * 2000 + 1 * (j 0).val = win0_3.index t (0 : Fin 2) * 2000 + 1 * (j 0).val by omega)
      (show win0_2.index t (1 : Fin 2) * 1 + 1 * 0 = 0 by omega)))

/-- Row r lies in the block numbered r / 2000. -/
theorem covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 := ⟨⟨_, by rw [show cfg0.N = 25 from N_0]; omega⟩, rfl⟩
  obtain ⟨-, -, -, -, -, -, e6, e7⟩ := block_indices t
  refine ⟨t, flush0_3 t, ?_⟩
  show i ∈ ((View.whole (Pipeline.arrRef spec0 3)).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem final0 (c : Dev nD) :
    (dat0 (F := Ideal) V c).arrAt ⟨3, by decide⟩ cfg0.N
      = Cert.Spec.lin (V c (Pipeline.arrRef spec0 0) : (⟨2, ![50000, 128]⟩ : Shape).Idx → EReal)
          (V c (Pipeline.arrRef spec0 1) : (⟨2, ![128, 128]⟩ : Shape).Idx → EReal)
          (V c (Pipeline.arrRef spec0 2) : (⟨2, ![50000, 1]⟩ : Shape).Idx → EReal) :=
  (dat0 (F := Ideal) V c).arrAt_eq_of_cover 3 _ (fun t _ => flushed0_3_eq V c t) covered0_3

end Cert.KernelIdeal.Val0

end
-- ==== Proof.Val.V1.lean ====
import proofs.«403813_j11570641895563_3_alg».proof.Proof.KI.R1
import proofs.«403813_j11570641895563_3_alg».proof.Proof.Spec
import proofs.«403813_j11570641895563_3_alg».proof.Proof.Val.Blocks

set_option maxRecDepth 16384

noncomputable section

namespace Cert.KernelIdeal.Val1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Blocks
open scoped BigOperators

/-- Entry (p, q) of the payload: the next layer's pre-scaled linear stage of this layer's output, on the block's rows. -/
theorem pay1_apply (v0 : Vec Ideal S2000x1 .f32) (v2 : Vec Ideal S2000x128 .f32) (v4 : Vec Ideal S2000x128 .bf16)
    (v10 : Vec Ideal S1x128 .f32) (v20 : Vec Ideal S128x128 .f32) (p : Fin 2000) (q : Fin 128) :
    k1_pay1 (F := Ideal) v0 v2 v4 v10 v20 (ix2 p q)
      = (∑ k : Fin 128, Cert.Spec.lrelu ((v2 (ix2 p k) + v4 (ix2 p k)) * v0 (ix2 p 0) + v10 (ix2 0 k)) * v20 (ix2 k q))
          * v0 (ix2 p 0) := by
  unfold k1_pay1
  simp only [shapeCast_self]
  rw [truncf_apply, mulf_apply, matmul_zero_apply, col_apply]
  · refine congrArg (· * v0 (ix2 p 0)) (Finset.sum_congr rfl fun k _ => ?_)
    simp only [truncf_apply, select_apply, cmpf_apply, mulf_apply, addf_apply, extf_apply, broadcast_apply, col_apply,
      broadcastTo_1b_ab_apply]
    rfl
  · rfl

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row-tiled block at point t, row p, is the array's row 2000 t + p. -/
theorem tile1_0_apply (c : Dev nD) (t : Fin cfg1.N) (p : Fin 2000) (k : Fin 128) (h : t.val * 2000 + p.val < 50000) :
    iblk1 V c 0 t (ix2 p k) = (V c (Pipeline.arrRef spec1 0) : Cert.Spec.A 50000 128) (ix2 ⟨t.val * 2000 + p.val, h⟩ k) := by
  obtain ⟨e0, e1, -⟩ := idx_facts1 t
  exact congrArg (V c (Pipeline.arrRef spec1 0) : Cert.Spec.A 50000 128) (pair_ext (i := ((cfg1.win 0).blk t).view.emb (ix2 p k))
    (show win1_0.index t (0 : Fin 2) * 2000 + 1 * p.val = t.val * 2000 + p.val by omega)
    (show win1_0.index t (1 : Fin 2) * 128 + 1 * k.val = k.val by omega))

theorem tile1_1_apply (c : Dev nD) (t : Fin cfg1.N) (p : Fin 2000) (k : Fin 128) (h : t.val * 2000 + p.val < 50000) :
    iblk1 V c 1 t (ix2 p k) = (V c (Pipeline.arrRef spec1 1) : Cert.Spec.A 50000 128) (ix2 ⟨t.val * 2000 + p.val, h⟩ k) := by
  obtain ⟨-, -, e0, e1, -⟩ := idx_facts1 t
  exact congrArg (V c (Pipeline.arrRef spec1 1) : Cert.Spec.A 50000 128) (pair_ext (i := ((cfg1.win 1).blk t).view.emb (ix2 p k))
    (show win1_1.index t (0 : Fin 2) * 2000 + 1 * p.val = t.val * 2000 + p.val by omega)
    (show win1_1.index t (1 : Fin 2) * 128 + 1 * k.val = k.val by omega))

theorem tile1_2_apply (c : Dev nD) (t : Fin cfg1.N) (p : Fin 2000) (h : t.val * 2000 + p.val < 50000) :
    iblk1 V c 2 t (ix2 p 0) = (V c (Pipeline.arrRef spec1 2) : Cert.Spec.A 50000 1) (ix2 ⟨t.val * 2000 + p.val, h⟩ 0) := by
  obtain ⟨-, -, -, -, e0, e1, -⟩ := idx_facts1 t
  exact congrArg (V c (Pipeline.arrRef spec1 2) : Cert.Spec.A 50000 1) (pair_ext (i := ((cfg1.win 2).blk t).view.emb (ix2 p 0))
    (show win1_2.index t (0 : Fin 2) * 2000 + 1 * p.val = t.val * 2000 + p.val by omega)
    (show win1_2.index t (1 : Fin 2) * 1 + 1 * 0 = 0 by omega))

/-- The bias and the weights have one block, the whole array. -/
theorem tile1_3_apply (c : Dev nD) (t : Fin cfg1.N) (k : Fin 128) :
    iblk1 V c 3 t (ix2 0 k) = (V c (Pipeline.arrRef spec1 3) : Cert.Spec.A 1 128) (ix2 0 k) := by
  obtain ⟨-, -, -, -, -, -, e0, e1, -⟩ := idx_facts1 t
  exact congrArg (V c (Pipeline.arrRef spec1 3) : Cert.Spec.A 1 128) (pair_ext (i := ((cfg1.win 3).blk t).view.emb (ix2 0 k))
    (show win1_3.index t (0 : Fin 2) * 1 + 1 * 0 = 0 by omega)
    (show win1_3.index t (1 : Fin 2) * 128 + 1 * k.val = k.val by omega))

theorem tile1_4_apply (c : Dev nD) (t : Fin cfg1.N) (k q : Fin 128) :
    iblk1 V c 4 t (ix2 k q) = (V c (Pipeline.arrRef spec1 4) : Cert.Spec.A 128 128) (ix2 k q) := by
  obtain ⟨-, -, -, -, -, -, -, -, e0, e1, -⟩ := idx_facts1 t
  exact congrArg (V c (Pipeline.arrRef spec1 4) : Cert.Spec.A 128 128) (pair_ext (i := ((cfg1.win 4).blk t).view.emb (ix2 k q))
    (show win1_4.index t (0 : Fin 2) * 128 + 1 * k.val = k.val by omega)
    (show win1_4.index t (1 : Fin 2) * 128 + 1 * q.val = q.val by omega))

theorem tile1_5_emb (t : Fin cfg1.N) (p : Fin 2000) (q : Fin 128) (h : t.val * 2000 + p.val < 50000) :
    ((cfg1.win 5).blk t).view.emb (ix2 p q) = (ix2 ⟨t.val * 2000 + p.val, h⟩ q : (⟨2, ![50000, 128]⟩ : Shape).Idx) := by
  obtain ⟨-, -, -, -, -, -, -, -, -, -, e0, e1⟩ := idx_facts1 t
  exact pair_ext (show win1_5.index t (0 : Fin 2) * 2000 + 1 * p.val = t.val * 2000 + p.val by omega)
    (show win1_5.index t (1 : Fin 2) * 128 + 1 * q.val = q.val by omega)

theorem flushed1_5_eq (c : Dev nD) (t : Fin cfg1.N) :
    (dat1 V c).flushed 5 t = ((cfg1.win 5).blk t).view.read (Elt Ideal)
      (Cert.Spec.fused (V c (Pipeline.arrRef spec1 0) : Cert.Spec.A 50000 128) (V c (Pipeline.arrRef spec1 1) : Cert.Spec.A 50000 128) (V c (Pipeline.arrRef spec1 2) : Cert.Spec.A 50000 1)
        (V c (Pipeline.arrRef spec1 3) : Cert.Spec.A 1 128) (V c (Pipeline.arrRef spec1 4) : Cert.Spec.A 128 128)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S2000x1) zero_offsets,
    View.ld_unit_zero (S := S1x128) zero_offsets, View.ld_unit_zero (S := S128x128) zero_offsets]
  have ht : t.val < 25 := lt_of_lt_of_eq t.isLt N_1
  refine funext fun (j : S2000x128.Idx) => ?_
  obtain ⟨p, q, rfl⟩ : ∃ (p : Fin 2000) (q : Fin 128), j = ix2 p q := ⟨j 0, j 1, eq_ix2 j⟩
  have hrow : t.val * 2000 + p.val < 50000 := by have := p.isLt; omega
  show k1_pay1 (F := Ideal) (iblk1 V c 2 t) (iblk1 V c 0 t) (iblk1 V c 1 t) (iblk1 V c 3 t) (iblk1 V c 4 t) (ix2 p q)
    = Cert.Spec.fused _ _ _ _ _ (((cfg1.win 5).blk t).view.emb (ix2 p q))
  rw [pay1_apply, tile1_5_emb t p q hrow, tile1_2_apply V c t p hrow]
  simp only [tile1_0_apply V c t p _ hrow, tile1_1_apply V c t p _ hrow, tile1_3_apply V c t, tile1_4_apply V c t]
  rfl

/-- Row n lies in the block numbered n / 2000. -/
theorem tiles_cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 := ⟨⟨_, lt_of_lt_of_eq (by omega) N_1.symm⟩, rfl⟩
  obtain ⟨-, -, -, -, -, -, -, -, -, -, e0, e1⟩ := idx_facts1 t
  refine ⟨t, flush1_5 t, ?_⟩
  show i ∈ ((View.whole (Pipeline.arrRef spec1 5)).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

theorem final1 (c : Dev nD) :
    (dat1 (F := Ideal) V c).arrAt 5 cfg1.N
      = Cert.Spec.fused (V c (Pipeline.arrRef spec1 0) : (⟨2, ![50000, 128]⟩ : Shape).Idx → EReal)
        (V c (Pipeline.arrRef spec1 1) : (⟨2, ![50000, 128]⟩ : Shape).Idx → EReal)
        (V c (Pipeline.arrRef spec1 2) : (⟨2, ![50000, 1]⟩ : Shape).Idx → EReal)
        (V c (Pipeline.arrRef spec1 3) : (⟨2, ![1, 128]⟩ : Shape).Idx → EReal)
        (V c (Pipeline.arrRef spec1 4) : (⟨2, ![128, 128]⟩ : Shape).Idx → EReal) :=
  (dat1 V c).arrAt_eq_of_cover 5 _ (fun t _ => flushed1_5_eq V c t) tiles_cover1_5

end Cert.KernelIdeal.Val1

end
-- ==== Proof.Val.V2.lean ====
import proofs.«403813_j11570641895563_3_alg».proof.Proof.KI.R2
import proofs.«403813_j11570641895563_3_alg».proof.Proof.Spec
import proofs.«403813_j11570641895563_3_alg».proof.Proof.Val.Blocks

set_option maxRecDepth 16384

noncomputable section

namespace Cert.KernelIdeal.Val2

open Cert.KernelIdeal Cert.KernelIdeal.Gen Idealize.ShloMosaic Idealize.ShloMosaic.TcCoe Idealize.SL.Sem
open Idealize.ShloMosaic.ValueIdx Cert.Blocks
open Idealize.ShloMosaic.Pipeline (Dat)

variable (V : (c : Dev nD) → (b : Ref sig .tc) → Buf (Elt Ideal) ((c : Thread nD τ).loc b))

/-- Widening the half-precision features is the identity on extended reals; the column and the row are broadcast. -/
theorem pay2_apply (x2 : Vec Ideal S2000x1 .f32) (x0 : Vec Ideal S2000x128 .f32) (x1 : Vec Ideal S2000x128 .bf16) (x3 : Vec Ideal S1x128 .f32)
    (p : Fin 2000) (q : Fin 128) :
    k2_pay1 (F := Ideal) x2 x0 x1 x3 (ix2 p q)
      = Cert.Spec.lrelu ((x0 (ix2 p q) + x1 (ix2 p q)) * x2 (ix2 p 0) + x3 (ix2 0 q)) := by
  unfold k2_pay1 Cert.Spec.lrelu
  simp only [select_apply, cmpf_apply, mulf_apply, addf_apply, broadcast_apply, extf_apply, shapeCast_self, col_apply,
    broadcastTo_1b_ab_apply]
  rfl

theorem tile_index2 : ∀ t : Fin cfg2.N,
    win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

abbrev arr2_0 (c : Dev nD) : Cert.Spec.A 50000 128 := V c (Pipeline.arrRef spec2 0)
abbrev arr2_1 (c : Dev nD) : Cert.Spec.A 50000 128 := V c (Pipeline.arrRef spec2 1)
abbrev arr2_2 (c : Dev nD) : Cert.Spec.A 50000 1 := V c (Pipeline.arrRef spec2 2)
abbrev arr2_3 (c : Dev nD) : Cert.Spec.A 1 128 := V c (Pipeline.arrRef spec2 3)

set_option maxHeartbeats 2000000 in
/-- The three row-tiled inputs and the output have the same block index, and the bias row has one block. -/
theorem flushed2_eq (c : Dev nD) (t : Fin cfg2.N) :
    (dat2 V c).flushed 4 t = ((cfg2.win 4).blk t).view.read (Elt Ideal)
      (Cert.Spec.fin (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S2000x128) zero_offsets, View.ld_unit_zero (S := S2000x1) zero_offsets, View.ld_unit_zero (S := S1x128) zero_offsets]
  obtain ⟨e40, e41, e00, e01, e10, e11, e20, e21, e30, e31⟩ := tile_index2 t
  funext j
  obtain ⟨p, q, rfl⟩ : ∃ (p : Fin 2000) (q : Fin 128), j = ix2 p q := ⟨j 0, j 1, eq_ix2 j⟩
  show k2_pay1 (F := Ideal) (iblk2 V c 2 t) (iblk2 V c 0 t) (iblk2 V c 1 t) (iblk2 V c 3 t) (ix2 p q) = _
  rw [pay2_apply]
  obtain ⟨i, hi⟩ : ∃ i : S50000x128.Idx, @Eq S50000x128.Idx (((cfg2.win 4).blk t).view.emb (ix2 p q)) i := ⟨_, rfl⟩
  have hi0 : (i 0).val = t.val * 2000 + p.val := by
    rw [← hi]; show win2_4.index t (0 : Fin 2) * 2000 + 1 * p.val = _; omega
  have hi1 : (i 1).val = q.val := by
    rw [← hi]; show win2_4.index t (1 : Fin 2) * 128 + 1 * q.val = _; omega
  have h0 : @Eq S50000x128.Idx (((cfg2.win 0).blk t).view.emb (ix2 p q)) i := pair_ext
    (show win2_0.index t (0 : Fin 2) * 2000 + 1 * p.val = (i 0).val by omega)
    (show win2_0.index t (1 : Fin 2) * 128 + 1 * q.val = (i 1).val by omega)
  have h1 : @Eq S50000x128.Idx (((cfg2.win 1).blk t).view.emb (ix2 p q)) i := pair_ext
    (show win2_1.index t (0 : Fin 2) * 2000 + 1 * p.val = (i 0).val by omega)
    (show win2_1.index t (1 : Fin 2) * 128 + 1 * q.val = (i 1).val by omega)
  have h2 : @Eq S50000x1.Idx (((cfg2.win 2).blk t).view.emb (ix2 p 0)) (ix2 (n0 := 50000) (n1 := 1) (i 0) 0) := pair_ext
    (show win2_2.index t (0 : Fin 2) * 2000 + 1 * p.val = (i 0).val by omega)
    (show win2_2.index t (1 : Fin 2) * 1 + 1 * 0 = 0 by omega)
  have h3 : @Eq S1x128.Idx (((cfg2.win 3).blk t).view.emb (ix2 0 q)) (ix2 (n0 := 1) (n1 := 128) 0 (i 1)) := pair_ext
    (show win2_3.index t (0 : Fin 2) * 1 + 1 * 0 = 0 by omega)
    (show win2_3.index t (1 : Fin 2) * 128 + 1 * q.val = (i 1).val by omega)
  show Cert.Spec.lrelu ((arr2_0 V c (((cfg2.win 0).blk t).view.emb (ix2 p q)) + arr2_1 V c (((cfg2.win 1).blk t).view.emb (ix2 p q)))
      * arr2_2 V c (((cfg2.win 2).blk t).view.emb (ix2 p 0)) + arr2_3 V c (((cfg2.win 3).blk t).view.emb (ix2 0 q)))
    = Cert.Spec.fin (arr2_0 V c) (arr2_1 V c) (arr2_2 V c) (arr2_3 V c) (((cfg2.win 4).blk t).view.emb (ix2 p q))
  rw [hi, h0, h1, h2, h3]
  rfl

/-- Row n lies in the block numbered n / 2000. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ : ∃ t : Fin cfg2.N, t.val = (i 0).val / 2000 := ⟨⟨_, by show _ < 25; omega⟩, rfl⟩
  obtain ⟨e0, e1, -⟩ := tile_index2 t
  refine ⟨t, flush2_4 t, ?_⟩
  show i ∈ ((View.whole (Pipeline.arrRef spec2 4)).slice (win2_4.rect t)).set
  rw [View.set_slice_whole, Rect.mem_set_unit]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

theorem final2 (c : Dev nD) :
    (dat2 V c).arrAt 4 cfg2.N
      = Cert.Spec.fin (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) cover2

end Cert.KernelIdeal.Val2

end
-- ==== Proof.Alg.Real.lean ====
/- Extended reals that are reals: closed under finite sums and products; at a real d ≥ 1 the reciprocal square root and the reciprocal are real. -/
import Idealize.ShloMosaic.PureOps.Ideal
import Idealize.ShloMosaic.PureOps.Ideal.Laws

noncomputable section

namespace Cert.Alg

open Idealize.ShloMosaic

def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨c, rfl⟩ := hy; exact ⟨a + c, (EReal.coe_add a c).symm⟩

theorem IsReal.mul {x y : EReal} (hx : IsReal x) (hy : IsReal y) : IsReal (x * y) := by
  obtain ⟨a, rfl⟩ := hx; obtain ⟨c, rfl⟩ := hy; exact ⟨a * c, (EReal.coe_mul a c).symm⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

theorem ofBits_one_f32 : Ideal.ofBits .f32 0x3F800000#32 = 1 := by
  simp [Ideal.ofBits, Ideal.ieee, -EReal.coe_mul]; norm_num

theorem rsqrt_coe_of_one_le {d : ℝ} (hd : 1 ≤ d) :
    Ideal.rsqrt (d : EReal) = (((Real.sqrt d)⁻¹ : ℝ) : EReal) := by
  rw [Ideal.rsqrt_coe, if_neg (by linarith), if_neg (by linarith)]

theorem div_one_coe_of_one_le {d : ℝ} (hd : 1 ≤ d) : Ideal.div 1 (d : EReal) = ((d⁻¹ : ℝ) : EReal) := by
  rw [Ideal.div_coe (by linarith : d ≠ 0), one_mul, one_div]

theorem rsqrt_mul_self {d : ℝ} (hd : 1 ≤ d) :
    Ideal.rsqrt (d : EReal) * Ideal.rsqrt (d : EReal) = Ideal.div 1 (d : EReal) := by
  rw [rsqrt_coe_of_one_le hd, div_one_coe_of_one_le hd, ← EReal.coe_mul, ← mul_inv,
    Real.mul_self_sqrt (by linarith)]

end Cert.Alg

end
-- ==== Proof.Alg.Pool.lean ====
import Idealize.ShloMosaic.PureOps.Ideal
import Idealize.ShloMosaic.PureOps.Ideal.Laws
import Idealize.ShloMosaic.Lib.ValueIdx
import Mathlib.Algebra.BigOperators.Fin
import Mathlib.Logic.Equiv.Fin.Basic
import proofs.«403813_j11570641895563_3_alg».proof.Proof.Spec
import proofs.«403813_j11570641895563_3_alg».proof.Proof.Alg.Real

noncomputable section

namespace Cert.Alg

open Idealize.ShloMosaic Idealize.ShloMosaic.ValueIdx

theorem sum_pad (f : Fin 50000 → EReal) :
    ∑ n : Fin 50048, (if h : n.val < 50000 then f ⟨n.val, h⟩ else 0) = ∑ m : Fin 50000, f m := by
  refine (Fin.sum_univ_add (a := 50000) (b := 48)
    (fun n => if h : n.val < 50000 then f ⟨n.val, h⟩ else 0)).trans ?_
  have h1 : ∀ i : Fin 50000,
      (if h : (Fin.castAdd 48 i).val < 50000 then f ⟨(Fin.castAdd 48 i).val, h⟩ else 0) = f i :=
    fun i => dif_pos i.isLt
  have h2 : ∀ i : Fin 48,
      (if h : (Fin.natAdd 50000 i).val < 50000 then f ⟨(Fin.natAdd 50000 i).val, h⟩ else 0) = 0 :=
    fun i => dif_neg (by simp)
  simp only [h1, h2, Finset.sum_const_zero, add_zero]

theorem ofNat_ne_pad (g : Fin 64) : BitVec.ofNat 32 g.val ≠ 64#32 := by
  intro e
  have h := congrArg BitVec.toNat e
  simp only [BitVec.toNat_ofNat] at h
  omega

section Pool

variable (bp : (⟨2, ![1, 50048]⟩ : Shape).Idx → BitVec 32) (hp : Spec.A 50048 128)
  (batch : Fin 50000 → BitVec 32) (X : Spec.A 50000 128)
  (T : Fin 64 → Finset (Fin 50000))

-- A padded sum of the values of the nodes whose id is g, zero elsewhere, is the sum over the graph's nodes.
theorem sum_sel (hT : ∀ g n, n ∈ T g ↔ batch n = BitVec.ofNat 32 g.val) (g : Fin 64) (f : Fin 50000 → EReal) :
    ∑ n : Fin 50048, (if h : n.val < 50000 then (if batch ⟨n.val, h⟩ = BitVec.ofNat 32 g.val then f ⟨n.val, h⟩ else 0)
      else 0) = ∑ n ∈ T g, f n := by
  refine (sum_pad fun m => if batch m = BitVec.ofNat 32 g.val then f m else 0).trans ?_
  rw [show T g = Finset.univ.filter (fun m => batch m = BitVec.ofNat 32 g.val) by ext m; simp [hT], Finset.sum_filter]

-- The one-hot factor is 1 on the graph's nodes and 0 on every other row, the pad included.
theorem onehot_sum_mul
    (hbp : ∀ n : Fin 50048, bp (ix2 0 n) = if h : n.val < 50000 then batch ⟨n.val, h⟩ else 64#32)
    (hT : ∀ g n, n ∈ T g ↔ batch n = BitVec.ofNat 32 g.val) (g : Fin 64) (c : Fin 50048 → EReal) :
    ∑ n : Fin 50048, Spec.onehot bp g n * c n = ∑ m ∈ T g, c ⟨m.val, by omega⟩ := by
  refine (Finset.sum_congr rfl fun n _ => ?_).trans (sum_sel batch T hT g fun m => c ⟨m.val, by omega⟩)
  unfold Spec.onehot
  rw [hbp n]
  by_cases h : n.val < 50000
  · rw [dif_pos h, dif_pos h]
    by_cases hb : batch ⟨n.val, h⟩ = BitVec.ofNat 32 g.val
    · rw [if_pos hb.symm, if_pos hb, one_mul]
    · rw [if_neg (Ne.symm hb), if_neg hb, zero_mul]
  · rw [dif_neg h, dif_neg h, if_neg (ofNat_ne_pad g), zero_mul]

theorem pool_eq_lit
    (hhp : ∀ (n : Fin 50048) (k : Fin 128), hp (ix2 n k) = if h : n.val < 50000 then X (ix2 ⟨n.val, h⟩ k) else 0)
    (hbp : ∀ n : Fin 50048, bp (ix2 0 n) = if h : n.val < 50000 then batch ⟨n.val, h⟩ else 64#32)
    (hT : ∀ g n, n ∈ T g ↔ batch n = BitVec.ofNat 32 g.val) :
    Spec.pool bp hp = fun i => Ideal.div (Ideal.ofBits .f32 0x00000000#32 + ∑ n ∈ T (i 0), X (ix2 n (i 1)))
      (max (Ideal.ofBits .f32 0x00000000#32 + ∑ _n ∈ T (i 0), Ideal.ofBits .f32 0x3F800000#32)
        (Ideal.ofBits .f32 0x3F800000#32)) := by
  funext i
  obtain ⟨g, k, rfl⟩ : ∃ g k, i = ix2 g k := ⟨i 0, i 1, eq_ix2 i⟩
  simp only [Ideal.ofBits_zero_f32, ofBits_one_f32, zero_add]
  show Ideal.div (∑ n : Fin 50048, Spec.onehot bp g n * hp (ix2 n k))
      (max (∑ n : Fin 50048, Spec.onehot bp g n) (Ideal.ofBits .f32 0x3F800000#32))
    = Ideal.div (∑ n ∈ T g, X (ix2 n k)) (max (∑ _n ∈ T g, (1 : EReal)) 1)
  rw [onehot_sum_mul bp batch T hbp hT g fun n => hp (ix2 n k),
    ← Finset.sum_congr rfl fun n _ => mul_one (Spec.onehot bp g n),
    onehot_sum_mul bp batch T hbp hT g fun _ => 1, ofBits_one_f32,
    Finset.sum_congr rfl fun m _ => (hhp _ k).trans (dif_pos m.isLt)]

end Pool

def accAt (T : ℕ → EReal) : ℕ → EReal
  | 0 => 0 + T 0
  | t + 1 => accAt T t + T (t + 1)

def tileSum (f : Fin 50048 → EReal) (t : ℕ) : EReal :=
  if h : t < 17 then ∑ l : Fin 2944, f ⟨2944 * t + l.val, by omega⟩ else 0

theorem tileSum_of_lt (f : Fin 50048 → EReal) {t : ℕ} (h : t < 17) :
    tileSum f t = ∑ l : Fin 2944, f ⟨2944 * t + l.val, by omega⟩ := dif_pos h

-- 50048 = 17 · 2944: the tile sums, accumulated in order, add up to the whole sum.
theorem accAt_tiles (f : Fin 50048 → EReal) : accAt (tileSum f) 16 = ∑ n : Fin 50048, f n := by
  have hacc : ∀ t, accAt (tileSum f) t = ∑ s ∈ Finset.range (t + 1), tileSum f s := fun t => by
    induction t with
    | zero => simp [accAt]
    | succ t ih => rw [accAt, ih, Finset.sum_range_succ _ (t + 1)]
  rw [hacc, Finset.sum_range]
  have h1 : ∀ t : Fin 17, tileSum f t.val = ∑ l : Fin 2944, f ⟨2944 * t.val + l.val, by omega⟩ :=
    fun t => dif_pos t.isLt
  simp only [h1]
  rw [← Fintype.sum_prod_type']
  exact Fintype.sum_equiv (finProdFinEquiv (m := 17) (n := 2944)) _ _
    (fun p => congrArg f (Fin.ext (by simp [finProdFinEquiv]; omega)))

end Cert.Alg

end
-- ==== Proof.Val.V3.lean ====
import proofs.«403813_j11570641895563_3_alg».proof.Proof.KI.R3
import proofs.«403813_j11570641895563_3_alg».proof.Proof.Spec
import proofs.«403813_j11570641895563_3_alg».proof.Proof.Alg.Pool
import proofs.«403813_j11570641895563_3_alg».proof.Proof.Val.Blocks
import Idealize.ShloMosaic.Lib.IdealHost

set_option maxRecDepth 16384

noncomputable section

namespace Cert.KernelIdeal.Val3

open Cert.KernelIdeal Cert.KernelIdeal.Gen Idealize.ShloMosaic Idealize.ShloMosaic.TcCoe Idealize.SL.Sem
open Idealize.ShloMosaic.ValueIdx Cert.Blocks
open Idealize.ShloMosaic.Pipeline (Dat)
open scoped BigOperators

def hot (x0 : Vec Ideal S1x2944 .i32) (g : Fin 64) (l : Fin 2944) : EReal :=
  if BitVec.ofNat 32 g.val = x0 (ix2 0 l) then 1 else 0

theorem onehot3_apply (x0 : Vec Ideal S1x2944 .i32) (g : Fin 64) (l : Fin 2944) :
    k3_pay3 (F := Ideal) x0 (ix2 g l) = hot x0 g l := by
  unfold k3_pay3 hot
  simp only [shapeCast_self]
  rw [sitofp_apply, extui_apply, bit_to_float]
  show (if IntOp.cmpi .eq (iota Kind.tc S64x2944 32 [0] iota_S64x2944_d0_w32 (ix2 g l))
      (broadcastTo S64x2944 x0 broadcasts_S1x2944_S64x2944 (ix2 g l)) = 1#1 then (1 : EReal) else 0) = _
  rw [iota_single_apply, broadcastTo_1b_ab_apply]
  exact if_congr IntOp.cmpi_eq rfl rfl

theorem acc3_init_apply (j : S64x128.Idx) : acc3_init (F := Ideal) j = 0 := by
  unfold acc3_init
  rw [View.canon_unit_zero zero_offsets]
  unfold k3_pay1
  simp only [shapeCast_self]
  rw [broadcast_apply]
  exact Ideal.ofBits_zero_f32

theorem cnt3_init_apply (j : S64x1.Idx) : cnt3_init (F := Ideal) j = 0 := by
  unfold cnt3_init
  rw [View.canon_unit_zero zero_offsets]
  unfold k3_pay2
  simp only [shapeCast_self]
  rw [broadcast_apply]
  exact Ideal.ofBits_zero_f32

theorem acc3_apply (x0 : Vec Ideal S1x2944 .i32) (x1 : Vec Ideal S2944x128 .f32) (a : Vec Ideal S64x128 .f32) (g : Fin 64) (k : Fin 128) :
    acc3 x0 x1 a (ix2 g k) = a (ix2 g k) + ∑ l : Fin 2944, hot x0 g l * x1 (ix2 l k) := by
  unfold acc3
  rw [View.canon_unit_zero zero_offsets]
  simp only [View.ld_unit_zero (S := S1x2944) zero_offsets, View.ld_unit_zero (S := S64x128) zero_offsets,
    View.ld_unit_zero (S := S2944x128) zero_offsets]
  unfold k3_pay4
  simp only [shapeCast_self]
  rw [addf_apply, matmul_zero_apply]
  · exact congrArg (a (ix2 g k) + ·) (Finset.sum_congr rfl fun l _ => by rw [onehot3_apply])
  · rfl

theorem cnt3_apply (x0 : Vec Ideal S1x2944 .i32) (n : Vec Ideal S64x1 .f32) (g : Fin 64) :
    cnt3 x0 n (ix2 g 0) = n (ix2 g 0) + ∑ l : Fin 2944, hot x0 g l := by
  unfold cnt3
  rw [View.canon_unit_zero zero_offsets]
  simp only [View.ld_unit_zero (S := S1x2944) zero_offsets, View.ld_unit_zero (S := S64x1) zero_offsets]
  unfold k3_pay5
  simp only [shapeCast_self]
  rw [addf_apply, column_of_vector_apply, laneSum_apply]
  exact congrArg (n (ix2 g 0) + ·) (Finset.sum_congr rfl fun l _ => onehot3_apply x0 g l)

theorem pool3_apply (a : Vec Ideal S64x128 .f32) (n : Vec Ideal S64x1 .f32) (g : Fin 64) (k : Fin 128) :
    pool3 a n (ix2 g k) = Ideal.div (a (ix2 g k)) (max (n (ix2 g 0)) (Ideal.ofBits .f32 0x3F800000#32)) := by
  unfold pool3
  rw [View.canon_unit_zero zero_offsets]
  simp only [View.ld_unit_zero (S := S64x128) zero_offsets, View.ld_unit_zero (S := S64x1) zero_offsets]
  unfold k3_pay6
  rw [divf_apply, col_apply, maximumf_apply, broadcast_apply]
  rfl

variable (V : (c : Dev nD) → (b : Ref sig .tc) → Buf (Elt Ideal) ((c : Thread nD τ).loc b))

abbrev ids3 (c : Dev nD) : (⟨2, ![1, 50048]⟩ : Shape).Idx → BitVec 32 := V c (Pipeline.arrRef spec3 0)
abbrev rows3 (c : Dev nD) : Cert.Spec.A 50048 128 := V c (Pipeline.arrRef spec3 1)

theorem idx_facts3 : ∀ t : Fin cfg3.N,
    win3_0.index t (0 : Fin 2) = 0 ∧ win3_0.index t (1 : Fin 2) = t.val
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem tile3_0_apply (c : Dev nD) (t : Fin cfg3.N) (l : Fin 2944) (h : 2944 * t.val + l.val < 50048) :
    iblk3 V c 0 t (ix2 0 l) = ids3 V c (ix2 0 ⟨2944 * t.val + l.val, h⟩) := by
  obtain ⟨e0, e1, -⟩ := idx_facts3 t
  exact congrArg (ids3 V c) (pair_ext (i := ((cfg3.win 0).blk t).view.emb (ix2 0 l))
    (show win3_0.index t (0 : Fin 2) * 1 + 1 * 0 = 0 by omega)
    (show win3_0.index t (1 : Fin 2) * 2944 + 1 * l.val = 2944 * t.val + l.val by omega))

theorem tile3_1_apply (c : Dev nD) (t : Fin cfg3.N) (l : Fin 2944) (k : Fin 128) (h : 2944 * t.val + l.val < 50048) :
    iblk3 V c 1 t (ix2 l k) = rows3 V c (ix2 ⟨2944 * t.val + l.val, h⟩ k) := by
  obtain ⟨-, -, e0, e1, -⟩ := idx_facts3 t
  exact congrArg (rows3 V c) (pair_ext (i := ((cfg3.win 1).blk t).view.emb (ix2 l k))
    (show win3_1.index t (0 : Fin 2) * 2944 + 1 * l.val = 2944 * t.val + l.val by omega)
    (show win3_1.index t (1 : Fin 2) * 128 + 1 * k.val = k.val by omega))

theorem hot_tile (c : Dev nD) (t : Fin cfg3.N) (g : Fin 64) (l : Fin 2944) (h : 2944 * t.val + l.val < 50048) :
    hot (iblk3 V c 0 t) g l = Cert.Spec.onehot (ids3 V c) g ⟨2944 * t.val + l.val, h⟩ := by
  unfold hot Cert.Spec.onehot
  rw [tile3_0_apply V c t l h]

theorem sumTile (c : Dev nD) (t : Fin cfg3.N) (g : Fin 64) (k : Fin 128) :
    ∑ l : Fin 2944, hot (iblk3 V c 0 t) g l * iblk3 V c 1 t (ix2 l k)
      = Cert.Alg.tileSum (fun m => Cert.Spec.onehot (ids3 V c) g m * rows3 V c (ix2 m k)) t.val := by
  have ht : t.val < 17 := lt_of_lt_of_eq t.isLt N_3
  rw [Cert.Alg.tileSum_of_lt _ ht]
  refine Finset.sum_congr rfl fun l _ => ?_
  have h : 2944 * t.val + l.val < 50048 := by have := l.isLt; omega
  rw [hot_tile V c t g l h, tile3_1_apply V c t l k h]

theorem countTile (c : Dev nD) (t : Fin cfg3.N) (g : Fin 64) :
    ∑ l : Fin 2944, hot (iblk3 V c 0 t) g l
      = Cert.Alg.tileSum (fun m => Cert.Spec.onehot (ids3 V c) g m) t.val := by
  have ht : t.val < 17 := lt_of_lt_of_eq t.isLt N_3
  rw [Cert.Alg.tileSum_of_lt _ ht]
  refine Finset.sum_congr rfl fun l _ => ?_
  have h : 2944 * t.val + l.val < 50048 := by have := l.isLt; omega
  exact hot_tile V c t g l h

theorem outsAt3_acc_cnt (c : Dev nD) : ∀ (n : ℕ) (hn : n < cfg3.N),
    (∀ (g : Fin 64) (k : Fin 128), (outsAt3 V c n hn).2.1 (ix2 g k)
        = Cert.Alg.accAt (Cert.Alg.tileSum fun m => Cert.Spec.onehot (ids3 V c) g m * rows3 V c (ix2 m k)) n)
    ∧ (∀ g : Fin 64, (outsAt3 V c n hn).2.2 (ix2 g 0)
        = Cert.Alg.accAt (Cert.Alg.tileSum fun m => Cert.Spec.onehot (ids3 V c) g m) n)
  | 0, hn => by
    rw [outsAt3_A V c ⟨0, hn⟩ rfl]
    refine ⟨fun g k => ?_, fun g => ?_⟩
    · show acc3 _ _ acc3_init (ix2 g k) = _
      rw [acc3_apply, acc3_init_apply, sumTile V c ⟨0, hn⟩ g k]; rfl
    · show cnt3 _ cnt3_init (ix2 g 0) = _
      rw [cnt3_apply, cnt3_init_apply, countTile V c ⟨0, hn⟩ g]; rfl
  | n + 1, hn => by
    obtain ⟨ihA, ihN⟩ := outsAt3_acc_cnt c n (Nat.lt_of_succ_lt hn)
    rw [outsAt3_B V c ⟨n + 1, hn⟩ (Nat.succ_ne_zero n)]
    refine ⟨fun g k => ?_, fun g => ?_⟩
    · show acc3 _ _ (outsAt3 V c n _).2.1 (ix2 g k) = _
      rw [acc3_apply, ihA g k, sumTile V c ⟨n + 1, hn⟩ g k]; rfl
    · show cnt3 _ (outsAt3 V c n _).2.2 (ix2 g 0) = _
      rw [cnt3_apply, ihN g, countTile V c ⟨n + 1, hn⟩ g]; rfl

theorem outsAt3_last (c : Dev nD) (n : ℕ) (hn : n < cfg3.N) (h16 : n = 16) :
    (outsAt3 V c n hn).1 = Cert.Spec.pool (ids3 V c) (rows3 V c) := by
  subst h16
  obtain ⟨hA, hN⟩ := outsAt3_acc_cnt V c 16 hn
  rw [outsAt3_fst]
  refine funext fun (j : S64x128.Idx) => ?_
  obtain ⟨g, k, rfl⟩ : ∃ (g : Fin 64) (k : Fin 128), j = ix2 g k := ⟨j 0, j 1, eq_ix2 j⟩
  rw [pool3_apply, hA g k, hN g, Cert.Alg.accAt_tiles, Cert.Alg.accAt_tiles]
  rfl

theorem blk_emb3_2 (t : Fin cfg3.N) (y : S64x128.Idx) : ((cfg3.win 2).blk t).view.emb y = y := by
  obtain ⟨-, -, -, -, e0, e1⟩ := idx_facts3 t
  exact pair_ext (show win3_2.index t (0 : Fin 2) * 64 + 1 * (y 0).val = (y 0).val by omega)
    (show win3_2.index t (1 : Fin 2) * 128 + 1 * (y 1).val = (y 1).val by omega)

theorem mem_blk3_2 (t : Fin cfg3.N) (i : S64x128.Idx) : i ∈ ((cfg3.win 2).blk t).view.set := by
  obtain ⟨-, -, -, -, e0, e1⟩ := idx_facts3 t
  have h0 : (i 0).val < 64 := (i 0).isLt
  have h1 : (i 1).val < 128 := (i 1).isLt
  show i ∈ ((View.whole (Pipeline.arrRef spec3 2)).slice (win3_2.rect t)).set
  rw [View.set_slice_whole, Rect.mem_set_unit]
  intro a
  match a with
  | ⟨0, _⟩ => show win3_2.index t (0 : Fin 2) * 64 ≤ (i 0).val ∧ (i 0).val < win3_2.index t (0 : Fin 2) * 64 + 64; omega
  | ⟨1, _⟩ => show win3_2.index t (1 : Fin 2) * 128 ≤ (i 1).val ∧ (i 1).val < win3_2.index t (1 : Fin 2) * 128 + 128; omega

theorem whole_block3_2 (t : Fin cfg3.N) (G : S64x128.Idx → EReal) :
    (cfg3.win 2).cut (grid3.coords t) G = ((cfg3.win 2).blk t).view.read (Elt Ideal) G := by
  refine funext fun (j : S64x128.Idx) => ?_
  show G _ = G (((cfg3.win 2).blk t).view.emb j)
  rw [blk_emb3_2]
  rfl

theorem flushed3_2_eq (c : Dev nD) (t : Fin cfg3.N) (hf : (cfg3.win 2).flush t = true) :
    (dat3 V c).flushed 2 t = ((cfg3.win 2).blk t).view.read (Elt Ideal) (Cert.Spec.pool (ids3 V c) (rows3 V c)) := by
  have hN : cfg3.N = 17 := N_3
  have h16 : t.val = 16 := by have := (flush3_2 t).mp hf; have := t.isLt; omega
  show (cfg3.win 2).cut (grid3.coords t) ((dat3 V c).after 2 t) = _
  rw [after3_2, outsAt3_last V c t.val t.isLt h16]
  exact whole_block3_2 t _

theorem final3 (c : Dev nD) :
    (dat3 (F := Ideal) V c).arrAt ⟨2, by decide⟩ cfg3.N
      = Cert.Spec.pool (V c (Pipeline.arrRef spec3 0) : (⟨2, ![1, 50048]⟩ : Shape).Idx → BitVec 32)
          (V c (Pipeline.arrRef spec3 1) : Cert.Spec.A 50048 128) :=
  (dat3 V c).arrAt_eq_of_cover 2 _ (flushed3_2_eq V c) fun i =>
    ⟨⟨16, by rw [show cfg3.N = 17 from N_3]; decide⟩, (flush3_2 _).mpr rfl, mem_blk3_2 _ i⟩

end Cert.KernelIdeal.Val3

end
-- ==== Proof.Val.V4.lean ====
import proofs.«403813_j11570641895563_3_alg».proof.Proof.KI.R4
import proofs.«403813_j11570641895563_3_alg».proof.Proof.Spec
import proofs.«403813_j11570641895563_3_alg».proof.Proof.Val.Blocks

noncomputable section

namespace Cert.KernelIdeal.Val4

open Cert.KernelIdeal Cert.KernelIdeal.Gen Idealize.ShloMosaic Idealize.ShloMosaic.TcCoe Idealize.SL.Sem
open Idealize.ShloMosaic.ValueIdx Cert.Blocks
open Idealize.ShloMosaic.Pipeline (Dat)

/-- The narrowing casts are the identity on extended reals, and the scaling column is constant along each row. -/
theorem payload_apply (x : Vec Ideal S2000x128 .f32) (w : Vec Ideal S128x128 .f32) (s : Vec Ideal S2000x1 .f32)
    (p : Fin 2000) (q : Fin 128) :
    k4_pay1 x w s (ix2 p q) = (∑ k : Fin 128, x (ix2 p k) * w (ix2 k q)) * s (ix2 p 0) := by
  unfold k4_pay1
  rw [truncf_apply, mulf_apply, matmul_zero_apply, shapeCast_self, col_apply] <;> rfl

theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Blocks that restrict three arrays X, W, D row for row and column for column carry the scaled product of the arrays. -/
theorem payload_eq_lin (X : Cert.Spec.A 50000 128) (W : Cert.Spec.A 128 128) (D : Cert.Spec.A 50000 1)
    (x0 : Vec Ideal S2000x128 .f32) (x1 : Vec Ideal S128x128 .f32) (x2 : Vec Ideal S2000x1 .f32)
    (j : S2000x128.Idx) (i : S50000x128.Idx)
    (h0 : ∀ k : Fin 128, x0 (ix2 (j 0 : Fin 2000) k) = X (ix2 (i 0 : Fin 50000) k))
    (h1 : ∀ k : Fin 128, x1 (ix2 k (j 1 : Fin 128)) = W (ix2 k (i 1 : Fin 128)))
    (h2 : x2 (ix2 (j 0 : Fin 2000) (0 : Fin 1)) = D (ix2 (i 0 : Fin 50000) (0 : Fin 1))) :
    k4_pay1 x0 x1 x2 j = Cert.Spec.lin X W D i := by
  obtain ⟨p, q, rfl⟩ : ∃ (p : Fin 2000) (q : Fin 128), j = ix2 p q := ⟨j 0, j 1, eq_ix2 j⟩
  have h0' : ∀ k : Fin 128, x0 (ix2 p k) = X (ix2 (i 0 : Fin 50000) k) := h0
  have h1' : ∀ k : Fin 128, x1 (ix2 k q) = W (ix2 k (i 1 : Fin 128)) := h1
  have h2' : x2 (ix2 p (0 : Fin 1)) = D (ix2 (i 0 : Fin 50000) (0 : Fin 1)) := h2
  rw [payload_apply, h2']
  unfold Cert.Spec.lin
  exact congrArg (· * D (ix2 (i 0 : Fin 50000) (0 : Fin 1))) (Finset.sum_congr rfl fun k _ => by rw [h0' k, h1' k])

variable (V : (c : Dev nD) → (b : Ref sig .tc) → Buf (Elt Ideal) ((c : Thread nD τ).loc b))

/-- The blocks of x, of the scaling column and of the output sit at the same rows, and w has one block. -/
theorem flushed4_3_eq (c : Dev nD) (t : Fin cfg4.N) :
    (dat4 (F := Ideal) V c).flushed 3 t = ((cfg4.win 3).blk t).view.read (Elt Ideal)
      (Cert.Spec.lin (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zero_offsets]
  simp only [View.ld_unit_zero (S := S2000x128) zero_offsets, View.ld_unit_zero (S := S128x128) zero_offsets, View.ld_unit_zero (S := S2000x1) zero_offsets]
  obtain ⟨e0, e1, e2, e3, e4, e5, e6, e7⟩ := block_indices t
  funext j
  refine payload_eq_lin (V c (Pipeline.arrRef spec4 0)) (V c (Pipeline.arrRef spec4 1)) (V c (Pipeline.arrRef spec4 2))
    (iblk4 V c 0 t) (iblk4 V c 1 t) (iblk4 V c 2 t) j (((cfg4.win 3).blk t).view.emb j)
    (fun k => congrArg (V c (Pipeline.arrRef spec4 0)) (pair_ext (i := ((cfg4.win 0).blk t).view.emb (ix2 (j 0 : Fin 2000) k))
      (show win4_0.index t (0 : Fin 2) * 2000 + 1 * (j 0).val = win4_3.index t (0 : Fin 2) * 2000 + 1 * (j 0).val by omega)
      (show win4_0.index t (1 : Fin 2) * 128 + 1 * k.val = k.val by omega)))
    (fun k => congrArg (V c (Pipeline.arrRef spec4 1)) (pair_ext (i := ((cfg4.win 1).blk t).view.emb (ix2 k (j 1 : Fin 128)))
      (show win4_1.index t (0 : Fin 2) * 128 + 1 * k.val = k.val by omega)
      (show win4_1.index t (1 : Fin 2) * 128 + 1 * (j 1).val = win4_3.index t (1 : Fin 2) * 128 + 1 * (j 1).val by omega)))
    (congrArg (V c (Pipeline.arrRef spec4 2)) (pair_ext (i := ((cfg4.win 2).blk t).view.emb (ix2 (j 0 : Fin 2000) (0 : Fin 1)))
      (show win4_2.index t (0 : Fin 2) * 2000 + 1 * (j 0).val = win4_3.index t (0 : Fin 2) * 2000 + 1 * (j 0).val by omega)
      (show win4_2.index t (1 : Fin 2) * 1 + 1 * 0 = 0 by omega)))

/-- Row r lies in the block numbered r / 2000. -/
theorem covered4_3 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ : ∃ t : Fin cfg4.N, t.val = (i 0).val / 2000 := ⟨⟨_, by rw [show cfg4.N = 25 from N_4]; omega⟩, rfl⟩
  obtain ⟨-, -, -, -, -, -, e6, e7⟩ := block_indices t
  refine ⟨t, flush4_3 t, ?_⟩
  show i ∈ ((View.whole (Pipeline.arrRef spec4 3)).slice (win4_3.rect t)).set
  rw [View.set_slice_whole, Rect.mem_set_unit]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

theorem final4 (c : Dev nD) :
    (dat4 (F := Ideal) V c).arrAt ⟨3, by decide⟩ cfg4.N
      = Cert.Spec.lin (V c (Pipeline.arrRef spec4 0) : (⟨2, ![50000, 128]⟩ : Shape).Idx → EReal)
          (V c (Pipeline.arrRef spec4 1) : (⟨2, ![128, 128]⟩ : Shape).Idx → EReal)
          (V c (Pipeline.arrRef spec4 2) : (⟨2, ![50000, 1]⟩ : Shape).Idx → EReal) :=
  (dat4 (F := Ideal) V c).arrAt_eq_of_cover 3 _ (fun t _ => flushed4_3_eq V c t) covered4_3

end Cert.KernelIdeal.Val4

end
-- ==== Proof.Val.V5.lean ====
import proofs.«403813_j11570641895563_3_alg».proof.Proof.KI.R5
import proofs.«403813_j11570641895563_3_alg».proof.Proof.Spec
import proofs.«403813_j11570641895563_3_alg».proof.Proof.Val.Blocks

set_option maxRecDepth 16384

noncomputable section

namespace Cert.KernelIdeal.Val5

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Blocks
open scoped BigOperators

/-- Entry (p, q) of the payload: the next layer's pre-scaled linear stage of this layer's output, on the block's rows. -/
theorem pay5_apply (v0 : Vec Ideal S2000x1 .f32) (v2 : Vec Ideal S2000x128 .f32) (v4 : Vec Ideal S2000x128 .bf16)
    (v10 : Vec Ideal S1x128 .f32) (v20 : Vec Ideal S128x128 .f32) (p : Fin 2000) (q : Fin 128) :
    k5_pay1 (F := Ideal) v0 v2 v4 v10 v20 (ix2 p q)
      = (∑ k : Fin 128, Cert.Spec.lrelu ((v2 (ix2 p k) + v4 (ix2 p k)) * v0 (ix2 p 0) + v10 (ix2 0 k)) * v20 (ix2 k q))
          * v0 (ix2 p 0) := by
  unfold k5_pay1
  simp only [shapeCast_self]
  rw [truncf_apply, mulf_apply, matmul_zero_apply, col_apply]
  · refine congrArg (· * v0 (ix2 p 0)) (Finset.sum_congr rfl fun k _ => ?_)
    simp only [truncf_apply, select_apply, cmpf_apply, mulf_apply, addf_apply, extf_apply, broadcast_apply, col_apply,
      broadcastTo_1b_ab_apply]
    rfl
  · rfl

variable (V : (c : Dev nD) → (b : Ref sig .tc) → Buf (Elt Ideal) ((c : Thread nD τ).loc b))

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A row-tiled block at point t, row p, is the array's row 2000 t + p. -/
theorem tile5_0_apply (c : Dev nD) (t : Fin cfg5.N) (p : Fin 2000) (k : Fin 128) (h : t.val * 2000 + p.val < 50000) :
    iblk5 V c 0 t (ix2 p k) = (V c (Pipeline.arrRef spec5 0) : Cert.Spec.A 50000 128) (ix2 ⟨t.val * 2000 + p.val, h⟩ k) := by
  obtain ⟨e0, e1, -⟩ := idx_facts5 t
  exact congrArg (V c (Pipeline.arrRef spec5 0) : Cert.Spec.A 50000 128) (pair_ext (i := ((cfg5.win 0).blk t).view.emb (ix2 p k))
    (show win5_0.index t (0 : Fin 2) * 2000 + 1 * p.val = t.val * 2000 + p.val by omega)
    (show win5_0.index t (1 : Fin 2) * 128 + 1 * k.val = k.val by omega))

theorem tile5_1_apply (c : Dev nD) (t : Fin cfg5.N) (p : Fin 2000) (k : Fin 128) (h : t.val * 2000 + p.val < 50000) :
    iblk5 V c 1 t (ix2 p k) = (V c (Pipeline.arrRef spec5 1) : Cert.Spec.A 50000 128) (ix2 ⟨t.val * 2000 + p.val, h⟩ k) := by
  obtain ⟨-, -, e0, e1, -⟩ := idx_facts5 t
  exact congrArg (V c (Pipeline.arrRef spec5 1) : Cert.Spec.A 50000 128) (pair_ext (i := ((cfg5.win 1).blk t).view.emb (ix2 p k))
    (show win5_1.index t (0 : Fin 2) * 2000 + 1 * p.val = t.val * 2000 + p.val by omega)
    (show win5_1.index t (1 : Fin 2) * 128 + 1 * k.val = k.val by omega))

theorem tile5_2_apply (c : Dev nD) (t : Fin cfg5.N) (p : Fin 2000) (h : t.val * 2000 + p.val < 50000) :
    iblk5 V c 2 t (ix2 p 0) = (V c (Pipeline.arrRef spec5 2) : Cert.Spec.A 50000 1) (ix2 ⟨t.val * 2000 + p.val, h⟩ 0) := by
  obtain ⟨-, -, -, -, e0, e1, -⟩ := idx_facts5 t
  exact congrArg (V c (Pipeline.arrRef spec5 2) : Cert.Spec.A 50000 1) (pair_ext (i := ((cfg5.win 2).blk t).view.emb (ix2 p 0))
    (show win5_2.index t (0 : Fin 2) * 2000 + 1 * p.val = t.val * 2000 + p.val by omega)
    (show win5_2.index t (1 : Fin 2) * 1 + 1 * 0 = 0 by omega))

/-- The bias and the weights have one block, the whole array. -/
theorem tile5_3_apply (c : Dev nD) (t : Fin cfg5.N) (k : Fin 128) :
    iblk5 V c 3 t (ix2 0 k) = (V c (Pipeline.arrRef spec5 3) : Cert.Spec.A 1 128) (ix2 0 k) := by
  obtain ⟨-, -, -, -, -, -, e0, e1, -⟩ := idx_facts5 t
  exact congrArg (V c (Pipeline.arrRef spec5 3) : Cert.Spec.A 1 128) (pair_ext (i := ((cfg5.win 3).blk t).view.emb (ix2 0 k))
    (show win5_3.index t (0 : Fin 2) * 1 + 1 * 0 = 0 by omega)
    (show win5_3.index t (1 : Fin 2) * 128 + 1 * k.val = k.val by omega))

theorem tile5_4_apply (c : Dev nD) (t : Fin cfg5.N) (k q : Fin 128) :
    iblk5 V c 4 t (ix2 k q) = (V c (Pipeline.arrRef spec5 4) : Cert.Spec.A 128 128) (ix2 k q) := by
  obtain ⟨-, -, -, -, -, -, -, -, e0, e1, -⟩ := idx_facts5 t
  exact congrArg (V c (Pipeline.arrRef spec5 4) : Cert.Spec.A 128 128) (pair_ext (i := ((cfg5.win 4).blk t).view.emb (ix2 k q))
    (show win5_4.index t (0 : Fin 2) * 128 + 1 * k.val = k.val by omega)
    (show win5_4.index t (1 : Fin 2) * 128 + 1 * q.val = q.val by omega))

theorem tile5_5_emb (t : Fin cfg5.N) (p : Fin 2000) (q : Fin 128) (h : t.val * 2000 + p.val < 50000) :
    ((cfg5.win 5).blk t).view.emb (ix2 p q) = (ix2 ⟨t.val * 2000 + p.val, h⟩ q : (⟨2, ![50000, 128]⟩ : Shape).Idx) := by
  obtain ⟨-, -, -, -, -, -, -, -, -, -, e0, e1⟩ := idx_facts5 t
  exact pair_ext (show win5_5.index t (0 : Fin 2) * 2000 + 1 * p.val = t.val * 2000 + p.val by omega)
    (show win5_5.index t (1 : Fin 2) * 128 + 1 * q.val = q.val by omega)

theorem flushed5_5_eq (c : Dev nD) (t : Fin cfg5.N) :
    (dat5 V c).flushed 5 t = ((cfg5.win 5).blk t).view.read (Elt Ideal)
      (Cert.Spec.fused (V c (Pipeline.arrRef spec5 0) : Cert.Spec.A 50000 128) (V c (Pipeline.arrRef spec5 1) : Cert.Spec.A 50000 128) (V c (Pipeline.arrRef spec5 2) : Cert.Spec.A 50000 1)
        (V c (Pipeline.arrRef spec5 3) : Cert.Spec.A 1 128) (V c (Pipeline.arrRef spec5 4) : Cert.Spec.A 128 128)) := by
  show (cfg5.win 5).cut (grid5.coords t) ((dat5 V c).after 5 t) = _
  rw [after5_5]
  unfold out5_5
  rw [View.canon_unit_zero zero_offsets]
  simp only [View.ld_unit_zero (S := S2000x128) zero_offsets, View.ld_unit_zero (S := S2000x1) zero_offsets,
    View.ld_unit_zero (S := S1x128) zero_offsets, View.ld_unit_zero (S := S128x128) zero_offsets]
  have ht : t.val < 25 := lt_of_lt_of_eq t.isLt N_5
  refine funext fun (j : S2000x128.Idx) => ?_
  obtain ⟨p, q, rfl⟩ : ∃ (p : Fin 2000) (q : Fin 128), j = ix2 p q := ⟨j 0, j 1, eq_ix2 j⟩
  have hrow : t.val * 2000 + p.val < 50000 := by have := p.isLt; omega
  show k5_pay1 (F := Ideal) (iblk5 V c 2 t) (iblk5 V c 0 t) (iblk5 V c 1 t) (iblk5 V c 3 t) (iblk5 V c 4 t) (ix2 p q)
    = Cert.Spec.fused _ _ _ _ _ (((cfg5.win 5).blk t).view.emb (ix2 p q))
  rw [pay5_apply, tile5_5_emb t p q hrow, tile5_2_apply V c t p hrow]
  simp only [tile5_0_apply V c t p _ hrow, tile5_1_apply V c t p _ hrow, tile5_3_apply V c t, tile5_4_apply V c t]
  rfl

/-- Row n lies in the block numbered n / 2000. -/
theorem tiles_cover5_5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ : ∃ t : Fin cfg5.N, t.val = (i 0).val / 2000 := ⟨⟨_, lt_of_lt_of_eq (by omega) N_5.symm⟩, rfl⟩
  obtain ⟨-, -, -, -, -, -, -, -, -, -, e0, e1⟩ := idx_facts5 t
  refine ⟨t, flush5_5 t, ?_⟩
  show i ∈ ((View.whole (Pipeline.arrRef spec5 5)).slice (win5_5.rect t)).set
  rw [View.set_slice_whole, Rect.mem_set_unit]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

theorem final5 (c : Dev nD) :
    (dat5 (F := Ideal) V c).arrAt 5 cfg5.N
      = Cert.Spec.fused (V c (Pipeline.arrRef spec5 0) : (⟨2, ![50000, 128]⟩ : Shape).Idx → EReal)
        (V c (Pipeline.arrRef spec5 1) : (⟨2, ![50000, 128]⟩ : Shape).Idx → EReal)
        (V c (Pipeline.arrRef spec5 2) : (⟨2, ![50000, 1]⟩ : Shape).Idx → EReal)
        (V c (Pipeline.arrRef spec5 3) : (⟨2, ![1, 128]⟩ : Shape).Idx → EReal)
        (V c (Pipeline.arrRef spec5 4) : (⟨2, ![128, 128]⟩ : Shape).Idx → EReal) :=
  (dat5 V c).arrAt_eq_of_cover 5 _ (fun t _ => flushed5_5_eq V c t) tiles_cover5_5

end Cert.KernelIdeal.Val5

end
-- ==== Proof.Val.V6.lean ====
import proofs.«403813_j11570641895563_3_alg».proof.Proof.KI.R6
import proofs.«403813_j11570641895563_3_alg».proof.Proof.Spec
import proofs.«403813_j11570641895563_3_alg».proof.Proof.Val.Blocks

set_option maxRecDepth 16384

noncomputable section

namespace Cert.KernelIdeal.Val6

open Cert.KernelIdeal Cert.KernelIdeal.Gen Idealize.ShloMosaic Idealize.ShloMosaic.TcCoe Idealize.SL.Sem
open Idealize.ShloMosaic.ValueIdx Cert.Blocks
open Idealize.ShloMosaic.Pipeline (Dat)

variable (V : (c : Dev nD) → (b : Ref sig .tc) → Buf (Elt Ideal) ((c : Thread nD τ).loc b))

/-- Widening the half-precision features is the identity on extended reals; the column and the row are broadcast. -/
theorem pay6_apply (x2 : Vec Ideal S2000x1 .f32) (x0 : Vec Ideal S2000x128 .f32) (x1 : Vec Ideal S2000x128 .bf16) (x3 : Vec Ideal S1x128 .f32)
    (p : Fin 2000) (q : Fin 128) :
    k6_pay1 (F := Ideal) x2 x0 x1 x3 (ix2 p q)
      = Cert.Spec.lrelu ((x0 (ix2 p q) + x1 (ix2 p q)) * x2 (ix2 p 0) + x3 (ix2 0 q)) := by
  unfold k6_pay1 Cert.Spec.lrelu
  simp only [select_apply, cmpf_apply, mulf_apply, addf_apply, broadcast_apply, extf_apply, shapeCast_self, col_apply,
    broadcastTo_1b_ab_apply]
  rfl

theorem tile_index6 : ∀ t : Fin cfg6.N,
    win6_4.index t (0 : Fin 2) = t.val ∧ win6_4.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0 :=
  (by decide +kernel : ∀ t : Fin grid6.N, _)

abbrev arr6_0 (c : Dev nD) : Cert.Spec.A 50000 128 := V c (Pipeline.arrRef spec6 0)
abbrev arr6_1 (c : Dev nD) : Cert.Spec.A 50000 128 := V c (Pipeline.arrRef spec6 1)
abbrev arr6_2 (c : Dev nD) : Cert.Spec.A 50000 1 := V c (Pipeline.arrRef spec6 2)
abbrev arr6_3 (c : Dev nD) : Cert.Spec.A 1 128 := V c (Pipeline.arrRef spec6 3)

set_option maxHeartbeats 2000000 in
/-- The three row-tiled inputs and the output have the same block index, and the bias row has one block. -/
theorem flushed6_eq (c : Dev nD) (t : Fin cfg6.N) :
    (dat6 V c).flushed 4 t = ((cfg6.win 4).blk t).view.read (Elt Ideal)
      (Cert.Spec.fin (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  unfold out6_4
  rw [View.canon_unit_zero zero_offsets]
  simp only [View.ld_unit_zero (S := S2000x128) zero_offsets, View.ld_unit_zero (S := S2000x1) zero_offsets, View.ld_unit_zero (S := S1x128) zero_offsets]
  obtain ⟨e40, e41, e00, e01, e10, e11, e20, e21, e30, e31⟩ := tile_index6 t
  funext j
  obtain ⟨p, q, rfl⟩ : ∃ (p : Fin 2000) (q : Fin 128), j = ix2 p q := ⟨j 0, j 1, eq_ix2 j⟩
  show k6_pay1 (F := Ideal) (iblk6 V c 2 t) (iblk6 V c 0 t) (iblk6 V c 1 t) (iblk6 V c 3 t) (ix2 p q) = _
  rw [pay6_apply]
  obtain ⟨i, hi⟩ : ∃ i : S50000x128.Idx, @Eq S50000x128.Idx (((cfg6.win 4).blk t).view.emb (ix2 p q)) i := ⟨_, rfl⟩
  have hi0 : (i 0).val = t.val * 2000 + p.val := by
    rw [← hi]; show win6_4.index t (0 : Fin 2) * 2000 + 1 * p.val = _; omega
  have hi1 : (i 1).val = q.val := by
    rw [← hi]; show win6_4.index t (1 : Fin 2) * 128 + 1 * q.val = _; omega
  have h0 : @Eq S50000x128.Idx (((cfg6.win 0).blk t).view.emb (ix2 p q)) i := pair_ext
    (show win6_0.index t (0 : Fin 2) * 2000 + 1 * p.val = (i 0).val by omega)
    (show win6_0.index t (1 : Fin 2) * 128 + 1 * q.val = (i 1).val by omega)
  have h1 : @Eq S50000x128.Idx (((cfg6.win 1).blk t).view.emb (ix2 p q)) i := pair_ext
    (show win6_1.index t (0 : Fin 2) * 2000 + 1 * p.val = (i 0).val by omega)
    (show win6_1.index t (1 : Fin 2) * 128 + 1 * q.val = (i 1).val by omega)
  have h2 : @Eq S50000x1.Idx (((cfg6.win 2).blk t).view.emb (ix2 p 0)) (ix2 (n0 := 50000) (n1 := 1) (i 0) 0) := pair_ext
    (show win6_2.index t (0 : Fin 2) * 2000 + 1 * p.val = (i 0).val by omega)
    (show win6_2.index t (1 : Fin 2) * 1 + 1 * 0 = 0 by omega)
  have h3 : @Eq S1x128.Idx (((cfg6.win 3).blk t).view.emb (ix2 0 q)) (ix2 (n0 := 1) (n1 := 128) 0 (i 1)) := pair_ext
    (show win6_3.index t (0 : Fin 2) * 1 + 1 * 0 = 0 by omega)
    (show win6_3.index t (1 : Fin 2) * 128 + 1 * q.val = (i 1).val by omega)
  show Cert.Spec.lrelu ((arr6_0 V c (((cfg6.win 0).blk t).view.emb (ix2 p q)) + arr6_1 V c (((cfg6.win 1).blk t).view.emb (ix2 p q)))
      * arr6_2 V c (((cfg6.win 2).blk t).view.emb (ix2 p 0)) + arr6_3 V c (((cfg6.win 3).blk t).view.emb (ix2 0 q)))
    = Cert.Spec.fin (arr6_0 V c) (arr6_1 V c) (arr6_2 V c) (arr6_3 V c) (((cfg6.win 4).blk t).view.emb (ix2 p q))
  rw [hi, h0, h1, h2, h3]
  rfl

/-- Row n lies in the block numbered n / 2000. -/
theorem cover6 (i : S50000x128.Idx) : ∃ t : Fin cfg6.N, (cfg6.win 4).flush t = true ∧ i ∈ ((cfg6.win 4).blk t).view.set := by
  have hi0 : (i 0).val < 50000 := (i 0).isLt
  have hi1 : (i 1).val < 128 := (i 1).isLt
  obtain ⟨t, ht⟩ : ∃ t : Fin cfg6.N, t.val = (i 0).val / 2000 := ⟨⟨_, by show _ < 25; omega⟩, rfl⟩
  obtain ⟨e0, e1, -⟩ := tile_index6 t
  refine ⟨t, flush6_4 t, ?_⟩
  show i ∈ ((View.whole (Pipeline.arrRef spec6 4)).slice (win6_4.rect t)).set
  rw [View.set_slice_whole, Rect.mem_set_unit]
  intro a
  match a with
  | ⟨0, _⟩ => show win6_4.index t (0 : Fin 2) * 2000 ≤ (i 0).val ∧ (i 0).val < win6_4.index t (0 : Fin 2) * 2000 + 2000; omega
  | ⟨1, _⟩ => show win6_4.index t (1 : Fin 2) * 128 ≤ (i 1).val ∧ (i 1).val < win6_4.index t (1 : Fin 2) * 128 + 128; omega

theorem final6 (c : Dev nD) :
    (dat6 V c).arrAt 4 cfg6.N
      = Cert.Spec.fin (V c (Pipeline.arrRef spec6 0)) (V c (Pipeline.arrRef spec6 1)) (V c (Pipeline.arrRef spec6 2)) (V c (Pipeline.arrRef spec6 3)) :=
  (dat6 V c).arrAt_eq_of_cover 4 _ (fun t _ => flushed6_eq V c t) cover6

end Cert.KernelIdeal.Val6

end
-- ==== Proof.Val.V7.lean ====
import proofs.«403813_j11570641895563_3_alg».proof.Proof.KI.R7
import proofs.«403813_j11570641895563_3_alg».proof.Proof.Spec
import proofs.«403813_j11570641895563_3_alg».proof.Proof.Alg.Pool
import proofs.«403813_j11570641895563_3_alg».proof.Proof.Val.Blocks
import Idealize.ShloMosaic.Lib.IdealHost

set_option maxRecDepth 16384

noncomputable section

namespace Cert.KernelIdeal.Val7

open Cert.KernelIdeal Cert.KernelIdeal.Gen Idealize.ShloMosaic Idealize.ShloMosaic.TcCoe Idealize.SL.Sem
open Idealize.ShloMosaic.ValueIdx Cert.Blocks
open Idealize.ShloMosaic.Pipeline (Dat)
open scoped BigOperators

def hot (x0 : Vec Ideal S1x2944 .i32) (g : Fin 64) (l : Fin 2944) : EReal :=
  if BitVec.ofNat 32 g.val = x0 (ix2 0 l) then 1 else 0

theorem onehot7_apply (x0 : Vec Ideal S1x2944 .i32) (g : Fin 64) (l : Fin 2944) :
    k7_pay3 (F := Ideal) x0 (ix2 g l) = hot x0 g l := by
  unfold k7_pay3 hot
  simp only [shapeCast_self]
  rw [sitofp_apply, extui_apply, bit_to_float]
  show (if IntOp.cmpi .eq (iota Kind.tc S64x2944 32 [0] iota_S64x2944_d0_w32 (ix2 g l))
      (broadcastTo S64x2944 x0 broadcasts_S1x2944_S64x2944 (ix2 g l)) = 1#1 then (1 : EReal) else 0) = _
  rw [iota_single_apply, broadcastTo_1b_ab_apply]
  exact if_congr IntOp.cmpi_eq rfl rfl

theorem acc7_init_apply (j : S64x128.Idx) : acc7_init (F := Ideal) j = 0 := by
  unfold acc7_init
  rw [View.canon_unit_zero zero_offsets]
  unfold k7_pay1
  simp only [shapeCast_self]
  rw [broadcast_apply]
  exact Ideal.ofBits_zero_f32

theorem cnt7_init_apply (j : S64x1.Idx) : cnt7_init (F := Ideal) j = 0 := by
  unfold cnt7_init
  rw [View.canon_unit_zero zero_offsets]
  unfold k7_pay2
  simp only [shapeCast_self]
  rw [broadcast_apply]
  exact Ideal.ofBits_zero_f32

theorem acc7_apply (x0 : Vec Ideal S1x2944 .i32) (x1 : Vec Ideal S2944x128 .f32) (a : Vec Ideal S64x128 .f32) (g : Fin 64) (k : Fin 128) :
    acc7 x0 x1 a (ix2 g k) = a (ix2 g k) + ∑ l : Fin 2944, hot x0 g l * x1 (ix2 l k) := by
  unfold acc7
  rw [View.canon_unit_zero zero_offsets]
  simp only [View.ld_unit_zero (S := S1x2944) zero_offsets, View.ld_unit_zero (S := S64x128) zero_offsets,
    View.ld_unit_zero (S := S2944x128) zero_offsets]
  unfold k7_pay4
  simp only [shapeCast_self]
  rw [addf_apply, matmul_zero_apply]
  · exact congrArg (a (ix2 g k) + ·) (Finset.sum_congr rfl fun l _ => by rw [onehot7_apply])
  · rfl

theorem cnt7_apply (x0 : Vec Ideal S1x2944 .i32) (n : Vec Ideal S64x1 .f32) (g : Fin 64) :
    cnt7 x0 n (ix2 g 0) = n (ix2 g 0) + ∑ l : Fin 2944, hot x0 g l := by
  unfold cnt7
  rw [View.canon_unit_zero zero_offsets]
  simp only [View.ld_unit_zero (S := S1x2944) zero_offsets, View.ld_unit_zero (S := S64x1) zero_offsets]
  unfold k7_pay5
  simp only [shapeCast_self]
  rw [addf_apply, column_of_vector_apply, laneSum_apply]
  exact congrArg (n (ix2 g 0) + ·) (Finset.sum_congr rfl fun l _ => onehot7_apply x0 g l)

theorem pool7_apply (a : Vec Ideal S64x128 .f32) (n : Vec Ideal S64x1 .f32) (g : Fin 64) (k : Fin 128) :
    pool7 a n (ix2 g k) = Ideal.div (a (ix2 g k)) (max (n (ix2 g 0)) (Ideal.ofBits .f32 0x3F800000#32)) := by
  unfold pool7
  rw [View.canon_unit_zero zero_offsets]
  simp only [View.ld_unit_zero (S := S64x128) zero_offsets, View.ld_unit_zero (S := S64x1) zero_offsets]
  unfold k7_pay6
  rw [divf_apply, col_apply, maximumf_apply, broadcast_apply]
  rfl

variable (V : (c : Dev nD) → (b : Ref sig .tc) → Buf (Elt Ideal) ((c : Thread nD τ).loc b))

abbrev ids7 (c : Dev nD) : (⟨2, ![1, 50048]⟩ : Shape).Idx → BitVec 32 := V c (Pipeline.arrRef spec7 0)
abbrev rows7 (c : Dev nD) : Cert.Spec.A 50048 128 := V c (Pipeline.arrRef spec7 1)

theorem idx_facts7 : ∀ t : Fin cfg7.N,
    win7_0.index t (0 : Fin 2) = 0 ∧ win7_0.index t (1 : Fin 2) = t.val
    ∧ win7_1.index t (0 : Fin 2) = t.val ∧ win7_1.index t (1 : Fin 2) = 0
    ∧ win7_2.index t (0 : Fin 2) = 0 ∧ win7_2.index t (1 : Fin 2) = 0 :=
  (by decide +kernel : ∀ t : Fin grid7.N, _)

theorem tile7_0_apply (c : Dev nD) (t : Fin cfg7.N) (l : Fin 2944) (h : 2944 * t.val + l.val < 50048) :
    iblk7 V c 0 t (ix2 0 l) = ids7 V c (ix2 0 ⟨2944 * t.val + l.val, h⟩) := by
  obtain ⟨e0, e1, -⟩ := idx_facts7 t
  exact congrArg (ids7 V c) (pair_ext (i := ((cfg7.win 0).blk t).view.emb (ix2 0 l))
    (show win7_0.index t (0 : Fin 2) * 1 + 1 * 0 = 0 by omega)
    (show win7_0.index t (1 : Fin 2) * 2944 + 1 * l.val = 2944 * t.val + l.val by omega))

theorem tile7_1_apply (c : Dev nD) (t : Fin cfg7.N) (l : Fin 2944) (k : Fin 128) (h : 2944 * t.val + l.val < 50048) :
    iblk7 V c 1 t (ix2 l k) = rows7 V c (ix2 ⟨2944 * t.val + l.val, h⟩ k) := by
  obtain ⟨-, -, e0, e1, -⟩ := idx_facts7 t
  exact congrArg (rows7 V c) (pair_ext (i := ((cfg7.win 1).blk t).view.emb (ix2 l k))
    (show win7_1.index t (0 : Fin 2) * 2944 + 1 * l.val = 2944 * t.val + l.val by omega)
    (show win7_1.index t (1 : Fin 2) * 128 + 1 * k.val = k.val by omega))

theorem hot_tile (c : Dev nD) (t : Fin cfg7.N) (g : Fin 64) (l : Fin 2944) (h : 2944 * t.val + l.val < 50048) :
    hot (iblk7 V c 0 t) g l = Cert.Spec.onehot (ids7 V c) g ⟨2944 * t.val + l.val, h⟩ := by
  unfold hot Cert.Spec.onehot
  rw [tile7_0_apply V c t l h]

theorem sumTile (c : Dev nD) (t : Fin cfg7.N) (g : Fin 64) (k : Fin 128) :
    ∑ l : Fin 2944, hot (iblk7 V c 0 t) g l * iblk7 V c 1 t (ix2 l k)
      = Cert.Alg.tileSum (fun m => Cert.Spec.onehot (ids7 V c) g m * rows7 V c (ix2 m k)) t.val := by
  have ht : t.val < 17 := lt_of_lt_of_eq t.isLt N_7
  rw [Cert.Alg.tileSum_of_lt _ ht]
  refine Finset.sum_congr rfl fun l _ => ?_
  have h : 2944 * t.val + l.val < 50048 := by have := l.isLt; omega
  rw [hot_tile V c t g l h, tile7_1_apply V c t l k h]

theorem countTile (c : Dev nD) (t : Fin cfg7.N) (g : Fin 64) :
    ∑ l : Fin 2944, hot (iblk7 V c 0 t) g l
      = Cert.Alg.tileSum (fun m => Cert.Spec.onehot (ids7 V c) g m) t.val := by
  have ht : t.val < 17 := lt_of_lt_of_eq t.isLt N_7
  rw [Cert.Alg.tileSum_of_lt _ ht]
  refine Finset.sum_congr rfl fun l _ => ?_
  have h : 2944 * t.val + l.val < 50048 := by have := l.isLt; omega
  exact hot_tile V c t g l h

theorem outsAt7_acc_cnt (c : Dev nD) : ∀ (n : ℕ) (hn : n < cfg7.N),
    (∀ (g : Fin 64) (k : Fin 128), (outsAt7 V c n hn).2.1 (ix2 g k)
        = Cert.Alg.accAt (Cert.Alg.tileSum fun m => Cert.Spec.onehot (ids7 V c) g m * rows7 V c (ix2 m k)) n)
    ∧ (∀ g : Fin 64, (outsAt7 V c n hn).2.2 (ix2 g 0)
        = Cert.Alg.accAt (Cert.Alg.tileSum fun m => Cert.Spec.onehot (ids7 V c) g m) n)
  | 0, hn => by
    rw [outsAt7_A V c ⟨0, hn⟩ rfl]
    refine ⟨fun g k => ?_, fun g => ?_⟩
    · show acc7 _ _ acc7_init (ix2 g k) = _
      rw [acc7_apply, acc7_init_apply, sumTile V c ⟨0, hn⟩ g k]; rfl
    · show cnt7 _ cnt7_init (ix2 g 0) = _
      rw [cnt7_apply, cnt7_init_apply, countTile V c ⟨0, hn⟩ g]; rfl
  | n + 1, hn => by
    obtain ⟨ihA, ihN⟩ := outsAt7_acc_cnt c n (Nat.lt_of_succ_lt hn)
    rw [outsAt7_B V c ⟨n + 1, hn⟩ (Nat.succ_ne_zero n)]
    refine ⟨fun g k => ?_, fun g => ?_⟩
    · show acc7 _ _ (outsAt7 V c n _).2.1 (ix2 g k) = _
      rw [acc7_apply, ihA g k, sumTile V c ⟨n + 1, hn⟩ g k]; rfl
    · show cnt7 _ (outsAt7 V c n _).2.2 (ix2 g 0) = _
      rw [cnt7_apply, ihN g, countTile V c ⟨n + 1, hn⟩ g]; rfl

theorem outsAt7_last (c : Dev nD) (n : ℕ) (hn : n < cfg7.N) (h16 : n = 16) :
    (outsAt7 V c n hn).1 = Cert.Spec.pool (ids7 V c) (rows7 V c) := by
  subst h16
  obtain ⟨hA, hN⟩ := outsAt7_acc_cnt V c 16 hn
  rw [outsAt7_fst]
  refine funext fun (j : S64x128.Idx) => ?_
  obtain ⟨g, k, rfl⟩ : ∃ (g : Fin 64) (k : Fin 128), j = ix2 g k := ⟨j 0, j 1, eq_ix2 j⟩
  rw [pool7_apply, hA g k, hN g, Cert.Alg.accAt_tiles, Cert.Alg.accAt_tiles]
  rfl

theorem blk_emb7_2 (t : Fin cfg7.N) (y : S64x128.Idx) : ((cfg7.win 2).blk t).view.emb y = y := by
  obtain ⟨-, -, -, -, e0, e1⟩ := idx_facts7 t
  exact pair_ext (show win7_2.index t (0 : Fin 2) * 64 + 1 * (y 0).val = (y 0).val by omega)
    (show win7_2.index t (1 : Fin 2) * 128 + 1 * (y 1).val = (y 1).val by omega)

theorem mem_blk7_2 (t : Fin cfg7.N) (i : S64x128.Idx) : i ∈ ((cfg7.win 2).blk t).view.set := by
  obtain ⟨-, -, -, -, e0, e1⟩ := idx_facts7 t
  have h0 : (i 0).val < 64 := (i 0).isLt
  have h1 : (i 1).val < 128 := (i 1).isLt
  show i ∈ ((View.whole (Pipeline.arrRef spec7 2)).slice (win7_2.rect t)).set
  rw [View.set_slice_whole, Rect.mem_set_unit]
  intro a
  match a with
  | ⟨0, _⟩ => show win7_2.index t (0 : Fin 2) * 64 ≤ (i 0).val ∧ (i 0).val < win7_2.index t (0 : Fin 2) * 64 + 64; omega
  | ⟨1, _⟩ => show win7_2.index t (1 : Fin 2) * 128 ≤ (i 1).val ∧ (i 1).val < win7_2.index t (1 : Fin 2) * 128 + 128; omega

theorem whole_block7_2 (t : Fin cfg7.N) (G : S64x128.Idx → EReal) :
    (cfg7.win 2).cut (grid7.coords t) G = ((cfg7.win 2).blk t).view.read (Elt Ideal) G := by
  refine funext fun (j : S64x128.Idx) => ?_
  show G _ = G (((cfg7.win 2).blk t).view.emb j)
  rw [blk_emb7_2]
  rfl

theorem flushed7_2_eq (c : Dev nD) (t : Fin cfg7.N) (hf : (cfg7.win 2).flush t = true) :
    (dat7 V c).flushed 2 t = ((cfg7.win 2).blk t).view.read (Elt Ideal) (Cert.Spec.pool (ids7 V c) (rows7 V c)) := by
  have hN : cfg7.N = 17 := N_7
  have h16 : t.val = 16 := by have := (flush7_2 t).mp hf; have := t.isLt; omega
  show (cfg7.win 2).cut (grid7.coords t) ((dat7 V c).after 2 t) = _
  rw [after7_2, outsAt7_last V c t.val t.isLt h16]
  exact whole_block7_2 t _

theorem final7 (c : Dev nD) :
    (dat7 (F := Ideal) V c).arrAt ⟨2, by decide⟩ cfg7.N
      = Cert.Spec.pool (V c (Pipeline.arrRef spec7 0) : (⟨2, ![1, 50048]⟩ : Shape).Idx → BitVec 32)
          (V c (Pipeline.arrRef spec7 1) : Cert.Spec.A 50048 128) :=
  (dat7 V c).arrAt_eq_of_cover 2 _ (flushed7_2_eq V c) fun i =>
    ⟨⟨16, by rw [show cfg7.N = 17 from N_7]; decide⟩, (flush7_2 _).mpr rfl, mem_blk7_2 _ i⟩

end Cert.KernelIdeal.Val7

end
-- ==== Proof.Val.V8.lean ====
import proofs.«403813_j11570641895563_3_alg».proof.Proof.KI.R8
import proofs.«403813_j11570641895563_3_alg».proof.Proof.Spec
import proofs.«403813_j11570641895563_3_alg».proof.Proof.Val.Blocks

noncomputable section

namespace Cert.KernelIdeal.Val8

open Cert.KernelIdeal Cert.KernelIdeal.Gen Idealize.ShloMosaic Idealize.ShloMosaic.TcCoe Idealize.SL.Sem
open Idealize.ShloMosaic.ValueIdx Cert.Blocks
open Idealize.ShloMosaic.Pipeline (Dat)

theorem out_bias_apply {α : Type} (b : S1x1.Idx → α) (h : S1x1.Broadcasts S64x1) (p : Fin 64) (q : Fin 1) :
    broadcastTo S64x1 b h (ix2 p q) = b (ix2 0 0) :=
  broadcastTo_apply b h (ix2 p q) (ix2 0 0) (fun a => by match a with | ⟨0, _⟩ => rfl | ⟨1, _⟩ => rfl)

/-- Row p of the payload: the hidden layer of row p, rectified at zero, times the output weights, plus the output bias. -/
theorem head_payload_apply (feat : Vec Ideal S64x256 .f32) (wHid : Vec Ideal S256x128 .f32) (bHid : Vec Ideal S1x128 .f32)
    (wOut : Vec Ideal S128x1 .f32) (bOut : Vec Ideal S1x1 .f32) (p : Fin 64) (q : Fin 1) :
    k8_pay1 (F := Ideal) feat wHid bHid wOut bOut (ix2 p q)
      = (∑ d : Fin 128, max ((∑ k : Fin 256, feat (ix2 p k) * wHid (ix2 k d)) + bHid (ix2 0 d)) (Ideal.ofBits .f32 0x00000000#32)
          * wOut (ix2 d q)) + bOut (ix2 0 0) := by
  unfold k8_pay1
  simp only [shapeCast_self]
  rw [addf_apply, matmul_zero_apply, out_bias_apply]
  · congr 1
    refine Finset.sum_congr rfl fun d _ => ?_
    rw [maximumf_apply, addf_apply, matmul_zero_apply, broadcastTo_1b_ab_apply, broadcast_apply]
    · rfl
    · rfl
  · rfl

variable (V : (c : Dev nD) → (b : Ref sig .tc) → Buf (Elt Ideal) ((c : Thread nD τ).loc b))

theorem block_index8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

abbrev feat8 (c : Dev nD) : Cert.Spec.A 64 256 := V c (Pipeline.arrRef spec8 0)
abbrev wHid8 (c : Dev nD) : Cert.Spec.A 256 128 := V c (Pipeline.arrRef spec8 1)
abbrev bHid8 (c : Dev nD) : Cert.Spec.A 1 128 := V c (Pipeline.arrRef spec8 2)
abbrev wOut8 (c : Dev nD) : Cert.Spec.A 128 1 := V c (Pipeline.arrRef spec8 3)
abbrev bOut8 (c : Dev nD) : Cert.Spec.A 1 1 := V c (Pipeline.arrRef spec8 4)

/-- Every window is at block zero on both axes, so each block read at an index is its array read there. -/
theorem iblk8_0_apply (c : Dev nD) (t : Fin cfg8.N) (y : S64x256.Idx) : iblk8 V c 0 t y = feat8 V c y := by
  obtain ⟨e0, e1, -⟩ := block_index8 t
  exact congrArg (feat8 V c) (pair_ext (i := ((cfg8.win 0).blk t).view.emb y)
    (show win8_0.index t (0 : Fin 2) * 64 + 1 * (y 0).val = (y 0).val by omega)
    (show win8_0.index t (1 : Fin 2) * 256 + 1 * (y 1).val = (y 1).val by omega))
theorem iblk8_1_apply (c : Dev nD) (t : Fin cfg8.N) (y : S256x128.Idx) : iblk8 V c 1 t y = wHid8 V c y := by
  obtain ⟨-, -, e0, e1, -⟩ := block_index8 t
  exact congrArg (wHid8 V c) (pair_ext (i := ((cfg8.win 1).blk t).view.emb y)
    (show win8_1.index t (0 : Fin 2) * 256 + 1 * (y 0).val = (y 0).val by omega)
    (show win8_1.index t (1 : Fin 2) * 128 + 1 * (y 1).val = (y 1).val by omega))
theorem iblk8_2_apply (c : Dev nD) (t : Fin cfg8.N) (y : S1x128.Idx) : iblk8 V c 2 t y = bHid8 V c y := by
  obtain ⟨-, -, -, -, e0, e1, -⟩ := block_index8 t
  exact congrArg (bHid8 V c) (pair_ext (i := ((cfg8.win 2).blk t).view.emb y)
    (show win8_2.index t (0 : Fin 2) * 1 + 1 * (y 0).val = (y 0).val by omega)
    (show win8_2.index t (1 : Fin 2) * 128 + 1 * (y 1).val = (y 1).val by omega))
theorem iblk8_3_apply (c : Dev nD) (t : Fin cfg8.N) (y : S128x1.Idx) : iblk8 V c 3 t y = wOut8 V c y := by
  obtain ⟨-, -, -, -, -, -, e0, e1, -⟩ := block_index8 t
  exact congrArg (wOut8 V c) (pair_ext (i := ((cfg8.win 3).blk t).view.emb y)
    (show win8_3.index t (0 : Fin 2) * 128 + 1 * (y 0).val = (y 0).val by omega)
    (show win8_3.index t (1 : Fin 2) * 1 + 1 * (y 1).val = (y 1).val by omega))
theorem iblk8_4_apply (c : Dev nD) (t : Fin cfg8.N) (y : S1x1.Idx) : iblk8 V c 4 t y = bOut8 V c y := by
  obtain ⟨-, -, -, -, -, -, -, -, e0, e1, -⟩ := block_index8 t
  exact congrArg (bOut8 V c) (pair_ext (i := ((cfg8.win 4).blk t).view.emb y)
    (show win8_4.index t (0 : Fin 2) * 1 + 1 * (y 0).val = (y 0).val by omega)
    (show win8_4.index t (1 : Fin 2) * 1 + 1 * (y 1).val = (y 1).val by omega))

theorem blk_emb8_5 (t : Fin cfg8.N) (y : S64x1.Idx) : ((cfg8.win 5).blk t).view.emb y = y := by
  obtain ⟨-, -, -, -, -, -, -, -, -, -, e0, e1⟩ := block_index8 t
  exact pair_ext (show win8_5.index t (0 : Fin 2) * 64 + 1 * (y 0).val = (y 0).val by omega)
    (show win8_5.index t (1 : Fin 2) * 1 + 1 * (y 1).val = (y 1).val by omega)

theorem flushed8_eq (c : Dev nD) (t : Fin cfg8.N) :
    (dat8 (F := Ideal) V c).flushed 5 t
      = ((cfg8.win 5).blk t).view.read (Elt Ideal) (Cert.Spec.mlp (feat8 V c) (wHid8 V c) (bHid8 V c) (wOut8 V c) (bOut8 V c)) := by
  show (cfg8.win 5).cut (grid8.coords t) ((dat8 V c).after 5 t) = _
  rw [after8_5]
  unfold out8_5
  rw [View.canon_unit_zero zero_offsets]
  simp only [View.ld_unit_zero (S := S64x256) zero_offsets, View.ld_unit_zero (S := S256x128) zero_offsets,
    View.ld_unit_zero (S := S1x128) zero_offsets, View.ld_unit_zero (S := S128x1) zero_offsets,
    View.ld_unit_zero (S := S1x1) zero_offsets]
  funext j
  obtain ⟨p, q, rfl⟩ : ∃ (p : Fin 64) (q : Fin 1), j = ix2 p q := ⟨j 0, j 1, eq_ix2 j⟩
  show k8_pay1 (F := Ideal) (iblk8 V c 0 t) (iblk8 V c 1 t) (iblk8 V c 2 t) (iblk8 V c 3 t) (iblk8 V c 4 t) (ix2 p q)
    = Cert.Spec.mlp (feat8 V c) (wHid8 V c) (bHid8 V c) (wOut8 V c) (bOut8 V c) (((cfg8.win 5).blk t).view.emb (ix2 p q))
  rw [blk_emb8_5 t (ix2 p q)]
  refine (head_payload_apply _ _ _ _ _ p q).trans ?_
  obtain rfl : q = 0 := Subsingleton.elim _ _
  simp only [iblk8_0_apply, iblk8_1_apply, iblk8_2_apply, iblk8_3_apply, iblk8_4_apply]
  rfl

/-- The one point's block is the whole result array. -/
theorem covered8 (i : S64x1.Idx) :
    ∃ t : Fin cfg8.N, (cfg8.win 5).flush t = true ∧ i ∈ ((cfg8.win 5).blk t).view.set := by
  refine ⟨t8_0, flush8_5 t8_0, ?_⟩
  obtain ⟨-, -, -, -, -, -, -, -, -, -, e0, e1⟩ := block_index8 t8_0
  have h0 : (i 0).val < 64 := (i 0).isLt
  have h1 : (i 1).val < 1 := (i 1).isLt
  show i ∈ ((View.whole (Pipeline.arrRef spec8 5)).slice (win8_5.rect t8_0)).set
  rw [View.set_slice_whole, Rect.mem_set_unit]
  intro a
  match a with
  | ⟨0, _⟩ => show win8_5.index t8_0 (0 : Fin 2) * 64 ≤ (i 0).val ∧ (i 0).val < win8_5.index t8_0 (0 : Fin 2) * 64 + 64; omega
  | ⟨1, _⟩ => show win8_5.index t8_0 (1 : Fin 2) * 1 ≤ (i 1).val ∧ (i 1).val < win8_5.index t8_0 (1 : Fin 2) * 1 + 1; omega

theorem final8 (c : Dev nD) :
    (dat8 (F := Ideal) V c).arrAt ⟨5, by decide⟩ cfg8.N
      = Cert.Spec.mlp (V c (Pipeline.arrRef spec8 0) : (⟨2, ![64, 256]⟩ : Shape).Idx → EReal)
          (V c (Pipeline.arrRef spec8 1) : (⟨2, ![256, 128]⟩ : Shape).Idx → EReal)
          (V c (Pipeline.arrRef spec8 2) : (⟨2, ![1, 128]⟩ : Shape).Idx → EReal)
          (V c (Pipeline.arrRef spec8 3) : (⟨2, ![128, 1]⟩ : Shape).Idx → EReal)
          (V c (Pipeline.arrRef spec8 4) : (⟨2, ![1, 1]⟩ : Shape).Idx → EReal) :=
  (dat8 V c).arrAt_eq_of_cover 5 _ (fun t _ => flushed8_eq V c t) covered8

end Cert.KernelIdeal.Val8

end
-- ==== Proof.Val.Result.lean ====
/- Each region's value theorem, supplied at the contents that region is entered from. -/
import proofs.«403813_j11570641895563_3_alg».proof.Proof.Val.Compose
import proofs.«403813_j11570641895563_3_alg».proof.Proof.Val.V0
import proofs.«403813_j11570641895563_3_alg».proof.Proof.Val.V1
import proofs.«403813_j11570641895563_3_alg».proof.Proof.Val.V2
import proofs.«403813_j11570641895563_3_alg».proof.Proof.Val.V3
import proofs.«403813_j11570641895563_3_alg».proof.Proof.Val.V4
import proofs.«403813_j11570641895563_3_alg».proof.Proof.Val.V5
import proofs.«403813_j11570641895563_3_alg».proof.Proof.Val.V6
import proofs.«403813_j11570641895563_3_alg».proof.Proof.Val.V7
import proofs.«403813_j11570641895563_3_alg».proof.Proof.Val.V8

set_option maxRecDepth 16384

noncomputable section

namespace Cert.KernelIdeal.KVal

open Cert.KernelIdeal Cert.KernelIdeal.Gen Idealize.ShloMosaic Idealize.ShloMosaic.TcCoe
open Idealize.SL Idealize.SL.Sem

theorem result_eq (m : (ℓ : Loc nD τ sig) → Buf (Elt Ideal) ℓ) (c : Dev nD) :
    B26 m c main_v119
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) :=
  result_eq_of m c (Val0.final0 (P1 m) c) (Val1.final1 (P3 m) c) (Val2.final2 (P5 m) c) (Val3.final3 (P11 m) c)
    (Val4.final4 (P13 m) c) (Val5.final5 (P15 m) c) (Val6.final6 (P17 m) c) (Val7.final7 (P23 m) c) (Val8.final8 (P25 m) c)

end Cert.KernelIdeal.KVal

end
-- ==== Proof.Ref.OpsA.lean ====
/- The reference's host operations in order, cut into lists, with the buffers each list writes. -/
import proofs.«403813_j11570641895563_3_alg».proof.Proof.Gen.ReferenceIdeal
import Idealize.ShloMosaic.Lib.StableHlo.Run

set_option maxRecDepth 2048

noncomputable section

namespace Cert.ReferenceIdeal.RefRun

open Cert.ReferenceIdeal Cert.ReferenceIdeal.Gen Idealize.ShloMosaic Idealize.ShloMosaic.TcCoe Idealize.SL.Sem

variable {F : FTy → Type} [FloatOps F]

abbrev l1_norm : List (HloOp τ sig (Elt F)) :=
  [ StableHlo.unary main_arg1 main_v0 (extractStridedSlice S1x800000 ![0, 0] · slices_S2x800000_S1x800000_0_0),
    StableHlo.reshape main_v0 main_v1 rfl shapeCasts_S1x800000_S800000,
    StableHlo.unary main_arg1 main_v2 (extractStridedSlice S1x800000 ![1, 0] · slices_S2x800000_S1x800000_1_0),
    StableHlo.reshape main_v2 main_v3 rfl shapeCasts_S1x800000_S800000,
    StableHlo.binary main_arg0 main_arg6 main_v4 (fun l r => Host.dotGeneral dot_S50000x128_S128x128_S50000x128_1_0_0_1_n_n none l r),
    StableHlo.nullary main_cst (constant S_ .f32 0x00000000#32),
    StableHlo.unary main_cst main_v5 (broadcastInDim S50000 ![] bcast_S_S50000),
    StableHlo.nullary main_c (constantI S_ 32 0#32),
    StableHlo.unary main_c main_v6 (broadcastInDim S800000 ![] bcast_S_S800000),
    StableHlo.binary main_v3 main_v6 main_v7 (cmpi .slt),
    StableHlo.nullary main_c_0 (constantI S_ 32 50000#32),
    StableHlo.unary main_c_0 main_v8 (broadcastInDim S800000 ![] bcast_S_S800000),
    StableHlo.binary main_v3 main_v8 main_v9 addi,
    StableHlo.ternary main_v7 main_v9 main_v3 main_v10 select,
    StableHlo.unary main_v10 main_v11 (broadcastInDim S800000x1 ![0] bcast_S800000_S800000x1_0),
    StableHlo.nullary main_cst_1 (constant S_ .f32 0x3F800000#32),
    StableHlo.unary main_cst_1 main_v12 (broadcastInDim S800000 ![] bcast_S_S800000),
    StableHlo.ternary main_v5 main_v11 main_v12 main_v13 (fun x i u => Host.scatterAdd scatter_S50000_S800000x1_S800000_n_0_0_1 x i u),
    StableHlo.nullary main_cst_2 (constant S_ .f32 0x3F800000#32),
    StableHlo.unary main_cst_2 main_v14 (broadcastInDim S50000 ![] bcast_S_S50000),
    StableHlo.binary main_v13 main_v14 main_v15 addf,
    StableHlo.unary main_v15 main_v16 Host.rsqrt,
    StableHlo.nullary main_c_3 (constantI S_ 32 0#32),
    StableHlo.unary main_c_3 main_v17 (broadcastInDim S800000 ![] bcast_S_S800000),
    StableHlo.binary main_v1 main_v17 main_v18 (cmpi .slt),
    StableHlo.nullary main_c_4 (constantI S_ 32 50000#32),
    StableHlo.unary main_c_4 main_v19 (broadcastInDim S800000 ![] bcast_S_S800000),
    StableHlo.binary main_v1 main_v19 main_v20 addi,
    StableHlo.ternary main_v18 main_v20 main_v1 main_v21 select,
    StableHlo.unary main_v21 main_v22 (broadcastInDim S800000x1 ![0] bcast_S800000_S800000x1_0),
    StableHlo.binary main_v16 main_v22 main_v23 (fun x i => Host.gather gather_S50000_S800000x1_S800000_n_0_n_n_0_1_1 x i),
    StableHlo.nullary main_c_5 (constantI S_ 32 0#32),
    StableHlo.unary main_c_5 main_v24 (broadcastInDim S800000 ![] bcast_S_S800000),
    StableHlo.binary main_v3 main_v24 main_v25 (cmpi .slt),
    StableHlo.nullary main_c_6 (constantI S_ 32 50000#32),
    StableHlo.unary main_c_6 main_v26 (broadcastInDim S800000 ![] bcast_S_S800000),
    StableHlo.binary main_v3 main_v26 main_v27 addi,
    StableHlo.ternary main_v25 main_v27 main_v3 main_v28 select,
    StableHlo.unary main_v28 main_v29 (broadcastInDim S800000x1 ![0] bcast_S800000_S800000x1_0),
    StableHlo.binary main_v16 main_v29 main_v30 (fun x i => Host.gather gather_S50000_S800000x1_S800000_n_0_n_n_0_1_1 x i),
    StableHlo.binary main_v23 main_v30 main_v31 mulf ]
abbrev l1_norm_W : List (Ref sig .tc) := [main_v0, main_v1, main_v2, main_v3, main_v4, main_cst, main_v5, main_c, main_v6, main_v7, main_c_0, main_v8, main_v9, main_v10, main_v11, main_cst_1, main_v12, main_v13, main_cst_2, main_v14, main_v15, main_v16, main_c_3, main_v17, main_v18, main_c_4, main_v19, main_v20, main_v21, main_v22, main_v23, main_c_5, main_v24, main_v25, main_c_6, main_v26, main_v27, main_v28, main_v29, main_v30, main_v31]
theorem l1_norm_writes : (l1_norm : List (HloOp τ sig (Elt F))).Forall fun op => op.writes ⊆ (l1_norm_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l1_msg : List (HloOp τ sig (Elt F)) :=
  [ StableHlo.nullary main_cst_7 (constant S_ .f32 0x00000000#32),
    StableHlo.unary main_cst_7 main_v32 (broadcastInDim S50000x128 ![] bcast_S_S50000x128),
    StableHlo.nullary main_c_8 (constantI S_ 32 0#32),
    StableHlo.unary main_c_8 main_v33 (broadcastInDim S800000 ![] bcast_S_S800000),
    StableHlo.binary main_v1 main_v33 main_v34 (cmpi .slt),
    StableHlo.nullary main_c_9 (constantI S_ 32 50000#32),
    StableHlo.unary main_c_9 main_v35 (broadcastInDim S800000 ![] bcast_S_S800000),
    StableHlo.binary main_v1 main_v35 main_v36 addi,
    StableHlo.ternary main_v34 main_v36 main_v1 main_v37 select,
    StableHlo.unary main_v37 main_v38 (broadcastInDim S800000x1 ![0] bcast_S800000_S800000x1_0),
    StableHlo.binary main_v4 main_v38 main_v39 (fun x i => Host.gather gather_S50000x128_S800000x1_S800000x128_1_0_n_n_0_1_1128 x i),
    StableHlo.unary main_v31 main_v40 (broadcastInDim S800000x1 ![0] bcast_S800000_S800000x1_0),
    StableHlo.unary main_v40 main_v41 (broadcastInDim S800000x128 ![0, 1] bcast_S800000x1_S800000x128_0_1),
    StableHlo.binary main_v39 main_v41 main_v42 mulf,
    StableHlo.nullary main_c_10 (constantI S_ 32 0#32),
    StableHlo.unary main_c_10 main_v43 (broadcastInDim S800000 ![] bcast_S_S800000),
    StableHlo.binary main_v3 main_v43 main_v44 (cmpi .slt),
    StableHlo.nullary main_c_11 (constantI S_ 32 50000#32),
    StableHlo.unary main_c_11 main_v45 (broadcastInDim S800000 ![] bcast_S_S800000) ]
abbrev l1_msg_W : List (Ref sig .tc) := [main_cst_7, main_v32, main_c_8, main_v33, main_v34, main_c_9, main_v35, main_v36, main_v37, main_v38, main_v39, main_v40, main_v41, main_v42, main_c_10, main_v43, main_v44, main_c_11, main_v45]
theorem l1_msg_writes : (l1_msg : List (HloOp τ sig (Elt F))).Forall fun op => op.writes ⊆ (l1_msg_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l1_sum : List (HloOp τ sig (Elt F)) :=
  [ StableHlo.binary main_v3 main_v45 main_v46 addi,
    StableHlo.ternary main_v44 main_v46 main_v3 main_v47 select,
    StableHlo.unary main_v47 main_v48 (broadcastInDim S800000x1 ![0] bcast_S800000_S800000x1_0),
    StableHlo.ternary main_v32 main_v48 main_v42 main_v49 (fun x i u => Host.scatterAdd scatter_S50000x128_S800000x1_S800000x128_1_0_0_1 x i u),
    StableHlo.nullary main_cst_12 (constant S_ .f32 0x3F800000#32),
    StableHlo.unary main_cst_12 main_v50 (broadcastInDim S50000 ![] bcast_S_S50000),
    StableHlo.binary main_v50 main_v15 main_v51 Host.divf,
    StableHlo.unary main_v51 main_v52 (broadcastInDim S50000x1 ![0] bcast_S50000_S50000x1_0),
    StableHlo.unary main_v52 main_v53 (broadcastInDim S50000x128 ![0, 1] bcast_S50000x1_S50000x128_0_1),
    StableHlo.binary main_v4 main_v53 main_v54 mulf,
    StableHlo.binary main_v49 main_v54 main_v55 addf,
    StableHlo.unary main_arg7 main_v56 (broadcastInDim S1x128 ![1] bcast_S128_S1x128_1),
    StableHlo.unary main_v56 main_v57 (broadcastInDim S50000x128 ![0, 1] bcast_S1x128_S50000x128_0_1),
    StableHlo.binary main_v55 main_v57 main_v58 addf,
    StableHlo.nullary main_cst_13 (constant S_ .f32 0x3C23D70A#32) ]
abbrev l1_sum_W : List (Ref sig .tc) := [main_v46, main_v47, main_v48, main_v49, main_cst_12, main_v50, main_v51, main_v52, main_v53, main_v54, main_v55, main_v56, main_v57, main_v58, main_cst_13]
theorem l1_sum_writes : (l1_sum : List (HloOp τ sig (Elt F))).Forall fun op => op.writes ⊆ (l1_sum_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l1_act : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary (.of main_v58) main_call0.v0 main_call0.v1 (cmpf .oge),
    StableHlo.TRef.unary (.of main_cst_13) main_call0.v2 id,
    StableHlo.TRef.unary main_call0.v2 main_call0.v3 (broadcastInDim S50000x128 ![] bcast_S_S50000x128),
    StableHlo.TRef.binary main_call0.v3 (.of main_v58) main_call0.v4 mulf,
    StableHlo.TRef.ternary main_call0.v1 (.of main_v58) main_call0.v4 main_call0.call0.v0 select ]
abbrev l1_act_W : List (Ref sig .tc) := [main_call0_cst, main_call0_v0, main_call0_v1, main_call0_v2, main_call0_v3, main_call0_v4, main_v59]
theorem l1_act_writes : (l1_act : List (HloOp τ sig (Elt F))).Forall fun op => op.writes ⊆ (l1_act_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l2_norm : List (HloOp τ sig (Elt F)) :=
  [ StableHlo.binary main_v59 main_arg8 main_v60 (fun l r => Host.dotGeneral dot_S50000x128_S128x128_S50000x128_1_0_0_1_n_n none l r),
    StableHlo.nullary main_cst_14 (constant S_ .f32 0x00000000#32),
    StableHlo.unary main_cst_14 main_v61 (broadcastInDim S50000 ![] bcast_S_S50000),
    StableHlo.nullary main_c_15 (constantI S_ 32 0#32),
    StableHlo.unary main_c_15 main_v62 (broadcastInDim S800000 ![] bcast_S_S800000),
    StableHlo.binary main_v3 main_v62 main_v63 (cmpi .slt),
    StableHlo.nullary main_c_16 (constantI S_ 32 50000#32),
    StableHlo.unary main_c_16 main_v64 (broadcastInDim S800000 ![] bcast_S_S800000),
    StableHlo.binary main_v3 main_v64 main_v65 addi,
    StableHlo.ternary main_v63 main_v65 main_v3 main_v66 select,
    StableHlo.unary main_v66 main_v67 (broadcastInDim S800000x1 ![0] bcast_S800000_S800000x1_0),
    StableHlo.nullary main_cst_17 (constant S_ .f32 0x3F800000#32),
    StableHlo.unary main_cst_17 main_v68 (broadcastInDim S800000 ![] bcast_S_S800000),
    StableHlo.ternary main_v61 main_v67 main_v68 main_v69 (fun x i u => Host.scatterAdd scatter_S50000_S800000x1_S800000_n_0_0_1 x i u),
    StableHlo.nullary main_cst_18 (constant S_ .f32 0x3F800000#32),
    StableHlo.unary main_cst_18 main_v70 (broadcastInDim S50000 ![] bcast_S_S50000),
    StableHlo.binary main_v69 main_v70 main_v71 addf,
    StableHlo.unary main_v71 main_v72 Host.rsqrt,
    StableHlo.nullary main_c_19 (constantI S_ 32 0#32),
    StableHlo.unary main_c_19 main_v73 (broadcastInDim S800000 ![] bcast_S_S800000),
    StableHlo.binary main_v1 main_v73 main_v74 (cmpi .slt),
    StableHlo.nullary main_c_20 (constantI S_ 32 50000#32),
    StableHlo.unary main_c_20 main_v75 (broadcastInDim S800000 ![] bcast_S_S800000),
    StableHlo.binary main_v1 main_v75 main_v76 addi,
    StableHlo.ternary main_v74 main_v76 main_v1 main_v77 select,
    StableHlo.unary main_v77 main_v78 (broadcastInDim S800000x1 ![0] bcast_S800000_S800000x1_0),
    StableHlo.binary main_v72 main_v78 main_v79 (fun x i => Host.gather gather_S50000_S800000x1_S800000_n_0_n_n_0_1_1 x i),
    StableHlo.nullary main_c_21 (constantI S_ 32 0#32),
    StableHlo.unary main_c_21 main_v80 (broadcastInDim S800000 ![] bcast_S_S800000),
    StableHlo.binary main_v3 main_v80 main_v81 (cmpi .slt),
    StableHlo.nullary main_c_22 (constantI S_ 32 50000#32),
    StableHlo.unary main_c_22 main_v82 (broadcastInDim S800000 ![] bcast_S_S800000),
    StableHlo.binary main_v3 main_v82 main_v83 addi,
    StableHlo.ternary main_v81 main_v83 main_v3 main_v84 select,
    StableHlo.unary main_v84 main_v85 (broadcastInDim S800000x1 ![0] bcast_S800000_S800000x1_0),
    StableHlo.binary main_v72 main_v85 main_v86 (fun x i => Host.gather gather_S50000_S800000x1_S800000_n_0_n_n_0_1_1 x i),
    StableHlo.binary main_v79 main_v86 main_v87 mulf ]
abbrev l2_norm_W : List (Ref sig .tc) := [main_v60, main_cst_14, main_v61, main_c_15, main_v62, main_v63, main_c_16, main_v64, main_v65, main_v66, main_v67, main_cst_17, main_v68, main_v69, main_cst_18, main_v70, main_v71, main_v72, main_c_19, main_v73, main_v74, main_c_20, main_v75, main_v76, main_v77, main_v78, main_v79, main_c_21, main_v80, main_v81, main_c_22, main_v82, main_v83, main_v84, main_v85, main_v86, main_v87]
theorem l2_norm_writes : (l2_norm : List (HloOp τ sig (Elt F))).Forall fun op => op.writes ⊆ (l2_norm_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l2_msg : List (HloOp τ sig (Elt F)) :=
  [ StableHlo.nullary main_cst_23 (constant S_ .f32 0x00000000#32),
    StableHlo.unary main_cst_23 main_v88 (broadcastInDim S50000x128 ![] bcast_S_S50000x128),
    StableHlo.nullary main_c_24 (constantI S_ 32 0#32),
    StableHlo.unary main_c_24 main_v89 (broadcastInDim S800000 ![] bcast_S_S800000),
    StableHlo.binary main_v1 main_v89 main_v90 (cmpi .slt),
    StableHlo.nullary main_c_25 (constantI S_ 32 50000#32),
    StableHlo.unary main_c_25 main_v91 (broadcastInDim S800000 ![] bcast_S_S800000) ]
abbrev l2_msg_W : List (Ref sig .tc) := [main_cst_23, main_v88, main_c_24, main_v89, main_v90, main_c_25, main_v91]
theorem l2_msg_writes : (l2_msg : List (HloOp τ sig (Elt F))).Forall fun op => op.writes ⊆ (l2_msg_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l2_sum : List (HloOp τ sig (Elt F)) :=
  [ StableHlo.binary main_v1 main_v91 main_v92 addi,
    StableHlo.ternary main_v90 main_v92 main_v1 main_v93 select,
    StableHlo.unary main_v93 main_v94 (broadcastInDim S800000x1 ![0] bcast_S800000_S800000x1_0),
    StableHlo.binary main_v60 main_v94 main_v95 (fun x i => Host.gather gather_S50000x128_S800000x1_S800000x128_1_0_n_n_0_1_1128 x i),
    StableHlo.unary main_v87 main_v96 (broadcastInDim S800000x1 ![0] bcast_S800000_S800000x1_0),
    StableHlo.unary main_v96 main_v97 (broadcastInDim S800000x128 ![0, 1] bcast_S800000x1_S800000x128_0_1),
    StableHlo.binary main_v95 main_v97 main_v98 mulf,
    StableHlo.nullary main_c_26 (constantI S_ 32 0#32),
    StableHlo.unary main_c_26 main_v99 (broadcastInDim S800000 ![] bcast_S_S800000),
    StableHlo.binary main_v3 main_v99 main_v100 (cmpi .slt),
    StableHlo.nullary main_c_27 (constantI S_ 32 50000#32),
    StableHlo.unary main_c_27 main_v101 (broadcastInDim S800000 ![] bcast_S_S800000),
    StableHlo.binary main_v3 main_v101 main_v102 addi,
    StableHlo.ternary main_v100 main_v102 main_v3 main_v103 select,
    StableHlo.unary main_v103 main_v104 (broadcastInDim S800000x1 ![0] bcast_S800000_S800000x1_0),
    StableHlo.ternary main_v88 main_v104 main_v98 main_v105 (fun x i u => Host.scatterAdd scatter_S50000x128_S800000x1_S800000x128_1_0_0_1 x i u),
    StableHlo.nullary main_cst_28 (constant S_ .f32 0x3F800000#32),
    StableHlo.unary main_cst_28 main_v106 (broadcastInDim S50000 ![] bcast_S_S50000),
    StableHlo.binary main_v106 main_v71 main_v107 Host.divf,
    StableHlo.unary main_v107 main_v108 (broadcastInDim S50000x1 ![0] bcast_S50000_S50000x1_0),
    StableHlo.unary main_v108 main_v109 (broadcastInDim S50000x128 ![0, 1] bcast_S50000x1_S50000x128_0_1),
    StableHlo.binary main_v60 main_v109 main_v110 mulf,
    StableHlo.binary main_v105 main_v110 main_v111 addf,
    StableHlo.unary main_arg9 main_v112 (broadcastInDim S1x128 ![1] bcast_S128_S1x128_1),
    StableHlo.unary main_v112 main_v113 (broadcastInDim S50000x128 ![0, 1] bcast_S1x128_S50000x128_0_1),
    StableHlo.binary main_v111 main_v113 main_v114 addf,
    StableHlo.nullary main_cst_29 (constant S_ .f32 0x3C23D70A#32) ]
abbrev l2_sum_W : List (Ref sig .tc) := [main_v92, main_v93, main_v94, main_v95, main_v96, main_v97, main_v98, main_c_26, main_v99, main_v100, main_c_27, main_v101, main_v102, main_v103, main_v104, main_v105, main_cst_28, main_v106, main_v107, main_v108, main_v109, main_v110, main_v111, main_v112, main_v113, main_v114, main_cst_29]
theorem l2_sum_writes : (l2_sum : List (HloOp τ sig (Elt F))).Forall fun op => op.writes ⊆ (l2_sum_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l2_act : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v114) main_call1.v0 main_call1.v1 (cmpf .oge),
    StableHlo.TRef.unary (.of main_cst_29) main_call1.v2 id,
    StableHlo.TRef.unary main_call1.v2 main_call1.v3 (broadcastInDim S50000x128 ![] bcast_S_S50000x128),
    StableHlo.TRef.binary main_call1.v3 (.of main_v114) main_call1.v4 mulf,
    StableHlo.TRef.ternary main_call1.v1 (.of main_v114) main_call1.v4 main_call1.call0.v0 select ]
abbrev l2_act_W : List (Ref sig .tc) := [main_call1_cst, main_call1_v0, main_call1_v1, main_call1_v2, main_call1_v3, main_call1_v4, main_v115]
theorem l2_act_writes : (l2_act : List (HloOp τ sig (Elt F))).Forall fun op => op.writes ⊆ (l2_act_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev pool1 : List (HloOp τ sig (Elt F)) :=
  [ StableHlo.nullary main_cst_30 (constant S_ .f32 0x00000000#32),
    StableHlo.unary main_cst_30 main_v116 (broadcastInDim S64x128 ![] bcast_S_S64x128),
    StableHlo.unary main_arg2 main_v117 (broadcastInDim S50000x1 ![0] bcast_S50000_S50000x1_0),
    StableHlo.ternary main_v116 main_v117 main_v115 main_v118 (fun x i u => Host.scatterAdd scatter_S64x128_S50000x1_S50000x128_1_0_0_1 x i u),
    StableHlo.nullary main_cst_31 (constant S_ .f32 0x3F800000#32),
    StableHlo.unary main_cst_31 main_v119 (broadcastInDim S50000 ![] bcast_S_S50000),
    StableHlo.nullary main_cst_32 (constant S_ .f32 0x00000000#32),
    StableHlo.unary main_cst_32 main_v120 (broadcastInDim S64 ![] bcast_S_S64),
    StableHlo.unary main_arg2 main_v121 (broadcastInDim S50000x1 ![0] bcast_S50000_S50000x1_0),
    StableHlo.ternary main_v120 main_v121 main_v119 main_v122 (fun x i u => Host.scatterAdd scatter_S64_S50000x1_S50000_n_0_0_1 x i u),
    StableHlo.nullary main_cst_33 (constant S_ .f32 0x3F800000#32),
    StableHlo.unary main_cst_33 main_v123 (broadcastInDim S64 ![] bcast_S_S64),
    StableHlo.binary main_v122 main_v123 main_v124 maximumf,
    StableHlo.unary main_v124 main_v125 (broadcastInDim S64x1 ![0] bcast_S64_S64x1_0),
    StableHlo.unary main_v125 main_v126 (broadcastInDim S64x128 ![0, 1] bcast_S64x1_S64x128_0_1),
    StableHlo.binary main_v118 main_v126 main_v127 Host.divf ]
abbrev pool1_W : List (Ref sig .tc) := [main_cst_30, main_v116, main_v117, main_v118, main_cst_31, main_v119, main_cst_32, main_v120, main_v121, main_v122, main_cst_33, main_v123, main_v124, main_v125, main_v126, main_v127]
theorem pool1_writes : (pool1 : List (HloOp τ sig (Elt F))).Forall fun op => op.writes ⊆ (pool1_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

end Cert.ReferenceIdeal.RefRun

end
-- ==== Proof.Ref.OpsB.lean ====
/- The reference's host operations in order, cut into lists, with the buffers each list writes. -/
import proofs.«403813_j11570641895563_3_alg».proof.Proof.Gen.ReferenceIdeal
import Idealize.ShloMosaic.Lib.StableHlo.Run

set_option maxRecDepth 2048

noncomputable section

namespace Cert.ReferenceIdeal.RefRun

open Cert.ReferenceIdeal Cert.ReferenceIdeal.Gen Idealize.ShloMosaic Idealize.ShloMosaic.TcCoe Idealize.SL.Sem

variable {F : FTy → Type} [FloatOps F]

abbrev l3_idx : List (HloOp τ sig (Elt F)) :=
  [ StableHlo.unary main_arg4 main_v128 (extractStridedSlice S1x800000 ![0, 0] · slices_S2x800000_S1x800000_0_0),
    StableHlo.reshape main_v128 main_v129 rfl shapeCasts_S1x800000_S800000,
    StableHlo.unary main_arg4 main_v130 (extractStridedSlice S1x800000 ![1, 0] · slices_S2x800000_S1x800000_1_0),
    StableHlo.reshape main_v130 main_v131 rfl shapeCasts_S1x800000_S800000,
    StableHlo.binary main_arg3 main_arg10 main_v132 (fun l r => Host.dotGeneral dot_S50000x128_S128x128_S50000x128_1_0_0_1_n_n none l r),
    StableHlo.nullary main_cst_34 (constant S_ .f32 0x00000000#32),
    StableHlo.unary main_cst_34 main_v133 (broadcastInDim S50000 ![] bcast_S_S50000),
    StableHlo.nullary main_c_35 (constantI S_ 32 0#32),
    StableHlo.unary main_c_35 main_v134 (broadcastInDim S800000 ![] bcast_S_S800000),
    StableHlo.binary main_v131 main_v134 main_v135 (cmpi .slt),
    StableHlo.nullary main_c_36 (constantI S_ 32 50000#32),
    StableHlo.unary main_c_36 main_v136 (broadcastInDim S800000 ![] bcast_S_S800000),
    StableHlo.binary main_v131 main_v136 main_v137 addi,
    StableHlo.ternary main_v135 main_v137 main_v131 main_v138 select,
    StableHlo.unary main_v138 main_v139 (broadcastInDim S800000x1 ![0] bcast_S800000_S800000x1_0),
    StableHlo.nullary main_cst_37 (constant S_ .f32 0x3F800000#32) ]
abbrev l3_idx_W : List (Ref sig .tc) := [main_v128, main_v129, main_v130, main_v131, main_v132, main_cst_34, main_v133, main_c_35, main_v134, main_v135, main_c_36, main_v136, main_v137, main_v138, main_v139, main_cst_37]
theorem l3_idx_writes : (l3_idx : List (HloOp τ sig (Elt F))).Forall fun op => op.writes ⊆ (l3_idx_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l3_norm : List (HloOp τ sig (Elt F)) :=
  [ StableHlo.unary main_cst_37 main_v140 (broadcastInDim S800000 ![] bcast_S_S800000),
    StableHlo.ternary main_v133 main_v139 main_v140 main_v141 (fun x i u => Host.scatterAdd scatter_S50000_S800000x1_S800000_n_0_0_1 x i u),
    StableHlo.nullary main_cst_38 (constant S_ .f32 0x3F800000#32),
    StableHlo.unary main_cst_38 main_v142 (broadcastInDim S50000 ![] bcast_S_S50000),
    StableHlo.binary main_v141 main_v142 main_v143 addf,
    StableHlo.unary main_v143 main_v144 Host.rsqrt,
    StableHlo.nullary main_c_39 (constantI S_ 32 0#32),
    StableHlo.unary main_c_39 main_v145 (broadcastInDim S800000 ![] bcast_S_S800000),
    StableHlo.binary main_v129 main_v145 main_v146 (cmpi .slt),
    StableHlo.nullary main_c_40 (constantI S_ 32 50000#32),
    StableHlo.unary main_c_40 main_v147 (broadcastInDim S800000 ![] bcast_S_S800000),
    StableHlo.binary main_v129 main_v147 main_v148 addi,
    StableHlo.ternary main_v146 main_v148 main_v129 main_v149 select,
    StableHlo.unary main_v149 main_v150 (broadcastInDim S800000x1 ![0] bcast_S800000_S800000x1_0),
    StableHlo.binary main_v144 main_v150 main_v151 (fun x i => Host.gather gather_S50000_S800000x1_S800000_n_0_n_n_0_1_1 x i),
    StableHlo.nullary main_c_41 (constantI S_ 32 0#32),
    StableHlo.unary main_c_41 main_v152 (broadcastInDim S800000 ![] bcast_S_S800000),
    StableHlo.binary main_v131 main_v152 main_v153 (cmpi .slt),
    StableHlo.nullary main_c_42 (constantI S_ 32 50000#32),
    StableHlo.unary main_c_42 main_v154 (broadcastInDim S800000 ![] bcast_S_S800000),
    StableHlo.binary main_v131 main_v154 main_v155 addi,
    StableHlo.ternary main_v153 main_v155 main_v131 main_v156 select,
    StableHlo.unary main_v156 main_v157 (broadcastInDim S800000x1 ![0] bcast_S800000_S800000x1_0),
    StableHlo.binary main_v144 main_v157 main_v158 (fun x i => Host.gather gather_S50000_S800000x1_S800000_n_0_n_n_0_1_1 x i),
    StableHlo.binary main_v151 main_v158 main_v159 mulf ]
abbrev l3_norm_W : List (Ref sig .tc) := [main_v140, main_v141, main_cst_38, main_v142, main_v143, main_v144, main_c_39, main_v145, main_v146, main_c_40, main_v147, main_v148, main_v149, main_v150, main_v151, main_c_41, main_v152, main_v153, main_c_42, main_v154, main_v155, main_v156, main_v157, main_v158, main_v159]
theorem l3_norm_writes : (l3_norm : List (HloOp τ sig (Elt F))).Forall fun op => op.writes ⊆ (l3_norm_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l3_sum : List (HloOp τ sig (Elt F)) :=
  [ StableHlo.nullary main_cst_43 (constant S_ .f32 0x00000000#32),
    StableHlo.unary main_cst_43 main_v160 (broadcastInDim S50000x128 ![] bcast_S_S50000x128),
    StableHlo.nullary main_c_44 (constantI S_ 32 0#32),
    StableHlo.unary main_c_44 main_v161 (broadcastInDim S800000 ![] bcast_S_S800000),
    StableHlo.binary main_v129 main_v161 main_v162 (cmpi .slt),
    StableHlo.nullary main_c_45 (constantI S_ 32 50000#32),
    StableHlo.unary main_c_45 main_v163 (broadcastInDim S800000 ![] bcast_S_S800000),
    StableHlo.binary main_v129 main_v163 main_v164 addi,
    StableHlo.ternary main_v162 main_v164 main_v129 main_v165 select,
    StableHlo.unary main_v165 main_v166 (broadcastInDim S800000x1 ![0] bcast_S800000_S800000x1_0),
    StableHlo.binary main_v132 main_v166 main_v167 (fun x i => Host.gather gather_S50000x128_S800000x1_S800000x128_1_0_n_n_0_1_1128 x i),
    StableHlo.unary main_v159 main_v168 (broadcastInDim S800000x1 ![0] bcast_S800000_S800000x1_0),
    StableHlo.unary main_v168 main_v169 (broadcastInDim S800000x128 ![0, 1] bcast_S800000x1_S800000x128_0_1),
    StableHlo.binary main_v167 main_v169 main_v170 mulf,
    StableHlo.nullary main_c_46 (constantI S_ 32 0#32),
    StableHlo.unary main_c_46 main_v171 (broadcastInDim S800000 ![] bcast_S_S800000),
    StableHlo.binary main_v131 main_v171 main_v172 (cmpi .slt),
    StableHlo.nullary main_c_47 (constantI S_ 32 50000#32),
    StableHlo.unary main_c_47 main_v173 (broadcastInDim S800000 ![] bcast_S_S800000),
    StableHlo.binary main_v131 main_v173 main_v174 addi,
    StableHlo.ternary main_v172 main_v174 main_v131 main_v175 select,
    StableHlo.unary main_v175 main_v176 (broadcastInDim S800000x1 ![0] bcast_S800000_S800000x1_0),
    StableHlo.ternary main_v160 main_v176 main_v170 main_v177 (fun x i u => Host.scatterAdd scatter_S50000x128_S800000x1_S800000x128_1_0_0_1 x i u),
    StableHlo.nullary main_cst_48 (constant S_ .f32 0x3F800000#32),
    StableHlo.unary main_cst_48 main_v178 (broadcastInDim S50000 ![] bcast_S_S50000),
    StableHlo.binary main_v178 main_v143 main_v179 Host.divf,
    StableHlo.unary main_v179 main_v180 (broadcastInDim S50000x1 ![0] bcast_S50000_S50000x1_0),
    StableHlo.unary main_v180 main_v181 (broadcastInDim S50000x128 ![0, 1] bcast_S50000x1_S50000x128_0_1),
    StableHlo.binary main_v132 main_v181 main_v182 mulf,
    StableHlo.binary main_v177 main_v182 main_v183 addf,
    StableHlo.unary main_arg11 main_v184 (broadcastInDim S1x128 ![1] bcast_S128_S1x128_1),
    StableHlo.unary main_v184 main_v185 (broadcastInDim S50000x128 ![0, 1] bcast_S1x128_S50000x128_0_1),
    StableHlo.binary main_v183 main_v185 main_v186 addf,
    StableHlo.nullary main_cst_49 (constant S_ .f32 0x3C23D70A#32) ]
abbrev l3_sum_W : List (Ref sig .tc) := [main_cst_43, main_v160, main_c_44, main_v161, main_v162, main_c_45, main_v163, main_v164, main_v165, main_v166, main_v167, main_v168, main_v169, main_v170, main_c_46, main_v171, main_v172, main_c_47, main_v173, main_v174, main_v175, main_v176, main_v177, main_cst_48, main_v178, main_v179, main_v180, main_v181, main_v182, main_v183, main_v184, main_v185, main_v186, main_cst_49]
theorem l3_sum_writes : (l3_sum : List (HloOp τ sig (Elt F))).Forall fun op => op.writes ⊆ (l3_sum_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l3_act : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v186) main_call2.v0 main_call2.v1 (cmpf .oge),
    StableHlo.TRef.unary (.of main_cst_49) main_call2.v2 id,
    StableHlo.TRef.unary main_call2.v2 main_call2.v3 (broadcastInDim S50000x128 ![] bcast_S_S50000x128),
    StableHlo.TRef.binary main_call2.v3 (.of main_v186) main_call2.v4 mulf,
    StableHlo.TRef.ternary main_call2.v1 (.of main_v186) main_call2.v4 main_call2.call0.v0 select ]
abbrev l3_act_W : List (Ref sig .tc) := [main_call2_cst, main_call2_v0, main_call2_v1, main_call2_v2, main_call2_v3, main_call2_v4, main_v187]
theorem l3_act_writes : (l3_act : List (HloOp τ sig (Elt F))).Forall fun op => op.writes ⊆ (l3_act_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l4_norm : List (HloOp τ sig (Elt F)) :=
  [ StableHlo.binary main_v187 main_arg12 main_v188 (fun l r => Host.dotGeneral dot_S50000x128_S128x128_S50000x128_1_0_0_1_n_n none l r),
    StableHlo.nullary main_cst_50 (constant S_ .f32 0x00000000#32),
    StableHlo.unary main_cst_50 main_v189 (broadcastInDim S50000 ![] bcast_S_S50000),
    StableHlo.nullary main_c_51 (constantI S_ 32 0#32),
    StableHlo.unary main_c_51 main_v190 (broadcastInDim S800000 ![] bcast_S_S800000),
    StableHlo.binary main_v131 main_v190 main_v191 (cmpi .slt),
    StableHlo.nullary main_c_52 (constantI S_ 32 50000#32),
    StableHlo.unary main_c_52 main_v192 (broadcastInDim S800000 ![] bcast_S_S800000),
    StableHlo.binary main_v131 main_v192 main_v193 addi,
    StableHlo.ternary main_v191 main_v193 main_v131 main_v194 select,
    StableHlo.unary main_v194 main_v195 (broadcastInDim S800000x1 ![0] bcast_S800000_S800000x1_0),
    StableHlo.nullary main_cst_53 (constant S_ .f32 0x3F800000#32),
    StableHlo.unary main_cst_53 main_v196 (broadcastInDim S800000 ![] bcast_S_S800000),
    StableHlo.ternary main_v189 main_v195 main_v196 main_v197 (fun x i u => Host.scatterAdd scatter_S50000_S800000x1_S800000_n_0_0_1 x i u),
    StableHlo.nullary main_cst_54 (constant S_ .f32 0x3F800000#32),
    StableHlo.unary main_cst_54 main_v198 (broadcastInDim S50000 ![] bcast_S_S50000),
    StableHlo.binary main_v197 main_v198 main_v199 addf,
    StableHlo.unary main_v199 main_v200 Host.rsqrt,
    StableHlo.nullary main_c_55 (constantI S_ 32 0#32),
    StableHlo.unary main_c_55 main_v201 (broadcastInDim S800000 ![] bcast_S_S800000),
    StableHlo.binary main_v129 main_v201 main_v202 (cmpi .slt),
    StableHlo.nullary main_c_56 (constantI S_ 32 50000#32),
    StableHlo.unary main_c_56 main_v203 (broadcastInDim S800000 ![] bcast_S_S800000),
    StableHlo.binary main_v129 main_v203 main_v204 addi,
    StableHlo.ternary main_v202 main_v204 main_v129 main_v205 select,
    StableHlo.unary main_v205 main_v206 (broadcastInDim S800000x1 ![0] bcast_S800000_S800000x1_0),
    StableHlo.binary main_v200 main_v206 main_v207 (fun x i => Host.gather gather_S50000_S800000x1_S800000_n_0_n_n_0_1_1 x i),
    StableHlo.nullary main_c_57 (constantI S_ 32 0#32),
    StableHlo.unary main_c_57 main_v208 (broadcastInDim S800000 ![] bcast_S_S800000),
    StableHlo.binary main_v131 main_v208 main_v209 (cmpi .slt),
    StableHlo.nullary main_c_58 (constantI S_ 32 50000#32),
    StableHlo.unary main_c_58 main_v210 (broadcastInDim S800000 ![] bcast_S_S800000),
    StableHlo.binary main_v131 main_v210 main_v211 addi,
    StableHlo.ternary main_v209 main_v211 main_v131 main_v212 select,
    StableHlo.unary main_v212 main_v213 (broadcastInDim S800000x1 ![0] bcast_S800000_S800000x1_0),
    StableHlo.binary main_v200 main_v213 main_v214 (fun x i => Host.gather gather_S50000_S800000x1_S800000_n_0_n_n_0_1_1 x i),
    StableHlo.binary main_v207 main_v214 main_v215 mulf ]
abbrev l4_norm_W : List (Ref sig .tc) := [main_v188, main_cst_50, main_v189, main_c_51, main_v190, main_v191, main_c_52, main_v192, main_v193, main_v194, main_v195, main_cst_53, main_v196, main_v197, main_cst_54, main_v198, main_v199, main_v200, main_c_55, main_v201, main_v202, main_c_56, main_v203, main_v204, main_v205, main_v206, main_v207, main_c_57, main_v208, main_v209, main_c_58, main_v210, main_v211, main_v212, main_v213, main_v214, main_v215]
theorem l4_norm_writes : (l4_norm : List (HloOp τ sig (Elt F))).Forall fun op => op.writes ⊆ (l4_norm_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l4_msg : List (HloOp τ sig (Elt F)) :=
  [ StableHlo.nullary main_cst_59 (constant S_ .f32 0x00000000#32),
    StableHlo.unary main_cst_59 main_v216 (broadcastInDim S50000x128 ![] bcast_S_S50000x128),
    StableHlo.nullary main_c_60 (constantI S_ 32 0#32),
    StableHlo.unary main_c_60 main_v217 (broadcastInDim S800000 ![] bcast_S_S800000),
    StableHlo.binary main_v129 main_v217 main_v218 (cmpi .slt),
    StableHlo.nullary main_c_61 (constantI S_ 32 50000#32),
    StableHlo.unary main_c_61 main_v219 (broadcastInDim S800000 ![] bcast_S_S800000),
    StableHlo.binary main_v129 main_v219 main_v220 addi,
    StableHlo.ternary main_v218 main_v220 main_v129 main_v221 select,
    StableHlo.unary main_v221 main_v222 (broadcastInDim S800000x1 ![0] bcast_S800000_S800000x1_0),
    StableHlo.binary main_v188 main_v222 main_v223 (fun x i => Host.gather gather_S50000x128_S800000x1_S800000x128_1_0_n_n_0_1_1128 x i),
    StableHlo.unary main_v215 main_v224 (broadcastInDim S800000x1 ![0] bcast_S800000_S800000x1_0),
    StableHlo.unary main_v224 main_v225 (broadcastInDim S800000x128 ![0, 1] bcast_S800000x1_S800000x128_0_1),
    StableHlo.binary main_v223 main_v225 main_v226 mulf,
    StableHlo.nullary main_c_62 (constantI S_ 32 0#32),
    StableHlo.unary main_c_62 main_v227 (broadcastInDim S800000 ![] bcast_S_S800000),
    StableHlo.binary main_v131 main_v227 main_v228 (cmpi .slt),
    StableHlo.nullary main_c_63 (constantI S_ 32 50000#32),
    StableHlo.unary main_c_63 main_v229 (broadcastInDim S800000 ![] bcast_S_S800000),
    StableHlo.binary main_v131 main_v229 main_v230 addi,
    StableHlo.ternary main_v228 main_v230 main_v131 main_v231 select,
    StableHlo.unary main_v231 main_v232 (broadcastInDim S800000x1 ![0] bcast_S800000_S800000x1_0),
    StableHlo.ternary main_v216 main_v232 main_v226 main_v233 (fun x i u => Host.scatterAdd scatter_S50000x128_S800000x1_S800000x128_1_0_0_1 x i u) ]
abbrev l4_msg_W : List (Ref sig .tc) := [main_cst_59, main_v216, main_c_60, main_v217, main_v218, main_c_61, main_v219, main_v220, main_v221, main_v222, main_v223, main_v224, main_v225, main_v226, main_c_62, main_v227, main_v228, main_c_63, main_v229, main_v230, main_v231, main_v232, main_v233]
theorem l4_msg_writes : (l4_msg : List (HloOp τ sig (Elt F))).Forall fun op => op.writes ⊆ (l4_msg_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l4_sum : List (HloOp τ sig (Elt F)) :=
  [ StableHlo.nullary main_cst_64 (constant S_ .f32 0x3F800000#32),
    StableHlo.unary main_cst_64 main_v234 (broadcastInDim S50000 ![] bcast_S_S50000),
    StableHlo.binary main_v234 main_v199 main_v235 Host.divf,
    StableHlo.unary main_v235 main_v236 (broadcastInDim S50000x1 ![0] bcast_S50000_S50000x1_0),
    StableHlo.unary main_v236 main_v237 (broadcastInDim S50000x128 ![0, 1] bcast_S50000x1_S50000x128_0_1),
    StableHlo.binary main_v188 main_v237 main_v238 mulf,
    StableHlo.binary main_v233 main_v238 main_v239 addf,
    StableHlo.unary main_arg13 main_v240 (broadcastInDim S1x128 ![1] bcast_S128_S1x128_1),
    StableHlo.unary main_v240 main_v241 (broadcastInDim S50000x128 ![0, 1] bcast_S1x128_S50000x128_0_1),
    StableHlo.binary main_v239 main_v241 main_v242 addf,
    StableHlo.nullary main_cst_65 (constant S_ .f32 0x3C23D70A#32) ]
abbrev l4_sum_W : List (Ref sig .tc) := [main_cst_64, main_v234, main_v235, main_v236, main_v237, main_v238, main_v239, main_v240, main_v241, main_v242, main_cst_65]
theorem l4_sum_writes : (l4_sum : List (HloOp τ sig (Elt F))).Forall fun op => op.writes ⊆ (l4_sum_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev l4_act : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v242) main_call3.v0 main_call3.v1 (cmpf .oge),
    StableHlo.TRef.unary (.of main_cst_65) main_call3.v2 id,
    StableHlo.TRef.unary main_call3.v2 main_call3.v3 (broadcastInDim S50000x128 ![] bcast_S_S50000x128),
    StableHlo.TRef.binary main_call3.v3 (.of main_v242) main_call3.v4 mulf,
    StableHlo.TRef.ternary main_call3.v1 (.of main_v242) main_call3.v4 main_call3.call0.v0 select ]
abbrev l4_act_W : List (Ref sig .tc) := [main_call3_cst, main_call3_v0, main_call3_v1, main_call3_v2, main_call3_v3, main_call3_v4, main_v243]
theorem l4_act_writes : (l4_act : List (HloOp τ sig (Elt F))).Forall fun op => op.writes ⊆ (l4_act_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev pool2_lin : List (HloOp τ sig (Elt F)) :=
  [ StableHlo.nullary main_cst_66 (constant S_ .f32 0x00000000#32),
    StableHlo.unary main_cst_66 main_v244 (broadcastInDim S64x128 ![] bcast_S_S64x128),
    StableHlo.unary main_arg5 main_v245 (broadcastInDim S50000x1 ![0] bcast_S50000_S50000x1_0),
    StableHlo.ternary main_v244 main_v245 main_v243 main_v246 (fun x i u => Host.scatterAdd scatter_S64x128_S50000x1_S50000x128_1_0_0_1 x i u),
    StableHlo.nullary main_cst_67 (constant S_ .f32 0x3F800000#32),
    StableHlo.unary main_cst_67 main_v247 (broadcastInDim S50000 ![] bcast_S_S50000),
    StableHlo.nullary main_cst_68 (constant S_ .f32 0x00000000#32),
    StableHlo.unary main_cst_68 main_v248 (broadcastInDim S64 ![] bcast_S_S64),
    StableHlo.unary main_arg5 main_v249 (broadcastInDim S50000x1 ![0] bcast_S50000_S50000x1_0),
    StableHlo.ternary main_v248 main_v249 main_v247 main_v250 (fun x i u => Host.scatterAdd scatter_S64_S50000x1_S50000_n_0_0_1 x i u),
    StableHlo.nullary main_cst_69 (constant S_ .f32 0x3F800000#32),
    StableHlo.unary main_cst_69 main_v251 (broadcastInDim S64 ![] bcast_S_S64),
    StableHlo.binary main_v250 main_v251 main_v252 maximumf,
    StableHlo.unary main_v252 main_v253 (broadcastInDim S64x1 ![0] bcast_S64_S64x1_0),
    StableHlo.unary main_v253 main_v254 (broadcastInDim S64x128 ![0, 1] bcast_S64x1_S64x128_0_1),
    StableHlo.binary main_v246 main_v254 main_v255 Host.divf,
    StableHlo.binary main_v127 main_v255 main_v256 (fun a b => concatenate S64x256 1 [⟨S64x128, a⟩, ⟨S64x128, b⟩] concatenates_S64x128_S64x128_S64x256_d1),
    StableHlo.binary main_v256 main_arg14 main_v257 (fun l r => Host.dotGeneral dot_S64x256_S256x128_S64x128_1_0_0_1_n_n none l r),
    StableHlo.unary main_arg15 main_v258 (broadcastInDim S1x128 ![1] bcast_S128_S1x128_1),
    StableHlo.unary main_v258 main_v259 (broadcastInDim S64x128 ![0, 1] bcast_S1x128_S64x128_0_1),
    StableHlo.binary main_v257 main_v259 main_v260 addf ]
abbrev pool2_lin_W : List (Ref sig .tc) := [main_cst_66, main_v244, main_v245, main_v246, main_cst_67, main_v247, main_cst_68, main_v248, main_v249, main_v250, main_cst_69, main_v251, main_v252, main_v253, main_v254, main_v255, main_v256, main_v257, main_v258, main_v259, main_v260]
theorem pool2_lin_writes : (pool2_lin : List (HloOp τ sig (Elt F))).Forall fun op => op.writes ⊆ (pool2_lin_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev head_act : List (HloOp τ sig (Elt F)) :=
  [ StableHlo.TRef.nullary main_call4.cst (constant S_ .f32 0x00000000#32),
    StableHlo.TRef.unary main_call4.cst main_call4.v0 (broadcastInDim S64x128 ![] bcast_S_S64x128),
    StableHlo.TRef.binary (.of main_v260) main_call4.v0 main_call4.v1 maximumf ]
abbrev head_act_W : List (Ref sig .tc) := [main_call4_cst, main_call4_v0, main_v261]
theorem head_act_writes : (head_act : List (HloOp τ sig (Elt F))).Forall fun op => op.writes ⊆ (head_act_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev head_out : List (HloOp τ sig (Elt F)) :=
  [ StableHlo.binary main_v261 main_arg16 main_v262 (fun l r => Host.dotGeneral dot_S64x128_S128x1_S64x1_1_0_0_1_n_n none l r),
    StableHlo.unary main_arg17 main_v263 (broadcastInDim S1x1 ![1] bcast_S1_S1x1_1),
    StableHlo.unary main_v263 main_v264 (broadcastInDim S64x1 ![0, 1] bcast_S1x1_S64x1_0_1),
    StableHlo.binary main_v262 main_v264 main_v265 addf ]
abbrev head_out_W : List (Ref sig .tc) := [main_v262, main_v263, main_v264, main_v265]
theorem head_out_writes : (head_out : List (HloOp τ sig (Elt F))).Forall fun op => op.writes ⊆ (head_out_W.map (Proc.devRef (τ := τ) .tc)).toFinset := by
  simp only [List.Forall]; repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

end Cert.ReferenceIdeal.RefRun

end
-- ==== Proof.Ref.Main.lean ====
/- The reference program is the sequence of the listed operations, so its run ends with every buffer at their fold. -/
import proofs.«403813_j11570641895563_3_alg».proof.Proof.Ref.OpsA
import proofs.«403813_j11570641895563_3_alg».proof.Proof.Ref.OpsB
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

abbrev pieces : List (List (HloOp τ sig (Elt F))) :=
  [ l1_norm, l1_msg, l1_sum, l1_act, l2_norm, l2_msg, l2_sum, l2_act, pool1,
    l3_idx, l3_norm, l3_sum, l3_act, l4_norm, l4_msg, l4_sum, l4_act, pool2_lin, head_act, head_out ]

def ops : List (HloOp τ sig (Elt F)) := pieces.flatten

-- Both sides are the same sequence of operations once the binds are computed.
theorem main_eq (c : Dev nD) : main (F := F) c = seq ops := by chain_rfl

theorem forall_flatten {α : Type} {p : α → Prop} {L : List (List α)} (h : L.Forall fun l => l.Forall p) :
    L.flatten.Forall p :=
  List.forall_iff_forall_mem.mpr fun x hx => by
    obtain ⟨l, hl, hxl⟩ := List.mem_flatten.mp hx
    exact List.forall_iff_forall_mem.mp (List.forall_iff_forall_mem.mp h l hl) x hxl

theorem ops_sub : (ops : List (HloOp τ sig (Elt F))).Forall fun op => op.bufs ⊆ tcRefs τ sig :=
  forall_flatten (L := pieces) (by
    simp only [List.Forall, nullary_bufs_sub, unary_bufs_sub, binary_bufs_sub, ternary_bufs_sub, reshape_bufs_sub, and_self])

theorem ops_fresh : (ops : List (HloOp τ sig (Elt F))).Forall fun op => op.fresh = ∅ :=
  forall_flatten (L := pieces) (by simp only [List.Forall]; repeat' constructor)

theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq (by decide) (by decide) defs main (fun _ => ops) main_eq (fun _ => ops_sub) m ρ
    (fun _ => List.forall_iff_forall_mem.mp ops_fresh)

end Cert.ReferenceIdeal.RefRun

end
-- ==== Proof.Ref.Stages.lean ====
/- The reference's result as a pure function of its eighteen arguments, stage by stage, in the printed operations' own terms. -/
import proofs.«403813_j11570641895563_3_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

abbrev Arr (F : FTy → Type) (s : Shape) (e : EltTy) : Type := (⟨s, e⟩ : BufTy).Contents (Elt F)

def edgeSrc (ei : Arr F S2x800000 .i32) : Arr F S800000 .i32 :=
  shapeCast S800000 (extractStridedSlice S1x800000 ![0, 0] ei slices_S2x800000_S1x800000_0_0) shapeCasts_S1x800000_S800000

def edgeDst (ei : Arr F S2x800000 .i32) : Arr F S800000 .i32 :=
  shapeCast S800000 (extractStridedSlice S1x800000 ![1, 0] ei slices_S2x800000_S1x800000_1_0) shapeCasts_S1x800000_S800000

def wrapIdx (i : Arr F S800000 .i32) : Arr F S800000 .i32 :=
  select (cmpi .slt i (broadcastInDim S800000 ![] bcast_S_S800000 (constantI S_ 32 0#32)))
    (addi i (broadcastInDim S800000 ![] bcast_S_S800000 (constantI S_ 32 50000#32))) i

def idxCol (i : Arr F S800000 .i32) : Arr F S800000x1 .i32 :=
  broadcastInDim S800000x1 ![0] bcast_S800000_S800000x1_0 (wrapIdx i)

def lin (x : Arr F S50000x128 .f32) (W : Arr F S128x128 .f32) : Arr F S50000x128 .f32 :=
  Host.dotGeneral dot_S50000x128_S128x128_S50000x128_1_0_0_1_n_n none x W

def deg (dst : Arr F S800000 .i32) : Arr F S50000 .f32 :=
  addf (Host.scatterAdd scatter_S50000_S800000x1_S800000_n_0_0_1
      (broadcastInDim S50000 ![] bcast_S_S50000 (constant S_ .f32 0x00000000#32))
      (idxCol dst)
      (broadcastInDim S800000 ![] bcast_S_S800000 (constant S_ .f32 0x3F800000#32)))
    (broadcastInDim S50000 ![] bcast_S_S50000 (constant S_ .f32 0x3F800000#32))

def edgeNorm (dg : Arr F S50000 .f32) (src dst : Arr F S800000 .i32) : Arr F S800000 .f32 :=
  mulf (Host.gather gather_S50000_S800000x1_S800000_n_0_n_n_0_1_1 (Host.rsqrt dg) (idxCol src))
    (Host.gather gather_S50000_S800000x1_S800000_n_0_n_n_0_1_1 (Host.rsqrt dg) (idxCol dst))

def aggregate (h : Arr F S50000x128 .f32) (nrm : Arr F S800000 .f32) (src dst : Arr F S800000 .i32) :
    Arr F S50000x128 .f32 :=
  Host.scatterAdd scatter_S50000x128_S800000x1_S800000x128_1_0_0_1
    (broadcastInDim S50000x128 ![] bcast_S_S50000x128 (constant S_ .f32 0x00000000#32))
    (idxCol dst)
    (mulf (Host.gather gather_S50000x128_S800000x1_S800000x128_1_0_n_n_0_1_1128 h (idxCol src))
      (broadcastInDim S800000x128 ![0, 1] bcast_S800000x1_S800000x128_0_1
        (broadcastInDim S800000x1 ![0] bcast_S800000_S800000x1_0 nrm)))

def convOut (h : Arr F S50000x128 .f32) (dg : Arr F S50000 .f32) (agg : Arr F S50000x128 .f32) (b : Arr F S128 .f32) :
    Arr F S50000x128 .f32 :=
  addf
    (addf agg
      (mulf h
        (broadcastInDim S50000x128 ![0, 1] bcast_S50000x1_S50000x128_0_1
          (broadcastInDim S50000x1 ![0] bcast_S50000_S50000x1_0
            (Host.divf (broadcastInDim S50000 ![] bcast_S_S50000 (constant S_ .f32 0x3F800000#32)) dg)))))
    (broadcastInDim S50000x128 ![0, 1] bcast_S1x128_S50000x128_0_1 (broadcastInDim S1x128 ![1] bcast_S128_S1x128_1 b))

def conv (x : Arr F S50000x128 .f32) (W : Arr F S128x128 .f32) (b : Arr F S128 .f32) (src dst : Arr F S800000 .i32) :
    Arr F S50000x128 .f32 :=
  convOut (lin x W) (deg dst) (aggregate (lin x W) (edgeNorm (deg dst) src dst) src dst) b

def lrelu (x : Arr F S50000x128 .f32) : Arr F S50000x128 .f32 :=
  select (cmpf (F := F) .oge x (broadcastInDim S50000x128 ![] bcast_S_S50000x128 (constant S_ .f32 0x00000000#32))) x
    (mulf (broadcastInDim S50000x128 ![] bcast_S_S50000x128 (id (constant S_ .f32 0x3C23D70A#32))) x)

def layer (x : Arr F S50000x128 .f32) (ei : Arr F S2x800000 .i32) (W : Arr F S128x128 .f32) (b : Arr F S128 .f32) :
    Arr F S50000x128 .f32 :=
  lrelu (conv x W b (edgeSrc ei) (edgeDst ei))

def branch (x : Arr F S50000x128 .f32) (ei : Arr F S2x800000 .i32) (W0 : Arr F S128x128 .f32) (b0 : Arr F S128 .f32)
    (W1 : Arr F S128x128 .f32) (b1 : Arr F S128 .f32) : Arr F S50000x128 .f32 :=
  layer (layer x ei W0 b0) ei W1 b1

def meanPool (x : Arr F S50000x128 .f32) (batch : Arr F S50000 .i32) : Arr F S64x128 .f32 :=
  Host.divf
    (Host.scatterAdd scatter_S64x128_S50000x1_S50000x128_1_0_0_1
      (broadcastInDim S64x128 ![] bcast_S_S64x128 (constant S_ .f32 0x00000000#32))
      (broadcastInDim S50000x1 ![0] bcast_S50000_S50000x1_0 batch) x)
    (broadcastInDim S64x128 ![0, 1] bcast_S64x1_S64x128_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 batch)
            (broadcastInDim S50000 ![] bcast_S_S50000 (constant S_ .f32 0x3F800000#32)))
          (broadcastInDim S64 ![] bcast_S_S64 (constant S_ .f32 0x3F800000#32)))))

def head (p1 p2 : Arr F S64x128 .f32) (W1 : Arr F S256x128 .f32) (b1 : Arr F S128 .f32) (W2 : Arr F S128x1 .f32)
    (b2 : Arr F S1 .f32) : Arr F S64x1 .f32 :=
  addf
    (Host.dotGeneral dot_S64x128_S128x1_S64x1_1_0_0_1_n_n none
      (maximumf
        (addf
          (Host.dotGeneral dot_S64x256_S256x128_S64x128_1_0_0_1_n_n none
            (concatenate S64x256 1 [⟨S64x128, p1⟩, ⟨S64x128, p2⟩] concatenates_S64x128_S64x128_S64x256_d1) W1)
          (broadcastInDim S64x128 ![0, 1] bcast_S1x128_S64x128_0_1 (broadcastInDim S1x128 ![1] bcast_S128_S1x128_1 b1)))
        (broadcastInDim S64x128 ![] bcast_S_S64x128 (constant S_ .f32 0x00000000#32)))
      W2)
    (broadcastInDim S64x1 ![0, 1] bcast_S1x1_S64x1_0_1 (broadcastInDim S1x1 ![1] bcast_S1_S1x1_1 b2))

def out (a0 : Arr F S50000x128 .f32) (a1 : Arr F S2x800000 .i32) (a2 : Arr F S50000 .i32)
    (a3 : Arr F S50000x128 .f32) (a4 : Arr F S2x800000 .i32) (a5 : Arr F S50000 .i32)
    (a6 : Arr F S128x128 .f32) (a7 : Arr F S128 .f32) (a8 : Arr F S128x128 .f32) (a9 : Arr F S128 .f32)
    (a10 : Arr F S128x128 .f32) (a11 : Arr F S128 .f32) (a12 : Arr F S128x128 .f32) (a13 : Arr F S128 .f32)
    (a14 : Arr F S256x128 .f32) (a15 : Arr F S128 .f32) (a16 : Arr F S128x1 .f32) (a17 : Arr F S1 .f32) :
    Arr F S64x1 .f32 :=
  head (meanPool (branch a0 a1 a6 a7 a8 a9) a2) (meanPool (branch a3 a4 a10 a11 a12 a13) a5) a14 a15 a16 a17

end Cert.ReferenceIdeal.RefRun

end
-- ==== Proof.Ref.C0.lean ====
/- Branch 1, layer 1, first stretch: edge rows, the linear map, the degree with self loop, the edge weights; a buffer the stretch does not write keeps its contents. -/
import proofs.«403813_j11570641895563_3_alg».proof.Proof.Ref.Stages
import proofs.«403813_j11570641895563_3_alg».proof.Proof.Ref.OpsA

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops0 : List (HloOp τ sig (Elt F)) := l1_norm

theorem ops0_keep (V : Valuation τ sig (Elt F)) (r : Ref sig .tc) (h : r ∉ l1_norm_W) :
    after ops0 V (Proc.devRef .tc r) = V (Proc.devRef .tc r) :=
  after_of_writes_sub l1_norm V l1_norm_writes h

set_option maxHeartbeats 2000000 in

theorem ops0_v1 (V : Valuation τ sig (Elt F)) :
    after ops0 V (Proc.devRef .tc main_v1) = edgeSrc (V (Proc.devRef .tc main_arg1)) := by
  unfold ops0; simp only [l1_norm]
  after_results_simp <;> rfl

set_option maxHeartbeats 2000000 in

theorem ops0_v3 (V : Valuation τ sig (Elt F)) :
    after ops0 V (Proc.devRef .tc main_v3) = edgeDst (V (Proc.devRef .tc main_arg1)) := by
  unfold ops0; simp only [l1_norm]
  after_results_simp <;> rfl

set_option maxHeartbeats 2000000 in

theorem ops0_v4 (V : Valuation τ sig (Elt F)) :
    after ops0 V (Proc.devRef .tc main_v4) = lin (V (Proc.devRef .tc main_arg0)) (V (Proc.devRef .tc main_arg6)) := by
  unfold ops0; simp only [l1_norm]
  after_results_simp <;> rfl

set_option maxHeartbeats 2000000 in

theorem ops0_v15 (V : Valuation τ sig (Elt F)) :
    after ops0 V (Proc.devRef .tc main_v15) = deg (edgeDst (V (Proc.devRef .tc main_arg1))) := by
  unfold ops0; simp only [l1_norm]
  after_results_simp <;> rfl

set_option maxHeartbeats 2000000 in

theorem ops0_v31 (V : Valuation τ sig (Elt F)) :
    after ops0 V (Proc.devRef .tc main_v31)
      = edgeNorm (deg (edgeDst (V (Proc.devRef .tc main_arg1)))) (edgeSrc (V (Proc.devRef .tc main_arg1)))
          (edgeDst (V (Proc.devRef .tc main_arg1))) := by
  unfold ops0; simp only [l1_norm]
  after_results_simp <;> rfl

end Cert.ReferenceIdeal.RefRun

end
-- ==== Proof.Ref.C1.lean ====
/- Branch 1, layer 1, second stretch: the weighted neighbour sum, the node's own row over its degree, the bias and the leaky rectifier. -/
import proofs.«403813_j11570641895563_3_alg».proof.Proof.Ref.Stages
import proofs.«403813_j11570641895563_3_alg».proof.Proof.Ref.OpsA
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops1 : List (HloOp τ sig (Elt F)) := l1_msg ++ l1_sum ++ l1_act

theorem ops1_keep (V : Valuation τ sig (Elt F)) (r : Ref sig .tc) (h0 : r ∉ l1_msg_W) (h1 : r ∉ l1_sum_W) (h2 : r ∉ l1_act_W) :
    after ops1 V (Proc.devRef .tc r) = V (Proc.devRef .tc r) := by
  unfold ops1
  rw [after_append, after_append, after_of_writes_sub l1_act _ l1_act_writes h2,
    after_of_writes_sub l1_sum _ l1_sum_writes h1,
    after_of_writes_sub l1_msg _ l1_msg_writes h0]

set_option maxHeartbeats 2000000 in

theorem ops1_v59 (V : Valuation τ sig (Elt F)) :
    after ops1 V (Proc.devRef .tc main_v59)
      = lrelu (convOut (V (Proc.devRef .tc main_v4)) (V (Proc.devRef .tc main_v15)) (aggregate (V (Proc.devRef .tc main_v4)) (V (Proc.devRef .tc main_v31)) (V (Proc.devRef .tc main_v1)) (V (Proc.devRef .tc main_v3))) (V (Proc.devRef .tc main_arg7))) := by
  unfold ops1; simp only [l1_msg, l1_sum, l1_act, after_append]
  after_results_simp <;> rfl

end Cert.ReferenceIdeal.RefRun

end
-- ==== Proof.Ref.C2.lean ====
/- Branch 1, layer 2, first stretch: the linear map of the first layer's output, the degree and the edge weights again. -/
import proofs.«403813_j11570641895563_3_alg».proof.Proof.Ref.Stages
import proofs.«403813_j11570641895563_3_alg».proof.Proof.Ref.OpsA
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops2 : List (HloOp τ sig (Elt F)) := l2_norm

theorem ops2_keep (V : Valuation τ sig (Elt F)) (r : Ref sig .tc) (h0 : r ∉ l2_norm_W) :
    after ops2 V (Proc.devRef .tc r) = V (Proc.devRef .tc r) :=
  after_of_writes_sub l2_norm V l2_norm_writes h0

set_option maxHeartbeats 2000000 in

theorem ops2_v60 (V : Valuation τ sig (Elt F)) :
    after ops2 V (Proc.devRef .tc main_v60)
      = lin (V (Proc.devRef .tc main_v59)) (V (Proc.devRef .tc main_arg8)) := by
  unfold ops2; simp only [l2_norm]
  after_results_simp <;> rfl

set_option maxHeartbeats 2000000 in

theorem ops2_v71 (V : Valuation τ sig (Elt F)) :
    after ops2 V (Proc.devRef .tc main_v71)
      = deg (V (Proc.devRef .tc main_v3)) := by
  unfold ops2; simp only [l2_norm]
  after_results_simp <;> rfl

set_option maxHeartbeats 2000000 in

theorem ops2_v87 (V : Valuation τ sig (Elt F)) :
    after ops2 V (Proc.devRef .tc main_v87)
      = edgeNorm (deg (V (Proc.devRef .tc main_v3))) (V (Proc.devRef .tc main_v1)) (V (Proc.devRef .tc main_v3)) := by
  unfold ops2; simp only [l2_norm]
  after_results_simp <;> rfl

end Cert.ReferenceIdeal.RefRun

end
-- ==== Proof.Ref.C3.lean ====
/- Branch 1, layer 2, second stretch: the weighted neighbour sum, the own row over the degree, the bias and the rectifier. -/
import proofs.«403813_j11570641895563_3_alg».proof.Proof.Ref.Stages
import proofs.«403813_j11570641895563_3_alg».proof.Proof.Ref.OpsA
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops3 : List (HloOp τ sig (Elt F)) := l2_msg ++ l2_sum ++ l2_act

theorem ops3_keep (V : Valuation τ sig (Elt F)) (r : Ref sig .tc) (h0 : r ∉ l2_msg_W) (h1 : r ∉ l2_sum_W) (h2 : r ∉ l2_act_W) :
    after ops3 V (Proc.devRef .tc r) = V (Proc.devRef .tc r) := by
  unfold ops3
  rw [after_append, after_append, after_of_writes_sub l2_act _ l2_act_writes h2,
    after_of_writes_sub l2_sum _ l2_sum_writes h1,
    after_of_writes_sub l2_msg _ l2_msg_writes h0]

set_option maxHeartbeats 2000000 in

theorem ops3_v115 (V : Valuation τ sig (Elt F)) :
    after ops3 V (Proc.devRef .tc main_v115)
      = lrelu (convOut (V (Proc.devRef .tc main_v60)) (V (Proc.devRef .tc main_v71)) (aggregate (V (Proc.devRef .tc main_v60)) (V (Proc.devRef .tc main_v87)) (V (Proc.devRef .tc main_v1)) (V (Proc.devRef .tc main_v3))) (V (Proc.devRef .tc main_arg9))) := by
  unfold ops3; simp only [l2_msg, l2_sum, l2_act, after_append]
  after_results_simp <;> rfl

end Cert.ReferenceIdeal.RefRun

end
-- ==== Proof.Ref.C4.lean ====
/- Branch 1: the per-graph mean of its node rows. -/
import proofs.«403813_j11570641895563_3_alg».proof.Proof.Ref.Stages
import proofs.«403813_j11570641895563_3_alg».proof.Proof.Ref.OpsA
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops4 : List (HloOp τ sig (Elt F)) := pool1

theorem ops4_keep (V : Valuation τ sig (Elt F)) (r : Ref sig .tc) (h0 : r ∉ pool1_W) :
    after ops4 V (Proc.devRef .tc r) = V (Proc.devRef .tc r) :=
  after_of_writes_sub pool1 V pool1_writes h0

set_option maxHeartbeats 2000000 in

theorem ops4_v127 (V : Valuation τ sig (Elt F)) :
    after ops4 V (Proc.devRef .tc main_v127)
      = meanPool (V (Proc.devRef .tc main_v115)) (V (Proc.devRef .tc main_arg2)) := by
  unfold ops4; simp only [pool1]
  after_results_simp <;> rfl

end Cert.ReferenceIdeal.RefRun

end
-- ==== Proof.Ref.C5.lean ====
/- Branch 2, layer 1, first stretch: edge rows, the linear map, the degree with self loop, the edge weights. -/
import proofs.«403813_j11570641895563_3_alg».proof.Proof.Ref.Stages
import proofs.«403813_j11570641895563_3_alg».proof.Proof.Ref.OpsB
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops5 : List (HloOp τ sig (Elt F)) := l3_idx ++ l3_norm

theorem ops5_keep (V : Valuation τ sig (Elt F)) (r : Ref sig .tc) (h0 : r ∉ l3_idx_W) (h1 : r ∉ l3_norm_W) :
    after ops5 V (Proc.devRef .tc r) = V (Proc.devRef .tc r) := by
  unfold ops5
  rw [after_append, after_of_writes_sub l3_norm _ l3_norm_writes h1,
    after_of_writes_sub l3_idx _ l3_idx_writes h0]

set_option maxHeartbeats 2000000 in

theorem ops5_v129 (V : Valuation τ sig (Elt F)) :
    after ops5 V (Proc.devRef .tc main_v129)
      = edgeSrc (V (Proc.devRef .tc main_arg4)) := by
  unfold ops5; simp only [l3_idx, l3_norm, after_append]
  after_results_simp <;> rfl

set_option maxHeartbeats 2000000 in

theorem ops5_v131 (V : Valuation τ sig (Elt F)) :
    after ops5 V (Proc.devRef .tc main_v131)
      = edgeDst (V (Proc.devRef .tc main_arg4)) := by
  unfold ops5; simp only [l3_idx, l3_norm, after_append]
  after_results_simp <;> rfl

set_option maxHeartbeats 2000000 in

theorem ops5_v132 (V : Valuation τ sig (Elt F)) :
    after ops5 V (Proc.devRef .tc main_v132)
      = lin (V (Proc.devRef .tc main_arg3)) (V (Proc.devRef .tc main_arg10)) := by
  unfold ops5; simp only [l3_idx, l3_norm, after_append]
  after_results_simp <;> rfl

set_option maxHeartbeats 2000000 in

theorem ops5_v143 (V : Valuation τ sig (Elt F)) :
    after ops5 V (Proc.devRef .tc main_v143)
      = deg (edgeDst (V (Proc.devRef .tc main_arg4))) := by
  unfold ops5; simp only [l3_idx, l3_norm, after_append]
  after_results_simp <;> rfl

set_option maxHeartbeats 2000000 in

theorem ops5_v159 (V : Valuation τ sig (Elt F)) :
    after ops5 V (Proc.devRef .tc main_v159)
      = edgeNorm (deg (edgeDst (V (Proc.devRef .tc main_arg4)))) (edgeSrc (V (Proc.devRef .tc main_arg4))) (edgeDst (V (Proc.devRef .tc main_arg4))) := by
  unfold ops5; simp only [l3_idx, l3_norm, after_append]
  after_results_simp <;> rfl

end Cert.ReferenceIdeal.RefRun

end
-- ==== Proof.Ref.C6.lean ====
/- Branch 2, layer 1, second stretch: the weighted neighbour sum, the own row over the degree, the bias and the rectifier. -/
import proofs.«403813_j11570641895563_3_alg».proof.Proof.Ref.Stages
import proofs.«403813_j11570641895563_3_alg».proof.Proof.Ref.OpsB
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops6 : List (HloOp τ sig (Elt F)) := l3_sum ++ l3_act

theorem ops6_keep (V : Valuation τ sig (Elt F)) (r : Ref sig .tc) (h0 : r ∉ l3_sum_W) (h1 : r ∉ l3_act_W) :
    after ops6 V (Proc.devRef .tc r) = V (Proc.devRef .tc r) := by
  unfold ops6
  rw [after_append, after_of_writes_sub l3_act _ l3_act_writes h1,
    after_of_writes_sub l3_sum _ l3_sum_writes h0]

set_option maxHeartbeats 2000000 in

theorem ops6_v187 (V : Valuation τ sig (Elt F)) :
    after ops6 V (Proc.devRef .tc main_v187)
      = lrelu (convOut (V (Proc.devRef .tc main_v132)) (V (Proc.devRef .tc main_v143)) (aggregate (V (Proc.devRef .tc main_v132)) (V (Proc.devRef .tc main_v159)) (V (Proc.devRef .tc main_v129)) (V (Proc.devRef .tc main_v131))) (V (Proc.devRef .tc main_arg11))) := by
  unfold ops6; simp only [l3_sum, l3_act, after_append]
  after_results_simp <;> rfl

end Cert.ReferenceIdeal.RefRun

end
-- ==== Proof.Ref.C7.lean ====
/- Branch 2, layer 2, first stretch: the linear map of the first layer's output, the degree and the edge weights again. -/
import proofs.«403813_j11570641895563_3_alg».proof.Proof.Ref.Stages
import proofs.«403813_j11570641895563_3_alg».proof.Proof.Ref.OpsB
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops7 : List (HloOp τ sig (Elt F)) := l4_norm

theorem ops7_keep (V : Valuation τ sig (Elt F)) (r : Ref sig .tc) (h0 : r ∉ l4_norm_W) :
    after ops7 V (Proc.devRef .tc r) = V (Proc.devRef .tc r) :=
  after_of_writes_sub l4_norm V l4_norm_writes h0

set_option maxHeartbeats 2000000 in

theorem ops7_v188 (V : Valuation τ sig (Elt F)) :
    after ops7 V (Proc.devRef .tc main_v188)
      = lin (V (Proc.devRef .tc main_v187)) (V (Proc.devRef .tc main_arg12)) := by
  unfold ops7; simp only [l4_norm]
  after_results_simp <;> rfl

set_option maxHeartbeats 2000000 in

theorem ops7_v199 (V : Valuation τ sig (Elt F)) :
    after ops7 V (Proc.devRef .tc main_v199)
      = deg (V (Proc.devRef .tc main_v131)) := by
  unfold ops7; simp only [l4_norm]
  after_results_simp <;> rfl

set_option maxHeartbeats 2000000 in

theorem ops7_v215 (V : Valuation τ sig (Elt F)) :
    after ops7 V (Proc.devRef .tc main_v215)
      = edgeNorm (deg (V (Proc.devRef .tc main_v131))) (V (Proc.devRef .tc main_v129)) (V (Proc.devRef .tc main_v131)) := by
  unfold ops7; simp only [l4_norm]
  after_results_simp <;> rfl

end Cert.ReferenceIdeal.RefRun

end
-- ==== Proof.Ref.C8.lean ====
/- Branch 2, layer 2, second stretch: the weighted neighbour sum, the own row over the degree, the bias and the rectifier. -/
import proofs.«403813_j11570641895563_3_alg».proof.Proof.Ref.Stages
import proofs.«403813_j11570641895563_3_alg».proof.Proof.Ref.OpsB
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops8 : List (HloOp τ sig (Elt F)) := l4_msg ++ l4_sum ++ l4_act

theorem ops8_keep (V : Valuation τ sig (Elt F)) (r : Ref sig .tc) (h0 : r ∉ l4_msg_W) (h1 : r ∉ l4_sum_W) (h2 : r ∉ l4_act_W) :
    after ops8 V (Proc.devRef .tc r) = V (Proc.devRef .tc r) := by
  unfold ops8
  rw [after_append, after_append, after_of_writes_sub l4_act _ l4_act_writes h2,
    after_of_writes_sub l4_sum _ l4_sum_writes h1,
    after_of_writes_sub l4_msg _ l4_msg_writes h0]

set_option maxHeartbeats 2000000 in

theorem ops8_v243 (V : Valuation τ sig (Elt F)) :
    after ops8 V (Proc.devRef .tc main_v243)
      = lrelu (convOut (V (Proc.devRef .tc main_v188)) (V (Proc.devRef .tc main_v199)) (aggregate (V (Proc.devRef .tc main_v188)) (V (Proc.devRef .tc main_v215)) (V (Proc.devRef .tc main_v129)) (V (Proc.devRef .tc main_v131))) (V (Proc.devRef .tc main_arg13))) := by
  unfold ops8; simp only [l4_msg, l4_sum, l4_act, after_append]
  after_results_simp <;> rfl

end Cert.ReferenceIdeal.RefRun

end
-- ==== Proof.Ref.C9.lean ====
/- The per-graph mean of branch 2, then the head over the two pooled branches side by side. -/
import proofs.«403813_j11570641895563_3_alg».proof.Proof.Ref.Stages
import proofs.«403813_j11570641895563_3_alg».proof.Proof.Ref.OpsB
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def ops9 : List (HloOp τ sig (Elt F)) := pool2_lin ++ head_act ++ head_out

theorem ops9_keep (V : Valuation τ sig (Elt F)) (r : Ref sig .tc) (h0 : r ∉ pool2_lin_W) (h1 : r ∉ head_act_W) (h2 : r ∉ head_out_W) :
    after ops9 V (Proc.devRef .tc r) = V (Proc.devRef .tc r) := by
  unfold ops9
  rw [after_append, after_append, after_of_writes_sub head_out _ head_out_writes h2,
    after_of_writes_sub head_act _ head_act_writes h1,
    after_of_writes_sub pool2_lin _ pool2_lin_writes h0]

set_option maxHeartbeats 2000000 in

theorem ops9_v265 (V : Valuation τ sig (Elt F)) :
    after ops9 V (Proc.devRef .tc main_v265)
      = head (V (Proc.devRef .tc main_v127)) (meanPool (V (Proc.devRef .tc main_v243)) (V (Proc.devRef .tc main_arg5))) (V (Proc.devRef .tc main_arg14)) (V (Proc.devRef .tc main_arg15))
          (V (Proc.devRef .tc main_arg16)) (V (Proc.devRef .tc main_arg17)) := by
  unfold ops9; simp only [pool2_lin, head_act, head_out, after_append]
  after_results_simp <;> rfl

end Cert.ReferenceIdeal.RefRun

end
-- ==== Proof.Ref.Run.lean ====
/- The reference's run: the fold of all operations is the ten stretches' folds in turn; after each stretch the buffers read later hold stage functions of the ARGUMENTS; the result buffer ends at `out` of them and they end unchanged. -/
import proofs.«403813_j11570641895563_3_alg».proof.Proof.Ref.Main
import proofs.«403813_j11570641895563_3_alg».proof.Proof.Ref.C0
import proofs.«403813_j11570641895563_3_alg».proof.Proof.Ref.C1
import proofs.«403813_j11570641895563_3_alg».proof.Proof.Ref.C2
import proofs.«403813_j11570641895563_3_alg».proof.Proof.Ref.C3
import proofs.«403813_j11570641895563_3_alg».proof.Proof.Ref.C4
import proofs.«403813_j11570641895563_3_alg».proof.Proof.Ref.C5
import proofs.«403813_j11570641895563_3_alg».proof.Proof.Ref.C6
import proofs.«403813_j11570641895563_3_alg».proof.Proof.Ref.C7
import proofs.«403813_j11570641895563_3_alg».proof.Proof.Ref.C8
import proofs.«403813_j11570641895563_3_alg».proof.Proof.Ref.C9

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

def val1 (V : Valuation τ sig (Elt F)) : Valuation τ sig (Elt F) := after ops0 V
def val2 (V : Valuation τ sig (Elt F)) : Valuation τ sig (Elt F) := after ops1 (val1 V)
def val3 (V : Valuation τ sig (Elt F)) : Valuation τ sig (Elt F) := after ops2 (val2 V)
def val4 (V : Valuation τ sig (Elt F)) : Valuation τ sig (Elt F) := after ops3 (val3 V)
def val5 (V : Valuation τ sig (Elt F)) : Valuation τ sig (Elt F) := after ops4 (val4 V)
def val6 (V : Valuation τ sig (Elt F)) : Valuation τ sig (Elt F) := after ops5 (val5 V)
def val7 (V : Valuation τ sig (Elt F)) : Valuation τ sig (Elt F) := after ops6 (val6 V)
def val8 (V : Valuation τ sig (Elt F)) : Valuation τ sig (Elt F) := after ops7 (val7 V)
def val9 (V : Valuation τ sig (Elt F)) : Valuation τ sig (Elt F) := after ops8 (val8 V)
def val10 (V : Valuation τ sig (Elt F)) : Valuation τ sig (Elt F) := after ops9 (val9 V)

theorem after_ops (V : Valuation τ sig (Elt F)) : after ops V = val10 V := by
  unfold val10 val9 val8 val7 val6 val5 val4 val3 val2 val1 ops ops0 ops1 ops2 ops3 ops4 ops5 ops6 ops7 ops8 ops9
  simp only [pieces, List.flatten_cons, List.flatten_nil, after_append, after_nil]

abbrev argRefs : List (Ref sig .tc) :=
  [main_arg0, main_arg1, main_arg2, main_arg3, main_arg4, main_arg5, main_arg6, main_arg7, main_arg8, main_arg9,
    main_arg10, main_arg11, main_arg12, main_arg13, main_arg14, main_arg15, main_arg16, main_arg17]

theorem arg_l1_norm : ∀ r ∈ argRefs, r ∉ l1_norm_W := by decide
theorem arg_l1_msg : ∀ r ∈ argRefs, r ∉ l1_msg_W := by decide
theorem arg_l1_sum : ∀ r ∈ argRefs, r ∉ l1_sum_W := by decide
theorem arg_l1_act : ∀ r ∈ argRefs, r ∉ l1_act_W := by decide
theorem arg_l2_norm : ∀ r ∈ argRefs, r ∉ l2_norm_W := by decide
theorem arg_l2_msg : ∀ r ∈ argRefs, r ∉ l2_msg_W := by decide
theorem arg_l2_sum : ∀ r ∈ argRefs, r ∉ l2_sum_W := by decide
theorem arg_l2_act : ∀ r ∈ argRefs, r ∉ l2_act_W := by decide
theorem arg_pool1 : ∀ r ∈ argRefs, r ∉ pool1_W := by decide
theorem arg_l3_idx : ∀ r ∈ argRefs, r ∉ l3_idx_W := by decide
theorem arg_l3_norm : ∀ r ∈ argRefs, r ∉ l3_norm_W := by decide
theorem arg_l3_sum : ∀ r ∈ argRefs, r ∉ l3_sum_W := by decide
theorem arg_l3_act : ∀ r ∈ argRefs, r ∉ l3_act_W := by decide
theorem arg_l4_norm : ∀ r ∈ argRefs, r ∉ l4_norm_W := by decide
theorem arg_l4_msg : ∀ r ∈ argRefs, r ∉ l4_msg_W := by decide
theorem arg_l4_sum : ∀ r ∈ argRefs, r ∉ l4_sum_W := by decide
theorem arg_l4_act : ∀ r ∈ argRefs, r ∉ l4_act_W := by decide
theorem arg_pool2_lin : ∀ r ∈ argRefs, r ∉ pool2_lin_W := by decide
theorem arg_head_act : ∀ r ∈ argRefs, r ∉ head_act_W := by decide
theorem arg_head_out : ∀ r ∈ argRefs, r ∉ head_out_W := by decide

variable (V : Valuation τ sig (Elt F))

theorem val1_arg (r : Ref sig .tc) (hr : r ∈ argRefs) : val1 V (Proc.devRef .tc r) = V (Proc.devRef .tc r) :=
  ops0_keep V r (arg_l1_norm r hr)
theorem val2_arg (r : Ref sig .tc) (hr : r ∈ argRefs) : val2 V (Proc.devRef .tc r) = V (Proc.devRef .tc r) :=
  (ops1_keep (val1 V) r (arg_l1_msg r hr) (arg_l1_sum r hr) (arg_l1_act r hr)).trans (val1_arg V r hr)
theorem val3_arg (r : Ref sig .tc) (hr : r ∈ argRefs) : val3 V (Proc.devRef .tc r) = V (Proc.devRef .tc r) :=
  (ops2_keep (val2 V) r (arg_l2_norm r hr)).trans (val2_arg V r hr)
theorem val4_arg (r : Ref sig .tc) (hr : r ∈ argRefs) : val4 V (Proc.devRef .tc r) = V (Proc.devRef .tc r) :=
  (ops3_keep (val3 V) r (arg_l2_msg r hr) (arg_l2_sum r hr) (arg_l2_act r hr)).trans (val3_arg V r hr)
theorem val5_arg (r : Ref sig .tc) (hr : r ∈ argRefs) : val5 V (Proc.devRef .tc r) = V (Proc.devRef .tc r) :=
  (ops4_keep (val4 V) r (arg_pool1 r hr)).trans (val4_arg V r hr)
theorem val6_arg (r : Ref sig .tc) (hr : r ∈ argRefs) : val6 V (Proc.devRef .tc r) = V (Proc.devRef .tc r) :=
  (ops5_keep (val5 V) r (arg_l3_idx r hr) (arg_l3_norm r hr)).trans (val5_arg V r hr)
theorem val7_arg (r : Ref sig .tc) (hr : r ∈ argRefs) : val7 V (Proc.devRef .tc r) = V (Proc.devRef .tc r) :=
  (ops6_keep (val6 V) r (arg_l3_sum r hr) (arg_l3_act r hr)).trans (val6_arg V r hr)
theorem val8_arg (r : Ref sig .tc) (hr : r ∈ argRefs) : val8 V (Proc.devRef .tc r) = V (Proc.devRef .tc r) :=
  (ops7_keep (val7 V) r (arg_l4_norm r hr)).trans (val7_arg V r hr)
theorem val9_arg (r : Ref sig .tc) (hr : r ∈ argRefs) : val9 V (Proc.devRef .tc r) = V (Proc.devRef .tc r) :=
  (ops8_keep (val8 V) r (arg_l4_msg r hr) (arg_l4_sum r hr) (arg_l4_act r hr)).trans (val8_arg V r hr)
theorem val10_arg (r : Ref sig .tc) (hr : r ∈ argRefs) : val10 V (Proc.devRef .tc r) = V (Proc.devRef .tc r) :=
  (ops9_keep (val9 V) r (arg_pool2_lin r hr) (arg_head_act r hr) (arg_head_out r hr)).trans (val9_arg V r hr)

theorem val1_v1 : val1 V (Proc.devRef .tc main_v1) = edgeSrc (V (Proc.devRef .tc main_arg1)) := ops0_v1 V
theorem val1_v3 : val1 V (Proc.devRef .tc main_v3) = edgeDst (V (Proc.devRef .tc main_arg1)) := ops0_v3 V
theorem val1_v4 : val1 V (Proc.devRef .tc main_v4) = lin (V (Proc.devRef .tc main_arg0)) (V (Proc.devRef .tc main_arg6)) :=
  ops0_v4 V
theorem val1_v15 : val1 V (Proc.devRef .tc main_v15) = deg (edgeDst (V (Proc.devRef .tc main_arg1))) := ops0_v15 V
theorem val1_v31 : val1 V (Proc.devRef .tc main_v31)
    = edgeNorm (deg (edgeDst (V (Proc.devRef .tc main_arg1)))) (edgeSrc (V (Proc.devRef .tc main_arg1)))
        (edgeDst (V (Proc.devRef .tc main_arg1))) := ops0_v31 V

theorem val2_v1 : val2 V (Proc.devRef .tc main_v1) = edgeSrc (V (Proc.devRef .tc main_arg1)) :=
  (ops1_keep (val1 V) main_v1 (by decide) (by decide) (by decide)).trans (val1_v1 V)
theorem val2_v3 : val2 V (Proc.devRef .tc main_v3) = edgeDst (V (Proc.devRef .tc main_arg1)) :=
  (ops1_keep (val1 V) main_v3 (by decide) (by decide) (by decide)).trans (val1_v3 V)

theorem val2_v59 : val2 V (Proc.devRef .tc main_v59)
    = layer (V (Proc.devRef .tc main_arg0)) (V (Proc.devRef .tc main_arg1)) (V (Proc.devRef .tc main_arg6))
        (V (Proc.devRef .tc main_arg7)) := by
  unfold val2
  rw [ops1_v59, val1_v4, val1_v15, val1_v31, val1_v1, val1_v3, val1_arg V main_arg7 (by decide)]
  rfl

theorem val3_v1 : val3 V (Proc.devRef .tc main_v1) = edgeSrc (V (Proc.devRef .tc main_arg1)) :=
  (ops2_keep (val2 V) main_v1 (by decide)).trans (val2_v1 V)
theorem val3_v3 : val3 V (Proc.devRef .tc main_v3) = edgeDst (V (Proc.devRef .tc main_arg1)) :=
  (ops2_keep (val2 V) main_v3 (by decide)).trans (val2_v3 V)
theorem val3_v60 : val3 V (Proc.devRef .tc main_v60)
    = lin (layer (V (Proc.devRef .tc main_arg0)) (V (Proc.devRef .tc main_arg1)) (V (Proc.devRef .tc main_arg6))
        (V (Proc.devRef .tc main_arg7))) (V (Proc.devRef .tc main_arg8)) := by
  unfold val3
  rw [ops2_v60, val2_v59, val2_arg V main_arg8 (by decide)]
theorem val3_v71 : val3 V (Proc.devRef .tc main_v71) = deg (edgeDst (V (Proc.devRef .tc main_arg1))) := by
  unfold val3
  rw [ops2_v71, val2_v3]
theorem val3_v87 : val3 V (Proc.devRef .tc main_v87)
    = edgeNorm (deg (edgeDst (V (Proc.devRef .tc main_arg1)))) (edgeSrc (V (Proc.devRef .tc main_arg1)))
        (edgeDst (V (Proc.devRef .tc main_arg1))) := by
  unfold val3
  rw [ops2_v87, val2_v1, val2_v3]

theorem val4_v115 : val4 V (Proc.devRef .tc main_v115)
    = branch (V (Proc.devRef .tc main_arg0)) (V (Proc.devRef .tc main_arg1)) (V (Proc.devRef .tc main_arg6))
        (V (Proc.devRef .tc main_arg7)) (V (Proc.devRef .tc main_arg8)) (V (Proc.devRef .tc main_arg9)) := by
  unfold val4
  rw [ops3_v115, val3_v60, val3_v71, val3_v87, val3_v1, val3_v3, val3_arg V main_arg9 (by decide)]
  rfl

theorem val5_v127 : val5 V (Proc.devRef .tc main_v127)
    = meanPool (branch (V (Proc.devRef .tc main_arg0)) (V (Proc.devRef .tc main_arg1)) (V (Proc.devRef .tc main_arg6))
        (V (Proc.devRef .tc main_arg7)) (V (Proc.devRef .tc main_arg8)) (V (Proc.devRef .tc main_arg9)))
        (V (Proc.devRef .tc main_arg2)) := by
  unfold val5
  rw [ops4_v127, val4_v115, val4_arg V main_arg2 (by decide)]

theorem val6_v127 : val6 V (Proc.devRef .tc main_v127) = val5 V (Proc.devRef .tc main_v127) :=
  ops5_keep (val5 V) main_v127 (by decide) (by decide)
theorem val7_v127 : val7 V (Proc.devRef .tc main_v127) = val5 V (Proc.devRef .tc main_v127) :=
  (ops6_keep (val6 V) main_v127 (by decide) (by decide)).trans (val6_v127 V)
theorem val8_v127 : val8 V (Proc.devRef .tc main_v127) = val5 V (Proc.devRef .tc main_v127) :=
  (ops7_keep (val7 V) main_v127 (by decide)).trans (val7_v127 V)
theorem val9_v127 : val9 V (Proc.devRef .tc main_v127) = val5 V (Proc.devRef .tc main_v127) :=
  (ops8_keep (val8 V) main_v127 (by decide) (by decide) (by decide)).trans (val8_v127 V)

theorem val6_v129 : val6 V (Proc.devRef .tc main_v129) = edgeSrc (V (Proc.devRef .tc main_arg4)) := by
  unfold val6
  rw [ops5_v129, val5_arg V main_arg4 (by decide)]
theorem val6_v131 : val6 V (Proc.devRef .tc main_v131) = edgeDst (V (Proc.devRef .tc main_arg4)) := by
  unfold val6
  rw [ops5_v131, val5_arg V main_arg4 (by decide)]
theorem val6_v132 : val6 V (Proc.devRef .tc main_v132)
    = lin (V (Proc.devRef .tc main_arg3)) (V (Proc.devRef .tc main_arg10)) := by
  unfold val6
  rw [ops5_v132, val5_arg V main_arg3 (by decide), val5_arg V main_arg10 (by decide)]
theorem val6_v143 : val6 V (Proc.devRef .tc main_v143) = deg (edgeDst (V (Proc.devRef .tc main_arg4))) := by
  unfold val6
  rw [ops5_v143, val5_arg V main_arg4 (by decide)]
theorem val6_v159 : val6 V (Proc.devRef .tc main_v159)
    = edgeNorm (deg (edgeDst (V (Proc.devRef .tc main_arg4)))) (edgeSrc (V (Proc.devRef .tc main_arg4)))
        (edgeDst (V (Proc.devRef .tc main_arg4))) := by
  unfold val6
  rw [ops5_v159, val5_arg V main_arg4 (by decide)]

theorem val7_v129 : val7 V (Proc.devRef .tc main_v129) = edgeSrc (V (Proc.devRef .tc main_arg4)) :=
  (ops6_keep (val6 V) main_v129 (by decide) (by decide)).trans (val6_v129 V)
theorem val7_v131 : val7 V (Proc.devRef .tc main_v131) = edgeDst (V (Proc.devRef .tc main_arg4)) :=
  (ops6_keep (val6 V) main_v131 (by decide) (by decide)).trans (val6_v131 V)
theorem val7_v187 : val7 V (Proc.devRef .tc main_v187)
    = layer (V (Proc.devRef .tc main_arg3)) (V (Proc.devRef .tc main_arg4)) (V (Proc.devRef .tc main_arg10))
        (V (Proc.devRef .tc main_arg11)) := by
  unfold val7
  rw [ops6_v187, val6_v132, val6_v143, val6_v159, val6_v129, val6_v131, val6_arg V main_arg11 (by decide)]
  rfl

theorem val8_v129 : val8 V (Proc.devRef .tc main_v129) = edgeSrc (V (Proc.devRef .tc main_arg4)) :=
  (ops7_keep (val7 V) main_v129 (by decide)).trans (val7_v129 V)
theorem val8_v131 : val8 V (Proc.devRef .tc main_v131) = edgeDst (V (Proc.devRef .tc main_arg4)) :=
  (ops7_keep (val7 V) main_v131 (by decide)).trans (val7_v131 V)
theorem val8_v188 : val8 V (Proc.devRef .tc main_v188)
    = lin (layer (V (Proc.devRef .tc main_arg3)) (V (Proc.devRef .tc main_arg4)) (V (Proc.devRef .tc main_arg10))
        (V (Proc.devRef .tc main_arg11))) (V (Proc.devRef .tc main_arg12)) := by
  unfold val8
  rw [ops7_v188, val7_v187, val7_arg V main_arg12 (by decide)]
theorem val8_v199 : val8 V (Proc.devRef .tc main_v199) = deg (edgeDst (V (Proc.devRef .tc main_arg4))) := by
  unfold val8
  rw [ops7_v199, val7_v131]
theorem val8_v215 : val8 V (Proc.devRef .tc main_v215)
    = edgeNorm (deg (edgeDst (V (Proc.devRef .tc main_arg4)))) (edgeSrc (V (Proc.devRef .tc main_arg4)))
        (edgeDst (V (Proc.devRef .tc main_arg4))) := by
  unfold val8
  rw [ops7_v215, val7_v129, val7_v131]

theorem val9_v243 : val9 V (Proc.devRef .tc main_v243)
    = branch (V (Proc.devRef .tc main_arg3)) (V (Proc.devRef .tc main_arg4)) (V (Proc.devRef .tc main_arg10))
        (V (Proc.devRef .tc main_arg11)) (V (Proc.devRef .tc main_arg12)) (V (Proc.devRef .tc main_arg13)) := by
  unfold val9
  rw [ops8_v243, val8_v188, val8_v199, val8_v215, val8_v129, val8_v131, val8_arg V main_arg13 (by decide)]
  rfl

theorem val10_v265 : val10 V (Proc.devRef .tc main_v265)
    = out (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) (V (Proc.devRef .tc main_arg11))
        (V (Proc.devRef .tc main_arg12)) (V (Proc.devRef .tc main_arg13)) (V (Proc.devRef .tc main_arg14))
        (V (Proc.devRef .tc main_arg15)) (V (Proc.devRef .tc main_arg16)) (V (Proc.devRef .tc main_arg17)) := by
  unfold val10
  rw [ops9_v265, val9_v127, val5_v127, val9_v243, val9_arg V main_arg5 (by decide), val9_arg V main_arg14 (by decide),
    val9_arg V main_arg15 (by decide), val9_arg V main_arg16 (by decide), val9_arg V main_arg17 (by decide)]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    have ha (r : Ref sig .tc) (hr : r ∈ argRefs) : _ = m ((c.tc : Thread nD τ).loc r) :=
      (h c r).trans (by rw [after_ops]; exact val10_arg (launchContents m c) r hr)
    ⟨(h c main_v265).trans (by rw [after_ops]; exact val10_v265 (launchContents m c)),
      ha main_arg0 (by decide), ha main_arg1 (by decide), ha main_arg2 (by decide), ha main_arg3 (by decide), ha main_arg4 (by decide), ha main_arg5 (by decide),
      ha main_arg6 (by decide), ha main_arg7 (by decide), ha main_arg8 (by decide), ha main_arg9 (by decide), ha main_arg10 (by decide), ha main_arg11 (by decide),
      ha main_arg12 (by decide), ha main_arg13 (by decide), ha main_arg14 (by decide), ha main_arg15 (by decide), ha main_arg16 (by decide), ha main_arg17 (by decide)⟩)
    (run_ops m ρ)

end Cert.ReferenceIdeal.RefRun

end
-- ==== Proof.Alg.Index.lean ====
import Idealize.ShloMosaic.PureOps.Ideal
import Idealize.ShloMosaic.Lib.ValueIdxRank1

noncomputable section

namespace Cert.Alg

open Idealize.ShloMosaic Idealize.ShloMosaic.ValueIdx
open scoped BigOperators

def tgtRow (K : Nat) {M : Nat} (idx : (⟨2, ![M, 1]⟩ : Shape).Idx → BitVec 32) (e : Fin M) : Option (Fin K) :=
  if h : 0 ≤ (idx (ix2 e (0 : Fin 1))).toInt ∧ (idx (ix2 e (0 : Fin 1))).toInt < (K : Int) then
    some ⟨(idx (ix2 e (0 : Fin 1))).toInt.toNat, by omega⟩
  else none

def srcRow (K : Nat) (hK : 0 < K) {M : Nat} (idx : (⟨2, ![M, 1]⟩ : Shape).Idx → BitVec 32) (e : Fin M) : Fin K :=
  ⟨min (idx (ix2 e (0 : Fin 1))).toInt.toNat (K - 1), by omega⟩

theorem tgtRow_eq_some_iff {K : Nat} {M : Nat} (idx : (⟨2, ![M, 1]⟩ : Shape).Idx → BitVec 32) (e : Fin M) (n : Fin K) :
    tgtRow K idx e = some n ↔ (idx (ix2 e (0 : Fin 1))).toInt = (n.val : Int) := by
  unfold tgtRow
  constructor
  · intro h
    split at h
    · have := Option.some.inj h
      subst this
      show (idx (ix2 e (0 : Fin 1))).toInt = (((idx (ix2 e (0 : Fin 1))).toInt.toNat : Nat) : Int)
      omega
    · cases h
  · intro h
    have hn := n.isLt
    rw [dif_pos (by omega)]
    refine congrArg some (Fin.ext ?_)
    show (idx (ix2 e (0 : Fin 1))).toInt.toNat = n.val
    omega

-- Where the unclamped read names a row, the clamp does nothing.
theorem srcRow_of_tgtRow {K : Nat} (hK : 0 < K) {M : Nat} (idx : (⟨2, ![M, 1]⟩ : Shape).Idx → BitVec 32) (e : Fin M)
    (n : Fin K) (h : tgtRow K idx e = some n) : srcRow K hK idx e = n := by
  have h := (tgtRow_eq_some_iff idx e n).1 h
  have hn := n.isLt
  refine Fin.ext ?_
  show min (idx (ix2 e (0 : Fin 1))).toInt.toNat (K - 1) = n.val
  omega

abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

abbrev eltsScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

abbrev rowsGather (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

abbrev eltsGather (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

-- On the row axis the slice starts at the clamped start index; the column axis carries the result's column.
theorem rowsGather_apply {α : Type} {N M D : Nat} (hN : 0 < N)
    {wf : GatherDims.WF ⟨2, ![N, D]⟩ ⟨2, ![M, 1]⟩ ⟨2, ![M, D]⟩ [1] [0] [] [0] [] 1 ![1, D]}
    {d : GatherDims ⟨2, ![N, D]⟩ ⟨2, ![M, 1]⟩ ⟨2, ![M, D]⟩} (hd : d = rowsGather N M D wf)
    (x : (⟨2, ![N, D]⟩ : Shape).Idx → α) (idx : (⟨2, ![M, 1]⟩ : Shape).Idx → BitVec 32) (e : Fin M) (k : Fin D) :
    Host.gather d x idx (ix2 e k) = x (ix2 (srcRow N hN idx e) k) := by
  subst hd
  unfold Host.gather
  congr 1
  funext a
  refine Fin.ext ?_
  match a with
  | ⟨0, _⟩ =>
    exact congrArg (fun i => min (idx i).toInt.toNat (N - 1)) (funext fun b => Fin.ext (by
      match b with
      | ⟨0, _⟩ => rfl
      | ⟨1, _⟩ => rfl))
  | ⟨1, _⟩ => exact Nat.zero_add k.val

theorem eltsGather_apply {α : Type} {N M : Nat} (hN : 0 < N)
    {wf : GatherDims.WF ⟨1, ![N]⟩ ⟨2, ![M, 1]⟩ ⟨1, ![M]⟩ [] [0] [] [0] [] 1 ![1]}
    {d : GatherDims ⟨1, ![N]⟩ ⟨2, ![M, 1]⟩ ⟨1, ![M]⟩} (hd : d = eltsGather N M wf)
    (x : (⟨1, ![N]⟩ : Shape).Idx → α) (idx : (⟨2, ![M, 1]⟩ : Shape).Idx → BitVec 32) (e : Fin M) :
    Host.gather d x idx (ix1 e) = x (ix1 (srcRow N hN idx e)) := by
  subst hd
  unfold Host.gather
  congr 1
  funext a
  obtain rfl : a = 0 := Subsingleton.elim _ _
  exact Fin.ext (congrArg (fun i => min (idx i).toInt.toNat (N - 1)) (funext fun b => Fin.ext (by
    match b with
    | ⟨0, _⟩ => rfl
    | ⟨1, _⟩ => rfl)))

-- An update lands at an operand index exactly when, on every axis, window start plus window coordinate is that index's coordinate.
theorem resultIdx?_eq_some_iff {s si u : Shape} (d : ScatterDims s si u) {w : Nat} (j : u.Idx) (idx : IVec si w)
    (i : s.Idx) : d.resultIdx? j idx = some i ↔ ∀ a, d.start j idx a + (d.window j a : Nat) = ((i a).val : Int) := by
  unfold ScatterDims.resultIdx?
  constructor
  · intro h a
    split at h
    · rename_i hc
      have := Option.some.inj h
      subst this
      have := (hc a).1
      show _ = (((d.start j idx a + (d.window j a : Nat)).toNat : Nat) : Int)
      omega
    · cases h
  · intro h
    rw [dif_pos fun a => by have := (i a).isLt; rw [h a]; omega]
    refine congrArg some (funext fun a => Fin.ext ?_)
    show (d.start j idx a + (d.window j a : Nat)).toNat = (i a).val
    rw [h a]
    rfl

section ScatterRows
variable {N M D : Nat} {wf : ScatterDims.WF ⟨2, ![N, D]⟩ ⟨2, ![M, 1]⟩ ⟨2, ![M, D]⟩ [1] [0] [0] 1}
  {φ : FTy} {d : ScatterDims ⟨2, ![N, D]⟩ ⟨2, ![M, 1]⟩ ⟨2, ![M, D]⟩}
  (idx : (⟨2, ![M, 1]⟩ : Shape).Idx → BitVec 32) (e : Fin M) (k' : Fin D)

theorem rowsScatter_start0 :
    (rowsScatter N M D wf).start (ix2 e k') idx 0 = (idx (ix2 e (0 : Fin 1))).toInt :=
  congrArg (fun i => (idx i).toInt) (funext fun b => Fin.ext (by
    match b with
    | ⟨0, _⟩ => rfl
    | ⟨1, _⟩ => rfl))

theorem rowsScatter_resultIdx_iff (n : Fin N) (k : Fin D) :
    (rowsScatter N M D wf).resultIdx? (ix2 e k') idx = some (ix2 n k) ↔ tgtRow N idx e = some n ∧ k' = k := by
  rw [resultIdx?_eq_some_iff, Fin.forall_fin_two, rowsScatter_start0, tgtRow_eq_some_iff, Fin.ext_iff]
  show _ + ((0 : Nat) : Int) = (n.val : Int) ∧ (0 : Int) + ((k'.val : Nat) : Int) = (k.val : Int) ↔ _
  omega

-- Of the update elements (e, k') landing at (n, k) only those with k' = k remain.
theorem rowsScatter_apply (hd : d = rowsScatter N M D wf) (x : FVec Ideal ⟨2, ![N, D]⟩ φ)
    (idx : (⟨2, ![M, 1]⟩ : Shape).Idx → BitVec 32) (upd : FVec Ideal ⟨2, ![M, D]⟩ φ) (n : Fin N) (k : Fin D) :
    Host.scatterAdd (F := Ideal) (φ := φ) d x idx upd (ix2 n k)
      = x (ix2 n k) + ∑ e ∈ Finset.univ.filter (fun e : Fin M => tgtRow N idx e = some n), upd (ix2 e k) := by
  subst hd
  show Ideal.hostScatterAdd _ x idx upd (ix2 n k) = _
  unfold Ideal.hostScatterAdd
  congr 1
  rw [Finset.sum_filter, Finset.sum_filter, sum_idx2]
  refine Finset.sum_congr rfl fun e _ => ?_
  simp only [rowsScatter_resultIdx_iff]
  by_cases ht : tgtRow N idx e = some n
  · simp only [ht, true_and, Finset.sum_ite_eq', Finset.mem_univ, if_true]
  · simp only [ht, false_and, if_false, Finset.sum_const_zero]

end ScatterRows

section ScatterElts
variable {N M : Nat} {wf : ScatterDims.WF ⟨1, ![N]⟩ ⟨2, ![M, 1]⟩ ⟨1, ![M]⟩ [] [0] [0] 1}
  {φ : FTy} {d : ScatterDims ⟨1, ![N]⟩ ⟨2, ![M, 1]⟩ ⟨1, ![M]⟩}
  (idx : (⟨2, ![M, 1]⟩ : Shape).Idx → BitVec 32) (e : Fin M)

theorem eltsScatter_start0 :
    (eltsScatter N M wf).start (ix1 e) idx 0 = (idx (ix2 e (0 : Fin 1))).toInt :=
  congrArg (fun i => (idx i).toInt) (funext fun b => Fin.ext (by
    match b with
    | ⟨0, _⟩ => rfl
    | ⟨1, _⟩ => rfl))

theorem eltsScatter_resultIdx_iff (n : Fin N) :
    (eltsScatter N M wf).resultIdx? (ix1 e) idx = some (ix1 n) ↔ tgtRow N idx e = some n := by
  rw [resultIdx?_eq_some_iff, Fin.forall_fin_one, eltsScatter_start0, tgtRow_eq_some_iff]
  show _ + ((0 : Nat) : Int) = (n.val : Int) ↔ _
  omega

theorem eltsScatter_apply (hd : d = eltsScatter N M wf) (x : FVec Ideal ⟨1, ![N]⟩ φ)
    (idx : (⟨2, ![M, 1]⟩ : Shape).Idx → BitVec 32) (upd : FVec Ideal ⟨1, ![M]⟩ φ) (n : Fin N) :
    Host.scatterAdd (F := Ideal) (φ := φ) d x idx upd (ix1 n)
      = x (ix1 n) + ∑ e ∈ Finset.univ.filter (fun e : Fin M => tgtRow N idx e = some n), upd (ix1 e) := by
  subst hd
  show Ideal.hostScatterAdd _ x idx upd (ix1 n) = _
  unfold Ideal.hostScatterAdd
  congr 1
  rw [Finset.sum_filter, Finset.sum_filter, ← Equiv.sum_comp idxEquiv1.symm]
  exact Finset.sum_congr rfl fun e _ => if_congr (eltsScatter_resultIdx_iff idx e n) rfl rfl

end ScatterElts

theorem bcastCol_apply {α : Type} {N : Nat} (h : (⟨1, ![N]⟩ : Shape).BroadcastsInDim ⟨2, ![N, 1]⟩ ![0])
    (b : (⟨1, ![N]⟩ : Shape).Idx → α) (n : Fin N) :
    broadcastInDim ⟨2, ![N, 1]⟩ ![0] h b (ix2 n (0 : Fin 1)) = b (ix1 n) := by
  unfold broadcastInDim
  congr 1
  funext a
  refine Fin.ext ?_
  match a with
  | ⟨0, _⟩ =>
    split
    · rename_i h1
      have hN : N = 1 := h1
      have := n.isLt
      show 0 = n.val
      omega
    · rfl

-- A word names graph g as a signed start index exactly when it is the word g: g is below 2 ^ 31.
theorem tgtRow_graph_bcast_iff {N : Nat} (h : (⟨1, ![N]⟩ : Shape).BroadcastsInDim ⟨2, ![N, 1]⟩ ![0])
    (b : (⟨1, ![N]⟩ : Shape).Idx → BitVec 32) (n : Fin N) (g : Fin 64) :
    tgtRow 64 (broadcastInDim ⟨2, ![N, 1]⟩ ![0] h b) n = some g ↔ b (ix1 n) = BitVec.ofNat 32 g.val := by
  rw [tgtRow_eq_some_iff, bcastCol_apply]
  have hg := g.isLt
  have hb : (BitVec.ofNat 32 g.val).toInt = (g.val : Int) := by
    rw [BitVec.toInt_ofNat']
    apply Int.bmod_eq_of_le <;> omega
  exact ⟨fun h => BitVec.eq_of_toInt_eq (h.trans hb.symm), fun h => by rw [h, hb]⟩

end Cert.Alg

end
-- ==== Proof.Alg.Records.lean ====
import proofs.«403813_j11570641895563_3_alg».proof.KernelIdeal
import proofs.«403813_j11570641895563_3_alg».proof.ReferenceIdeal
import proofs.«403813_j11570641895563_3_alg».proof.Proof.Alg.Index

noncomputable section

namespace Cert.Alg

open Idealize.ShloMosaic Idealize.ShloMosaic.ValueIdx
open scoped BigOperators

namespace K
open Cert.KernelIdeal Cert.KernelIdeal.Facts₀
variable [Cert.KernelIdeal.Facts₀]

theorem degScatter_apply {φ : FTy} (x : FVec Ideal S50000 φ) (idx : IVec S800000x1 32) (upd : FVec Ideal S800000 φ)
    (n : Fin 50000) :
    Host.scatterAdd scatter_S50000_S800000x1_S800000_n_0_0_1 x idx upd (ix1 n)
      = x (ix1 n) + ∑ e ∈ Finset.univ.filter (fun e : Fin 800000 => tgtRow 50000 idx e = some n), upd (ix1 e) :=
  eltsScatter_apply rfl x idx upd n

theorem rowScatter_apply {φ : FTy} (x : FVec Ideal S50000x128 φ) (idx : IVec S800000x1 32)
    (upd : FVec Ideal S800000x128 φ) (n : Fin 50000) (k : Fin 128) :
    Host.scatterAdd scatter_S50000x128_S800000x1_S800000x128_1_0_0_1 x idx upd (ix2 n k)
      = x (ix2 n k) + ∑ e ∈ Finset.univ.filter (fun e : Fin 800000 => tgtRow 50000 idx e = some n), upd (ix2 e k) :=
  rowsScatter_apply rfl x idx upd n k

theorem rowGather_apply {α : Type} (x : S50000x128.Idx → α) (idx : IVec S800000x1 32) (e : Fin 800000) (k : Fin 128) :
    Host.gather gather_S50000x128_S800000x1_S800000x128_1_0_n_n_0_1_1128 x idx (ix2 e k)
      = x (ix2 (srcRow 50000 (by decide) idx e) k) :=
  rowsGather_apply (by decide) rfl x idx e k

end K

end Cert.Alg

end
-- ==== Proof.Alg.Edges.lean ====
/- The edges whose update lands on a node, as a finite set, for a column of node indices: what a scatter-add sums over. -/
import proofs.«403813_j11570641895563_3_alg».proof.Proof.Alg.Index

noncomputable section

namespace Cert.Alg

open Idealize.ShloMosaic Idealize.ShloMosaic.ValueIdx

def edgeSet (idx : (⟨2, ![800000, 1]⟩ : Shape).Idx → BitVec 32) (n : Fin 50000) : Finset (Fin 800000) :=
  Finset.univ.filter (fun e => tgtRow 50000 idx e = some n)

def nodeOf (idx : (⟨2, ![800000, 1]⟩ : Shape).Idx → BitVec 32) (e : Fin 800000) : Fin 50000 :=
  srcRow 50000 (by decide) idx e

theorem nodeOf_of_mem (idx : (⟨2, ![800000, 1]⟩ : Shape).Idx → BitVec 32) (n : Fin 50000) (e : Fin 800000)
    (h : e ∈ edgeSet idx n) : nodeOf idx e = n :=
  srcRow_of_tgtRow (by decide) idx e n (Finset.mem_filter.mp h).2

def graphSet (idx : (⟨2, ![50000, 1]⟩ : Shape).Idx → BitVec 32) (g : Fin 64) : Finset (Fin 50000) :=
  Finset.univ.filter (fun n => tgtRow 64 idx n = some g)

def rowOf (b : (⟨1, ![128]⟩ : Shape).Idx → EReal) : (⟨2, ![1, 128]⟩ : Shape).Idx → EReal := fun i => b (ix1 (i 1))

end Cert.Alg

end
-- ==== Proof.Alg.Layer.lean ====
import Idealize.ShloMosaic.PureOps.Ideal
import Idealize.ShloMosaic.PureOps.Ideal.Laws
import Idealize.ShloMosaic.Lib.ValueIdx
import proofs.«403813_j11570641895563_3_alg».proof.Proof.Spec
import proofs.«403813_j11570641895563_3_alg».proof.Proof.Alg.Real

noncomputable section

namespace Cert.Alg

open Idealize.ShloMosaic Idealize.ShloMosaic.ValueIdx

section Layer

variable (S : Fin 50000 → Finset (Fin 800000)) (src dstc : Fin 800000 → Fin 50000)

def deg (n : Fin 50000) : EReal := (∑ _e ∈ S n, (1 : EReal)) + 1

def dinv (n : Fin 50000) : EReal := Ideal.rsqrt (deg S n)

def invdeg (n : Fin 50000) : EReal := Ideal.div 1 (deg S n)

def dinv2 : Spec.A 50000 1 := fun i => dinv S (i 0)

theorem deg_lit (n : Fin 50000) :
    (Ideal.ofBits .f32 0x00000000#32 + ∑ _e ∈ S n, Ideal.ofBits .f32 0x3F800000#32) + Ideal.ofBits .f32 0x3F800000#32
      = deg S n := by
  rw [Ideal.ofBits_zero_f32, ofBits_one_f32, zero_add]; rfl

-- The degree is a real d ≥ 1: there the inverse root and the inverse are real, and the first squares to the second.
theorem dinv_facts (n : Fin 50000) :
    IsReal (dinv S n) ∧ IsReal (invdeg S n) ∧ dinv S n * dinv S n = invdeg S n := by
  have hd : (1 : ℝ) ≤ ((S n).card : ℝ) + 1 := le_add_of_nonneg_left (Nat.cast_nonneg _)
  have h : deg S n = ((((S n).card : ℝ) + 1 : ℝ) : EReal) := by
    rw [deg, ← EReal.coe_one, ← coe_sum, Finset.sum_const, nsmul_eq_mul, mul_one, EReal.coe_add]
  rw [dinv, invdeg, h, rsqrt_mul_self hd, rsqrt_coe_of_one_le hd, div_one_coe_of_one_le hd]
  exact ⟨isReal_coe _, isReal_coe _, rfl⟩

-- Multiplication distributes over addition only on the reals: the identity is proved in ℝ and carried back.
theorem real_distrib {ι : Type*} (s : Finset ι) (a c : ι → EReal) (a0 δ : EReal)
    (ha : ∀ e, IsReal (a e)) (hc : ∀ e, IsReal (c e)) (ha0 : IsReal a0) (hδ : IsReal δ) :
    ((∑ e ∈ s, a e * c e) + a0 * δ) * δ = (∑ e ∈ s, a e * (c e * δ)) + a0 * (δ * δ) := by
  choose a' ha' using ha
  choose c' hc' using hc
  obtain ⟨x, rfl⟩ := ha0
  obtain ⟨d, rfl⟩ := hδ
  obtain rfl : a = fun e => (a' e : EReal) := funext ha'
  obtain rfl : c = fun e => (c' e : EReal) := funext hc'
  simp only [← EReal.coe_mul, ← coe_sum, ← EReal.coe_add]
  congr 1
  rw [add_mul, Finset.sum_mul]
  simp only [mul_assoc]

def xw (X : Spec.A 50000 128) (W : Spec.A 128 128) : Spec.A 50000 128 :=
  fun i => ∑ j : Fin 128, X (ix2 (i 0) j) * W (ix2 j (i 1))

def aggr (Y : Spec.A 50000 128) : Spec.A 50000 128 :=
  fun i => ∑ e ∈ S (i 0), Y (ix2 (src e) (i 1))

def convPre (X : Spec.A 50000 128) (W : Spec.A 128 128) (b : Spec.A 1 128) : Spec.A 50000 128 :=
  fun i => ((∑ e ∈ S (i 0), xw X W (ix2 (src e) (i 1)) * (dinv S (src e) * dinv S (dstc e)))
    + xw X W i * invdeg S (i 0)) + b (ix2 0 (i 1))

def conv (X : Spec.A 50000 128) (W : Spec.A 128 128) (b : Spec.A 1 128) : Spec.A 50000 128 :=
  fun i => Spec.lrelu (convPre S src dstc X W b i)

theorem slope_isReal : IsReal (Ideal.ofBits .f32 0x3C23D70A#32) := by
  simp [IsReal, Ideal.ofBits, Ideal.ieee, -EReal.coe_mul]

theorem lrelu_isReal {v : EReal} (hv : IsReal v) : IsReal (Spec.lrelu v) := by
  unfold Spec.lrelu Scalar.select
  split
  · exact hv
  · exact slope_isReal.mul hv

section Real
variable {X : Spec.A 50000 128} {W : Spec.A 128 128} {b : Spec.A 1 128}
  (hX : ∀ i, IsReal (X i)) (hW : ∀ i, IsReal (W i))
include hX hW

theorem xw_isReal (i : (⟨2, ![50000, 128]⟩ : Shape).Idx) : IsReal (xw X W i) :=
  IsReal.sum _ _ fun _ _ => (hX _).mul (hW _)

-- On the edges into n the destination's factor is n's, and dinv n squared is 1 / deg n.
theorem scaled_eq (hS : ∀ n, ∀ e ∈ S n, dstc e = n) (n : Fin 50000) (k : Fin 128) :
    ((∑ e ∈ S n, xw X W (ix2 (src e) k) * dinv S (src e)) + xw X W (ix2 n k) * dinv S n) * dinv S n
      = (∑ e ∈ S n, xw X W (ix2 (src e) k) * (dinv S (src e) * dinv S (dstc e)))
        + xw X W (ix2 n k) * invdeg S n := by
  have hsum : ∑ e ∈ S n, xw X W (ix2 (src e) k) * (dinv S (src e) * dinv S (dstc e))
      = ∑ e ∈ S n, xw X W (ix2 (src e) k) * (dinv S (src e) * dinv S n) :=
    Finset.sum_congr rfl fun e he => by rw [hS _ e he]
  rw [hsum, ← (dinv_facts S n).2.2]
  exact real_distrib (S n) (fun e => xw X W (ix2 (src e) k)) (fun e => dinv S (src e)) (xw X W (ix2 n k))
    (dinv S n) (fun e => xw_isReal hX hW _) (fun e => (dinv_facts S _).1) (xw_isReal hX hW _) (dinv_facts S _).1

-- Sums and products of reals are real, and the rectifier keeps a real real.
theorem conv_isReal (hb : ∀ i, IsReal (b i)) (i : (⟨2, ![50000, 128]⟩ : Shape).Idx) :
    IsReal (conv S src dstc X W b i) :=
  lrelu_isReal (((IsReal.sum _ _ fun _ _ => (xw_isReal hX hW _).mul ((dinv_facts S _).1.mul (dinv_facts S _).1)).add
    ((xw_isReal hX hW i).mul (dinv_facts S _).2.1)).add (hb _))

theorem fin_lin_eq_conv (hS : ∀ n, ∀ e ∈ S n, dstc e = n) :
    Spec.fin (aggr S src (Spec.lin X W (dinv2 S))) (Spec.lin X W (dinv2 S)) (dinv2 S) b = conv S src dstc X W b := by
  funext i
  obtain ⟨n, k, rfl⟩ : ∃ n k, i = ix2 n k := ⟨i 0, i 1, eq_ix2 i⟩
  exact congrArg (fun v => Spec.lrelu (v + b (ix2 0 k))) (scaled_eq S src dstc hX hW hS n k)

end Real

theorem two_layers {X : Spec.A 50000 128} {W0 W1 : Spec.A 128 128} {b0 b1 : Spec.A 1 128}
    (hX : ∀ i, IsReal (X i)) (hW0 : ∀ i, IsReal (W0 i)) (hb0 : ∀ i, IsReal (b0 i))
    (hW1 : ∀ i, IsReal (W1 i)) (hS : ∀ n, ∀ e ∈ S n, dstc e = n) :
    let hs0 := Spec.lin X W0 (dinv2 S)
    let hs1 := Spec.fused (aggr S src hs0) hs0 (dinv2 S) b0 W1
    Spec.fin (aggr S src hs1) hs1 (dinv2 S) b1 = conv S src dstc (conv S src dstc X W0 b0) W1 b1 := by
  intro hs0 hs1
  have h1 : hs1 = Spec.lin (conv S src dstc X W0 b0) W1 (dinv2 S) :=
    congrArg (fun Y => Spec.lin Y W1 (dinv2 S)) (fin_lin_eq_conv S src dstc hX hW0 hS)
  rw [h1]
  exact fin_lin_eq_conv S src dstc (conv_isReal S src dstc hX hW0 hb0) hW1 hS

end Layer

end Cert.Alg

end
-- ==== Proof.Alg.KBranch.lean ====
/- The kernel program's branch: two layers over rows pre-scaled by the inverse square root of the degree. -/
import proofs.«403813_j11570641895563_3_alg».proof.Proof.Val.KStages
import proofs.«403813_j11570641895563_3_alg».proof.Proof.Alg.Records
import proofs.«403813_j11570641895563_3_alg».proof.Proof.Alg.Edges
import proofs.«403813_j11570641895563_3_alg».proof.Proof.Alg.Layer
import Idealize.ShloMosaic.Lib.IdealHost
import Idealize.ShloMosaic.Lib.Pipeline.Value
import Idealize.ShloMosaic.Lib.ValueIdx

noncomputable section

namespace Cert.Alg

open Cert.KernelIdeal Cert.KernelIdeal.Gen Idealize.ShloMosaic Idealize.ShloMosaic.ValueIdx
open scoped BigOperators

theorem colCast_apply {α : Type} {N : Nat} (h : (⟨1, ![N]⟩ : Shape).ShapeCasts ⟨2, ![N, 1]⟩)
    (v : (⟨1, ![N]⟩ : Shape).Idx → α) (n : Fin N) (q : Fin 1) :
    shapeCast ⟨2, ![N, 1]⟩ v h (ix2 n q) = v (ix1 n) :=
  shapeCast_apply v h (ix2 n q) (ix1 n) (by
    rw [Shape.rowMajor_val_one, Shape.rowMajor_val_two]
    show n.val = n.val * 1 + q.val
    have hq := q.isLt
    omega)

theorem rowCast_apply {α : Type} {N : Nat} (h : (⟨1, ![N]⟩ : Shape).ShapeCasts ⟨2, ![1, N]⟩)
    (v : (⟨1, ![N]⟩ : Shape).Idx → α) (p : Fin 1) (k : Fin N) :
    shapeCast ⟨2, ![1, N]⟩ v h (ix2 p k) = v (ix1 k) :=
  shapeCast_apply v h (ix2 p k) (ix1 k) (by
    rw [Shape.rowMajor_val_one, Shape.rowMajor_val_two]
    show k.val = p.val * N + k.val
    have hp : p.val = 0 := by have := p.isLt; omega
    rw [hp, Nat.zero_mul, Nat.zero_add])

theorem splat_apply {T : Shape} (h : S_.BroadcastsInDim T ![]) (w : BitVec (FTy.bits .f32)) (j : T.Idx) :
    broadcastInDim T ![] h (constant (F := Ideal) S_ .f32 w) j = Ideal.ofBits .f32 w :=
  broadcastInDim_scalar_apply h _ j

theorem hostRsqrt_apply {s : Shape} (x : FVec Ideal s .f32) (i : s.Idx) :
    Host.rsqrt (F := Ideal) x i = Ideal.rsqrt (x i) := rfl

theorem kdeg_apply (dst : KVal.Arr S800000 .i32) (n : Fin 50000) :
    KVal.deg dst (ix1 n) = deg (edgeSet (KVal.idxCol dst)) n := by
  unfold KVal.deg
  rw [addf_apply, K.degScatter_apply]
  simp only [splat_apply]
  exact deg_lit (edgeSet (KVal.idxCol dst)) n

theorem kdinvCol_eq (dst : KVal.Arr S800000 .i32) : KVal.dinvCol dst = dinv2 (edgeSet (KVal.idxCol dst)) := by
  funext i
  obtain ⟨n, q, rfl⟩ : ∃ (n : Fin 50000) (q : Fin 1), i = ix2 n q := ⟨i 0, i 1, eq_ix2 i⟩
  unfold KVal.dinvCol
  rw [colCast_apply, hostRsqrt_apply, kdeg_apply]
  rfl

theorem kneighbours_eq (hs : KVal.Arr S50000x128 .bf16) (s d : KVal.Arr S800000 .i32) :
    KVal.neighbours hs s d = aggr (edgeSet (KVal.idxCol d)) (nodeOf (KVal.idxCol s)) hs := by
  funext i
  obtain ⟨n, k, rfl⟩ : ∃ (n : Fin 50000) (k : Fin 128), i = ix2 n k := ⟨i 0, i 1, eq_ix2 i⟩
  unfold KVal.neighbours
  rw [K.rowScatter_apply, splat_apply]
  simp only [extf_apply, K.rowGather_apply]
  rw [Ideal.ofBits_zero_f32, zero_add]
  rfl

theorem kbiasRow_eq (b : KVal.Arr S128 .f32) : KVal.biasRow b = rowOf b := by
  funext i
  obtain ⟨p, k, rfl⟩ : ∃ (p : Fin 1) (k : Fin 128), i = ix2 p k := ⟨i 0, i 1, eq_ix2 i⟩
  unfold KVal.biasRow
  rw [rowCast_apply]
  rfl

theorem kbranch_eq (x : KVal.Arr S50000x128 .f32) (ei : KVal.Arr S2x800000 .i32) (W0 : KVal.Arr S128x128 .f32)
    (b0 : KVal.Arr S128 .f32) (W1 : KVal.Arr S128x128 .f32) (b1 : KVal.Arr S128 .f32)
    (hx : ∀ i, IsReal (x i)) (hW0 : ∀ i, IsReal (W0 i)) (hb0 : ∀ i, IsReal (b0 i)) (hW1 : ∀ i, IsReal (W1 i)) :
    KVal.branch x ei W0 b0 W1 b1
      = conv (edgeSet (KVal.idxCol (KVal.edgeDst ei))) (nodeOf (KVal.idxCol (KVal.edgeSrc ei)))
          (nodeOf (KVal.idxCol (KVal.edgeDst ei)))
          (conv (edgeSet (KVal.idxCol (KVal.edgeDst ei))) (nodeOf (KVal.idxCol (KVal.edgeSrc ei)))
            (nodeOf (KVal.idxCol (KVal.edgeDst ei))) x W0 (rowOf b0)) W1 (rowOf b1) := by
  unfold KVal.branch
  simp only [kdinvCol_eq, kneighbours_eq, kbiasRow_eq]
  exact two_layers (edgeSet (KVal.idxCol (KVal.edgeDst ei))) (nodeOf (KVal.idxCol (KVal.edgeSrc ei)))
    (nodeOf (KVal.idxCol (KVal.edgeDst ei))) hx hW0 (fun i => hb0 _) hW1
    (fun n e he => nodeOf_of_mem (KVal.idxCol (KVal.edgeDst ei)) n e he)

end Cert.Alg

end
-- ==== Proof.Alg.RLayer.lean ====
import proofs.«403813_j11570641895563_3_alg».proof.Proof.Ref.Stages
import proofs.«403813_j11570641895563_3_alg».proof.Proof.Alg.Records
import proofs.«403813_j11570641895563_3_alg».proof.Proof.Alg.Edges
import proofs.«403813_j11570641895563_3_alg».proof.Proof.Alg.Layer
import Idealize.ShloMosaic.Lib.StackMember
import Idealize.ShloMosaic.Lib.Pipeline.Value
import Idealize.ShloMosaic.Lib.ValueIdx

noncomputable section

namespace Cert.Alg

open Idealize.ShloMosaic Idealize.ShloMosaic.ValueIdx
open Cert.ReferenceIdeal
open scoped BigOperators

section Layout
variable {α : Type} {N D : Nat}

theorem col2_apply (hN : N ≠ 1) (h : (⟨2, ![N, 1]⟩ : Shape).BroadcastsInDim ⟨2, ![N, D]⟩ ![0, 1])
    (x : (⟨2, ![N, 1]⟩ : Shape).Idx → α) (n : Fin N) (k : Fin D) :
    broadcastInDim ⟨2, ![N, D]⟩ ![0, 1] h x (ix2 n k) = x (ix2 n (0 : Fin 1)) :=
  broadcastInDim_apply ![0, 1] h x (ix2 n k) (ix2 n (0 : Fin 1)) (fun a => by
    match a with
    | ⟨0, _⟩ => exact (if_neg hN).symm
    | ⟨1, _⟩ => exact (if_pos rfl).symm)

-- A vector made a row and laid along N rows reads the vector's entry at the column.
theorem vecRows_apply (hD : D ≠ 1) (h : (⟨2, ![1, D]⟩ : Shape).BroadcastsInDim ⟨2, ![N, D]⟩ ![0, 1])
    (h' : (⟨1, ![D]⟩ : Shape).BroadcastsInDim ⟨2, ![1, D]⟩ ![1]) (v : (⟨1, ![D]⟩ : Shape).Idx → α) (n : Fin N) (k : Fin D) :
    broadcastInDim ⟨2, ![N, D]⟩ ![0, 1] h (broadcastInDim ⟨2, ![1, D]⟩ ![1] h' v) (ix2 n k) = v (ix1 k) :=
  (broadcastInDim_apply ![0, 1] h _ (ix2 n k) (ix2 (0 : Fin 1) k) (fun a => by
    match a with
    | ⟨0, _⟩ => exact (if_pos rfl).symm
    | ⟨1, _⟩ => exact (if_neg hD).symm)).trans
  (broadcastInDim_apply ![1] h' v (ix2 (0 : Fin 1) k) (ix1 k) (fun a => by
    match a with
    | ⟨0, _⟩ => exact (if_neg hD).symm))

end Layout

abbrev refS (ei : RefRun.Arr Ideal S2x800000 .i32) : Fin 50000 → Finset (Fin 800000) :=
  edgeSet (RefRun.idxCol (F := Ideal) (RefRun.edgeDst ei))

abbrev refSrc (ei : RefRun.Arr Ideal S2x800000 .i32) : Fin 800000 → Fin 50000 :=
  nodeOf (RefRun.idxCol (F := Ideal) (RefRun.edgeSrc ei))

abbrev refDst (ei : RefRun.Arr Ideal S2x800000 .i32) : Fin 800000 → Fin 50000 :=
  nodeOf (RefRun.idxCol (F := Ideal) (RefRun.edgeDst ei))

section Stages
variable (x h agg : RefRun.Arr Ideal S50000x128 .f32) (W : RefRun.Arr Ideal S128x128 .f32)
  (b : RefRun.Arr Ideal S128 .f32) (dg : RefRun.Arr Ideal S50000 .f32) (nrm : RefRun.Arr Ideal S800000 .f32)
  (src dst : RefRun.Arr Ideal S800000 .i32) (ei : RefRun.Arr Ideal S2x800000 .i32)
  (n : Fin 50000) (k : Fin 128) (e : Fin 800000)

theorem rlin_apply : RefRun.lin (F := Ideal) x W (ix2 n k) = xw x W (ix2 n k) := by
  unfold RefRun.lin
  exact StackMember.dotGeneral_plain_apply (m := 50000) (n := 128) (k := 128) none x W n k

theorem rdeg_apply : RefRun.deg (F := Ideal) dst (ix1 n) = deg (edgeSet (RefRun.idxCol dst)) n := by
  unfold RefRun.deg
  rw [addf_apply, eltsScatter_apply (d := scatter_S50000_S800000x1_S800000_n_0_0_1) rfl]
  exact deg_lit (edgeSet (RefRun.idxCol dst)) n

theorem redgeNorm_apply :
    RefRun.edgeNorm (F := Ideal) dg src dst (ix1 e)
      = Ideal.rsqrt (dg (ix1 (nodeOf (RefRun.idxCol src) e))) * Ideal.rsqrt (dg (ix1 (nodeOf (RefRun.idxCol dst) e))) := by
  unfold RefRun.edgeNorm
  rw [mulf_apply, eltsGather_apply (by decide) (d := gather_S50000_S800000x1_S800000_n_0_n_n_0_1_1) rfl,
    eltsGather_apply (by decide) (d := gather_S50000_S800000x1_S800000_n_0_n_n_0_1_1) rfl]
  rfl

theorem raggregate_apply :
    RefRun.aggregate (F := Ideal) h nrm src dst (ix2 n k)
      = Ideal.ofBits .f32 0x00000000#32
        + ∑ e ∈ edgeSet (RefRun.idxCol dst) n, h (ix2 (nodeOf (RefRun.idxCol src) e) k) * nrm (ix1 e) := by
  unfold RefRun.aggregate
  rw [rowsScatter_apply (d := scatter_S50000x128_S800000x1_S800000x128_1_0_0_1) rfl]
  refine congrArg (Ideal.ofBits .f32 0x00000000#32 + ·) (Finset.sum_congr rfl fun e _ => ?_)
  rw [mulf_apply, rowsGather_apply (by decide) (d := gather_S50000x128_S800000x1_S800000x128_1_0_n_n_0_1_1128) rfl,
    col2_apply (by decide), bcastCol_apply]
  rfl

theorem rconvOut_apply :
    RefRun.convOut (F := Ideal) h dg agg b (ix2 n k)
      = (agg (ix2 n k) + h (ix2 n k) * Ideal.div (Ideal.ofBits .f32 0x3F800000#32) (dg (ix1 n))) + b (ix1 k) := by
  unfold RefRun.convOut
  rw [addf_apply, addf_apply, mulf_apply, col2_apply (by decide), bcastCol_apply, vecRows_apply (by decide)]
  rfl

theorem rlrelu_apply (i : S50000x128.Idx) : RefRun.lrelu (F := Ideal) x i = Spec.lrelu (x i) := rfl

theorem rconv_apply :
    RefRun.conv (F := Ideal) x W b src dst (ix2 n k)
      = convPre (edgeSet (RefRun.idxCol dst)) (nodeOf (RefRun.idxCol src)) (nodeOf (RefRun.idxCol dst)) x W (rowOf b)
          (ix2 n k) := by
  unfold RefRun.conv
  rw [rconvOut_apply, raggregate_apply, rlin_apply, rdeg_apply, Ideal.ofBits_zero_f32, zero_add, ofBits_one_f32]
  refine congrArg (fun s => (s + xw x W (ix2 n k) * invdeg (edgeSet (RefRun.idxCol dst)) n) + b (ix1 k))
    (Finset.sum_congr rfl fun e _ => ?_)
  rw [rlin_apply, redgeNorm_apply, rdeg_apply, rdeg_apply]
  rfl

theorem rlayer_eq : RefRun.layer (F := Ideal) x ei W b = conv (refS ei) (refSrc ei) (refDst ei) x W (rowOf b) := by
  funext i
  obtain ⟨n, k, rfl⟩ : ∃ (n : Fin 50000) (k : Fin 128), i = ix2 n k := ⟨i 0, i 1, eq_ix2 i⟩
  unfold RefRun.layer
  rw [rlrelu_apply, rconv_apply]
  rfl

end Stages

theorem rbranch_eq (x : RefRun.Arr Ideal S50000x128 .f32) (ei : RefRun.Arr Ideal S2x800000 .i32)
    (W0 : RefRun.Arr Ideal S128x128 .f32) (b0 : RefRun.Arr Ideal S128 .f32)
    (W1 : RefRun.Arr Ideal S128x128 .f32) (b1 : RefRun.Arr Ideal S128 .f32) :
    RefRun.branch (F := Ideal) x ei W0 b0 W1 b1
      = conv (refS ei) (refSrc ei) (refDst ei) (conv (refS ei) (refSrc ei) (refDst ei) x W0 (rowOf b0)) W1 (rowOf b1) := by
  unfold RefRun.branch
  rw [rlayer_eq, rlayer_eq]

end Cert.Alg

end
-- ==== Proof.Alg.PoolJoin.lean ====
import proofs.«403813_j11570641895563_3_alg».proof.Proof.Val.KStages
import proofs.«403813_j11570641895563_3_alg».proof.Proof.Ref.Stages
import proofs.«403813_j11570641895563_3_alg».proof.Proof.Alg.Edges
import proofs.«403813_j11570641895563_3_alg».proof.Proof.Alg.Records
import proofs.«403813_j11570641895563_3_alg».proof.Proof.Alg.Pool
import Idealize.ShloMosaic.Lib.KernelVsHost
import Idealize.ShloMosaic.Lib.Pipeline.Value
import Idealize.ShloMosaic.Lib.ValueIdx

noncomputable section

namespace Cert.Alg

open Idealize.ShloMosaic Idealize.ShloMosaic.ValueIdx

def meanOf (X : Cert.Spec.A 50000 128) (T : Fin 64 → Finset (Fin 50000)) : Cert.Spec.A 64 128 := fun i =>
  Ideal.div (Ideal.ofBits .f32 0x00000000#32 + ∑ n ∈ T (i 0), X (ix2 n (i 1)))
    (max (Ideal.ofBits .f32 0x00000000#32 + ∑ _n ∈ T (i 0), Ideal.ofBits .f32 0x3F800000#32)
      (Ideal.ofBits .f32 0x3F800000#32))

def nodesOf (b : (⟨1, ![50000]⟩ : Shape).Idx → BitVec 32) : Fin 64 → Finset (Fin 50000) :=
  graphSet (broadcastInDim (⟨2, ![50000, 1]⟩ : Shape) ![0] Cert.ReferenceIdeal.Gen.bcast_S50000_S50000x1_0 b)

theorem mem_nodesOf (b : (⟨1, ![50000]⟩ : Shape).Idx → BitVec 32) (g : Fin 64) (n : Fin 50000) :
    n ∈ nodesOf b g ↔ b (ix1 n) = BitVec.ofNat 32 g.val := by
  unfold nodesOf graphSet
  rw [Finset.mem_filter, tgtRow_graph_bcast_iff]
  exact and_iff_right (Finset.mem_univ _)

section Pads
open Cert.KernelIdeal Cert.KernelIdeal.Gen

theorem padRows_apply (X : Cert.Spec.A 50000 128) (n : Fin 50048) (k : Fin 128) :
    KVal.padRows X (ix2 n k) = if h : n.val < 50000 then X (ix2 ⟨n.val, h⟩ k) else 0 := by
  unfold KVal.padRows
  by_cases h : n.val < 50000
  · rw [dif_pos h]
    exact pad_apply_of_inside _ _ _ X _ pads_S50000x128_S50048x128_0480_000 h_S_ _ (ix2 (⟨n.val, h⟩ : Fin 50000) k) (by
      intro a
      match a with
      | ⟨0, _⟩ => show n.val = 0 + n.val * (0 + 1); omega
      | ⟨1, _⟩ => show k.val = 0 + k.val * (0 + 1); omega)
  · rw [dif_neg h]
    refine (pad_apply_of_not_inside _ _ _ X _ pads_S50000x128_S50048x128_0480_000 h_S_ _ (0 : Fin 2) (by
      intro hin
      have e : (n.val - 0) / (0 + 1) < 50000 := hin.2.2
      omega)).trans ?_
    show (((0#32 : BitVec 32).toInt : ℝ) : EReal) = 0
    simp

theorem padIds_apply (b : (⟨1, ![50000]⟩ : Shape).Idx → BitVec 32) (n : Fin 50048) :
    KVal.padIds b (ix2 0 n) = if h : n.val < 50000 then b (ix1 ⟨n.val, h⟩) else 64#32 := by
  unfold KVal.padIds
  rw [shapeCast_apply _ shapeCasts_S50048_S1x50048 (ix2 (0 : Fin 1) n) (ix1 n) (by
    rw [Shape.rowMajor_val_two, Shape.rowMajor_val_one]; show n.val = 0 * 50048 + n.val; omega)]
  by_cases h : n.val < 50000
  · rw [dif_pos h]
    exact pad_apply_of_inside _ _ _ b _ pads_S50000_S50048_0480 h_S_ _ (ix1 (⟨n.val, h⟩ : Fin 50000)) (by
      intro a
      match a with
      | ⟨0, _⟩ => show n.val = 0 + n.val * (0 + 1); omega)
  · rw [dif_neg h]
    exact pad_apply_of_not_inside _ _ _ b _ pads_S50000_S50048_0480 h_S_ _ (0 : Fin 1) (by
      intro hin
      have e : (n.val - 0) / (0 + 1) < 50000 := hin.2.2
      omega)

end Pads

theorem kpool_eq (X : Cert.Spec.A 50000 128) (b : (⟨1, ![50000]⟩ : Shape).Idx → BitVec 32) :
    Cert.KernelIdeal.KVal.pooled X b = meanOf X (nodesOf b) := by
  unfold Cert.KernelIdeal.KVal.pooled meanOf
  exact pool_eq_lit (Cert.KernelIdeal.KVal.padIds b) (Cert.KernelIdeal.KVal.padRows X) (fun n => b (ix1 n)) X (nodesOf b)
    (padRows_apply X) (padIds_apply b) (fun g n => mem_nodesOf b g n)

theorem hostDivf_apply {s : Shape} {φ : FTy} (x y : FVec Ideal s φ) (i : s.Idx) :
    Host.divf x y i = Ideal.div (x i) (y i) := rfl

section RefPool
open Cert.ReferenceIdeal Cert.ReferenceIdeal.Gen

-- Both scatter-adds are read at the index; every other operation is pointwise.
theorem rpool_eq (X : Cert.Spec.A 50000 128) (b : (⟨1, ![50000]⟩ : Shape).Idx → BitVec 32) :
    RefRun.meanPool (F := Ideal) X b = meanOf X (nodesOf b) := by
  funext i
  obtain ⟨g, k, rfl⟩ : ∃ (g : Fin 64) (k : Fin 128), i = ix2 g k := ⟨i 0, i 1, eq_ix2 i⟩
  unfold RefRun.meanPool meanOf
  rw [hostDivf_apply, rowsScatter_apply (d := scatter_S64x128_S50000x1_S50000x128_1_0_0_1) rfl,
    broadcastInDim_apply _ bcast_S64x1_S64x128_0_1 _ (ix2 g k) (ix2 g (0 : Fin 1)) (by
      intro a
      match a with
      | ⟨0, _⟩ => rfl
      | ⟨1, _⟩ => rfl),
    bcastCol_apply, maximumf_apply, eltsScatter_apply (d := scatter_S64_S50000x1_S50000_n_0_0_1) rfl]
  rfl

end RefPool

theorem pool_join (X : Cert.Spec.A 50000 128) (b : (⟨1, ![50000]⟩ : Shape).Idx → BitVec 32) :
    Cert.KernelIdeal.KVal.pooled X b = Cert.ReferenceIdeal.RefRun.meanPool (F := Ideal) X b :=
  (kpool_eq X b).trans (rpool_eq X b).symm

end Cert.Alg

end
-- ==== Proof.Alg.HeadJoin.lean ====
/- The head of the specification and the head of the reference are the same finite sums. -/
import proofs.«403813_j11570641895563_3_alg».proof.Proof.Val.KStages
import proofs.«403813_j11570641895563_3_alg».proof.Proof.Ref.Stages
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Alg

open Idealize.ShloMosaic Idealize.ShloMosaic.ValueIdx Idealize.SL.Sem
open Cert.KernelIdeal (KVal.Arr)
open Cert.ReferenceIdeal (RefRun.head)

section RefPieces
open Cert.ReferenceIdeal Cert.ReferenceIdeal.Gen

theorem ref_hidden_product_apply (x : FVec Ideal S64x256 .f32) (w : FVec Ideal S256x128 .f32) (g : Fin 64) (d : Fin 128) :
    Host.dotGeneral dot_S64x256_S256x128_S64x128_1_0_0_1_n_n none x w (ix2 g d)
      = ∑ k : Fin 256, x (ix2 g k) * w (ix2 k d) := by
  exact StackMember.dotGeneral_plain_apply (m := 64) (n := 128) (k := 256) none x w g d

theorem ref_out_product_apply (x : FVec Ideal S64x128 .f32) (w : FVec Ideal S128x1 .f32) (g : Fin 64) (q : Fin 1) :
    Host.dotGeneral dot_S64x128_S128x1_S64x1_1_0_0_1_n_n none x w (ix2 g q)
      = ∑ d : Fin 128, x (ix2 g d) * w (ix2 d q) := by
  exact StackMember.dotGeneral_plain_apply (m := 64) (n := 1) (k := 128) none x w g q

theorem ref_hidden_bias_apply {α : Type} (b : S128.Idx → α) (g : Fin 64) (d : Fin 128) :
    broadcastInDim S64x128 ![0, 1] bcast_S1x128_S64x128_0_1 (broadcastInDim S1x128 ![1] bcast_S128_S1x128_1 b) (ix2 g d)
      = b (ix1 d) := by
  refine (broadcastInDim_apply _ _ _ (ix2 g d) (ix2 (0 : Fin 1) d)
    (fun a => by match a with | ⟨0, _⟩ => rfl | ⟨1, _⟩ => rfl)).trans ?_
  exact broadcastInDim_apply _ _ _ (ix2 (0 : Fin 1) d) (ix1 d) (fun a => by match a with | ⟨0, _⟩ => rfl)

theorem ref_out_bias_apply {α : Type} (b : S1.Idx → α) (g : Fin 64) (q : Fin 1) :
    broadcastInDim S64x1 ![0, 1] bcast_S1x1_S64x1_0_1 (broadcastInDim S1x1 ![1] bcast_S1_S1x1_1 b) (ix2 g q)
      = b (ix1 (0 : Fin 1)) := by
  refine (broadcastInDim_apply _ _ _ (ix2 g q) (ix2 (0 : Fin 1) (0 : Fin 1))
    (fun a => by match a with | ⟨0, _⟩ => rfl | ⟨1, _⟩ => rfl)).trans ?_
  exact broadcastInDim_apply _ _ _ (ix2 (0 : Fin 1) (0 : Fin 1)) (ix1 (0 : Fin 1))
    (fun a => by match a with | ⟨0, _⟩ => rfl)

end RefPieces

section Join
open Cert.KernelIdeal Cert.KernelIdeal.Gen

theorem head_join (p1 p2 : KVal.Arr S64x128 .f32) (W1 : KVal.Arr S256x128 .f32) (b1 : KVal.Arr S128 .f32)
    (W2 : KVal.Arr S128x1 .f32) (b2 : KVal.Arr S1 .f32) :
    Cert.Spec.mlp (concatenate S64x256 1 [⟨S64x128, p1⟩, ⟨S64x128, p2⟩] concatenates_S64x128_S64x128_S64x256_d1)
        W1 (KVal.biasRow b1) W2 (shapeCast S1x1 b2 shapeCasts_S1_S1x1)
      = RefRun.head (F := Ideal) p1 p2 W1 b1 W2 b2 := by
  funext i
  obtain ⟨g, q, rfl⟩ : ∃ (g : Fin 64) (q : Fin 1), i = ix2 g q := ⟨i 0, i 1, eq_ix2 i⟩
  obtain rfl : q = 0 := Subsingleton.elim _ _
  have hb1 : ∀ d : Fin 128, KVal.biasRow b1 (ix2 (0 : Fin 1) d) = b1 (ix1 d) :=
    fun d => shapeCast_a_1a_apply b1 _ 0 d
  have hb2 : shapeCast S1x1 b2 shapeCasts_S1_S1x1 (ix2 (0 : Fin 1) (0 : Fin 1)) = b2 (ix1 (0 : Fin 1)) :=
    shapeCast_a_1a_apply b2 _ 0 0
  unfold Cert.Spec.mlp RefRun.head
  rw [addf_apply, ref_out_product_apply, ref_out_bias_apply]
  show (∑ d : Fin 128, _) + shapeCast S1x1 b2 shapeCasts_S1_S1x1 (ix2 (0 : Fin 1) (0 : Fin 1)) = _
  rw [hb2]
  congr 1
  refine Finset.sum_congr rfl fun d _ => ?_
  rw [maximumf_apply, addf_apply, ref_hidden_product_apply, ref_hidden_bias_apply, hb1]
  rfl

end Join

end Cert.Alg

end
-- ==== Proof.Alg.Fin.lean ====
/- A float input whose absolute value is below +∞ is a real number; so under the precondition every entry of every float argument is real. -/
import Idealize.ShloMosaic.PureOps.Ideal
import Idealize.ShloMosaic.PureOps.Ideal.Laws
import Idealize.ShloMosaic.Lib.ValueIdx
import Idealize.ShloMosaic.Lib.ReduceAll
import proofs.«403813_j11570641895563_3_alg».proof.Pre_finite_inputs
import proofs.«403813_j11570641895563_3_alg».proof.Proof.Gen.Pre_finite_inputs
import proofs.«403813_j11570641895563_3_alg».proof.Proof.Alg.Real

noncomputable section

namespace Cert.Alg

open Idealize.ShloMosaic Idealize.ShloMosaic.ValueIdx

open Cert.Pre_finite_inputs in

instance subsingleton_scalarIdx : Subsingleton S_.Idx := ⟨fun _ _ => funext fun d => d.elim0⟩

theorem ofBits_inf_f32 : Ideal.ofBits .f32 0x7F800000#32 = ⊤ := by
  simp [Ideal.ofBits, Ideal.ieee]

theorem isReal_of_abs_lt_top (x : EReal) (h : max x (-x) < ⊤) : IsReal x := by
  induction x using EReal.rec with
  | bot => simp at h
  | coe r => exact ⟨r, rfl⟩
  | top => simp at h

open Cert.Pre_finite_inputs in

theorem all_real {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi
        (cmpf .olt (Host.absf a) (broadcastInDim s ![] hb (constant (F := Ideal) S_ .f32 0x7F800000#32)))
        (constantI S_ 1 1#1) hr h0 ix0 = 1#1) (i : s.Idx) : IsReal (a i) := by
  have e := Host.reduce_andi_all _ _ hr h0 ix0 h i
  have e' : Ideal.cmp .olt (max (a i) (-(a i))) (Ideal.ofBits .f32 0x7F800000#32) = 1#1 := e
  rw [ofBits_inf_f32] at e'
  refine isReal_of_abs_lt_top _ ?_
  by_contra hn
  have e0 : Ideal.cmp .olt (max (a i) (-(a i))) ⊤ = 0#1 := by
    show BitVec.ofBool (decide (max (a i) (-(a i)) < ⊤)) = 0#1
    rw [decide_eq_false hn]; rfl
  rw [e0] at e'
  exact absurd e' (by decide)

open Cert.Pre_finite_inputs in

theorem finite_of_pre [Facts]
    (a0 : FVec Ideal S50000x128 .f32) (a1 : IVec S2x800000 32) (a2 : IVec S50000 32)
    (a3 : FVec Ideal S50000x128 .f32) (a4 : IVec S2x800000 32) (a5 : IVec S50000 32)
    (a6 : FVec Ideal S128x128 .f32) (a7 : FVec Ideal S128 .f32) (a8 : FVec Ideal S128x128 .f32)
    (a9 : FVec Ideal S128 .f32) (a10 : FVec Ideal S128x128 .f32) (a11 : FVec Ideal S128 .f32)
    (a12 : FVec Ideal S128x128 .f32) (a13 : FVec Ideal S128 .f32) (a14 : FVec Ideal S256x128 .f32)
    (a15 : FVec Ideal S128 .f32) (a16 : FVec Ideal S128x1 .f32) (a17 : FVec Ideal S1 .f32)
    (h : fn (F := Ideal) a0 a1 a2 a3 a4 a5 a6 a7 a8 a9 a10 a11 a12 a13 a14 a15 a16 a17 = fun _ => 1#1) :
    (∀ i, IsReal (a0 i)) ∧ (∀ i, IsReal (a3 i)) ∧ (∀ i, IsReal (a6 i)) ∧ (∀ i, IsReal (a7 i)) ∧
    (∀ i, IsReal (a8 i)) ∧ (∀ i, IsReal (a9 i)) ∧ (∀ i, IsReal (a10 i)) ∧ (∀ i, IsReal (a11 i)) ∧
    (∀ i, IsReal (a12 i)) ∧ (∀ i, IsReal (a13 i)) ∧ (∀ i, IsReal (a14 i)) ∧ (∀ i, IsReal (a15 i)) ∧
    (∀ i, IsReal (a16 i)) ∧ (∀ i, IsReal (a17 i)) := by
  have h' := congrFun h ix0
  dsimp only [fn, fn_part1, fn_part2, fn_part3, fn_part4] at h'
  obtain ⟨h', h17⟩ := IntOp.andi_eq_one.1 h'
  obtain ⟨h', h16⟩ := IntOp.andi_eq_one.1 h'
  obtain ⟨h', h15⟩ := IntOp.andi_eq_one.1 h'
  obtain ⟨h', h14⟩ := IntOp.andi_eq_one.1 h'
  obtain ⟨h', h13⟩ := IntOp.andi_eq_one.1 h'
  obtain ⟨h', h12⟩ := IntOp.andi_eq_one.1 h'
  obtain ⟨h', h11⟩ := IntOp.andi_eq_one.1 h'
  obtain ⟨h', h10⟩ := IntOp.andi_eq_one.1 h'
  obtain ⟨h', h9⟩ := IntOp.andi_eq_one.1 h'
  obtain ⟨h', h8⟩ := IntOp.andi_eq_one.1 h'
  obtain ⟨h', h7⟩ := IntOp.andi_eq_one.1 h'
  obtain ⟨h', h6⟩ := IntOp.andi_eq_one.1 h'
  obtain ⟨h0, h3⟩ := IntOp.andi_eq_one.1 h'
  exact ⟨all_real a0 _ _ _ h0, all_real a3 _ _ _ h3, all_real a6 _ _ _ h6, all_real a7 _ _ _ h7,
    all_real a8 _ _ _ h8, all_real a9 _ _ _ h9, all_real a10 _ _ _ h10, all_real a11 _ _ _ h11,
    all_real a12 _ _ _ h12, all_real a13 _ _ _ h13, all_real a14 _ _ _ h14, all_real a15 _ _ _ h15,
    all_real a16 _ _ _ h16, all_real a17 _ _ _ h17⟩

end Cert.Alg

end
-- ==== Proof.Alg.OutJoin.lean ====
/- On real arguments the two programs compute one function: the layers, the mean pools and the heads joined. -/
import proofs.«403813_j11570641895563_3_alg».proof.Proof.Val.KStages
import proofs.«403813_j11570641895563_3_alg».proof.Proof.Ref.Stages
import proofs.«403813_j11570641895563_3_alg».proof.Proof.Alg.KBranch
import proofs.«403813_j11570641895563_3_alg».proof.Proof.Alg.RLayer
import proofs.«403813_j11570641895563_3_alg».proof.Proof.Alg.PoolJoin
import proofs.«403813_j11570641895563_3_alg».proof.Proof.Alg.HeadJoin
import proofs.«403813_j11570641895563_3_alg».proof.Proof.Alg.Fin

noncomputable section

namespace Cert.Alg

open Idealize.ShloMosaic Idealize.ShloMosaic.ValueIdx Idealize.SL.Sem
open Cert.KernelIdeal Cert.KernelIdeal.Gen
open Cert.ReferenceIdeal (RefRun.out RefRun.branch RefRun.idxCol RefRun.edgeDst RefRun.edgeSrc RefRun.meanPool RefRun.head)

theorem idxCol_dst_agree (ei : KVal.Arr S2x800000 .i32) :
    KVal.idxCol (KVal.edgeDst ei) = RefRun.idxCol (F := Ideal) (RefRun.edgeDst ei) := rfl

theorem idxCol_src_agree (ei : KVal.Arr S2x800000 .i32) :
    KVal.idxCol (KVal.edgeSrc ei) = RefRun.idxCol (F := Ideal) (RefRun.edgeSrc ei) := rfl

theorem branch_join (x : KVal.Arr S50000x128 .f32) (ei : KVal.Arr S2x800000 .i32) (W0 : KVal.Arr S128x128 .f32)
    (b0 : KVal.Arr S128 .f32) (W1 : KVal.Arr S128x128 .f32) (b1 : KVal.Arr S128 .f32)
    (hx : ∀ i, IsReal (x i)) (hW0 : ∀ i, IsReal (W0 i)) (hb0 : ∀ i, IsReal (b0 i)) (hW1 : ∀ i, IsReal (W1 i)) :
    KVal.branch x ei W0 b0 W1 b1 = RefRun.branch (F := Ideal) x ei W0 b0 W1 b1 := by
  have hk := kbranch_eq x ei W0 b0 W1 b1 hx hW0 hb0 hW1
  rw [idxCol_dst_agree ei, idxCol_src_agree ei] at hk
  exact hk.trans (rbranch_eq x ei W0 b0 W1 b1).symm

theorem out_join (a0 : KVal.Arr S50000x128 .f32) (a1 : KVal.Arr S2x800000 .i32) (a2 : KVal.Arr S50000 .i32)
    (a3 : KVal.Arr S50000x128 .f32) (a4 : KVal.Arr S2x800000 .i32) (a5 : KVal.Arr S50000 .i32)
    (a6 : KVal.Arr S128x128 .f32) (a7 : KVal.Arr S128 .f32) (a8 : KVal.Arr S128x128 .f32) (a9 : KVal.Arr S128 .f32)
    (a10 : KVal.Arr S128x128 .f32) (a11 : KVal.Arr S128 .f32) (a12 : KVal.Arr S128x128 .f32) (a13 : KVal.Arr S128 .f32)
    (a14 : KVal.Arr S256x128 .f32) (a15 : KVal.Arr S128 .f32) (a16 : KVal.Arr S128x1 .f32) (a17 : KVal.Arr S1 .f32)
    (h0 : ∀ i, IsReal (a0 i)) (h6 : ∀ i, IsReal (a6 i)) (h7 : ∀ i, IsReal (a7 i)) (h8 : ∀ i, IsReal (a8 i))
    (h3 : ∀ i, IsReal (a3 i)) (h10 : ∀ i, IsReal (a10 i)) (h11 : ∀ i, IsReal (a11 i)) (h12 : ∀ i, IsReal (a12 i)) :
    KVal.out a0 a1 a2 a3 a4 a5 a6 a7 a8 a9 a10 a11 a12 a13 a14 a15 a16 a17
      = RefRun.out (F := Ideal) a0 a1 a2 a3 a4 a5 a6 a7 a8 a9 a10 a11 a12 a13 a14 a15 a16 a17 := by
  unfold KVal.out RefRun.out
  rw [branch_join a0 a1 a6 a7 a8 a9 h0 h6 h7 h8, branch_join a3 a4 a10 a11 a12 a13 h3 h10 h11 h12,
    pool_join, pool_join]
  exact head_join _ _ a14 a15 a16 a17

theorem out_join_of_pre [Cert.Pre_finite_inputs.Facts]
    (a0 : KVal.Arr S50000x128 .f32) (a1 : KVal.Arr S2x800000 .i32) (a2 : KVal.Arr S50000 .i32)
    (a3 : KVal.Arr S50000x128 .f32) (a4 : KVal.Arr S2x800000 .i32) (a5 : KVal.Arr S50000 .i32)
    (a6 : KVal.Arr S128x128 .f32) (a7 : KVal.Arr S128 .f32) (a8 : KVal.Arr S128x128 .f32) (a9 : KVal.Arr S128 .f32)
    (a10 : KVal.Arr S128x128 .f32) (a11 : KVal.Arr S128 .f32) (a12 : KVal.Arr S128x128 .f32) (a13 : KVal.Arr S128 .f32)
    (a14 : KVal.Arr S256x128 .f32) (a15 : KVal.Arr S128 .f32) (a16 : KVal.Arr S128x1 .f32) (a17 : KVal.Arr S1 .f32)
    (hpre : Cert.Pre_finite_inputs.fn (F := Ideal) a0 a1 a2 a3 a4 a5 a6 a7 a8 a9 a10 a11 a12 a13 a14 a15 a16 a17 = fun _ => 1#1) :
    KVal.out a0 a1 a2 a3 a4 a5 a6 a7 a8 a9 a10 a11 a12 a13 a14 a15 a16 a17
      = RefRun.out (F := Ideal) a0 a1 a2 a3 a4 a5 a6 a7 a8 a9 a10 a11 a12 a13 a14 a15 a16 a17 := by
  obtain ⟨h0, h3, h6, h7, h8, _, h10, h11, h12, _⟩ :=
    finite_of_pre a0 a1 a2 a3 a4 a5 a6 a7 a8 a9 a10 a11 a12 a13 a14 a15 a16 a17 hpre
  exact out_join a0 a1 a2 a3 a4 a5 a6 a7 a8 a9 a10 a11 a12 a13 a14 a15 a16 a17 h0 h6 h7 h8 h3 h10 h11 h12

end Cert.Alg

end
-- ==== Proof.lean ====
/- The kernel program carries rows pre-scaled by d = deg^(-1/2); it agrees with the reference because d n · d n = 1 / deg n and,
   every float input being finite, all quantities are reals, where multiplication distributes over the neighbour sum. -/
import proofs.«403813_j11570641895563_3_alg».proof.Defs
import proofs.«403813_j11570641895563_3_alg».proof.Proof.Gen.Kernel
import proofs.«403813_j11570641895563_3_alg».proof.Proof.Gen.KernelIdeal
import proofs.«403813_j11570641895563_3_alg».proof.Proof.Gen.ReferenceIdeal
import proofs.«403813_j11570641895563_3_alg».proof.Proof.Gen.Pre_finite_inputs
import proofs.«403813_j11570641895563_3_alg».proof.Proof.K.Run
import proofs.«403813_j11570641895563_3_alg».proof.Proof.KI.Run
import proofs.«403813_j11570641895563_3_alg».proof.Proof.Val.Result
import proofs.«403813_j11570641895563_3_alg».proof.Proof.Ref.Run
import proofs.«403813_j11570641895563_3_alg».proof.Proof.Alg.OutJoin

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame_all (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame_all (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.B26 (F := Ideal) m c Cert.KernelIdeal.main_v119,
    Cert.KernelIdeal.Gen.value_all (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  show _ = Cert.KernelIdeal.Gen.B26 (F := Ideal) m c Cert.KernelIdeal.main_v119
  rw [Cert.KernelIdeal.KVal.result_eq m c]
  exact (Cert.Alg.out_join_of_pre _ _ _ _ _ _ _ _ _ _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
